-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x4096 : Shape := ⟨2, ![1024, 4096]⟩
abbrev S4096x512 : Shape := ⟨2, ![4096, 512]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S1024x4096 .f32) (main_arg1 : FVec F S4096x512 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Pre_finite_inputs_ReferenceIdeal.lean ====
abbrev S4096x4096 : Shape := ⟨2, ![4096, 4096]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x4096 .f32) (main_arg1 : FVec F S4096x2048 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S1024x4096 : Shape := ⟨2, ![1024, 4096]⟩
abbrev S4096x512 : Shape := ⟨2, ![4096, 512]⟩
abbrev S2x4096x512 : Shape := ⟨3, ![2, 4096, 512]⟩
abbrev S256x4096 : Shape := ⟨2, ![256, 4096]⟩
abbrev S2x4096x256 : Shape := ⟨3, ![2, 4096, 256]⟩
abbrev S3x1024x512 : Shape := ⟨3, ![3, 1024, 512]⟩
abbrev S9 : Shape := ⟨1, ![9]⟩
abbrev S3 : Shape := ⟨1, ![3]⟩
abbrev S_ : Shape := ⟨0, ![]⟩
abbrev S1 : Shape := ⟨1, ![1]⟩
abbrev S1x4096x256 : Shape := ⟨3, ![1, 4096, 256]⟩
abbrev S4096x256 : Shape := ⟨2, ![4096, 256]⟩
abbrev S512x4096 : Shape := ⟨2, ![512, 4096]⟩
abbrev S512x512 : Shape := ⟨2, ![512, 512]⟩
abbrev S512x256 : Shape := ⟨2, ![512, 256]⟩
abbrev S1x512x256 : Shape := ⟨3, ![1, 512, 256]⟩
abbrev S1x1024x512 : Shape := ⟨3, ![1, 1024, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S1024x4096, .f32⟩
  | .hbm, ⟨1, _⟩ => ⟨S4096x512, .f32⟩
  | .hbm, ⟨2, _⟩ => ⟨S4096x512, .f32⟩
  | .hbm, ⟨3, _⟩ => ⟨S2x4096x512, .bf16⟩
  | .local _ .vmem, ⟨0, _⟩ => ⟨S4096x512, .f32⟩
  | .local _ .vmem, ⟨1, _⟩ => ⟨S4096x512, .f32⟩
  | .local _ .vmem, ⟨2, _⟩ => ⟨S4096x512, .bf16⟩
  | .local _ .vmem, ⟨3, _⟩ => ⟨S1024x4096, .bf16⟩
  | .local _ .vmem, ⟨4, _⟩ => ⟨S256x4096, .f32⟩
  | .local _ .vmem, ⟨5, _⟩ => ⟨S4096x512, .bf16⟩
  | .local _ .vmem, ⟨6, _⟩ => ⟨S2x4096x256, .bf16⟩
  | .local _ .vmem, ⟨7, _⟩ => ⟨S3x1024x512, .bf16⟩
  | .local _ .vmem, ⟨8, _⟩ => ⟨S3x1024x512, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23 : BitVec 32 := 1#32
  let v43 : BitVec 32 := Scalar.muli v13 c1_i32_23
  let v44 : BitVec 32 := Scalar.addi c0_i32_24 v43
  v44.toNat
def k0_dev2 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26 : BitVec 32 := 1#32
  let v45 : BitVec 32 := Scalar.muli v24 c1_i32_26
  let v46 : BitVec 32 := Scalar.addi c0_i32_27 v45
  v46.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_29 : BitVec 32 := 1#32
  let v47 : BitVec 32 := Scalar.muli v35 c1_i32_29
  let v48 : BitVec 32 := Scalar.addi c0_i32_30 v47
  v48.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_34 : BitVec 32 := 1#32
  let v49 : BitVec 32 := Scalar.muli v24 c1_i32_34
  let v50 : BitVec 32 := Scalar.addi c0_i32_35 v49
  v50.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_43 : BitVec 32 := 1#32
  let v58 : BitVec 32 := Scalar.muli v13 c1_i32_43
  let v59 : BitVec 32 := Scalar.addi c0_i32_44 v58
  v59.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_52 : BitVec 32 := 1#32
  let v67 : BitVec 32 := Scalar.muli v24 c1_i32_52
  let v68 : BitVec 32 := Scalar.addi c0_i32_53 v67
  v68.toNat
def k0_dev7 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_60 : BitVec 32 := 1#32
  let v76 : BitVec 32 := Scalar.muli v13 c1_i32_60
  let v77 : BitVec 32 := Scalar.addi c0_i32_61 v76
  v77.toNat
def k0_off1 (d0 : Dev nD) (c0_i32_109 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v145 : BitVec 32 := Scalar.muli v2 c1024_i32
  let v146 : BitVec 32 := Scalar.addi v145 c0_i32_109
  let v147 : Index := Scalar.indexCast v146
  let c0_110 : Index := 0#32
  ![v147.toNat, 0]
def k0_dev8 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_135 : BitVec 32 := 1#32
  let v176 : BitVec 32 := Scalar.muli v24 c1_i32_135
  let v177 : BitVec 32 := Scalar.addi c0_i32_136 v176
  v177.toNat
def k0_dev9 (d0 : Dev nD) : Nat :=
  let c0_i32_251 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_250 : BitVec 32 := 1#32
  let v316 : BitVec 32 := Scalar.muli v13 c1_i32_250
  let v317 : BitVec 32 := Scalar.addi c0_i32_251 v316
  v317.toNat
def k0_dev10 (d0 : Dev nD) : Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_296 : BitVec 32 := 1#32
  let v377 : BitVec 32 := Scalar.muli v13 c1_i32_296
  let v378 : BitVec 32 := Scalar.addi c0_i32_297 v377
  v378.toNat
def k0_dev11 (d0 : Dev nD) : Nat :=
  let c0_i32_336 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_335 : BitVec 32 := 1#32
  let v433 : BitVec 32 := Scalar.muli v24 c1_i32_335
  let v434 : BitVec 32 := Scalar.addi c0_i32_336 v433
  v434.toNat
def k0_dev12 (d0 : Dev nD) : Nat :=
  let c0_i32_406 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_405 : BitVec 32 := 1#32
  let v535 : BitVec 32 := Scalar.muli v35 c1_i32_405
  let v536 : BitVec 32 := Scalar.addi c0_i32_406 v535
  v536.toNat
def k0_off2 (d0 : Dev nD) (c1_i32_6 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_424 : BitVec 32 := 1024#32
  let v556 : BitVec 32 := Scalar.muli v24 c1024_i32_424
  let v557 : Index := Scalar.indexCast v556
  let c0_425 : Index := 0#32
  ![v557.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_439 : BitVec 32 := 1024#32
  let v570 : BitVec 32 := Scalar.muli v13 c1024_i32_439
  let v571 : Index := Scalar.indexCast v570
  let c0_440 : Index := 0#32
  ![v571.toNat, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  bitsLt_bf16_f32 : FTy.bits .bf16 < FTy.bits .f32
  packedbf16_S4096x512_S4096x512_0_0 : (Rect.unit (s := S4096x512) ![0, 0] S4096x512.size inb_S4096x512_S4096x512_0_0).PackedRows (EltTy.packing .bf16)
  hamt_1 : (1#32 : BitVec 32).msb = false
  hamt_3 : (3#32 : BitVec 32).msb = false
  inb_S9_S1_0 : ∀ a, (![0] : Fin 1 → Nat) a + S1.size a ≤ S9.size a
  squeezes_S1_S_ : S1.Squeezes S_
  inb_S2x4096x512_S1x4096x256_0_0_0 : ∀ a, (![0, 0, 0] : Fin 3 → Nat) a + S1x4096x256.size a ≤ S2x4096x512.size a
  squeezes_S1x4096x256_S4096x256 : S1x4096x256.Squeezes S4096x256
  inb_S4096x512_S4096x256_0_0 : ∀ a, (![0, 0] : Fin 2 → Nat) a + S4096x256.size a ≤ S4096x512.size a
  wordsbf16_S4096x512_S4096x256_0_0 : (Rect.unit (s := S4096x512) ![0, 0] S4096x256.size inb_S4096x512_S4096x256_0_0).WholeWords (EltTy.packing .bf16)
  wordsbf16_S2x4096x512_S1x4096x256_0_0_0 : (Rect.unit (s := S2x4096x512) ![0, 0, 0] S1x4096x256.size inb_S2x4096x512_S1x4096x256_0_0_0).WholeWords (EltTy.packing .bf16)
  inb_S9_S1_2 : ∀ a, (![2] : Fin 1 → Nat) a + S1.size a ≤ S9.size a
  inb_S2x4096x512_S1x4096x256_1_0_0 : ∀ a, (![1, 0, 0] : Fin 3 → Nat) a + S1x4096x256.size a ≤ S2x4096x512.size a
  wordsbf16_S2x4096x512_S1x4096x256_1_0_0 : (Rect.unit (s := S2x4096x512) ![1, 0, 0] S1x4096x256.size inb_S2x4096x512_S1x4096x256_1_0_0).WholeWords (EltTy.packing .bf16)
  inb_S9_S1_1 : ∀ a, (![1] : Fin 1 → Nat) a + S1.size a ≤ S9.size a
  inb_S2x4096x512_S1x4096x256_0_0_256 : ∀ a, (![0, 0, 256] : Fin 3 → Nat) a + S1x4096x256.size a ≤ S2x4096x512.size a
  inb_S4096x512_S4096x256_0_256 : ∀ a, (![0, 256] : Fin 2 → Nat) a + S4096x256.size a ≤ S4096x512.size a
  wordsbf16_S4096x512_S4096x256_0_256 : (Rect.unit (s := S4096x512) ![0, 256] S4096x256.size inb_S4096x512_S4096x256_0_256).WholeWords (EltTy.packing .bf16)
  wordsbf16_S2x4096x512_S1x4096x256_0_0_256 : (Rect.unit (s := S2x4096x512) ![0, 0, 256] S1x4096x256.size inb_S2x4096x512_S1x4096x256_0_0_256).WholeWords (EltTy.packing .bf16)
  inb_S9_S1_3 : ∀ a, (![3] : Fin 1 → Nat) a + S1.size a ≤ S9.size a
  inb_S2x4096x512_S1x4096x256_1_0_256 : ∀ a, (![1, 0, 256] : Fin 3 → Nat) a + S1x4096x256.size a ≤ S2x4096x512.size a
  wordsbf16_S2x4096x512_S1x4096x256_1_0_256 : (Rect.unit (s := S2x4096x512) ![1, 0, 256] S1x4096x256.size inb_S2x4096x512_S1x4096x256_1_0_256).WholeWords (EltTy.packing .bf16)
  inb_S3_S1_2 : ∀ a, (![2] : Fin 1 → Nat) a + S1.size a ≤ S3.size a
  inb_S1024x4096_S256x4096_0_0 : ∀ a, (![0, 0] : Fin 2 → Nat) a + S256x4096.size a ≤ S1024x4096.size a
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  packedbf16_S1024x4096_S256x4096_0_0 : (Rect.unit (s := S1024x4096) ![0, 0] S256x4096.size inb_S1024x4096_S256x4096_0_0).PackedRows (EltTy.packing .bf16)
  inb_S1024x4096_S256x4096_256_0 : ∀ a, (![256, 0] : Fin 2 → Nat) a + S256x4096.size a ≤ S1024x4096.size a
  packedbf16_S1024x4096_S256x4096_256_0 : (Rect.unit (s := S1024x4096) ![256, 0] S256x4096.size inb_S1024x4096_S256x4096_256_0).PackedRows (EltTy.packing .bf16)
  inb_S1024x4096_S256x4096_512_0 : ∀ a, (![512, 0] : Fin 2 → Nat) a + S256x4096.size a ≤ S1024x4096.size a
  packedbf16_S1024x4096_S256x4096_512_0 : (Rect.unit (s := S1024x4096) ![512, 0] S256x4096.size inb_S1024x4096_S256x4096_512_0).PackedRows (EltTy.packing .bf16)
  inb_S1024x4096_S256x4096_768_0 : ∀ a, (![768, 0] : Fin 2 → Nat) a + S256x4096.size a ≤ S1024x4096.size a
  packedbf16_S1024x4096_S256x4096_768_0 : (Rect.unit (s := S1024x4096) ![768, 0] S256x4096.size inb_S1024x4096_S256x4096_768_0).PackedRows (EltTy.packing .bf16)
  inb_S1024x4096_S512x4096_0_0 : ∀ a, (![0, 0] : Fin 2 → Nat) a + S512x4096.size a ≤ S1024x4096.size a
  h_S512x4096 : 0 < S512x4096.numel
  h_S512x512 : 0 < S512x512.numel
  inb_S1024x4096_S512x4096_512_0 : ∀ a, (![512, 0] : Fin 2 → Nat) a + S512x4096.size a ≤ S1024x4096.size a
  inb_S9_S1_4 : ∀ a, (![4] : Fin 1 → Nat) a + S1.size a ≤ S9.size a
  inb_S3_S1_0 : ∀ a, (![0] : Fin 1 → Nat) a + S1.size a ≤ S3.size a
  inb_S2x4096x256_S1x4096x256_0_0_0 : ∀ a, (![0, 0, 0] : Fin 3 → Nat) a + S1x4096x256.size a ≤ S2x4096x256.size a
  wordsbf16_S2x4096x256_S1x4096x256_0_0_0 : (Rect.unit (s := S2x4096x256) ![0, 0, 0] S1x4096x256.size inb_S2x4096x256_S1x4096x256_0_0_0).WholeWords (EltTy.packing .bf16)
  inb_S3_S1_1 : ∀ a, (![1] : Fin 1 → Nat) a + S1.size a ≤ S3.size a
  inb_S2x4096x256_S1x4096x256_1_0_0 : ∀ a, (![1, 0, 0] : Fin 3 → Nat) a + S1x4096x256.size a ≤ S2x4096x256.size a
  wordsbf16_S2x4096x256_S1x4096x256_1_0_0 : (Rect.unit (s := S2x4096x256) ![1, 0, 0] S1x4096x256.size inb_S2x4096x256_S1x4096x256_1_0_0).WholeWords (EltTy.packing .bf16)
  h_S1x4096x256 : 0 < S1x4096x256.numel
  shapeCasts_S1x4096x256_S4096x256 : S1x4096x256.ShapeCasts S4096x256
  inb_S3x1024x512_S1x512x256_0_0_0 : ∀ a, (![0, 0, 0] : Fin 3 → Nat) a + S1x512x256.size a ≤ S3x1024x512.size a
  h_S1x512x256 : 0 < S1x512x256.numel
  shapeCasts_S1x512x256_S512x256 : S1x512x256.ShapeCasts S512x256
  shapeCasts_S512x256_S1x512x256 : S512x256.ShapeCasts S1x512x256
  packedbf16_S3x1024x512_S1x512x256_0_0_0 : (Rect.unit (s := S3x1024x512) ![0, 0, 0] S1x512x256.size inb_S3x1024x512_S1x512x256_0_0_0).PackedRows (EltTy.packing .bf16)
  inb_S3x1024x512_S1x512x256_0_512_0 : ∀ a, (![0, 512, 0] : Fin 3 → Nat) a + S1x512x256.size a ≤ S3x1024x512.size a
  packedbf16_S3x1024x512_S1x512x256_0_512_0 : (Rect.unit (s := S3x1024x512) ![0, 512, 0] S1x512x256.size inb_S3x1024x512_S1x512x256_0_512_0).PackedRows (EltTy.packing .bf16)
  inb_S3x1024x512_S1x512x256_1_0_0 : ∀ a, (![1, 0, 0] : Fin 3 → Nat) a + S1x512x256.size a ≤ S3x1024x512.size a
  packedbf16_S3x1024x512_S1x512x256_1_0_0 : (Rect.unit (s := S3x1024x512) ![1, 0, 0] S1x512x256.size inb_S3x1024x512_S1x512x256_1_0_0).PackedRows (EltTy.packing .bf16)
  inb_S3x1024x512_S1x512x256_1_512_0 : ∀ a, (![1, 512, 0] : Fin 3 → Nat) a + S1x512x256.size a ≤ S3x1024x512.size a
  packedbf16_S3x1024x512_S1x512x256_1_512_0 : (Rect.unit (s := S3x1024x512) ![1, 512, 0] S1x512x256.size inb_S3x1024x512_S1x512x256_1_512_0).PackedRows (EltTy.packing .bf16)
  inb_S9_S1_5 : ∀ a, (![5] : Fin 1 → Nat) a + S1.size a ≤ S9.size a
  inb_S3x1024x512_S1x512x256_0_0_256 : ∀ a, (![0, 0, 256] : Fin 3 → Nat) a + S1x512x256.size a ≤ S3x1024x512.size a
  packedbf16_S3x1024x512_S1x512x256_0_0_256 : (Rect.unit (s := S3x1024x512) ![0, 0, 256] S1x512x256.size inb_S3x1024x512_S1x512x256_0_0_256).PackedRows (EltTy.packing .bf16)
  inb_S3x1024x512_S1x512x256_0_512_256 : ∀ a, (![0, 512, 256] : Fin 3 → Nat) a + S1x512x256.size a ≤ S3x1024x512.size a
  packedbf16_S3x1024x512_S1x512x256_0_512_256 : (Rect.unit (s := S3x1024x512) ![0, 512, 256] S1x512x256.size inb_S3x1024x512_S1x512x256_0_512_256).PackedRows (EltTy.packing .bf16)
  inb_S9_S1_6 : ∀ a, (![6] : Fin 1 → Nat) a + S1.size a ≤ S9.size a
  inb_S3x1024x512_S1x1024x512_0_0_0 : ∀ a, (![0, 0, 0] : Fin 3 → Nat) a + S1x1024x512.size a ≤ S3x1024x512.size a
  squeezes_S1x1024x512_S1024x512 : S1x1024x512.Squeezes S1024x512
  wordsbf16_S3x1024x512_S1x1024x512_0_0_0 : (Rect.unit (s := S3x1024x512) ![0, 0, 0] S1x1024x512.size inb_S3x1024x512_S1x1024x512_0_0_0).WholeWords (EltTy.packing .bf16)
  inb_S3x1024x512_S1x512x256_1_0_256 : ∀ a, (![1, 0, 256] : Fin 3 → Nat) a + S1x512x256.size a ≤ S3x1024x512.size a
  packedbf16_S3x1024x512_S1x512x256_1_0_256 : (Rect.unit (s := S3x1024x512) ![1, 0, 256] S1x512x256.size inb_S3x1024x512_S1x512x256_1_0_256).PackedRows (EltTy.packing .bf16)
  inb_S3x1024x512_S1x512x256_1_512_256 : ∀ a, (![1, 512, 256] : Fin 3 → Nat) a + S1x512x256.size a ≤ S3x1024x512.size a
  packedbf16_S3x1024x512_S1x512x256_1_512_256 : (Rect.unit (s := S3x1024x512) ![1, 512, 256] S1x512x256.size inb_S3x1024x512_S1x512x256_1_512_256).PackedRows (EltTy.packing .bf16)
  inb_S9_S1_7 : ∀ a, (![7] : Fin 1 → Nat) a + S1.size a ≤ S9.size a
  inb_S3x1024x512_S1x1024x512_1_0_0 : ∀ a, (![1, 0, 0] : Fin 3 → Nat) a + S1x1024x512.size a ≤ S3x1024x512.size a
  wordsbf16_S3x1024x512_S1x1024x512_1_0_0 : (Rect.unit (s := S3x1024x512) ![1, 0, 0] S1x1024x512.size inb_S3x1024x512_S1x1024x512_1_0_0).WholeWords (EltTy.packing .bf16)
  h_S4096x256 : 0 < S4096x256.numel
  inb_S3x1024x512_S1x512x256_2_0_0 : ∀ a, (![2, 0, 0] : Fin 3 → Nat) a + S1x512x256.size a ≤ S3x1024x512.size a
  packedbf16_S3x1024x512_S1x512x256_2_0_0 : (Rect.unit (s := S3x1024x512) ![2, 0, 0] S1x512x256.size inb_S3x1024x512_S1x512x256_2_0_0).PackedRows (EltTy.packing .bf16)
  inb_S3x1024x512_S1x512x256_2_512_0 : ∀ a, (![2, 512, 0] : Fin 3 → Nat) a + S1x512x256.size a ≤ S3x1024x512.size a
  packedbf16_S3x1024x512_S1x512x256_2_512_0 : (Rect.unit (s := S3x1024x512) ![2, 512, 0] S1x512x256.size inb_S3x1024x512_S1x512x256_2_512_0).PackedRows (EltTy.packing .bf16)
  inb_S3x1024x512_S1x512x256_2_0_256 : ∀ a, (![2, 0, 256] : Fin 3 → Nat) a + S1x512x256.size a ≤ S3x1024x512.size a
  packedbf16_S3x1024x512_S1x512x256_2_0_256 : (Rect.unit (s := S3x1024x512) ![2, 0, 256] S1x512x256.size inb_S3x1024x512_S1x512x256_2_0_256).PackedRows (EltTy.packing .bf16)
  inb_S3x1024x512_S1x512x256_2_512_256 : ∀ a, (![2, 512, 256] : Fin 3 → Nat) a + S1x512x256.size a ≤ S3x1024x512.size a
  packedbf16_S3x1024x512_S1x512x256_2_512_256 : (Rect.unit (s := S3x1024x512) ![2, 512, 256] S1x512x256.size inb_S3x1024x512_S1x512x256_2_512_256).PackedRows (EltTy.packing .bf16)
  inb_S9_S1_8 : ∀ a, (![8] : Fin 1 → Nat) a + S1.size a ≤ S9.size a
  inb_S3x1024x512_S1x1024x512_2_0_0 : ∀ a, (![2, 0, 0] : Fin 3 → Nat) a + S1x1024x512.size a ≤ S3x1024x512.size a
  wordsbf16_S3x1024x512_S1x1024x512_2_0_0 : (Rect.unit (s := S3x1024x512) ![2, 0, 0] S1x1024x512.size inb_S3x1024x512_S1x1024x512_2_0_0).WholeWords (EltTy.packing .bf16)
  h_S1x1024x512 : 0 < S1x1024x512.numel
  shapeCasts_S1x1024x512_S1024x512 : S1x1024x512.ShapeCasts S1024x512
  h_S1024x512 : 0 < S1024x512.numel
  dot_S512x4096_S4096x512_S512x512_1_0_0_1_n_n_wf : DotDims.WF S512x4096 S4096x512 S512x512 [1] [0] [0] [1] [] []
  dot_S512x4096_S4096x256_S512x256_1_0_0_1_n_n_wf : DotDims.WF S512x4096 S4096x256 S512x256 [1] [0] [0] [1] [] []
  hcc0_scratch7 : 2 + S9.numel ≤ 23
  hcc0_scratch8 : 11 + S9.numel ≤ 23
  hcc0_scratch9 : 20 + S3.numel ≤ 23
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ (r : Fin 2), ∀ a, (k0_off1 d0 (BitVec.ofNat 32 (512 * r.val))) a + S512x512.size a ≤ S4096x512.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_off2_inb : ∀ d0 : Dev nD, ∀ (r : Fin 2), ∀ a, (k0_off2 d0 (BitVec.ofNat 32 (1 + r.val))) a + S1024x512.size a ≤ S4096x512.size a
  k0_off3_inb : ∀ d0 : Dev nD, ∀ a, (k0_off3 d0) a + S1024x512.size a ≤ S4096x512.size a
  hstage0_0 : ∀ j, (stage0_0 j).IsWhole
  hstage0_1 : ∀ j, (stage0_1 j).IsWhole

variable [Facts₀]

abbrev cc0_scratch7 : DmaSems sig S9 := SemArray.consecutive 2 S9 hcc0_scratch7
abbrev cc0_scratch8 : DmaSems sig S9 := SemArray.consecutive 11 S9 hcc0_scratch8
abbrev cc0_scratch9 : DmaSems sig S3 := SemArray.consecutive 20 S3 hcc0_scratch9
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_v1_0) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts₀]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.Spec.lean ====
/- The specification: the result is gelu, in its tanh form, of the matrix product, entry by entry. -/
import Idealize.ShloMosaic.PureOps.Ideal
import Idealize.ShloMosaic.Lib.ValueIdx

noncomputable section

open scoped BigOperators

namespace Cert.Spec

open Idealize.ShloMosaic Idealize.ShloMosaic.ValueIdx

abbrev cHalf : EReal := Ideal.ofBits .f32 0x3F000000#32
abbrev cCube : EReal := Ideal.ofBits .f32 0x3D372713#32
abbrev cScale : EReal := Ideal.ofBits .f32 0x3F4C422A#32
abbrev cOne : EReal := Ideal.ofBits .f32 0x3F800000#32

def gelu (y : EReal) : EReal :=
  (cHalf * y) * (cOne + Ideal.tanh (cScale * (y + cCube * ((y * y) * y))))

def dot (X : (⟨2, ![4096, 4096]⟩ : Shape).Idx → EReal) (W : (⟨2, ![4096, 2048]⟩ : Shape).Idx → EReal)
    (i : Fin 4096) (j : Fin 2048) : EReal :=
  ∑ k : Fin 4096, X (ix2 i k) * W (ix2 k j)

def G (X : (⟨2, ![4096, 4096]⟩ : Shape).Idx → EReal) (W : (⟨2, ![4096, 2048]⟩ : Shape).Idx → EReal) :
    (⟨2, ![4096, 2048]⟩ : Shape).Idx → EReal :=
  fun i => gelu (dot X W (i 0) (i 1))

theorem cube_assoc (k y : EReal) : ((k * y) * y) * y = k * ((y * y) * y) := by
  rw [mul_assoc, mul_assoc, mul_assoc]

theorem gelu_left (y : EReal) :
    (cHalf * y) * (cOne + Ideal.tanh (cScale * (y + ((cCube * y) * y) * y))) = gelu y := by
  unfold gelu; rw [cube_assoc]

end Cert.Spec

end
-- ==== Proof.RefValue.lean ====
/- The reference's run read back: its result is the specification of its two whole arrays; its frame is that run with the value dropped. -/
import proofs.«900495_g7700000000000496_dist_ag_gemm_m4096_k4096_n2048_f32_gelu_v7x_i4_1_alg».proof.Defs
import proofs.«900495_g7700000000000496_dist_ag_gemm_m4096_k4096_n2048_f32_gelu_v7x_i4_1_alg».proof.Proof.Gen.ReferenceIdeal
import proofs.«900495_g7700000000000496_dist_ag_gemm_m4096_k4096_n2048_f32_gelu_v7x_i4_1_alg».proof.Proof.Gen.ReferenceIdeal.Run
import proofs.«900495_g7700000000000496_dist_ag_gemm_m4096_k4096_n2048_f32_gelu_v7x_i4_1_alg».proof.Proof.Gen.ReferenceIdeal.Read
import proofs.«900495_g7700000000000496_dist_ag_gemm_m4096_k4096_n2048_f32_gelu_v7x_i4_1_alg».proof.Proof.Gen.Pre_finite_inputs_ReferenceIdeal
import proofs.«900495_g7700000000000496_dist_ag_gemm_m4096_k4096_n2048_f32_gelu_v7x_i4_1_alg».proof.Proof.Spec

noncomputable section

open scoped BigOperators

open Idealize.ShloMosaic Idealize.ShloMosaic.TcCoe Idealize.SL.Sem

namespace Cert.ReferenceIdeal.RefValue

open Cert.ReferenceIdeal Cert.ReferenceIdeal.Gen Cert.ReferenceIdeal.Read
open Idealize.ShloMosaic.ValueIdx

theorem lidx_eq (i : S4096x2048.Idx) (k : Fin 4096) :
    lidx_main_v0 i k = ix2 (n0 := 4096) (n1 := 4096) (i 0) k :=
  funext fun a => Fin.ext (by match a with | ⟨0, _⟩ => rfl | ⟨1, _⟩ => rfl)

theorem ridx_eq (i : S4096x2048.Idx) (k : Fin 4096) :
    ridx_main_v0 i k = ix2 (n0 := 4096) (n1 := 2048) k (i 1) :=
  funext fun a => Fin.ext (by match a with | ⟨0, _⟩ => rfl | ⟨1, _⟩ => rfl)

theorem dot_entry (x0 : (⟨S4096x4096, .f32⟩ : BufTy).Contents (Elt Ideal))
    (x1 : (⟨S4096x2048, .f32⟩ : BufTy).Contents (Elt Ideal)) (i : S4096x2048.Idx) :
    val_main_v0 (F := Ideal) x0 x1 i = Cert.Spec.dot x0 x1 (i 0) (i 1) := by
  rw [val_main_v0_apply]
  unfold Cert.Spec.dot
  refine Finset.sum_congr rfl fun k _ => ?_
  rw [lidx_eq, ridx_eq]

theorem result_eq (x0 : (⟨S4096x4096, .f32⟩ : BufTy).Contents (Elt Ideal))
    (x1 : (⟨S4096x2048, .f32⟩ : BufTy).Contents (Elt Ideal)) :
    val_main_v13 (F := Ideal) x0 x1 = Cert.Spec.G x0 x1 := by
  funext i
  rw [val_main_v13_apply, val_main_v2_apply, val_main_v12_apply, val_main_v1_apply, val_main_cst_apply,
    val_main_v11_apply, val_main_cst_2_apply, val_main_v10_apply, val_main_v9_apply, val_main_v8_apply,
    val_main_cst_1_apply, val_main_v7_apply, val_main_v6_apply, val_main_v5_apply, val_main_cst_0_apply,
    val_main_v4_apply, val_main_v3_apply]
  simp only [dot_entry]
  simp only [Ideal.mulf_def, Ideal.addf_def, Ideal.hostUnary_tanh_def, Ideal.ofBits_def]
  rfl

abbrev loc0 (b : Ref Cert.ReferenceIdeal.sig .tc) : Loc Cert.ReferenceIdeal.nD Cert.ReferenceIdeal.τ Cert.ReferenceIdeal.sig :=
  (((0 : Dev Cert.ReferenceIdeal.nD).tc : Thread Cert.ReferenceIdeal.nD Cert.ReferenceIdeal.τ).loc b)

theorem run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r =>
        r.2.mem (loc0 Cert.ReferenceIdeal.main_v13)
            = Cert.Spec.G (m' (loc0 Cert.ReferenceIdeal.main_arg0)) (m' (loc0 Cert.ReferenceIdeal.main_arg1))
        ∧ r.2.mem (loc0 Cert.ReferenceIdeal.main_arg0) = m' (loc0 Cert.ReferenceIdeal.main_arg0)
        ∧ r.2.mem (loc0 Cert.ReferenceIdeal.main_arg1) = m' (loc0 Cert.ReferenceIdeal.main_arg1)) :=
  (θ_run Cert.ReferenceIdeal.defs _ _).mono
    (fun _ h => ⟨(h 0).1.trans ((val_main_v13_eq _ _).trans (result_eq _ _)), (h 0).2.1, (h 0).2.2⟩)
    (Cert.ReferenceIdeal.Value.run (F := Ideal) m' g')

theorem frame_ri :
    @Cert.frame_ReferenceIdeal Cert.ReferenceIdeal.Gen.facts Cert.Pre_finite_inputs_ReferenceIdeal.Gen.facts :=
  fun m g _ => (θ_run Cert.ReferenceIdeal.defs _ _).mono (fun _ h c => (h c).2)
    (Cert.ReferenceIdeal.Value.run (F := Ideal) m g)

end Cert.ReferenceIdeal.RefValue

end
-- ==== Proof.KI.Mesh.lean ====
/- The four devices as a ring: one step on, one step back, two steps on; which device each addressed operation names, and the row offset of each store of a received piece, in closed form. -/
import proofs.«900495_g7700000000000496_dist_ag_gemm_m4096_k4096_n2048_f32_gelu_v7x_i4_1_alg».proof.Proof.Gen.KernelIdeal

noncomputable section

namespace Cert.KernelIdeal.Mesh

open Idealize.ShloMosaic Cert.KernelIdeal Cert.KernelIdeal.Gen

def rgt (c : Dev nD) : Dev nD := ⟨(c.val + 1) % 4, Nat.mod_lt _ (by decide)⟩
def lft (c : Dev nD) : Dev nD := ⟨(c.val + 3) % 4, Nat.mod_lt _ (by decide)⟩
def opp (c : Dev nD) : Dev nD := ⟨(c.val + 2) % 4, Nat.mod_lt _ (by decide)⟩

theorem lft_rgt (c : Dev nD) : lft (rgt c) = c := by revert c; decide
theorem rgt_lft (c : Dev nD) : rgt (lft c) = c := by revert c; decide
theorem opp_opp (c : Dev nD) : opp (opp c) = c := by revert c; decide
theorem rgt_ne (c : Dev nD) : rgt c ≠ c := by revert c; decide
theorem lft_ne (c : Dev nD) : lft c ≠ c := by revert c; decide
theorem opp_ne (c : Dev nD) : opp c ≠ c := by revert c; decide
def ringR : Dev nD ≃ Dev nD := ⟨rgt, lft, lft_rgt, rgt_lft⟩
def ringO : Dev nD ≃ Dev nD := ⟨opp, opp, opp_opp, opp_opp⟩

theorem dev1_eq (c : Dev nD) : (⟨k0_dev1 c, k0_dev1_lt c⟩ : Dev nD) = lft c := by revert c; decide +kernel
theorem dev2_eq (c : Dev nD) : (⟨k0_dev2 c, k0_dev2_lt c⟩ : Dev nD) = rgt c := by revert c; decide +kernel
theorem dev3_eq (c : Dev nD) : (⟨k0_dev3 c, k0_dev3_lt c⟩ : Dev nD) = opp c := by revert c; decide +kernel
theorem dev4_eq (c : Dev nD) : (⟨k0_dev4 c, k0_dev4_lt c⟩ : Dev nD) = rgt c := by revert c; decide +kernel
theorem dev5_eq (c : Dev nD) : (⟨k0_dev5 c, k0_dev5_lt c⟩ : Dev nD) = lft c := by revert c; decide +kernel
theorem dev6_eq (c : Dev nD) : (⟨k0_dev6 c, k0_dev6_lt c⟩ : Dev nD) = rgt c := by revert c; decide +kernel
theorem dev7_eq (c : Dev nD) : (⟨k0_dev7 c, k0_dev7_lt c⟩ : Dev nD) = lft c := by revert c; decide +kernel
theorem dev8_eq (c : Dev nD) : (⟨k0_dev8 c, k0_dev8_lt c⟩ : Dev nD) = rgt c := by revert c; decide +kernel
theorem dev9_eq (c : Dev nD) : (⟨k0_dev9 c, k0_dev9_lt c⟩ : Dev nD) = lft c := by revert c; decide +kernel
theorem dev10_eq (c : Dev nD) : (⟨k0_dev10 c, k0_dev10_lt c⟩ : Dev nD) = lft c := by revert c; decide +kernel
theorem dev11_eq (c : Dev nD) : (⟨k0_dev11 c, k0_dev11_lt c⟩ : Dev nD) = rgt c := by revert c; decide +kernel
theorem dev12_eq (c : Dev nD) : (⟨k0_dev12 c, k0_dev12_lt c⟩ : Dev nD) = opp c := by revert c; decide +kernel

theorem off2_rgt_eq (c : Dev nD) : k0_off2 c (BitVec.ofNat 32 1) = ![1024 * (rgt c).val, 0] := by revert c; decide +kernel
theorem off2_opp_eq (c : Dev nD) : k0_off2 c (BitVec.ofNat 32 2) = ![1024 * (opp c).val, 0] := by revert c; decide +kernel
theorem off3_lft_eq (c : Dev nD) : k0_off3 c = ![1024 * (lft c).val, 0] := by revert c; decide +kernel

end Cert.KernelIdeal.Mesh

end
-- ==== Proof.KI.Views.lean ====
/- The buffers, the slices of them and the cells that the transfers name, each written once. -/
import proofs.«900495_g7700000000000496_dist_ag_gemm_m4096_k4096_n2048_f32_gelu_v7x_i4_1_alg».proof.Proof.Gen.KernelIdeal

noncomputable section

namespace Cert.KernelIdeal.P

open Idealize.ShloMosaic Idealize.ShloMosaic.TcCoe Cert.KernelIdeal Cert.KernelIdeal.Gen

abbrev xA : Memref sig .tc .hbm S1024x4096 .f32 := Memref.whole main_arg0
abbrev wStg : Memref sig .tc .vmem S4096x512 .f32 := Memref.whole cc0_stg0_0
abbrev oStg : Memref sig .tc .vmem S4096x512 .f32 := Memref.whole cc0_stg1_0
abbrev relayA : Memref sig .tc .hbm S2x4096x512 .bf16 := Memref.whole main_v1_1
abbrev w16A : Memref sig .tc .vmem S4096x512 .bf16 := Memref.whole cc0_scratch0
abbrev x16A : Memref sig .tc .vmem S1024x4096 .bf16 := Memref.whole cc0_scratch1
abbrev xq : Memref sig .tc .vmem S256x4096 .f32 := Memref.whole cc0_scratch2
abbrev farA : Memref sig .tc .vmem S4096x512 .bf16 := Memref.whole cc0_scratch3
abbrev landA : Memref sig .tc .vmem S2x4096x256 .bf16 := Memref.whole cc0_scratch4
abbrev madeA : Memref sig .tc .vmem S3x1024x512 .bf16 := Memref.whole cc0_scratch5
abbrev gotA : Memref sig .tc .vmem S3x1024x512 .bf16 := Memref.whole cc0_scratch6

abbrev w16H0 : Memref sig .tc .vmem S4096x256 .bf16 := w16A.slice (Rect.unit (s := S4096x512) ![0, 0] S4096x256.size inb_S4096x512_S4096x256_0_0) (fun _ => rfl)
abbrev w16H1 : Memref sig .tc .vmem S4096x256 .bf16 := w16A.slice (Rect.unit (s := S4096x512) ![0, 256] S4096x256.size inb_S4096x512_S4096x256_0_256) (fun _ => rfl)
abbrev farH0 : Memref sig .tc .vmem S4096x256 .bf16 := farA.slice (Rect.unit (s := S4096x512) ![0, 0] S4096x256.size inb_S4096x512_S4096x256_0_0) (fun _ => rfl)
abbrev farH1 : Memref sig .tc .vmem S4096x256 .bf16 := farA.slice (Rect.unit (s := S4096x512) ![0, 256] S4096x256.size inb_S4096x512_S4096x256_0_256) (fun _ => rfl)

abbrev relayL0 : Memref sig .tc .hbm S4096x256 .bf16 := (relayA.slice (Rect.unit (s := S2x4096x512) ![0, 0, 0] S1x4096x256.size inb_S2x4096x512_S1x4096x256_0_0_0) (fun _ => rfl)).squeeze S4096x256 squeezes_S1x4096x256_S4096x256
abbrev relayR0 : Memref sig .tc .hbm S4096x256 .bf16 := (relayA.slice (Rect.unit (s := S2x4096x512) ![1, 0, 0] S1x4096x256.size inb_S2x4096x512_S1x4096x256_1_0_0) (fun _ => rfl)).squeeze S4096x256 squeezes_S1x4096x256_S4096x256
abbrev relayL1 : Memref sig .tc .hbm S4096x256 .bf16 := (relayA.slice (Rect.unit (s := S2x4096x512) ![0, 0, 256] S1x4096x256.size inb_S2x4096x512_S1x4096x256_0_0_256) (fun _ => rfl)).squeeze S4096x256 squeezes_S1x4096x256_S4096x256
abbrev relayR1 : Memref sig .tc .hbm S4096x256 .bf16 := (relayA.slice (Rect.unit (s := S2x4096x512) ![1, 0, 256] S1x4096x256.size inb_S2x4096x512_S1x4096x256_1_0_256) (fun _ => rfl)).squeeze S4096x256 squeezes_S1x4096x256_S4096x256

abbrev made0 : Memref sig .tc .vmem S1024x512 .bf16 := (madeA.slice (Rect.unit (s := S3x1024x512) ![0, 0, 0] S1x1024x512.size inb_S3x1024x512_S1x1024x512_0_0_0) (fun _ => rfl)).squeeze S1024x512 squeezes_S1x1024x512_S1024x512
abbrev made1 : Memref sig .tc .vmem S1024x512 .bf16 := (madeA.slice (Rect.unit (s := S3x1024x512) ![1, 0, 0] S1x1024x512.size inb_S3x1024x512_S1x1024x512_1_0_0) (fun _ => rfl)).squeeze S1024x512 squeezes_S1x1024x512_S1024x512
abbrev made2 : Memref sig .tc .vmem S1024x512 .bf16 := (madeA.slice (Rect.unit (s := S3x1024x512) ![2, 0, 0] S1x1024x512.size inb_S3x1024x512_S1x1024x512_2_0_0) (fun _ => rfl)).squeeze S1024x512 squeezes_S1x1024x512_S1024x512
abbrev got0 : Memref sig .tc .vmem S1024x512 .bf16 := (gotA.slice (Rect.unit (s := S3x1024x512) ![0, 0, 0] S1x1024x512.size inb_S3x1024x512_S1x1024x512_0_0_0) (fun _ => rfl)).squeeze S1024x512 squeezes_S1x1024x512_S1024x512
abbrev got1 : Memref sig .tc .vmem S1024x512 .bf16 := (gotA.slice (Rect.unit (s := S3x1024x512) ![1, 0, 0] S1x1024x512.size inb_S3x1024x512_S1x1024x512_1_0_0) (fun _ => rfl)).squeeze S1024x512 squeezes_S1x1024x512_S1024x512
abbrev got2 : Memref sig .tc .vmem S1024x512 .bf16 := (gotA.slice (Rect.unit (s := S3x1024x512) ![2, 0, 0] S1x1024x512.size inb_S3x1024x512_S1x1024x512_2_0_0) (fun _ => rfl)).squeeze S1024x512 squeezes_S1x1024x512_S1024x512

abbrev barS : Sem sig := (SemArray.scalar (sig.barrier 0 rfl) : Sems sig S_).sem
abbrev sS0 : DmaSems sig S_ := ((cc0_scratch7 : DmaSems sig S9).slice (Rect.unit (s := S9) ![0] S1.size inb_S9_S1_0)).squeeze S_ squeezes_S1_S_
abbrev sS1 : DmaSems sig S_ := ((cc0_scratch7 : DmaSems sig S9).slice (Rect.unit (s := S9) ![1] S1.size inb_S9_S1_1)).squeeze S_ squeezes_S1_S_
abbrev sS2 : DmaSems sig S_ := ((cc0_scratch7 : DmaSems sig S9).slice (Rect.unit (s := S9) ![2] S1.size inb_S9_S1_2)).squeeze S_ squeezes_S1_S_
abbrev sS3 : DmaSems sig S_ := ((cc0_scratch7 : DmaSems sig S9).slice (Rect.unit (s := S9) ![3] S1.size inb_S9_S1_3)).squeeze S_ squeezes_S1_S_
abbrev sS4 : DmaSems sig S_ := ((cc0_scratch7 : DmaSems sig S9).slice (Rect.unit (s := S9) ![4] S1.size inb_S9_S1_4)).squeeze S_ squeezes_S1_S_
abbrev sS5 : DmaSems sig S_ := ((cc0_scratch7 : DmaSems sig S9).slice (Rect.unit (s := S9) ![5] S1.size inb_S9_S1_5)).squeeze S_ squeezes_S1_S_
abbrev sS6 : DmaSems sig S_ := ((cc0_scratch7 : DmaSems sig S9).slice (Rect.unit (s := S9) ![6] S1.size inb_S9_S1_6)).squeeze S_ squeezes_S1_S_
abbrev sS7 : DmaSems sig S_ := ((cc0_scratch7 : DmaSems sig S9).slice (Rect.unit (s := S9) ![7] S1.size inb_S9_S1_7)).squeeze S_ squeezes_S1_S_
abbrev sS8 : DmaSems sig S_ := ((cc0_scratch7 : DmaSems sig S9).slice (Rect.unit (s := S9) ![8] S1.size inb_S9_S1_8)).squeeze S_ squeezes_S1_S_
abbrev rS0 : DmaSems sig S_ := ((cc0_scratch8 : DmaSems sig S9).slice (Rect.unit (s := S9) ![0] S1.size inb_S9_S1_0)).squeeze S_ squeezes_S1_S_
abbrev rS1 : DmaSems sig S_ := ((cc0_scratch8 : DmaSems sig S9).slice (Rect.unit (s := S9) ![1] S1.size inb_S9_S1_1)).squeeze S_ squeezes_S1_S_
abbrev rS2 : DmaSems sig S_ := ((cc0_scratch8 : DmaSems sig S9).slice (Rect.unit (s := S9) ![2] S1.size inb_S9_S1_2)).squeeze S_ squeezes_S1_S_
abbrev rS3 : DmaSems sig S_ := ((cc0_scratch8 : DmaSems sig S9).slice (Rect.unit (s := S9) ![3] S1.size inb_S9_S1_3)).squeeze S_ squeezes_S1_S_
abbrev rS4 : DmaSems sig S_ := ((cc0_scratch8 : DmaSems sig S9).slice (Rect.unit (s := S9) ![4] S1.size inb_S9_S1_4)).squeeze S_ squeezes_S1_S_
abbrev rS5 : DmaSems sig S_ := ((cc0_scratch8 : DmaSems sig S9).slice (Rect.unit (s := S9) ![5] S1.size inb_S9_S1_5)).squeeze S_ squeezes_S1_S_
abbrev rS6 : DmaSems sig S_ := ((cc0_scratch8 : DmaSems sig S9).slice (Rect.unit (s := S9) ![6] S1.size inb_S9_S1_6)).squeeze S_ squeezes_S1_S_
abbrev rS7 : DmaSems sig S_ := ((cc0_scratch8 : DmaSems sig S9).slice (Rect.unit (s := S9) ![7] S1.size inb_S9_S1_7)).squeeze S_ squeezes_S1_S_
abbrev rS8 : DmaSems sig S_ := ((cc0_scratch8 : DmaSems sig S9).slice (Rect.unit (s := S9) ![8] S1.size inb_S9_S1_8)).squeeze S_ squeezes_S1_S_

abbrev sendSem : Fin 9 → DmaSem sig := fun
  | 0 => sS0.sem | 1 => sS1.sem | 2 => sS2.sem | 3 => sS3.sem | 4 => sS4.sem | 5 => sS5.sem | 6 => sS6.sem | 7 => sS7.sem | 8 => sS8.sem
abbrev recvSem : Fin 9 → DmaSem sig := fun
  | 0 => rS0.sem | 1 => rS1.sem | 2 => rS2.sem | 3 => rS3.sem | 4 => rS4.sem | 5 => rS5.sem | 6 => rS6.sem | 7 => rS7.sem | 8 => rS8.sem

abbrev barCell (c : Dev nD) : GSem nD τ sig := ((c : Thread nD τ), .reg barS)
abbrev sendCell (c : Dev nD) (k : Fin 9) : GSem nD τ sig := ((c : Thread nD τ), .dma (sendSem k))
abbrev recvCell (c : Dev nD) (k : Fin 9) : GSem nD τ sig := ((c : Thread nD τ), .dma (recvSem k))

end Cert.KernelIdeal.P

end
-- ==== Proof.KI.Contents.lean ====
/- What each buffer holds. Device c has rows block c of x and columns block c of w; its result is gelu (x w) at its columns, whose rows block b is gelu (x_b w_c): device b computes it once w_c has reached it and sends it to c. -/
import proofs.«900495_g7700000000000496_dist_ag_gemm_m4096_k4096_n2048_f32_gelu_v7x_i4_1_alg».proof.Proof.KI.Mesh
import proofs.«900495_g7700000000000496_dist_ag_gemm_m4096_k4096_n2048_f32_gelu_v7x_i4_1_alg».proof.Proof.KI.Views
import proofs.«900495_g7700000000000496_dist_ag_gemm_m4096_k4096_n2048_f32_gelu_v7x_i4_1_alg».proof.Proof.Gen.KernelIdeal.Skeleton
import Idealize.ShloMosaic.Lib.ValueIdx

noncomputable section

namespace Cert.KernelIdeal.P

open Idealize.ShloMosaic Idealize.ShloMosaic.TcCoe Idealize.ShloMosaic.ValueIdx Cert.KernelIdeal Cert.KernelIdeal.Gen Cert.KernelIdeal.Mesh

variable {F : FTy → Type} [FloatOps F]
variable (m : (ℓ : Loc nD τ sig) → Buf (Elt F) ℓ)

def Xb (c : Dev nD) : Vec F S1024x4096 .f32 := m ((c : Thread nD τ).loc main_arg0)
def Wb (c : Dev nD) : Vec F S4096x512 .f32 := m ((c : Thread nD τ).loc main_arg1)

def w16 (c : Dev nD) : Vec F S4096x512 .bf16 := k0_pay1 (Wb m c)
def x16 (c : Dev nD) : Vec F S1024x4096 .bf16 := truncf .bf16 (Xb m c) bitsLt_bf16_f32

def rowHalf (x : Vec F S1024x4096 .bf16) (t : Fin 2) : Vec F S512x4096 .bf16 :=
  fun i => x (ix2 (⟨512 * t.val + (i 0).val, by have := idx2_lt0 i; have := t.isLt; omega⟩ : Fin 1024) (i 1))
def colHalf (w : Vec F S4096x512 .bf16) (h : Fin 2) : Vec F S4096x256 .bf16 :=
  fun i => w (ix2 (i 0) (⟨256 * h.val + (i 1).val, by have := idx2_lt1 i; have := h.isLt; omega⟩ : Fin 512))

def geluV {s : Shape} (y : FVec F s .f32) : FVec F s .f32 :=
  mulf (mulf (broadcast s (Scalar.ofBits .f32 0x3F000000#32)) y)
    (addf (broadcast s (Scalar.ofBits .f32 0x3F800000#32))
      (tanh (mulf (broadcast s (Scalar.ofBits .f32 0x3F4C422A#32))
        (addf y (mulf (mulf (mulf (broadcast s (Scalar.ofBits .f32 0x3D372713#32)) y) y) y)))))

def tile512 (xh : Vec F S512x4096 .bf16) (w : Vec F S4096x512 .bf16) : FVec F S512x512 .f32 :=
  geluV (matmul dot_S512x4096_S4096x512_S512x512_1_0_0_1_n_n none xh w (constant S512x512 .f32 0x00000000#32))
def tile256 (xh : Vec F S512x4096 .bf16) (wq : Vec F S4096x256 .bf16) : FVec F S512x256 .f32 :=
  geluV (matmul dot_S512x4096_S4096x256_S512x256_1_0_0_1_n_n none xh wq (constant S512x256 .f32 0x00000000#32))

def relayC (c : Dev nD) : Vec F S2x4096x512 .bf16 :=
  fun i => if (i 0).val = 0 then w16 m (lft c) (ix2 (i 1) (i 2)) else w16 m (rgt c) (ix2 (i 1) (i 2))
def farC (c : Dev nD) : Vec F S4096x512 .bf16 := w16 m (opp c)

def peer (c : Dev nD) (s : ℕ) : Dev nD := if s = 0 then lft c else if s = 1 then rgt c else opp c

def madeC (c : Dev nD) : Vec F S3x1024x512 .bf16 :=
  fun i =>
    (truncf .bf16 (tile256 (rowHalf (x16 m c) (⟨(i 1).val / 512, by have h1 : (i 1).val < 1024 := (i 1).isLt; omega⟩ : Fin 2))
        (colHalf (w16 m (peer c (i 0).val)) (⟨(i 2).val / 256, by have h2 : (i 2).val < 512 := (i 2).isLt; omega⟩ : Fin 2))) bitsLt_bf16_f32)
      (ix2 (⟨(i 1).val % 512, Nat.mod_lt _ (by decide)⟩ : Fin 512) (⟨(i 2).val % 256, Nat.mod_lt _ (by decide)⟩ : Fin 256))

def gotC (c : Dev nD) : Vec F S3x1024x512 .bf16 :=
  fun i =>
    if (i 0).val = 0 then madeC m (rgt c) (ix3 (0 : Fin 3) (i 1) (i 2))
    else if (i 0).val = 1 then madeC m (lft c) (ix3 (1 : Fin 3) (i 1) (i 2))
    else madeC m (opp c) (ix3 (2 : Fin 3) (i 1) (i 2))

def outC (c : Dev nD) : Vec F S4096x512 .f32 :=
  fun i =>
    let b : ℕ := (i 0).val / 1024
    let p : ℕ := (i 0).val % 1024
    if b = c.val then
      tile512 (rowHalf (x16 m c) ⟨p / 512, by have : p < 1024 := Nat.mod_lt _ (by decide); omega⟩) (w16 m c)
        (ix2 (⟨p % 512, Nat.mod_lt _ (by decide)⟩ : Fin 512) (i 1))
    else
      let s : Fin 3 := if b = (rgt c).val then 0 else if b = (lft c).val then 1 else 2
      (extf .f32 (gotC m c) bitsLt_bf16_f32) (ix3 s (⟨p, Nat.mod_lt _ (by decide)⟩ : Fin 1024) (i 1))

end Cert.KernelIdeal.P

end
-- ==== Proof.KI.Sched.lean ====
/- The protocol as a schedule of duties, one round per cell: an entry cell has one unit duty per peer, a send cell and a receive cell one duty each, paid by the transfer between them. -/
import proofs.«900495_g7700000000000496_dist_ag_gemm_m4096_k4096_n2048_f32_gelu_v7x_i4_1_alg».proof.Proof.KI.Contents
import proofs.«900495_g7700000000000496_dist_ag_gemm_m4096_k4096_n2048_f32_gelu_v7x_i4_1_alg».proof.Proof.Gen.KernelIdeal.Launch
import proofs.«900495_g7700000000000496_dist_ag_gemm_m4096_k4096_n2048_f32_gelu_v7x_i4_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.P

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by
  unfold ER embR; infer_instance

variable (m : (ℓ : Loc nD τ sig) → Buf (Elt F) ℓ) (ρ : Dev nD → PrngReg)

def amt (k : Fin 9) : ℕ := match k with
  | 0 => relayL0.view.dmaCredit
  | 1 => relayL1.view.dmaCredit
  | 2 => relayR0.view.dmaCredit
  | 3 => relayR1.view.dmaCredit
  | 4 => farH0.view.dmaCredit
  | 5 => farH1.view.dmaCredit
  | 6 => got0.view.dmaCredit
  | 7 => got1.view.dmaCredit
  | 8 => got2.view.dmaCredit

theorem amt_pos (k : Fin 9) : 0 < amt k := by
  revert k; intro k; fin_cases k <;> exact View.dmaCredit_pos _ (by decide)

abbrev someAt {sp : Space} {s : Shape} {e : EltTy} (c : Dev nD) (v : Memref sig .tc sp s e) : sProp 𝕄 :=
  iprop(∃ f : Buf (Elt F) (v.view.loc (c : Thread nD τ)), v.view.loc (c : Thread nD τ) ↦[v.view.set]{fullShare} f)
abbrev holdsAt {sp : Space} {s : Shape} {e : EltTy} (c : Dev nD) (v : Memref sig .tc sp s e) (q : PosShare TreeShare)
    (f : Buf (Elt F) (v.view.loc (c : Thread nD τ))) : sProp 𝕄 :=
  iprop(v.view.loc (c : Thread nD τ) ↦[v.view.set]{q} f)

def barPay (c : Dev nD) (d : Fin 3) : sProp 𝕄 := match d with
  | 0 => iprop(someAt (F := F) (rgt c) relayL0 ∗ someAt (F := F) (rgt c) relayL1 ∗ someAt (F := F) (rgt c) farH0 ∗ someAt (F := F) (rgt c) got1)
  | 1 => iprop(someAt (F := F) (lft c) relayR0 ∗ someAt (F := F) (lft c) relayR1 ∗ someAt (F := F) (lft c) farH1 ∗ someAt (F := F) (lft c) got0)
  | 2 => someAt (F := F) (opp c) got2

def recvPay (c : Dev nD) (k : Fin 9) : sProp 𝕄 := match k with
  | 0 => holdsAt c relayL0 fullShare (relayC m c)
  | 1 => holdsAt c relayL1 fullShare (relayC m c)
  | 2 => holdsAt c relayR0 fullShare (relayC m c)
  | 3 => holdsAt c relayR1 fullShare (relayC m c)
  | 4 => holdsAt c farH0 fullShare (farC m c)
  | 5 => holdsAt c farH1 fullShare (farC m c)
  | 6 => holdsAt c got0 fullShare (gotC m c)
  | 7 => holdsAt c got1 fullShare (gotC m c)
  | 8 => holdsAt c got2 fullShare (gotC m c)

def sendPay (c : Dev nD) (k : Fin 9) : sProp 𝕄 := match k with
  | 0 => holdsAt c w16H0 fullShare.right.left (w16 m c)
  | 1 => holdsAt c w16H1 fullShare.right.left (w16 m c)
  | 2 => holdsAt c w16H0 fullShare.right.right (w16 m c)
  | 3 => holdsAt c w16H1 fullShare.right.right (w16 m c)
  | 4 => holdsAt c relayL0 fullShare.left (relayC m c)
  | 5 => holdsAt c relayR1 fullShare.left (relayC m c)
  | 6 => holdsAt c made0 fullShare (madeC m c)
  | 7 => holdsAt c made1 fullShare (madeC m c)
  | 8 => holdsAt c made2 fullShare (madeC m c)

def xferIdx : SemLoc sig → Option (Bool × Fin 9)
  | .dma q =>
      if h : 2 ≤ q.val ∧ q.val < 11 then some (true, ⟨q.val - 2, by omega⟩)
      else if h' : 11 ≤ q.val ∧ q.val < 20 then some (false, ⟨q.val - 11, by omega⟩) else none
  | _ => none

theorem xferIdx_send (k : Fin 9) : xferIdx (.dma (sendSem k) : SemLoc sig) = some (true, k) := by revert k; decide
theorem xferIdx_recv (k : Fin 9) : xferIdx (.dma (recvSem k) : SemLoc sig) = some (false, k) := by revert k; decide
theorem xferIdx_bar : xferIdx (.reg barS : SemLoc sig) = none := rfl

def sched : Rounds.Schedule (GSem nD τ sig) (Fin 3) 𝕄 where
  duties g r :=
    if r = 0 ∧ g.1.2 = .tc then
      (if g.2 = .reg barS then Finset.univ else if (xferIdx g.2).isSome then {0} else ∅)
    else ∅
  unitless _ := False
  amount g _ _ := match xferIdx g.2 with
    | some (_, k) => amt k
    | none => 1
  payload g _ d :=
    if g.2 = .reg barS then barPay g.1.1 d
    else match xferIdx g.2 with
      | some (true, k) => sendPay m g.1.1 k
      | some (false, k) => recvPay m g.1.1 k
      | none => iprop(emp)
  amount_pos g _ _ _ := by
    cases h : xferIdx g.2 with
    | none => simp only [h]; exact Nat.one_pos
    | some bk => obtain ⟨b, k⟩ := bk; simp only [h]; exact amt_pos k

end Cert.KernelIdeal.P

end
-- ==== Proof.KI.Data.lean ====
/- What a device owes when it starts, the levels that order its waits, its share of the ghost state, and the data of the single grid point. -/
import proofs.«900495_g7700000000000496_dist_ag_gemm_m4096_k4096_n2048_f32_gelu_v7x_i4_1_alg».proof.Proof.KI.Sched

noncomputable section

namespace Cert.KernelIdeal.P

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def owedX (c : Dev nD) : CellTallies nD τ sig Unit :=
  tallyAt (recvCell (rgt c) 0) () (amt 0)
    + tallyAt (recvCell (rgt c) 1) () (amt 1)
    + tallyAt (recvCell (lft c) 2) () (amt 2)
    + tallyAt (recvCell (lft c) 3) () (amt 3)
    + tallyAt (recvCell (rgt c) 4) () (amt 4)
    + tallyAt (recvCell (lft c) 5) () (amt 5)
    + tallyAt (recvCell (lft c) 6) () (amt 6)
    + tallyAt (recvCell (rgt c) 7) () (amt 7)
    + tallyAt (recvCell (opp c) 8) () (amt 8)
def O₀ (c : Dev nD) : CellTallies nD τ sig Unit :=
  owedX c + tallyAt (barCell (opp c)) () 1 + tallyAt (barCell (rgt c)) () 1 + tallyAt (barCell (lft c)) () 1

def L (g : GSem nD τ sig) : Finset Unit := if g.1.2 = .tc then {()} else ∅
def lv (g : GSem nD τ sig) (_ : Unit) : ℕ :=
  if g.2 = .reg barS then 1 else match xferIdx g.2 with
    | some (false, k) => if k.val < 4 then 2 else if k.val < 6 then 3 else 4
    | _ => 0

theorem L_of_ne (g : GSem nD τ sig) (h : g.1.2 ≠ .tc) : L g = ∅ := if_neg h
theorem L_tc (c : Dev nD) (sm : SemLoc sig) : L ((c : Thread nD τ), sm) = {()} := if_pos rfl

abbrev cS0 : DmaSems sig S_ := ((cc0_scratch9 : DmaSems sig S3).slice (Rect.unit (s := S3) ![0] S1.size inb_S3_S1_0)).squeeze S_ squeezes_S1_S_
abbrev cS1 : DmaSems sig S_ := ((cc0_scratch9 : DmaSems sig S3).slice (Rect.unit (s := S3) ![1] S1.size inb_S3_S1_1)).squeeze S_ squeezes_S1_S_
abbrev cS2 : DmaSems sig S_ := ((cc0_scratch9 : DmaSems sig S3).slice (Rect.unit (s := S3) ![2] S1.size inb_S3_S1_2)).squeeze S_ squeezes_S1_S_
abbrev copyCell (c : Dev nD) (j : Fin 3) : GSem nD τ sig :=
  ((c : Thread nD τ), .dma (match j with | 0 => cS0.sem | 1 => cS1.sem | 2 => cS2.sem))

abbrev csem : Fin 19 → SemLoc sig := fun j =>
  if h : j.val = 0 then .reg barS
  else if h' : j.val < 10 then .dma (sendSem ⟨j.val - 1, by omega⟩)
  else .dma (recvSem ⟨j.val - 10, by omega⟩)
abbrev kcell (ck : Dev nD × Fin 19) : GSem nD τ sig := ((ck.1 : Thread nD τ), csem ck.2)
abbrev jS (k : Fin 9) : Fin 19 := ⟨1 + k.val, by omega⟩
abbrev jR (k : Fin 9) : Fin 19 := ⟨10 + k.val, by omega⟩

def invs (K : Dev nD × Fin 19 → ℕ) (c : Dev nD) : sProp 𝕄 :=
  iprop(cellInv ER (sched m) (K (c, 0)) (barCell c)
    ∗ cellInv ER (sched m) (K (c, jS 0)) (sendCell c 0)
    ∗ cellInv ER (sched m) (K (c, jS 1)) (sendCell c 1)
    ∗ cellInv ER (sched m) (K (c, jS 2)) (sendCell c 2)
    ∗ cellInv ER (sched m) (K (c, jS 3)) (sendCell c 3)
    ∗ cellInv ER (sched m) (K (c, jS 4)) (sendCell c 4)
    ∗ cellInv ER (sched m) (K (c, jS 5)) (sendCell c 5)
    ∗ cellInv ER (sched m) (K (c, jS 6)) (sendCell c 6)
    ∗ cellInv ER (sched m) (K (c, jS 7)) (sendCell c 7)
    ∗ cellInv ER (sched m) (K (c, jS 8)) (sendCell c 8)
    ∗ cellInv ER (sched m) (K (c, jR 0)) (recvCell c 0)
    ∗ cellInv ER (sched m) (K (c, jR 1)) (recvCell c 1)
    ∗ cellInv ER (sched m) (K (c, jR 2)) (recvCell c 2)
    ∗ cellInv ER (sched m) (K (c, jR 3)) (recvCell c 3)
    ∗ cellInv ER (sched m) (K (c, jR 4)) (recvCell c 4)
    ∗ cellInv ER (sched m) (K (c, jR 5)) (recvCell c 5)
    ∗ cellInv ER (sched m) (K (c, jR 6)) (recvCell c 6)
    ∗ cellInv ER (sched m) (K (c, jR 7)) (recvCell c 7)
    ∗ cellInv ER (sched m) (K (c, jR 8)) (recvCell c 8)
    ∗ cellInv ER (sched m) (K (lft c, 0)) (barCell (lft c)) ∗ cellInv ER (sched m) (K (rgt c, 0)) (barCell (rgt c)) ∗ cellInv ER (sched m) (K (opp c, 0)) (barCell (opp c))
    ∗ cellInv ER (sched m) (K (rgt c, jR 0)) (recvCell (rgt c) 0)
    ∗ cellInv ER (sched m) (K (rgt c, jR 1)) (recvCell (rgt c) 1)
    ∗ cellInv ER (sched m) (K (lft c, jR 2)) (recvCell (lft c) 2)
    ∗ cellInv ER (sched m) (K (lft c, jR 3)) (recvCell (lft c) 3)
    ∗ cellInv ER (sched m) (K (rgt c, jR 4)) (recvCell (rgt c) 4)
    ∗ cellInv ER (sched m) (K (lft c, jR 5)) (recvCell (lft c) 5)
    ∗ cellInv ER (sched m) (K (lft c, jR 6)) (recvCell (lft c) 6)
    ∗ cellInv ER (sched m) (K (rgt c, jR 7)) (recvCell (rgt c) 7)
    ∗ cellInv ER (sched m) (K (opp c, jR 8)) (recvCell (opp c) 8))

instance invs_persistent (K : Dev nD × Fin 19 → ℕ) (c : Dev nD) : BI.Persistent (invs m K c) := by unfold invs; infer_instance

def poss (c : Dev nD) : sProp 𝕄 :=
  iprop(atPos ER (barCell c) 0 ∅ 0
    ∗ atPos ER (sendCell c 0) 0 ∅ 0
    ∗ atPos ER (sendCell c 1) 0 ∅ 0
    ∗ atPos ER (sendCell c 2) 0 ∅ 0
    ∗ atPos ER (sendCell c 3) 0 ∅ 0
    ∗ atPos ER (sendCell c 4) 0 ∅ 0
    ∗ atPos ER (sendCell c 5) 0 ∅ 0
    ∗ atPos ER (sendCell c 6) 0 ∅ 0
    ∗ atPos ER (sendCell c 7) 0 ∅ 0
    ∗ atPos ER (sendCell c 8) 0 ∅ 0
    ∗ atPos ER (recvCell c 0) 0 ∅ 0
    ∗ atPos ER (recvCell c 1) 0 ∅ 0
    ∗ atPos ER (recvCell c 2) 0 ∅ 0
    ∗ atPos ER (recvCell c 3) 0 ∅ 0
    ∗ atPos ER (recvCell c 4) 0 ∅ 0
    ∗ atPos ER (recvCell c 5) 0 ∅ 0
    ∗ atPos ER (recvCell c 6) 0 ∅ 0
    ∗ atPos ER (recvCell c 7) 0 ∅ 0
    ∗ atPos ER (recvCell c 8) 0 ∅ 0)

def reacheds (c : Dev nD) : sProp 𝕄 :=
  iprop(reached ER (barCell c) 0 ∗ reached ER (barCell (lft c)) 0 ∗ reached ER (barCell (rgt c)) 0 ∗ reached ER (barCell (opp c)) 0
    ∗ reached ER (sendCell c 0) 0
    ∗ reached ER (sendCell c 1) 0
    ∗ reached ER (sendCell c 2) 0
    ∗ reached ER (sendCell c 3) 0
    ∗ reached ER (sendCell c 4) 0
    ∗ reached ER (sendCell c 5) 0
    ∗ reached ER (sendCell c 6) 0
    ∗ reached ER (sendCell c 7) 0
    ∗ reached ER (sendCell c 8) 0
    ∗ reached ER (recvCell c 0) 0
    ∗ reached ER (recvCell c 1) 0
    ∗ reached ER (recvCell c 2) 0
    ∗ reached ER (recvCell c 3) 0
    ∗ reached ER (recvCell c 4) 0
    ∗ reached ER (recvCell c 5) 0
    ∗ reached ER (recvCell c 6) 0
    ∗ reached ER (recvCell c 7) 0
    ∗ reached ER (recvCell c 8) 0
    ∗ reached ER (recvCell (rgt c) 0) 0
    ∗ reached ER (recvCell (rgt c) 1) 0
    ∗ reached ER (recvCell (lft c) 2) 0
    ∗ reached ER (recvCell (lft c) 3) 0
    ∗ reached ER (recvCell (rgt c) 4) 0
    ∗ reached ER (recvCell (lft c) 5) 0
    ∗ reached ER (recvCell (lft c) 6) 0
    ∗ reached ER (recvCell (rgt c) 7) 0
    ∗ reached ER (recvCell (opp c) 8) 0)

instance reacheds_persistent (c : Dev nD) : BI.Persistent (reacheds (F := F) c) := by unfold reacheds; infer_instance

def payToks (c : Dev nD) : sProp 𝕄 :=
  iprop(dutyTok ER (barCell (lft c)) 0 (0 : Fin 3) ∗ dutyTok ER (barCell (rgt c)) 0 (1 : Fin 3) ∗ dutyTok ER (barCell (opp c)) 0 (2 : Fin 3)
    ∗ dutyTok ER (recvCell (rgt c) 0) 0 (0 : Fin 3)
    ∗ dutyTok ER (recvCell (rgt c) 1) 0 (0 : Fin 3)
    ∗ dutyTok ER (recvCell (lft c) 2) 0 (0 : Fin 3)
    ∗ dutyTok ER (recvCell (lft c) 3) 0 (0 : Fin 3)
    ∗ dutyTok ER (recvCell (rgt c) 4) 0 (0 : Fin 3)
    ∗ dutyTok ER (recvCell (lft c) 5) 0 (0 : Fin 3)
    ∗ dutyTok ER (recvCell (lft c) 6) 0 (0 : Fin 3)
    ∗ dutyTok ER (recvCell (rgt c) 7) 0 (0 : Fin 3)
    ∗ dutyTok ER (recvCell (opp c) 8) 0 (0 : Fin 3)
    ∗ dutyTok ER (sendCell c 0) 0 (0 : Fin 3)
    ∗ dutyTok ER (sendCell c 1) 0 (0 : Fin 3)
    ∗ dutyTok ER (sendCell c 2) 0 (0 : Fin 3)
    ∗ dutyTok ER (sendCell c 3) 0 (0 : Fin 3)
    ∗ dutyTok ER (sendCell c 4) 0 (0 : Fin 3)
    ∗ dutyTok ER (sendCell c 5) 0 (0 : Fin 3)
    ∗ dutyTok ER (sendCell c 6) 0 (0 : Fin 3)
    ∗ dutyTok ER (sendCell c 7) 0 (0 : Fin 3)
    ∗ dutyTok ER (sendCell c 8) 0 (0 : Fin 3))

def ghost (K : Dev nD × Fin 19 → ℕ) (c : Dev nD) : sProp 𝕄 :=
  iprop(invs m K c ∗ poss c ∗ reacheds c ∗ payToks c)

def creds (c : Dev nD) : sProp 𝕄 :=
  iprop(cred (tallyAt (barCell c) () 3)
    ∗ cred (tallyAt (recvCell c 0) () (amt 0))
    ∗ cred (tallyAt (recvCell c 1) () (amt 1))
    ∗ cred (tallyAt (recvCell c 2) () (amt 2))
    ∗ cred (tallyAt (recvCell c 3) () (amt 3))
    ∗ cred (tallyAt (recvCell c 4) () (amt 4))
    ∗ cred (tallyAt (recvCell c 5) () (amt 5))
    ∗ cred (tallyAt (recvCell c 6) () (amt 6))
    ∗ cred (tallyAt (recvCell c 7) () (amt 7))
    ∗ cred (tallyAt (recvCell c 8) () (amt 8)))

def copy0 (c : Dev nD) : sProp 𝕄 :=
  iprop(semVal (copyCell c 0) 0 ∗ semVal (copyCell c 1) 0 ∗ semVal (copyCell c 2) 0)

def start (c : Dev nD) : sProp 𝕄 :=
  iprop((∃ K, ghost m K c) ∗ creds c ∗ copy0 c ∗ levAts L lv)

def xPts (c : Dev nD) : sProp 𝕄 := iprop(((c : Thread nD τ).loc main_arg0) ↦{fullShare} Xb m c)
def relayPts (c : Dev nD) : sProp 𝕄 := iprop(∃ f : Buf (Elt F) ((c : Thread nD τ).loc main_v1_1), ((c : Thread nD τ).loc main_v1_1) ↦{fullShare} f)
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f))

def sems0 (c : Dev nD) : sProp 𝕄 :=
  iprop(semVal (sendCell c 0) 0
    ∗ semVal (sendCell c 1) 0
    ∗ semVal (sendCell c 2) 0
    ∗ semVal (sendCell c 3) 0
    ∗ semVal (sendCell c 4) 0
    ∗ semVal (sendCell c 5) 0
    ∗ semVal (sendCell c 6) 0
    ∗ semVal (sendCell c 7) 0
    ∗ semVal (sendCell c 8) 0
    ∗ semVal (recvCell c 0) 0
    ∗ semVal (recvCell c 1) 0
    ∗ semVal (recvCell c 2) 0
    ∗ semVal (recvCell c 3) 0
    ∗ semVal (recvCell c 4) 0
    ∗ semVal (recvCell c 5) 0
    ∗ semVal (recvCell c 6) 0
    ∗ semVal (recvCell c 7) 0
    ∗ semVal (recvCell c 8) 0
    ∗ copy0 c)

def Φ₀ (c : Dev nD) : sProp 𝕄 := iprop(start m c ∗ xPts m c ∗ relayPts c ∗ scratch c)
def Φ₁ (c : Dev nD) : sProp 𝕄 := iprop(xPts m c ∗ sems0 c ∗ scratch c)

def wStgC (c : Dev nD) : (cc0_stg0_0 : Ref sig .tc).ty.Contents (Elt F) :=
  (win0_0.blk (0 : Fin 1)).view.read (Elt F) (m ((c : Thread nD τ).loc main_arg1))

def dats (_ : Fin 1) (c : Dev nD) : Dat τ (Elt F) Unit ℕ UU ℕ cfg0 c where
  A w := m ((cfg0.win w).arr.view.loc (c : Thread nD τ))
  after w _ := match w with
    | ⟨0, _⟩ => wStgC m c
    | ⟨1, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (wStgC m c) ∗ stg c cc0_stg1_0 (outC m c))

end Cert.KernelIdeal.P

end
-- ==== Proof.KI.Tables.lean ====
/- The schedule read at each cell (duties, amounts, payloads), and the level facts that allow every wait. -/
import proofs.«900495_g7700000000000496_dist_ag_gemm_m4096_k4096_n2048_f32_gelu_v7x_i4_1_alg».proof.Proof.KI.Data

noncomputable section

namespace Cert.KernelIdeal.P

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Tables
variable (c : Dev nD) (k : Fin 9)

theorem send_ne_bar : (SemLoc.dma (sendSem k) : SemLoc sig) ≠ .reg barS := fun h => by cases h
theorem recv_ne_bar : (SemLoc.dma (recvSem k) : SemLoc sig) ≠ .reg barS := fun h => by cases h
theorem isSome_send : (xferIdx (SemLoc.dma (sendSem k) : SemLoc sig)).isSome = true :=
  Eq.trans (congrArg Option.isSome (xferIdx_send k)) rfl
theorem isSome_recv : (xferIdx (SemLoc.dma (recvSem k) : SemLoc sig)).isSome = true :=
  Eq.trans (congrArg Option.isSome (xferIdx_recv k)) rfl

theorem duties_bar : (sched (F := F) m).duties (barCell c) 0 = Finset.univ := by
  dsimp only [sched]
  exact Eq.trans (if_pos ⟨rfl, rfl⟩) (if_pos rfl)
theorem duties_send : (sched (F := F) m).duties (sendCell c k) 0 = {0} := by
  dsimp only [sched]
  exact Eq.trans (if_pos ⟨rfl, rfl⟩) (Eq.trans (if_neg (send_ne_bar k)) (if_pos (isSome_send k)))
theorem duties_recv : (sched (F := F) m).duties (recvCell c k) 0 = {0} := by
  dsimp only [sched]
  exact Eq.trans (if_pos ⟨rfl, rfl⟩) (Eq.trans (if_neg (recv_ne_bar k)) (if_pos (isSome_recv k)))
theorem duties_later (g : GSem nD τ sig) : ∀ r, 1 ≤ r → (sched (F := F) m).duties g r = ∅ := fun r hr => by
  dsimp only [sched]
  exact if_neg fun h => absurd h.1 (by omega)

theorem amount_bar (d : Fin 3) : (sched (F := F) m).amount (barCell c) 0 d = 1 := by
  dsimp only [sched]
  rw [xferIdx_bar]
theorem amount_send (d : Fin 3) : (sched (F := F) m).amount (sendCell c k) 0 d = amt k := by
  dsimp only [sched]
  rw [xferIdx_send]
theorem amount_recv (d : Fin 3) : (sched (F := F) m).amount (recvCell c k) 0 d = amt k := by
  dsimp only [sched]
  rw [xferIdx_recv]
theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c k) 0 = amt k := by
  unfold Schedule.expect Schedule.amountOf
  rw [duties_send, Finset.sum_singleton, amount_send]
theorem expect_recv : (sched (F := F) m).expect (recvCell c k) 0 = amt k := by
  unfold Schedule.expect Schedule.amountOf
  rw [duties_recv, Finset.sum_singleton, amount_recv]

theorem payload_bar (d : Fin 3) : (sched (F := F) m).payload (barCell c) 0 d = barPay c d := by
  dsimp only [sched]
  exact if_pos rfl
theorem payload_send (d : Fin 3) : (sched (F := F) m).payload (sendCell c k) 0 d = sendPay m c k := by
  dsimp only [sched]
  rw [if_neg (send_ne_bar k), xferIdx_send]
theorem payload_recv (d : Fin 3) : (sched (F := F) m).payload (recvCell c k) 0 d = recvPay m c k := by
  dsimp only [sched]
  rw [if_neg (recv_ne_bar k), xferIdx_recv]

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem rest_bar : bigSep ((sched (F := F) m).duties (barCell c) 0 \ ∅) (fun d => (sched (F := F) m).payload (barCell c) 0 d)
    = iprop(barPay (F := F) c 0 ∗ barPay (F := F) c 1 ∗ barPay (F := F) c 2) := by
  rw [Finset.sdiff_empty, duties_bar, bigSep_fin3, payload_bar, payload_bar, payload_bar]
theorem rest_send : bigSep ((sched (F := F) m).duties (sendCell c k) 0 \ ∅) (fun d => (sched (F := F) m).payload (sendCell c k) 0 d) = sendPay m c k := by
  rw [Finset.sdiff_empty, duties_send, bigSep_singleton, payload_send]
theorem rest_recv : bigSep ((sched (F := F) m).duties (recvCell c k) 0 \ ∅) (fun d => (sched (F := F) m).payload (recvCell c k) 0 d) = recvPay m c k := by
  rw [Finset.sdiff_empty, duties_recv, bigSep_singleton, payload_recv]

end Tables

set_option synthInstance.maxHeartbeats 400000 in
instance sched_payload_storable (g : GSem nD τ sig) (r : ℕ) (d : Fin 3) :
    BI.Storable (upEmb : UEmb _ 𝕄) ((sched (F := F) m).payload g r d) := by
  dsimp only [sched]
  unfold barPay sendPay recvPay
  (repeat' split) <;> infer_instance

def AboveLv (n : ℕ) (O : CellTallies nD τ sig Unit) : Prop :=
  ∀ (g : GSem nD τ sig) (u : Unit), 0 < O g u → g.1.2 = .tc ∧ n < lv g u

theorem mayWait_of_above (c : Dev nD) (sm : SemLoc sig) (n : ℕ) (hn : lv ((c : Thread nD τ), sm) () = n)
    (O : CellTallies nD τ sig Unit) (hO : AboveLv n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by rw [L, if_pos (hO g u hg).1]; exact Finset.mem_singleton.mpr rfl)
    (fun p hp => by rw [Finset.mem_singleton.mp hp]; exact le_of_eq hn)
    (fun g u hg => (hO g u hg).2)

theorem lv_bar (c : Dev nD) : lv (barCell c) () = 1 := by
  unfold lv
  exact if_pos rfl
theorem lv_recv (c : Dev nD) (k : Fin 9) : lv (recvCell c k) () = if k.val < 4 then 2 else if k.val < 6 then 3 else 4 := by
  unfold lv
  rw [if_neg (recv_ne_bar k), xferIdx_recv]
theorem lv_other (c : Dev nD) (q : DmaSem sig) (hq : xferIdx (.dma q : SemLoc sig) = none) : lv ((c : Thread nD τ), .dma q) () = 0 := by
  unfold lv
  rw [if_neg (fun h => by cases h), hq]

theorem above_mono {n n' : ℕ} {O : CellTallies nD τ sig Unit} (h : AboveLv n O) (hn : n' ≤ n) : AboveLv n' O :=
  fun g u hg => ⟨(h g u hg).1, lt_of_le_of_lt hn (h g u hg).2⟩

theorem above_tallyAt {n : ℕ} {g : GSem nD τ sig} (a : ℕ) (h1 : g.1.2 = .tc) (h2 : n < lv g ()) : AboveLv n (tallyAt g () a) := by
  intro g' u hg
  rw [tallyAt_apply] at hg
  by_cases h : g' = g ∧ u = ()
  · obtain ⟨rfl, rfl⟩ := h
    exact ⟨h1, h2⟩
  · rw [if_neg h] at hg
    exact absurd hg (Nat.lt_irrefl 0)

theorem above_bar (c : Dev nD) (a : ℕ) : AboveLv 0 (tallyAt (barCell c) () a) :=
  above_tallyAt a rfl (by rw [lv_bar]; exact Nat.one_pos)

theorem above_add {n : ℕ} {O O' : CellTallies nD τ sig Unit} (h : AboveLv n O) (h' : AboveLv n O') : AboveLv n (O + O') := by
  intro g u hg
  rw [Pi.add_apply, Finsupp.add_apply] at hg
  by_cases h0 : 0 < O g u
  · exact h g u h0
  · exact h' g u (by omega)
theorem above_zero (n : ℕ) : AboveLv n (0 : CellTallies nD τ sig Unit) := by
  intro g u hg
  rw [Pi.zero_apply, Finsupp.coe_zero, Pi.zero_apply] at hg
  exact absurd hg (Nat.lt_irrefl 0)

theorem above_recv (c : Dev nD) (k : Fin 9) (n : ℕ) (hn : n < (if k.val < 4 then 2 else if k.val < 6 then 3 else 4)) (a : ℕ) :
    AboveLv n (tallyAt (recvCell c k) () a) :=
  above_tallyAt a rfl (by rw [lv_recv]; exact hn)

theorem above_owedX (c : Dev nD) : AboveLv 1 (owedX c) := by
  unfold owedX
  exact above_add (above_add (above_add (above_add (above_add (above_add (above_add (above_add
    (above_recv _ 0 1 (by decide) _) (above_recv _ 1 1 (by decide) _)) (above_recv _ 2 1 (by decide) _))
    (above_recv _ 3 1 (by decide) _)) (above_recv _ 4 1 (by decide) _)) (above_recv _ 5 1 (by decide) _))
    (above_recv _ 6 1 (by decide) _)) (above_recv _ 7 1 (by decide) _)) (above_recv _ 8 1 (by decide) _)

theorem above_O₀ (c : Dev nD) : AboveLv 0 (O₀ c) := by
  unfold O₀
  exact above_add (above_add (above_add (above_mono (above_owedX c) (Nat.zero_le 1)) (above_bar _ _)) (above_bar _ _)) (above_bar _ _)

end Cert.KernelIdeal.P

end
-- ==== Proof.KI.Landings.lean ====
/- A slice overwritten whole with what a source slice reads holds any contents that read the same there; so each transfer lands its target's named contents. -/
import proofs.«900495_g7700000000000496_dist_ag_gemm_m4096_k4096_n2048_f32_gelu_v7x_i4_1_alg».proof.Proof.KI.Sched
import Idealize.ShloMosaic.Lib.Pipeline.Value
import Idealize.ShloMosaic.Lib.ValueLayout
import Idealize.ShloMosaic.Rules.PointsTo

noncomputable section

namespace Cert.KernelIdeal.P

open Cert.KernelIdeal Cert.KernelIdeal.Gen Cert.KernelIdeal.Mesh

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section General

variable {nD' : Nat} {τ' : Topo} {sig' : RefSig} {Ix : Type} [DecidableEq Ix]
variable {Val : EltTy → Type} {Name : Type} [DecidableEq Name]
variable {U : Type} [URA U] {Lvl : Type}

theorem land_eq {c' : Thread nD' τ'} {κ : Kind} {sp sp' : Space} {s : Shape} {e : EltTy}
    (dst : View sig' c'.2.kind sp' s e) (src : View sig' κ sp s e) (q : PosShare TreeShare)
    (fd g : Buf Val (dst.loc c')) (fs : src.ty.Contents Val)
    (h : ∀ y : s.Idx, dst.read Val g y = src.read Val fs y) :
    (dst.loc c' ↦[dst.set]{q} (dst.write Val fd (src.read Val fs) Finset.univ) : sProp (MT nD' τ' sig' Ix Val Name U Lvl))
      = (dst.loc c' ↦[dst.set]{q} g) :=
  pointsTo_congr fun i hi => by
    obtain ⟨y, rfl⟩ := View.exists_emb_of_mem_set dst hi
    rw [View.write_emb_of_mem _ _ (Finset.mem_univ y), ← h y, View.read_apply, cast_cast, cast_eq]

theorem land_idx_ext₃ {n : Fin 3 → ℕ} {x y : (a : Fin 3) → Fin (n a)} (h0 : (x 0 : ℕ) = y 0) (h1 : (x 1 : ℕ) = y 1)
    (h2 : (x 2 : ℕ) = y 2) : x = y :=
  funext fun a => Fin.ext <| match a with | ⟨0, _⟩ => h0 | ⟨1, _⟩ => h1 | ⟨2, _⟩ => h2

variable {κ : Kind} {sp : Space} {e : EltTy}

theorem land_read_slice₂ {N0 N1 : ℕ} (V : View sig' κ sp ⟨2, ![N0, N1]⟩ e) (off size : Fin 2 → ℕ)
    (inb : ∀ k, off k + size k ≤ (⟨2, ![N0, N1]⟩ : Shape).size k) (f : V.ty.Contents Val)
    (y : (Rect.unit (s := ⟨2, ![N0, N1]⟩) off size inb).shape.Idx) (i : (⟨2, ![N0, N1]⟩ : Shape).Idx)
    (h0 : (i 0).val = off 0 + (y 0).val) (h1 : (i 1).val = off 1 + (y 1).val) :
    (V.slice (Rect.unit off size inb)).read Val f y = V.read Val f i := by
  have hi : (Rect.unit (s := ⟨2, ![N0, N1]⟩) off size inb).emb y = i :=
    Shape.idx_ext₂ (by rw [Rect.emb_apply, Rect.off_unit, Rect.stride_unit, Nat.one_mul, h0])
      (by rw [Rect.emb_apply, Rect.off_unit, Rect.stride_unit, Nat.one_mul, h1])
  show _root_.cast _ (f (V.emb ((Rect.unit off size inb).emb y))) = _root_.cast _ (f (V.emb i))
  rw [hi]

theorem land_read_squeezed₃ {N0 N1 N2 a b : ℕ} (V : View sig' κ sp ⟨3, ![N0, N1, N2]⟩ e) (off : Fin 3 → ℕ)
    (inb : ∀ k, off k + (![1, a, b] : Fin 3 → ℕ) k ≤ (⟨3, ![N0, N1, N2]⟩ : Shape).size k)
    (hn : (⟨2, ![a, b]⟩ : Shape).numel = (⟨3, ![1, a, b]⟩ : Shape).numel)
    (f : V.ty.Contents Val) (y : (⟨2, ![a, b]⟩ : Shape).Idx) (i : (⟨3, ![N0, N1, N2]⟩ : Shape).Idx)
    (h0 : (i 0).val = off 0) (h1 : (i 1).val = off 1 + (y 0).val) (h2 : (i 2).val = off 2 + (y 1).val) :
    ((V.slice (Rect.unit off ![1, a, b] inb)).reshape ⟨2, ![a, b]⟩ hn).read Val f y = V.read Val f i := by
  have hy : Shape.reshapeEquiv hn y = ix3 (⟨0, Nat.one_pos⟩ : Fin 1) (y 0) (y 1) :=
    (congrArg _ (eq_ix2 y)).trans (reshapeEquiv_ix2_1ab hn (y 0) (y 1))
  have c0 : ((Shape.reshapeEquiv hn y) 0 : ℕ) = 0 :=
    congrArg (fun j : (⟨3, ![1, a, b]⟩ : Shape).Idx => ((j 0 : Fin _) : ℕ)) hy
  have c1 : ((Shape.reshapeEquiv hn y) 1 : ℕ) = (y 0 : ℕ) :=
    congrArg (fun j : (⟨3, ![1, a, b]⟩ : Shape).Idx => ((j 1 : Fin _) : ℕ)) hy
  have c2 : ((Shape.reshapeEquiv hn y) 2 : ℕ) = (y 1 : ℕ) :=
    congrArg (fun j : (⟨3, ![1, a, b]⟩ : Shape).Idx => ((j 2 : Fin _) : ℕ)) hy
  have hi : (Rect.unit (s := ⟨3, ![N0, N1, N2]⟩) off ![1, a, b] inb).emb (Shape.reshapeEquiv hn y) = i :=
    land_idx_ext₃
      (show off 0 + 1 * ((Shape.reshapeEquiv hn y) 0 : ℕ) = (i 0 : ℕ) by rw [c0, h0, Nat.mul_zero, Nat.add_zero])
      (show off 1 + 1 * ((Shape.reshapeEquiv hn y) 1 : ℕ) = (i 1 : ℕ) by rw [c1, h1, Nat.one_mul])
      (show off 2 + 1 * ((Shape.reshapeEquiv hn y) 2 : ℕ) = (i 2 : ℕ) by rw [c2, h2, Nat.one_mul])
  show _root_.cast _ (f (V.emb ((Rect.unit off ![1, a, b] inb).emb (Shape.reshapeEquiv hn y))))
    = _root_.cast _ (f (V.emb i))
  rw [hi]

end General

variable {F : FTy → Type} [FloatOps F]

local notation "𝕄" => MT nD τ sig Unit (Elt F) ℕ UU ℕ

variable (m : (ℓ : Loc nD τ sig) → Buf (Elt F) ℓ) (ρ : Dev nD → PrngReg)

theorem land_read_w16H0 (f : Vec F S4096x512 .bf16) (y : S4096x256.Idx) (z : Fin 512) (hz : z.val = 0 + (y 1).val) :
    w16H0.view.read (Elt F) f y = f (ix2 (y 0) z) :=
  land_read_slice₂ (Val := Elt F) (N0 := 4096) (N1 := 512) (View.whole cc0_scratch0) ![0, 0] S4096x256.size
    inb_S4096x512_S4096x256_0_0 f y (ix2 (y 0) z) (Nat.zero_add _).symm hz
theorem land_read_w16H1 (f : Vec F S4096x512 .bf16) (y : S4096x256.Idx) (z : Fin 512) (hz : z.val = 256 + (y 1).val) :
    w16H1.view.read (Elt F) f y = f (ix2 (y 0) z) :=
  land_read_slice₂ (Val := Elt F) (N0 := 4096) (N1 := 512) (View.whole cc0_scratch0) ![0, 256] S4096x256.size
    inb_S4096x512_S4096x256_0_256 f y (ix2 (y 0) z) (Nat.zero_add _).symm hz
theorem land_read_farH0 (f : Vec F S4096x512 .bf16) (y : S4096x256.Idx) (z : Fin 512) (hz : z.val = 0 + (y 1).val) :
    farH0.view.read (Elt F) f y = f (ix2 (y 0) z) :=
  land_read_slice₂ (Val := Elt F) (N0 := 4096) (N1 := 512) (View.whole cc0_scratch3) ![0, 0] S4096x256.size
    inb_S4096x512_S4096x256_0_0 f y (ix2 (y 0) z) (Nat.zero_add _).symm hz
theorem land_read_farH1 (f : Vec F S4096x512 .bf16) (y : S4096x256.Idx) (z : Fin 512) (hz : z.val = 256 + (y 1).val) :
    farH1.view.read (Elt F) f y = f (ix2 (y 0) z) :=
  land_read_slice₂ (Val := Elt F) (N0 := 4096) (N1 := 512) (View.whole cc0_scratch3) ![0, 256] S4096x256.size
    inb_S4096x512_S4096x256_0_256 f y (ix2 (y 0) z) (Nat.zero_add _).symm hz

theorem land_read_relayL0 (f : Vec F S2x4096x512 .bf16) (y : S4096x256.Idx) (z : Fin 512) (hz : z.val = 0 + (y 1).val) :
    relayL0.view.read (Elt F) f y = f (ix3 (0 : Fin 2) (y 0) z) :=
  land_read_squeezed₃ (Val := Elt F) (N0 := 2) (N1 := 4096) (N2 := 512) (a := 4096) (b := 256) (View.whole main_v1_1)
    ![0, 0, 0] inb_S2x4096x512_S1x4096x256_0_0_0 _ f y (ix3 (0 : Fin 2) (y 0) z) rfl (Nat.zero_add _).symm hz
theorem land_read_relayL1 (f : Vec F S2x4096x512 .bf16) (y : S4096x256.Idx) (z : Fin 512) (hz : z.val = 256 + (y 1).val) :
    relayL1.view.read (Elt F) f y = f (ix3 (0 : Fin 2) (y 0) z) :=
  land_read_squeezed₃ (Val := Elt F) (N0 := 2) (N1 := 4096) (N2 := 512) (a := 4096) (b := 256) (View.whole main_v1_1)
    ![0, 0, 256] inb_S2x4096x512_S1x4096x256_0_0_256 _ f y (ix3 (0 : Fin 2) (y 0) z) rfl (Nat.zero_add _).symm hz
theorem land_read_relayR0 (f : Vec F S2x4096x512 .bf16) (y : S4096x256.Idx) (z : Fin 512) (hz : z.val = 0 + (y 1).val) :
    relayR0.view.read (Elt F) f y = f (ix3 (1 : Fin 2) (y 0) z) :=
  land_read_squeezed₃ (Val := Elt F) (N0 := 2) (N1 := 4096) (N2 := 512) (a := 4096) (b := 256) (View.whole main_v1_1)
    ![1, 0, 0] inb_S2x4096x512_S1x4096x256_1_0_0 _ f y (ix3 (1 : Fin 2) (y 0) z) rfl (Nat.zero_add _).symm hz
theorem land_read_relayR1 (f : Vec F S2x4096x512 .bf16) (y : S4096x256.Idx) (z : Fin 512) (hz : z.val = 256 + (y 1).val) :
    relayR1.view.read (Elt F) f y = f (ix3 (1 : Fin 2) (y 0) z) :=
  land_read_squeezed₃ (Val := Elt F) (N0 := 2) (N1 := 4096) (N2 := 512) (a := 4096) (b := 256) (View.whole main_v1_1)
    ![1, 0, 256] inb_S2x4096x512_S1x4096x256_1_0_256 _ f y (ix3 (1 : Fin 2) (y 0) z) rfl (Nat.zero_add _).symm hz

theorem land_read_made0 (f : Vec F S3x1024x512 .bf16) (y : S1024x512.Idx) :
    made0.view.read (Elt F) f y = f (ix3 (0 : Fin 3) (y 0) (y 1)) :=
  land_read_squeezed₃ (Val := Elt F) (N0 := 3) (N1 := 1024) (N2 := 512) (a := 1024) (b := 512) (View.whole cc0_scratch5)
    ![0, 0, 0] inb_S3x1024x512_S1x1024x512_0_0_0 _ f y (ix3 (0 : Fin 3) (y 0) (y 1)) rfl (Nat.zero_add _).symm
    (Nat.zero_add _).symm
theorem land_read_made1 (f : Vec F S3x1024x512 .bf16) (y : S1024x512.Idx) :
    made1.view.read (Elt F) f y = f (ix3 (1 : Fin 3) (y 0) (y 1)) :=
  land_read_squeezed₃ (Val := Elt F) (N0 := 3) (N1 := 1024) (N2 := 512) (a := 1024) (b := 512) (View.whole cc0_scratch5)
    ![1, 0, 0] inb_S3x1024x512_S1x1024x512_1_0_0 _ f y (ix3 (1 : Fin 3) (y 0) (y 1)) rfl (Nat.zero_add _).symm
    (Nat.zero_add _).symm
theorem land_read_made2 (f : Vec F S3x1024x512 .bf16) (y : S1024x512.Idx) :
    made2.view.read (Elt F) f y = f (ix3 (2 : Fin 3) (y 0) (y 1)) :=
  land_read_squeezed₃ (Val := Elt F) (N0 := 3) (N1 := 1024) (N2 := 512) (a := 1024) (b := 512) (View.whole cc0_scratch5)
    ![2, 0, 0] inb_S3x1024x512_S1x1024x512_2_0_0 _ f y (ix3 (2 : Fin 3) (y 0) (y 1)) rfl (Nat.zero_add _).symm
    (Nat.zero_add _).symm
theorem land_read_got0 (f : Vec F S3x1024x512 .bf16) (y : S1024x512.Idx) :
    got0.view.read (Elt F) f y = f (ix3 (0 : Fin 3) (y 0) (y 1)) :=
  land_read_squeezed₃ (Val := Elt F) (N0 := 3) (N1 := 1024) (N2 := 512) (a := 1024) (b := 512) (View.whole cc0_scratch6)
    ![0, 0, 0] inb_S3x1024x512_S1x1024x512_0_0_0 _ f y (ix3 (0 : Fin 3) (y 0) (y 1)) rfl (Nat.zero_add _).symm
    (Nat.zero_add _).symm
theorem land_read_got1 (f : Vec F S3x1024x512 .bf16) (y : S1024x512.Idx) :
    got1.view.read (Elt F) f y = f (ix3 (1 : Fin 3) (y 0) (y 1)) :=
  land_read_squeezed₃ (Val := Elt F) (N0 := 3) (N1 := 1024) (N2 := 512) (a := 1024) (b := 512) (View.whole cc0_scratch6)
    ![1, 0, 0] inb_S3x1024x512_S1x1024x512_1_0_0 _ f y (ix3 (1 : Fin 3) (y 0) (y 1)) rfl (Nat.zero_add _).symm
    (Nat.zero_add _).symm
theorem land_read_got2 (f : Vec F S3x1024x512 .bf16) (y : S1024x512.Idx) :
    got2.view.read (Elt F) f y = f (ix3 (2 : Fin 3) (y 0) (y 1)) :=
  land_read_squeezed₃ (Val := Elt F) (N0 := 3) (N1 := 1024) (N2 := 512) (a := 1024) (b := 512) (View.whole cc0_scratch6)
    ![2, 0, 0] inb_S3x1024x512_S1x1024x512_2_0_0 _ f y (ix3 (2 : Fin 3) (y 0) (y 1)) rfl (Nat.zero_add _).symm
    (Nat.zero_add _).symm

theorem land_relayC_slot0 (c : Dev nD) (a : Fin 4096) (b : Fin 512) :
    relayC m c (ix3 (0 : Fin 2) a b) = w16 m (lft c) (ix2 a b) := if_pos rfl
theorem land_relayC_slot1 (c : Dev nD) (a : Fin 4096) (b : Fin 512) :
    relayC m c (ix3 (1 : Fin 2) a b) = w16 m (rgt c) (ix2 a b) :=
  if_neg (show ¬ ((1 : Fin 2) : ℕ) = 0 by decide)

theorem land_gotC_slot0 (c : Dev nD) (a : Fin 1024) (b : Fin 512) :
    gotC m c (ix3 (0 : Fin 3) a b) = madeC m (rgt c) (ix3 (0 : Fin 3) a b) := if_pos rfl
theorem land_gotC_slot1 (c : Dev nD) (a : Fin 1024) (b : Fin 512) :
    gotC m c (ix3 (1 : Fin 3) a b) = madeC m (lft c) (ix3 (1 : Fin 3) a b) :=
  (if_neg (show ¬ ((1 : Fin 3) : ℕ) = 0 by decide)).trans (if_pos rfl)
theorem land_gotC_slot2 (c : Dev nD) (a : Fin 1024) (b : Fin 512) :
    gotC m c (ix3 (2 : Fin 3) a b) = madeC m (opp c) (ix3 (2 : Fin 3) a b) :=
  (if_neg (show ¬ ((2 : Fin 3) : ℕ) = 0 by decide)).trans (if_neg (show ¬ ((2 : Fin 3) : ℕ) = 1 by decide))

theorem land_opp_rgt (c : Dev nD) : opp (rgt c) = lft c := by revert c; decide
theorem land_opp_lft (c : Dev nD) : opp (lft c) = rgt c := by revert c; decide

theorem land_to {sp sp' : Space} {s : Shape} {e : EltTy} (T : Dev nD) (dst : Memref sig .tc sp' s e) (src : Memref sig .tc sp s e)
    (fd g : Buf (Elt F) (dst.view.loc (T : Thread nD τ))) (fs : src.view.ty.Contents (Elt F))
    (h : ∀ y : s.Idx, dst.view.read (Elt F) g y = src.view.read (Elt F) fs y) :
    holdsAt T dst fullShare (dst.view.write (Elt F) fd (src.view.read (Elt F) fs) Finset.univ) ⊢ holdsAt T dst fullShare g :=
  Entails.of_eq (land_eq (c' := (T : Thread nD τ)) dst.view src.view fullShare fd g fs h)

theorem land0 (c : Dev nD) (fd : Buf (Elt F) (relayL0.view.loc (rgt c : Thread nD τ))) :
    holdsAt (rgt c) relayL0 fullShare (relayL0.view.write (Elt F) fd (w16H0.view.read (Elt F) (w16 m c)) Finset.univ)
      ⊢ recvPay m (rgt c) 0 := by
  refine land_to (rgt c) relayL0 w16H0 fd (relayC m (rgt c)) (w16 m c) fun y => ?_
  have hz : 0 + (y 1).val < 512 := by have := idx2_lt1 y; omega
  refine (land_read_relayL0 (relayC m (rgt c)) y ⟨_, hz⟩ rfl).trans (Eq.trans ?_ (land_read_w16H0 (w16 m c) y ⟨_, hz⟩ rfl).symm)
  exact (land_relayC_slot0 m (rgt c) (y 0) _).trans (congrArg (fun d => w16 m d (ix2 (y 0) (⟨0 + (y 1).val, hz⟩ : Fin 512))) (lft_rgt c))
theorem land1 (c : Dev nD) (fd : Buf (Elt F) (relayL1.view.loc (rgt c : Thread nD τ))) :
    holdsAt (rgt c) relayL1 fullShare (relayL1.view.write (Elt F) fd (w16H1.view.read (Elt F) (w16 m c)) Finset.univ)
      ⊢ recvPay m (rgt c) 1 := by
  refine land_to (rgt c) relayL1 w16H1 fd (relayC m (rgt c)) (w16 m c) fun y => ?_
  have hz : 256 + (y 1).val < 512 := by have := idx2_lt1 y; omega
  refine (land_read_relayL1 (relayC m (rgt c)) y ⟨_, hz⟩ rfl).trans (Eq.trans ?_ (land_read_w16H1 (w16 m c) y ⟨_, hz⟩ rfl).symm)
  exact (land_relayC_slot0 m (rgt c) (y 0) _).trans (congrArg (fun d => w16 m d (ix2 (y 0) (⟨256 + (y 1).val, hz⟩ : Fin 512))) (lft_rgt c))
theorem land2 (c : Dev nD) (fd : Buf (Elt F) (relayR0.view.loc (lft c : Thread nD τ))) :
    holdsAt (lft c) relayR0 fullShare (relayR0.view.write (Elt F) fd (w16H0.view.read (Elt F) (w16 m c)) Finset.univ)
      ⊢ recvPay m (lft c) 2 := by
  refine land_to (lft c) relayR0 w16H0 fd (relayC m (lft c)) (w16 m c) fun y => ?_
  have hz : 0 + (y 1).val < 512 := by have := idx2_lt1 y; omega
  refine (land_read_relayR0 (relayC m (lft c)) y ⟨_, hz⟩ rfl).trans (Eq.trans ?_ (land_read_w16H0 (w16 m c) y ⟨_, hz⟩ rfl).symm)
  exact (land_relayC_slot1 m (lft c) (y 0) _).trans (congrArg (fun d => w16 m d (ix2 (y 0) (⟨0 + (y 1).val, hz⟩ : Fin 512))) (rgt_lft c))
theorem land3 (c : Dev nD) (fd : Buf (Elt F) (relayR1.view.loc (lft c : Thread nD τ))) :
    holdsAt (lft c) relayR1 fullShare (relayR1.view.write (Elt F) fd (w16H1.view.read (Elt F) (w16 m c)) Finset.univ)
      ⊢ recvPay m (lft c) 3 := by
  refine land_to (lft c) relayR1 w16H1 fd (relayC m (lft c)) (w16 m c) fun y => ?_
  have hz : 256 + (y 1).val < 512 := by have := idx2_lt1 y; omega
  refine (land_read_relayR1 (relayC m (lft c)) y ⟨_, hz⟩ rfl).trans (Eq.trans ?_ (land_read_w16H1 (w16 m c) y ⟨_, hz⟩ rfl).symm)
  exact (land_relayC_slot1 m (lft c) (y 0) _).trans (congrArg (fun d => w16 m d (ix2 (y 0) (⟨256 + (y 1).val, hz⟩ : Fin 512))) (rgt_lft c))
theorem land4 (c : Dev nD) (fd : Buf (Elt F) (farH0.view.loc (rgt c : Thread nD τ))) :
    holdsAt (rgt c) farH0 fullShare (farH0.view.write (Elt F) fd (relayL0.view.read (Elt F) (relayC m c)) Finset.univ)
      ⊢ recvPay m (rgt c) 4 := by
  refine land_to (rgt c) farH0 relayL0 fd (farC m (rgt c)) (relayC m c) fun y => ?_
  have hz : 0 + (y 1).val < 512 := by have := idx2_lt1 y; omega
  refine (land_read_farH0 (farC m (rgt c)) y ⟨_, hz⟩ rfl).trans (Eq.trans ?_ (land_read_relayL0 (relayC m c) y ⟨_, hz⟩ rfl).symm)
  exact (congrArg (fun d => w16 m d (ix2 (y 0) (⟨0 + (y 1).val, hz⟩ : Fin 512))) (land_opp_rgt c)).trans (land_relayC_slot0 m c (y 0) _).symm
theorem land5 (c : Dev nD) (fd : Buf (Elt F) (farH1.view.loc (lft c : Thread nD τ))) :
    holdsAt (lft c) farH1 fullShare (farH1.view.write (Elt F) fd (relayR1.view.read (Elt F) (relayC m c)) Finset.univ)
      ⊢ recvPay m (lft c) 5 := by
  refine land_to (lft c) farH1 relayR1 fd (farC m (lft c)) (relayC m c) fun y => ?_
  have hz : 256 + (y 1).val < 512 := by have := idx2_lt1 y; omega
  refine (land_read_farH1 (farC m (lft c)) y ⟨_, hz⟩ rfl).trans (Eq.trans ?_ (land_read_relayR1 (relayC m c) y ⟨_, hz⟩ rfl).symm)
  exact (congrArg (fun d => w16 m d (ix2 (y 0) (⟨256 + (y 1).val, hz⟩ : Fin 512))) (land_opp_lft c)).trans (land_relayC_slot1 m c (y 0) _).symm
theorem land6 (c : Dev nD) (fd : Buf (Elt F) (got0.view.loc (lft c : Thread nD τ))) :
    holdsAt (lft c) got0 fullShare (got0.view.write (Elt F) fd (made0.view.read (Elt F) (madeC m c)) Finset.univ)
      ⊢ recvPay m (lft c) 6 := by
  refine land_to (lft c) got0 made0 fd (gotC m (lft c)) (madeC m c) fun y => ?_
  refine (land_read_got0 (gotC m (lft c)) y).trans (Eq.trans ?_ (land_read_made0 (madeC m c) y).symm)
  exact (land_gotC_slot0 m (lft c) (y 0) (y 1)).trans (congrArg (fun d => madeC m d (ix3 (0 : Fin 3) (y 0) (y 1))) (rgt_lft c))
theorem land7 (c : Dev nD) (fd : Buf (Elt F) (got1.view.loc (rgt c : Thread nD τ))) :
    holdsAt (rgt c) got1 fullShare (got1.view.write (Elt F) fd (made1.view.read (Elt F) (madeC m c)) Finset.univ)
      ⊢ recvPay m (rgt c) 7 := by
  refine land_to (rgt c) got1 made1 fd (gotC m (rgt c)) (madeC m c) fun y => ?_
  refine (land_read_got1 (gotC m (rgt c)) y).trans (Eq.trans ?_ (land_read_made1 (madeC m c) y).symm)
  exact (land_gotC_slot1 m (rgt c) (y 0) (y 1)).trans (congrArg (fun d => madeC m d (ix3 (1 : Fin 3) (y 0) (y 1))) (lft_rgt c))
theorem land8 (c : Dev nD) (fd : Buf (Elt F) (got2.view.loc (opp c : Thread nD τ))) :
    holdsAt (opp c) got2 fullShare (got2.view.write (Elt F) fd (made2.view.read (Elt F) (madeC m c)) Finset.univ)
      ⊢ recvPay m (opp c) 8 := by
  refine land_to (opp c) got2 made2 fd (gotC m (opp c)) (madeC m c) fun y => ?_
  refine (land_read_got2 (gotC m (opp c)) y).trans (Eq.trans ?_ (land_read_made2 (madeC m c) y).symm)
  exact (land_gotC_slot2 m (opp c) (y 0) (y 1)).trans (congrArg (fun d => madeC m d (ix3 (2 : Fin 3) (y 0) (y 1))) (opp_opp c))

end Cert.KernelIdeal.P

end
-- ==== Proof.KI.Carve.lean ====
/- Buffers cut along the rectangles that the transfers and stores name, and joined again: the rectangles are disjoint and cover. -/
import proofs.«900495_g7700000000000496_dist_ag_gemm_m4096_k4096_n2048_f32_gelu_v7x_i4_1_alg».proof.Proof.KI.Sched
import Idealize.ShloMosaic.Lib.Pipeline.Value

noncomputable section

namespace Cert.KernelIdeal.P

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Carve
variable (c : Dev nD)

namespace Carve

theorem eq_of_bi {P Q : sProp 𝕄} (h : P ⊣⊢ Q) : P = Q := BI.equiv_iff.mp ⟨h.1, h.2⟩

theorem pt_union {ℓ : Loc nD τ sig} {q : PosShare TreeShare} {f : Buf (Elt F) ℓ} {A B : Finset (Idx ℓ)}
    (h : Disjoint A B) :
    ((ℓ ↦[A ∪ B]{q} f) : sProp 𝕄) = iprop((ℓ ↦[A]{q} f) ∗ ℓ ↦[B]{q} f) :=
  eq_of_bi (pointsTo_union h)

theorem pt_halve {ℓ : Loc nD τ sig} (q : PosShare TreeShare) {f : Buf (Elt F) ℓ} {A : Finset (Idx ℓ)} :
    ((ℓ ↦[A]{q} f) : sProp 𝕄) = iprop((ℓ ↦[A]{q.left} f) ∗ ℓ ↦[A]{q.right} f) :=
  eq_of_bi (pointsTo_share (PosShare.mem_left_op_right q))

theorem forall_fin3 {p : Fin 3 → Prop} : (∀ a, p a) ↔ p 0 ∧ p 1 ∧ p 2 :=
  ⟨fun h => ⟨h 0, h 1, h 2⟩, fun ⟨h0, h1, h2⟩ a => match a with | ⟨0, _⟩ => h0 | ⟨1, _⟩ => h1 | ⟨2, _⟩ => h2⟩

theorem quarter_shares {ℓ : Loc nD τ sig} {A B : Finset (Idx ℓ)} (hd : Disjoint A B) (hu : A ∪ B = Finset.univ)
    (f : Buf (Elt F) ℓ) :
    ((ℓ ↦{fullShare} f) : sProp 𝕄)
      ⊣⊢ iprop((ℓ ↦{fullShare.left} f) ∗ (ℓ ↦[A]{fullShare.right.left} f) ∗ (ℓ ↦[A]{fullShare.right.right} f)
          ∗ (ℓ ↦[B]{fullShare.right.left} f) ∗ (ℓ ↦[B]{fullShare.right.right} f)) := by
  refine .of_eq ?_
  have e2 : ((ℓ ↦{fullShare.right} f) : sProp 𝕄) = iprop((ℓ ↦[A]{fullShare.right} f) ∗ ℓ ↦[B]{fullShare.right} f) := by
    rw [← pt_union hd, hu]
  rw [pt_halve fullShare (A := Finset.univ), e2, pt_halve fullShare.right (A := A), pt_halve fullShare.right (A := B),
    eq_of_bi Laws.sep_assoc]

abbrev colLo : Rect S4096x512 := Rect.unit (s := S4096x512) ![0, 0] S4096x256.size inb_S4096x512_S4096x256_0_0
abbrev colHi : Rect S4096x512 := Rect.unit (s := S4096x512) ![0, 256] S4096x256.size inb_S4096x512_S4096x256_0_256

theorem w16H0_set : w16H0.view.set = colLo.set := View.set_slice_whole _ _
theorem w16H1_set : w16H1.view.set = colHi.set := View.set_slice_whole _ _
theorem farH0_set : farH0.view.set = colLo.set := View.set_slice_whole _ _
theorem farH1_set : farH1.view.set = colHi.set := View.set_slice_whole _ _

theorem col_union : colLo.set ∪ colHi.set = Finset.univ := by
  ext i
  simp only [Finset.mem_union, Rect.mem_set_unit, Finset.mem_univ, iff_true, Fin.forall_fin_two]
  have h0 : (i 0).val < 4096 := (i 0).isLt
  have h1 : (i 1).val < 512 := (i 1).isLt
  show ((0 ≤ (i 0).val ∧ (i 0).val < 0 + 4096) ∧ (0 ≤ (i 1).val ∧ (i 1).val < 0 + 256))
    ∨ ((0 ≤ (i 0).val ∧ (i 0).val < 0 + 4096) ∧ (256 ≤ (i 1).val ∧ (i 1).val < 256 + 256))
  omega

theorem col_disjoint : Disjoint colLo.set colHi.set := Rect.unit_disjoint 1 (Or.inl (by decide))

abbrev qLL : Rect S2x4096x512 := Rect.unit (s := S2x4096x512) ![0, 0, 0] S1x4096x256.size inb_S2x4096x512_S1x4096x256_0_0_0
abbrev qLH : Rect S2x4096x512 := Rect.unit (s := S2x4096x512) ![0, 0, 256] S1x4096x256.size inb_S2x4096x512_S1x4096x256_0_0_256
abbrev qRL : Rect S2x4096x512 := Rect.unit (s := S2x4096x512) ![1, 0, 0] S1x4096x256.size inb_S2x4096x512_S1x4096x256_1_0_0
abbrev qRH : Rect S2x4096x512 := Rect.unit (s := S2x4096x512) ![1, 0, 256] S1x4096x256.size inb_S2x4096x512_S1x4096x256_1_0_256

theorem relayL0_set : relayL0.view.set = qLL.set :=
  (Memref.set_view_squeeze _ _).trans (View.set_slice_whole _ _)
theorem relayL1_set : relayL1.view.set = qLH.set :=
  (Memref.set_view_squeeze _ _).trans (View.set_slice_whole _ _)
theorem relayR0_set : relayR0.view.set = qRL.set :=
  (Memref.set_view_squeeze _ _).trans (View.set_slice_whole _ _)
theorem relayR1_set : relayR1.view.set = qRH.set :=
  (Memref.set_view_squeeze _ _).trans (View.set_slice_whole _ _)

theorem quarters_union : qLL.set ∪ (qLH.set ∪ (qRL.set ∪ qRH.set)) = Finset.univ := by
  ext i
  simp only [Finset.mem_union, Rect.mem_set_unit, Finset.mem_univ, iff_true, forall_fin3]
  have h0 : (i 0).val < 2 := (i 0).isLt
  have h1 : (i 1).val < 4096 := (i 1).isLt
  have h2 : (i 2).val < 512 := (i 2).isLt
  show ((0 ≤ (i 0).val ∧ (i 0).val < 0 + 1) ∧ (0 ≤ (i 1).val ∧ (i 1).val < 0 + 4096) ∧ (0 ≤ (i 2).val ∧ (i 2).val < 0 + 256))
    ∨ ((0 ≤ (i 0).val ∧ (i 0).val < 0 + 1) ∧ (0 ≤ (i 1).val ∧ (i 1).val < 0 + 4096) ∧ (256 ≤ (i 2).val ∧ (i 2).val < 256 + 256))
    ∨ ((1 ≤ (i 0).val ∧ (i 0).val < 1 + 1) ∧ (0 ≤ (i 1).val ∧ (i 1).val < 0 + 4096) ∧ (0 ≤ (i 2).val ∧ (i 2).val < 0 + 256))
    ∨ ((1 ≤ (i 0).val ∧ (i 0).val < 1 + 1) ∧ (0 ≤ (i 1).val ∧ (i 1).val < 0 + 4096) ∧ (256 ≤ (i 2).val ∧ (i 2).val < 256 + 256))
  omega

theorem quarters_disjoint : Disjoint qLL.set (qLH.set ∪ (qRL.set ∪ qRH.set)) ∧ Disjoint qLH.set (qRL.set ∪ qRH.set)
    ∧ Disjoint qRL.set qRH.set :=
  ⟨Finset.disjoint_union_right.mpr ⟨Rect.unit_disjoint 2 (Or.inl (by decide)),
      Finset.disjoint_union_right.mpr ⟨Rect.unit_disjoint 0 (Or.inl (by decide)), Rect.unit_disjoint 0 (Or.inl (by decide))⟩⟩,
    Finset.disjoint_union_right.mpr ⟨Rect.unit_disjoint 0 (Or.inl (by decide)), Rect.unit_disjoint 0 (Or.inl (by decide))⟩,
    Rect.unit_disjoint 2 (Or.inl (by decide))⟩

abbrev slot0 : Rect S3x1024x512 := Rect.unit (s := S3x1024x512) ![0, 0, 0] S1x1024x512.size inb_S3x1024x512_S1x1024x512_0_0_0
abbrev slot1 : Rect S3x1024x512 := Rect.unit (s := S3x1024x512) ![1, 0, 0] S1x1024x512.size inb_S3x1024x512_S1x1024x512_1_0_0
abbrev slot2 : Rect S3x1024x512 := Rect.unit (s := S3x1024x512) ![2, 0, 0] S1x1024x512.size inb_S3x1024x512_S1x1024x512_2_0_0

theorem made0_set : made0.view.set = slot0.set :=
  (Memref.set_view_squeeze _ _).trans (View.set_slice_whole _ _)
theorem made1_set : made1.view.set = slot1.set :=
  (Memref.set_view_squeeze _ _).trans (View.set_slice_whole _ _)
theorem made2_set : made2.view.set = slot2.set :=
  (Memref.set_view_squeeze _ _).trans (View.set_slice_whole _ _)
theorem got0_set : got0.view.set = slot0.set :=
  (Memref.set_view_squeeze _ _).trans (View.set_slice_whole _ _)
theorem got1_set : got1.view.set = slot1.set :=
  (Memref.set_view_squeeze _ _).trans (View.set_slice_whole _ _)
theorem got2_set : got2.view.set = slot2.set :=
  (Memref.set_view_squeeze _ _).trans (View.set_slice_whole _ _)

theorem slots_union : slot0.set ∪ (slot1.set ∪ slot2.set) = Finset.univ := by
  ext i
  simp only [Finset.mem_union, Rect.mem_set_unit, Finset.mem_univ, iff_true, forall_fin3]
  have h0 : (i 0).val < 3 := (i 0).isLt
  have h1 : (i 1).val < 1024 := (i 1).isLt
  have h2 : (i 2).val < 512 := (i 2).isLt
  show ((0 ≤ (i 0).val ∧ (i 0).val < 0 + 1) ∧ (0 ≤ (i 1).val ∧ (i 1).val < 0 + 1024) ∧ (0 ≤ (i 2).val ∧ (i 2).val < 0 + 512))
    ∨ ((1 ≤ (i 0).val ∧ (i 0).val < 1 + 1) ∧ (0 ≤ (i 1).val ∧ (i 1).val < 0 + 1024) ∧ (0 ≤ (i 2).val ∧ (i 2).val < 0 + 512))
    ∨ ((2 ≤ (i 0).val ∧ (i 0).val < 2 + 1) ∧ (0 ≤ (i 1).val ∧ (i 1).val < 0 + 1024) ∧ (0 ≤ (i 2).val ∧ (i 2).val < 0 + 512))
  omega

theorem slots_disjoint : Disjoint slot0.set (slot1.set ∪ slot2.set) ∧ Disjoint slot1.set slot2.set :=
  ⟨Finset.disjoint_union_right.mpr ⟨Rect.unit_disjoint 0 (Or.inl (by decide)), Rect.unit_disjoint 0 (Or.inl (by decide))⟩,
    Rect.unit_disjoint 0 (Or.inl (by decide))⟩

end Carve

open Carve

theorem relay_carve (f : Buf (Elt F) ((c : Thread nD τ).loc main_v1_1)) :
    ((((c : Thread nD τ).loc main_v1_1) ↦{fullShare} f) : sProp 𝕄)
      ⊢ iprop(holdsAt c relayL0 fullShare f ∗ holdsAt c relayL1 fullShare f ∗ holdsAt c relayR0 fullShare f ∗ holdsAt c relayR1 fullShare f) := by
  unfold holdsAt
  rw [relayL0_set, relayL1_set, relayR0_set, relayR1_set, ← pt_union quarters_disjoint.2.2,
    ← pt_union quarters_disjoint.2.1, ← pt_union quarters_disjoint.1, quarters_union]

theorem far_split (f : Buf (Elt F) ((c : Thread nD τ).loc cc0_scratch3)) :
    ((((c : Thread nD τ).loc cc0_scratch3) ↦{fullShare} f) : sProp 𝕄)
      ⊣⊢ iprop(holdsAt c farH0 fullShare f ∗ holdsAt c farH1 fullShare f) := by
  unfold holdsAt
  rw [farH0_set, farH1_set, ← pt_union col_disjoint, col_union]

theorem got_split (f : Buf (Elt F) ((c : Thread nD τ).loc cc0_scratch6)) :
    ((((c : Thread nD τ).loc cc0_scratch6) ↦{fullShare} f) : sProp 𝕄)
      ⊣⊢ iprop(holdsAt c got0 fullShare f ∗ holdsAt c got1 fullShare f ∗ holdsAt c got2 fullShare f) := by
  unfold holdsAt
  rw [got0_set, got1_set, got2_set, ← pt_union slots_disjoint.2, ← pt_union slots_disjoint.1, slots_union]

theorem made_split (f : Buf (Elt F) ((c : Thread nD τ).loc cc0_scratch5)) :
    ((((c : Thread nD τ).loc cc0_scratch5) ↦{fullShare} f) : sProp 𝕄)
      ⊣⊢ iprop(holdsAt c made0 fullShare f ∗ holdsAt c made1 fullShare f ∗ holdsAt c made2 fullShare f) := by
  unfold holdsAt
  rw [made0_set, made1_set, made2_set, ← pt_union slots_disjoint.2, ← pt_union slots_disjoint.1, slots_union]

theorem w16_split (f : Buf (Elt F) ((c : Thread nD τ).loc cc0_scratch0)) :
    ((((c : Thread nD τ).loc cc0_scratch0) ↦{fullShare} f) : sProp 𝕄)
      ⊣⊢ iprop((((c : Thread nD τ).loc cc0_scratch0) ↦{fullShare.left} f)
          ∗ holdsAt c w16H0 fullShare.right.left f ∗ holdsAt c w16H0 fullShare.right.right f
          ∗ holdsAt c w16H1 fullShare.right.left f ∗ holdsAt c w16H1 fullShare.right.right f) := by
  unfold holdsAt
  rw [w16H0_set, w16H1_set]
  exact quarter_shares col_disjoint col_union f

theorem holds_halve {sp : Space} {s : Shape} {e : EltTy} (v : Memref sig .tc sp s e) (q : PosShare TreeShare)
    (f : Buf (Elt F) (v.view.loc (c : Thread nD τ))) :
    (holdsAt c v q f : sProp 𝕄) ⊣⊢ iprop(holdsAt c v q.left f ∗ holdsAt c v q.right f) :=
  pointsTo_share (PosShare.mem_left_op_right q)

end Carve

abbrev landS0 : Memref sig .tc .vmem S4096x256 .bf16 := (landA.slice (Rect.unit (s := S2x4096x256) ![0, 0, 0] S1x4096x256.size inb_S2x4096x256_S1x4096x256_0_0_0) (fun _ => rfl)).squeeze S4096x256 squeezes_S1x4096x256_S4096x256
abbrev landS1 : Memref sig .tc .vmem S4096x256 .bf16 := (landA.slice (Rect.unit (s := S2x4096x256) ![1, 0, 0] S1x4096x256.size inb_S2x4096x256_S1x4096x256_1_0_0) (fun _ => rfl)).squeeze S4096x256 squeezes_S1x4096x256_S4096x256

abbrev Carve.lslot0 : Rect S2x4096x256 := Rect.unit (s := S2x4096x256) ![0, 0, 0] S1x4096x256.size inb_S2x4096x256_S1x4096x256_0_0_0
abbrev Carve.lslot1 : Rect S2x4096x256 := Rect.unit (s := S2x4096x256) ![1, 0, 0] S1x4096x256.size inb_S2x4096x256_S1x4096x256_1_0_0

theorem Carve.land0_set : landS0.view.set = Carve.lslot0.set :=
  (Memref.set_view_squeeze _ _).trans (View.set_slice_whole _ _)
theorem Carve.land1_set : landS1.view.set = Carve.lslot1.set :=
  (Memref.set_view_squeeze _ _).trans (View.set_slice_whole _ _)

theorem Carve.lslots_union : Carve.lslot0.set ∪ Carve.lslot1.set = Finset.univ := by
  ext i
  simp only [Finset.mem_union, Rect.mem_set_unit, Finset.mem_univ, iff_true, Carve.forall_fin3]
  have h0 : (i 0).val < 2 := (i 0).isLt
  have h1 : (i 1).val < 4096 := (i 1).isLt
  have h2 : (i 2).val < 256 := (i 2).isLt
  show ((0 ≤ (i 0).val ∧ (i 0).val < 0 + 1) ∧ (0 ≤ (i 1).val ∧ (i 1).val < 0 + 4096) ∧ (0 ≤ (i 2).val ∧ (i 2).val < 0 + 256))
    ∨ ((1 ≤ (i 0).val ∧ (i 0).val < 1 + 1) ∧ (0 ≤ (i 1).val ∧ (i 1).val < 0 + 4096) ∧ (0 ≤ (i 2).val ∧ (i 2).val < 0 + 256))
  omega

theorem Carve.lslots_disjoint : Disjoint Carve.lslot0.set Carve.lslot1.set := Rect.unit_disjoint 0 (Or.inl (by decide))

theorem land_split (c : Dev nD) (f : Buf (Elt F) ((c : Thread nD τ).loc cc0_scratch4)) :
    ((((c : Thread nD τ).loc cc0_scratch4) ↦{fullShare} f) : sProp 𝕄)
      ⊣⊢ iprop(holdsAt c landS0 fullShare f ∗ holdsAt c landS1 fullShare f) := by
  unfold holdsAt
  rw [Carve.land0_set, Carve.land1_set, ← Carve.pt_union Carve.lslots_disjoint, Carve.lslots_union]

theorem land_join (c : Dev nD) (fA fB : Buf (Elt F) ((c : Thread nD τ).loc cc0_scratch4)) :
    (iprop(holdsAt c landS0 fullShare fA ∗ holdsAt c landS1 fullShare fB) : sProp 𝕄)
      ⊢ iprop(∃ f : Buf (Elt F) ((c : Thread nD τ).loc cc0_scratch4), ((c : Thread nD τ).loc cc0_scratch4) ↦{fullShare} f) := by
  unfold holdsAt
  rw [Carve.land0_set, Carve.land1_set]
  refine (pointsTo_join Carve.lslots_disjoint).trans ?_
  rw [Carve.lslots_union]
  iintro H
  iexists _
  iexact H

end Cert.KernelIdeal.P

end
-- ==== Proof.KI.Forms.lean ====
/- The weight block the body is given is the argument's, and the first store leaves its 16-bit form. -/
import proofs.«900495_g7700000000000496_dist_ag_gemm_m4096_k4096_n2048_f32_gelu_v7x_i4_1_alg».proof.Proof.KI.Data
import proofs.«900495_g7700000000000496_dist_ag_gemm_m4096_k4096_n2048_f32_gelu_v7x_i4_1_alg».proof.Proof.Gen.KernelIdeal.Skeleton

noncomputable section

namespace Cert.KernelIdeal.P

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem wStgC_eq (c : Dev nD) : wStgC m c = Wb m c := by
  have h0 : (fun a => (win0_0.index (0 : Fin 1)) a * main_arg1.ty.shape.size a) = fun _ => 0 :=
    funext fun a => by fin_cases a <;> decide
  exact Memref.read_access_unit_zero (Elt F) main_arg1 h0 (fun a => by fin_cases a <;> decide) (m ((c : Thread nD τ).loc main_arg1))

theorem off00 : (![0, 0] : Fin 2 → Nat) = fun _ => 0 := funext fun a => by fin_cases a <;> rfl

theorem form_w16 (c : Dev nD) (f0 : Buf (Elt F) ((c : Thread nD τ).loc cc0_scratch0)) :
    (View.whole cc0_scratch0).writes (Elt F) f0
      [⟨Rect.unit (s := S4096x512) ![0, 0] S4096x512.size inb_S4096x512_S4096x512_0_0,
        k0_pay1 (View.readAt (Elt F) (View.whole cc0_stg0_0)
          (Rect.unit (s := S4096x512) ![0, 0] S4096x512.size inb_S4096x512_S4096x512_0_0).toLoadRect (wStgC m c))⟩]
      = w16 m c := by
  have hr : View.readAt (Elt F) (View.whole cc0_stg0_0)
      (Rect.unit (s := S4096x512) ![0, 0] S4096x512.size inb_S4096x512_S4096x512_0_0).toLoadRect (wStgC m c) = Wb m c :=
    (Memref.readAt_unit_zero (Elt F) cc0_stg0_0 off00 _ (wStgC m c)).trans (wStgC_eq m c)
  rw [View.writes_singleton, hr]
  exact Memref.write_access_unit_zero_univ (Elt F) cc0_scratch0 off00 _ f0 _

end Cert.KernelIdeal.P

end
-- ==== Proof.KI.Reads.lean ====
/- Each quarter of the relay and each half of the far buffer reads a column half of a peer's 16-bit weight block. -/
import proofs.«900495_g7700000000000496_dist_ag_gemm_m4096_k4096_n2048_f32_gelu_v7x_i4_1_alg».proof.Proof.KI.Landings

noncomputable section

namespace Cert.KernelIdeal.P

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

theorem reads_col_lt (h : Fin 2) (y : S4096x256.Idx) : 256 * h.val + (y 1).val < 512 := by
  have := idx2_lt1 y; have := h.isLt; omega

theorem read_relayL0 (c : Dev nD) : relayL0.view.read (Elt F) (relayC m c) = colHalf (w16 m (lft c)) 0 :=
  funext fun y =>
    (land_read_relayL0 (relayC m c) y ⟨256 * ((0 : Fin 2) : ℕ) + (y 1).val, reads_col_lt 0 y⟩ rfl).trans
      (land_relayC_slot0 m c (y 0) _)
theorem read_relayL1 (c : Dev nD) : relayL1.view.read (Elt F) (relayC m c) = colHalf (w16 m (lft c)) 1 :=
  funext fun y =>
    (land_read_relayL1 (relayC m c) y ⟨256 * ((1 : Fin 2) : ℕ) + (y 1).val, reads_col_lt 1 y⟩ rfl).trans
      (land_relayC_slot0 m c (y 0) _)
theorem read_relayR0 (c : Dev nD) : relayR0.view.read (Elt F) (relayC m c) = colHalf (w16 m (rgt c)) 0 :=
  funext fun y =>
    (land_read_relayR0 (relayC m c) y ⟨256 * ((0 : Fin 2) : ℕ) + (y 1).val, reads_col_lt 0 y⟩ rfl).trans
      (land_relayC_slot1 m c (y 0) _)
theorem read_relayR1 (c : Dev nD) : relayR1.view.read (Elt F) (relayC m c) = colHalf (w16 m (rgt c)) 1 :=
  funext fun y =>
    (land_read_relayR1 (relayC m c) y ⟨256 * ((1 : Fin 2) : ℕ) + (y 1).val, reads_col_lt 1 y⟩ rfl).trans
      (land_relayC_slot1 m c (y 0) _)
theorem read_farH0 (c : Dev nD) : farH0.view.read (Elt F) (farC m c) = colHalf (w16 m (opp c)) 0 :=
  funext fun y => land_read_farH0 (farC m c) y ⟨256 * ((0 : Fin 2) : ℕ) + (y 1).val, reads_col_lt 0 y⟩ rfl
theorem read_farH1 (c : Dev nD) : farH1.view.read (Elt F) (farC m c) = colHalf (w16 m (opp c)) 1 :=
  funext fun y => land_read_farH1 (farC m c) y ⟨256 * ((1 : Fin 2) : ℕ) + (y 1).val, reads_col_lt 1 y⟩ rfl

end Cert.KernelIdeal.P

end
-- ==== Proof.KI.Slot0.lean ====
/- The three pieces a device makes. Each is four 512 x 256 tiles, gelu of a row half of the 16-bit x block times a column half of a peer's 16-bit weight block; on its slot the buffer the stores leave is the named piece. -/
import proofs.«900495_g7700000000000496_dist_ag_gemm_m4096_k4096_n2048_f32_gelu_v7x_i4_1_alg».proof.Proof.KI.Reads
import proofs.«900495_g7700000000000496_dist_ag_gemm_m4096_k4096_n2048_f32_gelu_v7x_i4_1_alg».proof.Proof.KI.Carve
import proofs.«900495_g7700000000000496_dist_ag_gemm_m4096_k4096_n2048_f32_gelu_v7x_i4_1_alg».proof.Proof.Gen.KernelIdeal.Skeleton

noncomputable section

namespace Cert.KernelIdeal.P

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Idealize.ShloMosaic.ValueIdx

abbrev XQ (F : FTy → Type) (c : Dev nD) : Type := Buf (Elt F) ((c : Thread nD τ).loc cc0_scratch2)
abbrev PB (F : FTy → Type) (c : Dev nD) : Type := Buf (Elt F) ((c : Thread nD τ).loc cc0_scratch5)

namespace Run0

def rowsOf (c : Dev nD) (o : ℕ) (inb : ∀ k, (![o, 0] : Fin 2 → ℕ) k + S256x4096.size k ≤ S1024x4096.size k) : S256x4096.Idx → Elt F .f32 :=
  ReadAs.same.apply (View.read (Elt F) (xA.slice (Rect.unit (s := S1024x4096) ![o, 0] S256x4096.size inb) (fun _ => rfl)).view (Xb m c))

def qload (g : xq.view.ty.Contents (Elt F)) :=
  View.readAt (Elt F) (Memref.whole cc0_scratch2).view (Rect.unit (s := S256x4096) ![0, 0] S256x4096.size inb_S256x4096_S256x4096_0_0).toLoadRect g

def q1 (c : Dev nD) (f2 : XQ F c) := View.write (Elt F) xq.view f2 (rowsOf m c 0 inb_S1024x4096_S256x4096_0_0) Finset.univ
def q2 (c : Dev nD) (f2 : XQ F c) := View.write (Elt F) xq.view (q1 m c f2) (rowsOf m c 256 inb_S1024x4096_S256x4096_256_0) Finset.univ
def q3 (c : Dev nD) (f2 : XQ F c) := View.write (Elt F) xq.view (q2 m c f2) (rowsOf m c 512 inb_S1024x4096_S256x4096_512_0) Finset.univ
def q4 (c : Dev nD) (f2 : XQ F c) := View.write (Elt F) xq.view (q3 m c f2) (rowsOf m c 768 inb_S1024x4096_S256x4096_768_0) Finset.univ

def V1_4 (c : Dev nD) (f2 : XQ F c) : List (View.Piece (Elt F) S1024x4096 .bf16) :=
  [⟨Rect.unit (s := S1024x4096) ![768, 0] S256x4096.size inb_S1024x4096_S256x4096_768_0, k0_pay5 (qload (q4 m c f2))⟩,
   ⟨Rect.unit (s := S1024x4096) ![512, 0] S256x4096.size inb_S1024x4096_S256x4096_512_0, k0_pay4 (qload (q3 m c f2))⟩,
   ⟨Rect.unit (s := S1024x4096) ![256, 0] S256x4096.size inb_S1024x4096_S256x4096_256_0, k0_pay3 (qload (q2 m c f2))⟩,
   ⟨Rect.unit (s := S1024x4096) ![0, 0] S256x4096.size inb_S1024x4096_S256x4096_0_0, k0_pay2 (qload (q1 m c f2))⟩]

def xrows (c : Dev nD) (f2 : XQ F c) (o : ℕ) (inb : ∀ k, (![o, 0] : Fin 2 → ℕ) k + S512x4096.size k ≤ S1024x4096.size k) :=
  (Memref.whole cc0_scratch1).view.readCov (V1_4 m c f2) (Rect.unit (s := S1024x4096) ![o, 0] S512x4096.size inb).toLoadRect
def xlo (c : Dev nD) (f2 : XQ F c) := xrows m c f2 0 inb_S1024x4096_S512x4096_0_0
def xhi (c : Dev nD) (f2 : XQ F c) := xrows m c f2 512 inb_S1024x4096_S512x4096_512_0

def cL0 (c : Dev nD) : S4096x256.Idx → Elt F .bf16 := ReadAs.same.apply (View.read (Elt F) relayL0.view (relayC m c))
def cL1 (c : Dev nD) : S4096x256.Idx → Elt F .bf16 := ReadAs.same.apply (View.read (Elt F) relayL1.view (relayC m c))
def cR0 (c : Dev nD) : S4096x256.Idx → Elt F .bf16 := ReadAs.same.apply (View.read (Elt F) relayR0.view (relayC m c))
def cR1 (c : Dev nD) : S4096x256.Idx → Elt F .bf16 := ReadAs.same.apply (View.read (Elt F) relayR1.view (relayC m c))

def ld0 (L : List (View.Piece (Elt F) S4096x256 .bf16)) :=
  View.readAt (Elt F) landA.view (Rect.unit (s := S2x4096x256) ![0, 0, 0] S1x4096x256.size inb_S2x4096x256_S1x4096x256_0_0_0).toLoadRect
    (landS0.view.writes (Elt F) landS0.view.junk L)
def ld1 (L : List (View.Piece (Elt F) S4096x256 .bf16)) :=
  View.readAt (Elt F) landA.view (Rect.unit (s := S2x4096x256) ![1, 0, 0] S1x4096x256.size inb_S2x4096x256_S1x4096x256_1_0_0).toLoadRect
    (landS1.view.writes (Elt F) landS1.view.junk L)

def wL0 (c : Dev nD) := ld0 [⟨Rect.whole S4096x256, cL0 m c⟩]
def wL1 (c : Dev nD) := ld0 [⟨Rect.whole S4096x256, cL1 m c⟩, ⟨Rect.whole S4096x256, cL0 m c⟩]
def wR0 (c : Dev nD) := ld1 [⟨Rect.whole S4096x256, cR0 m c⟩]
def wR1 (c : Dev nD) := ld1 [⟨Rect.whole S4096x256, cR1 m c⟩, ⟨Rect.whole S4096x256, cR0 m c⟩]

def wF0 (c : Dev nD) := View.readAt (Elt F) farA.view (Rect.unit (s := S4096x512) ![0, 0] S4096x256.size inb_S4096x512_S4096x256_0_0).toLoadRect (farC m c)
def wF1 (c : Dev nD) := View.readAt (Elt F) farA.view (Rect.unit (s := S4096x512) ![0, 256] S4096x256.size inb_S4096x512_S4096x256_0_256).toLoadRect (farC m c)

end Run0

open Run0

def made0L (c : Dev nD) (f2 : XQ F c) : List (View.Piece (Elt F) S3x1024x512 .bf16) :=
  [⟨Rect.unit (s := S3x1024x512) ![0, 512, 256] S1x512x256.size inb_S3x1024x512_S1x512x256_0_512_256, k0_pay23 (k0_pay20 (wL1 m c) (xhi m c f2)) (k0_pay21 (wL1 m c) (xhi m c f2)) k0_pay22⟩,
   ⟨Rect.unit (s := S3x1024x512) ![0, 0, 256] S1x512x256.size inb_S3x1024x512_S1x512x256_0_0_256, k0_pay18 (wL1 m c) (xlo m c f2)⟩,
   ⟨Rect.unit (s := S3x1024x512) ![0, 512, 0] S1x512x256.size inb_S3x1024x512_S1x512x256_0_512_0, k0_pay13 (k0_pay11 (wL0 m c) (xhi m c f2)) (k0_pay12 (wL0 m c) (xhi m c f2)) (FloatOps.ofBits FTy.f32 1065353216#32)⟩,
   ⟨Rect.unit (s := S3x1024x512) ![0, 0, 0] S1x512x256.size inb_S3x1024x512_S1x512x256_0_0_0, k0_pay9 (wL0 m c) (xlo m c f2)⟩]
def made1L (c : Dev nD) (f2 : XQ F c) : List (View.Piece (Elt F) S3x1024x512 .bf16) :=
  [⟨Rect.unit (s := S3x1024x512) ![1, 512, 256] S1x512x256.size inb_S3x1024x512_S1x512x256_1_512_256, k0_pay29 (k0_pay24 (wR1 m c)) (xhi m c f2)⟩,
   ⟨Rect.unit (s := S3x1024x512) ![1, 0, 256] S1x512x256.size inb_S3x1024x512_S1x512x256_1_0_256, k0_pay28 (k0_pay25 (wR1 m c) (xlo m c f2)) (k0_pay26 (wR1 m c) (xlo m c f2)) k0_pay27⟩,
   ⟨Rect.unit (s := S3x1024x512) ![1, 512, 0] S1x512x256.size inb_S3x1024x512_S1x512x256_1_512_0, k0_pay16 (wR0 m c) (xhi m c f2)⟩,
   ⟨Rect.unit (s := S3x1024x512) ![1, 0, 0] S1x512x256.size inb_S3x1024x512_S1x512x256_1_0_0, k0_pay15 (wR0 m c) (xlo m c f2)⟩]
def made2L (c : Dev nD) (f2 : XQ F c) : List (View.Piece (Elt F) S3x1024x512 .bf16) :=
  [⟨Rect.unit (s := S3x1024x512) ![2, 512, 256] S1x512x256.size inb_S3x1024x512_S1x512x256_2_512_256, k0_pay35 (wF1 m c) (xhi m c f2)⟩,
   ⟨Rect.unit (s := S3x1024x512) ![2, 0, 256] S1x512x256.size inb_S3x1024x512_S1x512x256_2_0_256, k0_pay34 (k0_pay32 (wF1 m c) (xlo m c f2)) (k0_pay33 (wF1 m c) (xlo m c f2)) (FloatOps.ofBits FTy.f32 1027024659#32)⟩,
   ⟨Rect.unit (s := S3x1024x512) ![2, 512, 0] S1x512x256.size inb_S3x1024x512_S1x512x256_2_512_0, k0_pay31 (wF0 m c) (xhi m c f2)⟩,
   ⟨Rect.unit (s := S3x1024x512) ![2, 0, 0] S1x512x256.size inb_S3x1024x512_S1x512x256_2_0_0, k0_pay30 (wF0 m c) (xlo m c f2)⟩]

def Run0.M0_w2_1 (c : Dev nD) (f2 : XQ F c) (f5 : PB F c) := (View.whole cc0_scratch5).writes (Elt F) f5 (made0L m c f2)
def Run1.M1_w2_1 (c : Dev nD) (f2 : XQ F c) (f5 : PB F c) := (View.whole cc0_scratch5).writes (Elt F) f5 (made1L m c f2)
def Run2.M2_w2_1 (c : Dev nD) (f2 : XQ F c) (f5 : PB F c) := (View.whole cc0_scratch5).writes (Elt F) f5 (made2L m c f2)

theorem xq_load (g : xq.view.ty.Contents (Elt F)) (w : S256x4096.Idx → Elt F .f32) :
    qload (View.write (Elt F) xq.view g w Finset.univ) = w := by
  unfold qload
  rw [View.readAt_eq_ld, show (Memref.whole cc0_scratch2 : Memref sig .tc .vmem S256x4096 .f32).view.read (Elt F) (View.write (Elt F) xq.view g w Finset.univ) = w from View.read_write_univ g w]
  exact View.ld_unit_zero (funext fun a => match a with | ⟨0, _⟩ => rfl | ⟨1, _⟩ => rfl) _ w

/-- Every one of the four quarter stores truncates the rows the copy brought, whichever payload spells it. -/
theorem xpiece (c : Dev nD) (pay : Vec F S256x4096 .f32 → FVec F S256x4096 .bf16)
    (hp : ∀ v, pay v = shapeCast S256x4096 (truncf .bf16 v bitsLt_bf16_f32) shapeCasts_S256x4096_S256x4096)
    (g : xq.view.ty.Contents (Elt F)) (o : ℕ) (inb) (x : S256x4096.Idx) :
    pay (qload (View.write (Elt F) xq.view g (rowsOf m c o inb) Finset.univ)) x
      = x16 m c ((Rect.unit (s := S1024x4096) ![o, 0] S256x4096.size inb).emb x) := by
  rw [xq_load, hp, shapeCast_self]
  rfl

theorem x_cover (c : Dev nD) (f2 : XQ F c) (y : S1024x4096.Idx) : ∃ p ∈ V1_4 m c f2, y ∈ p.1.set := by
  have h0 := idx2_lt0 y
  have h1 := idx2_lt1 y
  have hm : ∀ (o : ℕ) (inb : ∀ k, (![o, 0] : Fin 2 → ℕ) k + S256x4096.size k ≤ S1024x4096.size k), o ≤ (y 0).val → (y 0).val < o + 256 →
      y ∈ (Rect.unit (s := S1024x4096) ![o, 0] S256x4096.size inb).set := fun o inb l u =>
    Rect.mem_set_unit.mpr (Fin.forall_fin_two.mpr ⟨⟨l, u⟩, ⟨Nat.zero_le _, by show (y 1).val < 0 + 4096; omega⟩⟩)
  unfold V1_4
  by_cases a : (y 0).val < 256
  · exact ⟨_, List.mem_cons_of_mem _ (List.mem_cons_of_mem _ (List.mem_cons_of_mem _ List.mem_cons_self)), hm 0 inb_S1024x4096_S256x4096_0_0 (Nat.zero_le _) (by omega)⟩
  by_cases b : (y 0).val < 512
  · exact ⟨_, List.mem_cons_of_mem _ (List.mem_cons_of_mem _ List.mem_cons_self), hm 256 inb_S1024x4096_S256x4096_256_0 (by omega) (by omega)⟩
  by_cases d : (y 0).val < 768
  · exact ⟨_, List.mem_cons_of_mem _ List.mem_cons_self, hm 512 inb_S1024x4096_S256x4096_512_0 (by omega) (by omega)⟩
  · exact ⟨_, List.mem_cons_self, hm 768 inb_S1024x4096_S256x4096_768_0 (by omega) (by omega)⟩

theorem x_canon (c : Dev nD) (f2 : XQ F c) (y : S1024x4096.Idx) : View.canon (V1_4 m c f2) y = x16 m c y := by
  refine View.canon_apply_of_pieces (x16 m c) (V1_4 m c f2) ?_ y (x_cover m c f2 y)
  intro p hp
  unfold V1_4 at hp
  simp only [List.mem_cons, List.not_mem_nil, or_false] at hp
  rcases hp with rfl | rfl | rfl | rfl
  · exact xpiece m c k0_pay5 (fun _ => rfl) _ 768 inb_S1024x4096_S256x4096_768_0
  · exact xpiece m c k0_pay4 (fun _ => rfl) _ 512 inb_S1024x4096_S256x4096_512_0
  · exact xpiece m c k0_pay3 (fun _ => rfl) _ 256 inb_S1024x4096_S256x4096_256_0
  · exact xpiece m c k0_pay2 (fun _ => rfl) _ 0 inb_S1024x4096_S256x4096_0_0

theorem xhalf_load (c : Dev nD) (f2 : XQ F c) (t : Fin 2) (o : ℕ) (ho : o = 512 * t.val) (inb) :
    xrows m c f2 o inb = rowHalf (x16 m c) t := by
  subst ho
  unfold xrows
  rw [View.readCov_eq_canon _ _ _ (fun j => x_cover m c f2 _)]
  funext j
  rw [x_canon]
  refine congrArg (x16 m c) (funext fun a => Fin.ext ?_)
  match a with
  | ⟨0, _⟩ => show 512 * t.val + 1 * (j 0).val = 512 * t.val + (j 0).val; rw [Nat.one_mul]
  | ⟨1, _⟩ => show 0 + 1 * (j 1).val = (j 1).val; rw [Nat.one_mul, Nat.zero_add]

theorem xlo_eq (c : Dev nD) (f2 : XQ F c) : xlo m c f2 = rowHalf (x16 m c) 0 := xhalf_load m c f2 0 0 rfl inb_S1024x4096_S512x4096_0_0
theorem xhi_eq (c : Dev nD) (f2 : XQ F c) : xhi m c f2 = rowHalf (x16 m c) 1 := xhalf_load m c f2 1 512 rfl inb_S1024x4096_S512x4096_512_0

theorem read_writes_whole_cons {sp : Space} {s : Shape} {e : EltTy} (v : View sig .tc sp s e) (f : v.ty.Contents (Elt F))
    (w : s.Idx → Elt F e) (L : List (View.Piece (Elt F) s e)) :
    v.read (Elt F) (v.writes (Elt F) f (⟨Rect.whole s, w⟩ :: L)) = w := by
  funext y
  have h := View.read_writes_cons_emb v f (Rect.whole s) w L y
  rwa [Rect.emb_whole_apply] at h

theorem wL_eq (w : S4096x256.Idx → Elt F .bf16) (L : List (View.Piece (Elt F) S4096x256 .bf16)) :
    shapeCast S4096x256 (ld0 (⟨Rect.whole S4096x256, w⟩ :: L)) shapeCasts_S1x4096x256_S4096x256 = w :=
  Eq.trans (b := landS0.view.read (Elt F) (landS0.view.writes (Elt F) landS0.view.junk (⟨Rect.whole S4096x256, w⟩ :: L))) rfl (read_writes_whole_cons _ _ _ _)
theorem wR_eq (w : S4096x256.Idx → Elt F .bf16) (L : List (View.Piece (Elt F) S4096x256 .bf16)) :
    shapeCast S4096x256 (ld1 (⟨Rect.whole S4096x256, w⟩ :: L)) shapeCasts_S1x4096x256_S4096x256 = w :=
  Eq.trans (b := landS1.view.read (Elt F) (landS1.view.writes (Elt F) landS1.view.junk (⟨Rect.whole S4096x256, w⟩ :: L))) rfl (read_writes_whole_cons _ _ _ _)

def tl (X : Vec F S512x4096 .bf16) (W : Vec F S4096x256 .bf16) : S1x512x256.Idx → Elt F .bf16 :=
  shapeCast S1x512x256 (truncf .bf16 (tile256 X W) bitsLt_bf16_f32) shapeCasts_S512x256_S1x512x256

theorem madeC_at (c : Dev nD) (s : ℕ) (d : Dev nD) (hd : peer c s = d) (t h : Fin 2) (i : S3x1024x512.Idx)
    (x' : S512x256.Idx) (h0 : (i 0).val = s) (h1 : (i 1).val = 512 * t.val + (x' 0).val)
    (h2 : (i 2).val = 256 * h.val + (x' 1).val) :
    madeC m c i = (truncf .bf16 (tile256 (rowHalf (x16 m c) t) (colHalf (w16 m d) h)) bitsLt_bf16_f32) x' := by
  have b0 := idx2_lt0 x'
  have b1 := idx2_lt1 x'
  have bt := t.isLt
  have bh := h.isLt
  have pT : (i 1).val / 512 < 2 := by omega
  have pH : (i 2).val / 256 < 2 := by omega
  have eT : (⟨(i 1).val / 512, pT⟩ : Fin 2) = t := Fin.ext (by show (i 1).val / 512 = t.val; omega)
  have eH : (⟨(i 2).val / 256, pH⟩ : Fin 2) = h := Fin.ext (by show (i 2).val / 256 = h.val; omega)
  have eP : peer c (i 0).val = d := by rw [h0]; exact hd
  have eI : ix2 (⟨(i 1).val % 512, Nat.mod_lt _ (by decide)⟩ : Fin 512) (⟨(i 2).val % 256, Nat.mod_lt _ (by decide)⟩ : Fin 256) = x' :=
    funext fun a => Fin.ext (match a with
      | ⟨0, _⟩ => by show (i 1).val % 512 = (x' 0).val; omega
      | ⟨1, _⟩ => by show (i 2).val % 256 = (x' 1).val; omega)
  show (truncf .bf16 (tile256 (rowHalf (x16 m c) (⟨(i 1).val / 512, pT⟩ : Fin 2))
      (colHalf (w16 m (peer c (i 0).val)) (⟨(i 2).val / 256, pH⟩ : Fin 2))) bitsLt_bf16_f32)
    (ix2 (⟨(i 1).val % 512, Nat.mod_lt _ (by decide)⟩ : Fin 512) (⟨(i 2).val % 256, Nat.mod_lt _ (by decide)⟩ : Fin 256)) = _
  rw [eT, eH, eP, eI]

/-- One statement for all twelve stored tiles: the payload `pay` differs from tile to tile only in how it is spelt. -/
theorem tile_named {A : Type} (c : Dev nD) (s : ℕ) (d : Dev nD) (hd : peer c s = d) (t h : Fin 2) (o1 o2 : ℕ)
    (h1 : o1 = 512 * t.val) (h2 : o2 = 256 * h.val)
    (inb : ∀ k, (![s, o1, o2] : Fin 3 → ℕ) k + S1x512x256.size k ≤ S3x1024x512.size k)
    (pay : A → Vec F S512x4096 .bf16 → S1x512x256.Idx → Elt F .bf16) (cast : A → Vec F S4096x256 .bf16)
    (hp : ∀ L X, pay L X = tl X (cast L)) (L : A) (X : Vec F S512x4096 .bf16)
    (hX : X = rowHalf (x16 m c) t) (hW : cast L = colHalf (w16 m d) h)
    (x : (Rect.unit (s := S3x1024x512) ![s, o1, o2] S1x512x256.size inb).shape.Idx) :
    pay L X x = madeC m c ((Rect.unit (s := S3x1024x512) ![s, o1, o2] S1x512x256.size inb).emb x) := by
  rw [hp, hW]
  subst h1 h2 hX
  unfold tl
  refine (shapeCast_addUnit_apply ![512, 256] _ _ x).trans (madeC_at m c s d hd t h _ (fun a => x a.succ) ?_ ?_ ?_).symm
  · show s + 1 * (x 0).val = s
    have : (x 0).val < 1 := (x 0).isLt
    omega
  · show 512 * t.val + 1 * (x 1).val = 512 * t.val + (x 1).val
    rw [Nat.one_mul]
  · show 256 * h.val + 1 * (x 2).val = 256 * h.val + (x 2).val
    rw [Nat.one_mul]

/-- The four 512 x 256 rectangles of a slot cover it. -/
theorem tile_cover (s : ℕ) (b00 : ∀ k, (![s, 0, 0] : Fin 3 → ℕ) k + S1x512x256.size k ≤ S3x1024x512.size k)
    (b10 : ∀ k, (![s, 512, 0] : Fin 3 → ℕ) k + S1x512x256.size k ≤ S3x1024x512.size k)
    (b01 : ∀ k, (![s, 0, 256] : Fin 3 → ℕ) k + S1x512x256.size k ≤ S3x1024x512.size k)
    (b11 : ∀ k, (![s, 512, 256] : Fin 3 → ℕ) k + S1x512x256.size k ≤ S3x1024x512.size k)
    (v00 v10 v01 v11 : S1x512x256.Idx → Elt F .bf16) (i : S3x1024x512.Idx)
    (hi : ∀ a, (![s, 0, 0] : Fin 3 → ℕ) a ≤ (i a).val ∧ (i a).val < (![s, 0, 0] : Fin 3 → ℕ) a + S1x1024x512.size a) :
    ∃ p ∈ ([⟨Rect.unit (s := S3x1024x512) ![s, 512, 256] S1x512x256.size b11, v11⟩, ⟨Rect.unit (s := S3x1024x512) ![s, 0, 256] S1x512x256.size b01, v01⟩,
        ⟨Rect.unit (s := S3x1024x512) ![s, 512, 0] S1x512x256.size b10, v10⟩, ⟨Rect.unit (s := S3x1024x512) ![s, 0, 0] S1x512x256.size b00, v00⟩] : List (View.Piece (Elt F) S3x1024x512 .bf16)),
      i ∈ p.1.set := by
  obtain ⟨⟨l0, a0⟩, ⟨_, a1⟩, ⟨_, a2⟩⟩ := Carve.forall_fin3.mp hi
  have l0' : s ≤ (i 0).val := l0
  have a0' : (i 0).val < s + 1 := a0
  have a1' : (i 1).val < 0 + 1024 := a1
  have a2' : (i 2).val < 0 + 512 := a2
  have hm : ∀ (o1 o2 : ℕ) (inb : ∀ k, (![s, o1, o2] : Fin 3 → ℕ) k + S1x512x256.size k ≤ S3x1024x512.size k), o1 ≤ (i 1).val → (i 1).val < o1 + 512 →
      o2 ≤ (i 2).val → (i 2).val < o2 + 256 → i ∈ (Rect.unit (s := S3x1024x512) ![s, o1, o2] S1x512x256.size inb).set := fun o1 o2 inb l1 u1 l2 u2 =>
    Rect.mem_set_unit.mpr (Carve.forall_fin3.mpr ⟨⟨l0, a0⟩, ⟨l1, u1⟩, ⟨l2, u2⟩⟩)
  by_cases r : (i 1).val < 512 <;> by_cases q : (i 2).val < 256
  · exact ⟨_, List.mem_cons_of_mem _ (List.mem_cons_of_mem _ (List.mem_cons_of_mem _ List.mem_cons_self)), hm 0 0 b00 (Nat.zero_le _) (by omega) (Nat.zero_le _) (by omega)⟩
  · exact ⟨_, List.mem_cons_of_mem _ List.mem_cons_self, hm 0 256 b01 (Nat.zero_le _) (by omega) (by omega) (by omega)⟩
  · exact ⟨_, List.mem_cons_of_mem _ (List.mem_cons_of_mem _ List.mem_cons_self), hm 512 0 b10 (by omega) (by omega) (Nat.zero_le _) (by omega)⟩
  · exact ⟨_, List.mem_cons_self, hm 512 256 b11 (by omega) (by omega) (by omega) (by omega)⟩

/-- Pieces that agree with the named contents and cover an index decide the buffer there, whatever it held. -/
theorem named_of_tiles (c : Dev nD) (f5 : PB F c) (L : List (View.Piece (Elt F) S3x1024x512 .bf16))
    (hp : ∀ p ∈ L, ∀ x : p.1.shape.Idx, p.2 x = madeC m c (p.1.emb x)) (i : S3x1024x512.Idx) (hc : ∃ p ∈ L, i ∈ p.1.set) :
    (View.whole cc0_scratch5).writes (Elt F) f5 L i = madeC m c i := by
  have hr := congrFun (View.read_whole (Val := Elt F) cc0_scratch5 ((View.whole cc0_scratch5).writes (Elt F) f5 L)) i
  rw [← hr, View.read_writes_apply_eq_canon (View.whole cc0_scratch5) f5 i L hc]
  exact View.canon_apply_of_pieces (madeC m c) L hp i hc

theorem made0_pieces (c : Dev nD) (f2 : XQ F c) : ∀ p ∈ made0L m c f2, ∀ x : p.1.shape.Idx, p.2 x = madeC m c (p.1.emb x) := by
  have w0 : k0_pay8 (wL0 m c) = colHalf (w16 m (lft c)) 0 := (wL_eq (cL0 m c) []).trans (read_relayL0 m c)
  have w1 : k0_pay17 (wL1 m c) = colHalf (w16 m (lft c)) 1 := (wL_eq (cL1 m c) [⟨Rect.whole S4096x256, cL0 m c⟩]).trans (read_relayL1 m c)
  intro p hp
  unfold made0L at hp
  simp only [List.mem_cons, List.not_mem_nil, or_false] at hp
  rcases hp with rfl | rfl | rfl | rfl
  · exact tile_named m c 0 _ rfl 1 1 512 256 rfl rfl inb_S3x1024x512_S1x512x256_0_512_256 (fun L X => k0_pay23 (k0_pay20 L X) (k0_pay21 L X) k0_pay22) k0_pay17 (fun _ _ => rfl) (wL1 m c) _ (xhi_eq m c f2) w1
  · exact tile_named m c 0 _ rfl 0 1 0 256 rfl rfl inb_S3x1024x512_S1x512x256_0_0_256 k0_pay18 k0_pay17 (fun _ _ => rfl) (wL1 m c) _ (xlo_eq m c f2) w1
  · exact tile_named m c 0 _ rfl 1 0 512 0 rfl rfl inb_S3x1024x512_S1x512x256_0_512_0 (fun L X => k0_pay13 (k0_pay11 L X) (k0_pay12 L X) (FloatOps.ofBits FTy.f32 1065353216#32)) k0_pay8 (fun _ _ => rfl) (wL0 m c) _ (xhi_eq m c f2) w0
  · exact tile_named m c 0 _ rfl 0 0 0 0 rfl rfl inb_S3x1024x512_S1x512x256_0_0_0 k0_pay9 k0_pay8 (fun _ _ => rfl) (wL0 m c) _ (xlo_eq m c f2) w0

theorem made1_pieces (c : Dev nD) (f2 : XQ F c) : ∀ p ∈ made1L m c f2, ∀ x : p.1.shape.Idx, p.2 x = madeC m c (p.1.emb x) := by
  have w0 : k0_pay14 (wR0 m c) = colHalf (w16 m (rgt c)) 0 := (wR_eq (cR0 m c) []).trans (read_relayR0 m c)
  have w1 : k0_pay24 (wR1 m c) = colHalf (w16 m (rgt c)) 1 := (wR_eq (cR1 m c) [⟨Rect.whole S4096x256, cR0 m c⟩]).trans (read_relayR1 m c)
  intro p hp
  unfold made1L at hp
  simp only [List.mem_cons, List.not_mem_nil, or_false] at hp
  rcases hp with rfl | rfl | rfl | rfl
  · exact tile_named m c 1 _ rfl 1 1 512 256 rfl rfl inb_S3x1024x512_S1x512x256_1_512_256 (fun L X => k0_pay29 (k0_pay24 L) X) k0_pay24 (fun _ _ => rfl) (wR1 m c) _ (xhi_eq m c f2) w1
  · exact tile_named m c 1 _ rfl 0 1 0 256 rfl rfl inb_S3x1024x512_S1x512x256_1_0_256 (fun L X => k0_pay28 (k0_pay25 L X) (k0_pay26 L X) k0_pay27) k0_pay24 (fun _ _ => rfl) (wR1 m c) _ (xlo_eq m c f2) w1
  · exact tile_named m c 1 _ rfl 1 0 512 0 rfl rfl inb_S3x1024x512_S1x512x256_1_512_0 k0_pay16 k0_pay14 (fun _ _ => rfl) (wR0 m c) _ (xhi_eq m c f2) w0
  · exact tile_named m c 1 _ rfl 0 0 0 0 rfl rfl inb_S3x1024x512_S1x512x256_1_0_0 k0_pay15 k0_pay14 (fun _ _ => rfl) (wR0 m c) _ (xlo_eq m c f2) w0

theorem made2_pieces (c : Dev nD) (f2 : XQ F c) : ∀ p ∈ made2L m c f2, ∀ x : p.1.shape.Idx, p.2 x = madeC m c (p.1.emb x) := by
  intro p hp
  unfold made2L at hp
  simp only [List.mem_cons, List.not_mem_nil, or_false] at hp
  rcases hp with rfl | rfl | rfl | rfl
  · exact tile_named m c 2 _ rfl 1 1 512 256 rfl rfl inb_S3x1024x512_S1x512x256_2_512_256 k0_pay35 id (fun _ _ => rfl) (wF1 m c) _ (xhi_eq m c f2) (read_farH1 m c)
  · exact tile_named m c 2 _ rfl 0 1 0 256 rfl rfl inb_S3x1024x512_S1x512x256_2_0_256 (fun L X => k0_pay34 (k0_pay32 L X) (k0_pay33 L X) (FloatOps.ofBits FTy.f32 1027024659#32)) id (fun _ _ => rfl) (wF1 m c) _ (xlo_eq m c f2) (read_farH1 m c)
  · exact tile_named m c 2 _ rfl 1 0 512 0 rfl rfl inb_S3x1024x512_S1x512x256_2_512_0 k0_pay31 id (fun _ _ => rfl) (wF0 m c) _ (xhi_eq m c f2) (read_farH0 m c)
  · exact tile_named m c 2 _ rfl 0 0 0 0 rfl rfl inb_S3x1024x512_S1x512x256_2_0_0 k0_pay30 id (fun _ _ => rfl) (wF0 m c) _ (xlo_eq m c f2) (read_farH0 m c)

theorem slot0_pts (c : Dev nD) (f2 : XQ F c) (f5 : PB F c) (T : Buf (Elt F) (made0.view.loc (c : Thread nD τ))) (hT : T = Run0.M0_w2_1 m c f2 f5) :
    ((made0.view.loc (c : Thread nD τ) ↦[made0.view.set]{fullShare} T) : sProp 𝕄) = (made0.view.loc (c : Thread nD τ) ↦[made0.view.set]{fullShare} madeC m c) := by
  subst hT
  refine pointsTo_congr fun i hi => named_of_tiles m c f5 _ (made0_pieces m c f2) i ?_
  rw [Carve.made0_set] at hi
  exact tile_cover 0 inb_S3x1024x512_S1x512x256_0_0_0 inb_S3x1024x512_S1x512x256_0_512_0 inb_S3x1024x512_S1x512x256_0_0_256 inb_S3x1024x512_S1x512x256_0_512_256 _ _ _ _ i (Rect.mem_set_unit.mp hi)
theorem slot1_pts (c : Dev nD) (f2 : XQ F c) (f5 : PB F c) (T : Buf (Elt F) (made1.view.loc (c : Thread nD τ))) (hT : T = Run1.M1_w2_1 m c f2 f5) :
    ((made1.view.loc (c : Thread nD τ) ↦[made1.view.set]{fullShare} T) : sProp 𝕄) = (made1.view.loc (c : Thread nD τ) ↦[made1.view.set]{fullShare} madeC m c) := by
  subst hT
  refine pointsTo_congr fun i hi => named_of_tiles m c f5 _ (made1_pieces m c f2) i ?_
  rw [Carve.made1_set] at hi
  exact tile_cover 1 inb_S3x1024x512_S1x512x256_1_0_0 inb_S3x1024x512_S1x512x256_1_512_0 inb_S3x1024x512_S1x512x256_1_0_256 inb_S3x1024x512_S1x512x256_1_512_256 _ _ _ _ i (Rect.mem_set_unit.mp hi)
theorem slot2_pts (c : Dev nD) (f2 : XQ F c) (f5 : PB F c) (T : Buf (Elt F) (made2.view.loc (c : Thread nD τ))) (hT : T = Run2.M2_w2_1 m c f2 f5) :
    ((made2.view.loc (c : Thread nD τ) ↦[made2.view.set]{fullShare} T) : sProp 𝕄) = (made2.view.loc (c : Thread nD τ) ↦[made2.view.set]{fullShare} madeC m c) := by
  subst hT
  refine pointsTo_congr fun i hi => named_of_tiles m c f5 _ (made2_pieces m c f2) i ?_
  rw [Carve.made2_set] at hi
  exact tile_cover 2 inb_S3x1024x512_S1x512x256_2_0_0 inb_S3x1024x512_S1x512x256_2_512_0 inb_S3x1024x512_S1x512x256_2_0_256 inb_S3x1024x512_S1x512x256_2_512_256 _ _ _ _ i (Rect.mem_set_unit.mp hi)

end Cert.KernelIdeal.P

end
-- ==== Proof.KI.Out.lean ====
/- The result block: two tiles computed in place and the three received pieces widened; the five rectangles cover the 4096 x 512 block, so it is the named block whatever it held. -/
import proofs.«900495_g7700000000000496_dist_ag_gemm_m4096_k4096_n2048_f32_gelu_v7x_i4_1_alg».proof.Proof.KI.Slot0

noncomputable section

namespace Cert.KernelIdeal.P

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Idealize.ShloMosaic.ValueIdx Run0

namespace RunO

def wld (c : Dev nD) :=
  View.readAt (Elt F) (Memref.whole cc0_scratch0).view (Rect.unit (s := S4096x512) ![0, 0] S4096x512.size inb_S4096x512_S4096x512_0_0).toLoadRect (w16 m c)
def gld (c : Dev nD) (s : ℕ) (inb : ∀ k, (![s, 0, 0] : Fin 3 → ℕ) k + S1x1024x512.size k ≤ S3x1024x512.size k) :=
  View.readAt (Elt F) gotA.view (Rect.unit (s := S3x1024x512) ![s, 0, 0] S1x1024x512.size inb).toLoadRect (gotC m c)

def outL (c : Dev nD) (f2 : XQ F c) : List (View.Piece (Elt F) S4096x512 .f32) :=
  [⟨Rect.unit (s := S4096x512) (k0_off2 c 2#32) S1024x512.size (k0_off2_inb c 1), k0_pay38 (gld m c 2 inb_S3x1024x512_S1x1024x512_2_0_0)⟩,
   ⟨Rect.unit (s := S4096x512) (k0_off3 c) S1024x512.size (k0_off3_inb c), k0_pay37 (gld m c 1 inb_S3x1024x512_S1x1024x512_1_0_0)⟩,
   ⟨Rect.unit (s := S4096x512) (k0_off2 c 1#32) S1024x512.size (k0_off2_inb c 0), k0_pay36 (gld m c 0 inb_S3x1024x512_S1x1024x512_0_0_0)⟩,
   ⟨Rect.unit (s := S4096x512) (k0_off1 c 512#32) S512x512.size (k0_off1_inb c 1), k0_pay7 (xhi m c f2) (wld m c)⟩,
   ⟨Rect.unit (s := S4096x512) (k0_off1 c 0#32) S512x512.size (k0_off1_inb c 0), k0_pay6 (xlo m c f2) (wld m c)⟩]

def outFinal (c : Dev nD) (f2 : XQ F c) (g1 : Buf (Elt F) ((c : Thread nD τ).loc cc0_stg1_0)) : Buf (Elt F) ((c : Thread nD τ).loc cc0_stg1_0) :=
  (Memref.whole cc0_stg1_0).view.writes (Elt F) g1 (outL m c f2)

end RunO

open RunO

theorem out_off1a (c : Dev nD) : k0_off1 c 0#32 = ![1024 * c.val, 0] := k0_off1_eq c 0
theorem out_off1b (c : Dev nD) : k0_off1 c 512#32 = ![1024 * c.val + 512, 0] := k0_off1_eq c 1

theorem outC_own (c : Dev nD) (r : Fin 2) (i : S4096x512.Idx) (x : S512x512.Idx)
    (h0 : (i 0).val = 1024 * c.val + 512 * r.val + (x 0).val) (h1 : (i 1).val = (x 1).val) :
    outC m c i = tile512 (rowHalf (x16 m c) r) (w16 m c) x := by
  have b0 := idx2_lt0 x
  have br := r.isLt
  have hb : (i 0).val / 1024 = c.val := by omega
  have pT : (i 0).val % 1024 / 512 < 2 := by omega
  have eT : (⟨(i 0).val % 1024 / 512, pT⟩ : Fin 2) = r := Fin.ext (by show (i 0).val % 1024 / 512 = r.val; omega)
  have eI : ix2 (⟨(i 0).val % 1024 % 512, Nat.mod_lt _ (by decide)⟩ : Fin 512) (i 1) = x :=
    funext fun a => Fin.ext (match a with
      | ⟨0, _⟩ => by show (i 0).val % 1024 % 512 = (x 0).val; omega
      | ⟨1, _⟩ => h1)
  show (if (i 0).val / 1024 = c.val then
      tile512 (rowHalf (x16 m c) (⟨(i 0).val % 1024 / 512, pT⟩ : Fin 2)) (w16 m c)
        (ix2 (⟨(i 0).val % 1024 % 512, Nat.mod_lt _ (by decide)⟩ : Fin 512) (i 1))
    else _) = _
  rw [if_pos hb, eT]
  exact congrArg (tile512 (rowHalf (x16 m c) r) (w16 m c)) eI

theorem outC_other (c d : Dev nD) (s : Fin 3) (hd : d ≠ c)
    (hs : (if d.val = (rgt c).val then (0 : Fin 3) else if d.val = (lft c).val then 1 else 2) = s)
    (i : S4096x512.Idx) (x : S1024x512.Idx) (h0 : (i 0).val = 1024 * d.val + (x 0).val) (h1 : (i 1).val = (x 1).val) :
    outC m c i = (extf .f32 (gotC m c) bitsLt_bf16_f32) (ix3 s (x 0) (x 1)) := by
  have b0 := idx2_lt0 x
  have hb : (i 0).val / 1024 = d.val := by omega
  have hp : (i 0).val % 1024 = (x 0).val := by omega
  have eP : (⟨(i 0).val % 1024, Nat.mod_lt _ (by decide)⟩ : Fin 1024) = x 0 := Fin.ext hp
  have e1 : (i 1 : Fin 512) = (x 1 : Fin 512) := Fin.ext h1
  show (if (i 0).val / 1024 = c.val then _ else
      (extf .f32 (gotC m c) bitsLt_bf16_f32)
        (ix3 (if (i 0).val / 1024 = (rgt c).val then (0 : Fin 3) else if (i 0).val / 1024 = (lft c).val then 1 else 2)
          (⟨(i 0).val % 1024, Nat.mod_lt _ (by decide)⟩ : Fin 1024) (i 1))) = _
  rw [if_neg (by rw [hb]; exact fun h => hd (Fin.ext h)), hb, hs, eP, e1]

theorem w16_load (c : Dev nD) : wld m c = w16 m c := by
  unfold wld
  rw [View.readAt_eq_ld]
  exact View.ld_unit_zero (funext fun a => match a with | ⟨0, _⟩ => rfl | ⟨1, _⟩ => rfl) _ (w16 m c)

/-- A received piece widened, stored at the rows of the device it came from. -/
theorem got_piece (c d : Dev nD) (s : Fin 3) (hd : d ≠ c)
    (hs : (if d.val = (rgt c).val then (0 : Fin 3) else if d.val = (lft c).val then 1 else 2) = s)
    (off : Fin 2 → ℕ) (ho : off = ![1024 * d.val, 0]) (inb) (v : S1024x512.Idx → Elt F .f32)
    (hv : ∀ x, v x = (extf .f32 (gotC m c) bitsLt_bf16_f32) (ix3 s (x 0) (x 1)))
    (x : (Rect.unit (s := S4096x512) off S1024x512.size inb).shape.Idx) :
    v x = outC m c ((Rect.unit (s := S4096x512) off S1024x512.size inb).emb x) := by
  subst ho
  refine (hv x).trans (outC_other m c d s hd hs _ x ?_ ?_).symm
  · show 1024 * d.val + 1 * (x 0).val = _
    rw [Nat.one_mul]
  · show 0 + 1 * (x 1).val = _
    rw [Nat.one_mul, Nat.zero_add]

/-- A tile of this device's own rows. -/
theorem own_piece (c : Dev nD) (r : Fin 2) (off : Fin 2 → ℕ) (ho : off = ![1024 * c.val + 512 * r.val, 0]) (inb)
    (X : Vec F S512x4096 .bf16) (hX : X = rowHalf (x16 m c) r)
    (x : (Rect.unit (s := S4096x512) off S512x512.size inb).shape.Idx) :
    tile512 X (wld m c) x = outC m c ((Rect.unit (s := S4096x512) off S512x512.size inb).emb x) := by
  subst ho hX
  rw [w16_load]
  refine (outC_own m c r _ x ?_ ?_).symm
  · show 1024 * c.val + 512 * r.val + 1 * (x 0).val = _
    rw [Nat.one_mul]
  · show 0 + 1 * (x 1).val = _
    rw [Nat.one_mul, Nat.zero_add]

theorem out_slot (c : Dev nD) : (if (rgt c).val = (rgt c).val then (0 : Fin 3) else if (rgt c).val = (lft c).val then 1 else 2) = 0
    ∧ (if (lft c).val = (rgt c).val then (0 : Fin 3) else if (lft c).val = (lft c).val then 1 else 2) = 1
    ∧ (if (opp c).val = (rgt c).val then (0 : Fin 3) else if (opp c).val = (lft c).val then 1 else 2) = 2 := by
  revert c; decide

theorem out_dev_cases (c d : Dev nD) : d = c ∨ d = rgt c ∨ d = lft c ∨ d = opp c := by
  revert c d; decide

theorem out_pieces (c : Dev nD) (f2 : XQ F c) : ∀ p ∈ outL m c f2, ∀ x : p.1.shape.Idx, p.2 x = outC m c (p.1.emb x) := by
  intro p hp
  unfold outL at hp
  simp only [List.mem_cons, List.not_mem_nil, or_false] at hp
  rcases hp with rfl | rfl | rfl | rfl | rfl
  · exact got_piece m c (opp c) 2 (opp_ne c) (out_slot c).2.2 _ (off2_opp_eq c) (k0_off2_inb c 1) _
      fun x => congrArg (FloatOps.extf .f32 bitsLt_bf16_f32) (land_read_got2 (gotC m c) x)
  · exact got_piece m c (lft c) 1 (lft_ne c) (out_slot c).2.1 _ (off3_lft_eq c) (k0_off3_inb c) _
      fun x => congrArg (FloatOps.extf .f32 bitsLt_bf16_f32) (land_read_got1 (gotC m c) x)
  · exact got_piece m c (rgt c) 0 (rgt_ne c) (out_slot c).1 _ (off2_rgt_eq c) (k0_off2_inb c 0) _
      fun x => congrArg (FloatOps.extf .f32 bitsLt_bf16_f32) (land_read_got0 (gotC m c) x)
  · exact own_piece m c 1 _ (k0_off1_eq c 1) (k0_off1_inb c 1) _ (xhi_eq m c f2)
  · exact own_piece m c 0 _ (k0_off1_eq c 0) (k0_off1_inb c 0) _ (xlo_eq m c f2)

theorem out_cover (c : Dev nD) (f2 : XQ F c) (i : S4096x512.Idx) : ∃ p ∈ outL m c f2, i ∈ p.1.set := by
  have h0 := idx2_lt0 i
  have h1 := idx2_lt1 i
  have hm : ∀ (off : Fin 2 → ℕ) (o n : ℕ) (sz : Fin 2 → ℕ) (inb : ∀ k, off k + sz k ≤ S4096x512.size k), off = ![o, 0] → sz = ![n, 512] →
      o ≤ (i 0).val → (i 0).val < o + n → i ∈ (Rect.unit (s := S4096x512) off sz inb).set := fun off o n sz inb ho hn l u => by
    subst ho hn
    exact Rect.mem_set_unit.mpr (Fin.forall_fin_two.mpr ⟨⟨l, u⟩, ⟨Nat.zero_le _, by show (i 1).val < 0 + 512; omega⟩⟩)
  unfold outL
  have hbl : (i 0).val / 1024 < 4 := by omega
  obtain e | e | e | e := out_dev_cases c (⟨(i 0).val / 1024, hbl⟩ : Dev nD)
  all_goals have hb : (i 0).val / 1024 = _ := congrArg Fin.val e
  · by_cases r : (i 0).val % 1024 < 512
    · exact ⟨_, List.mem_cons_of_mem _ (List.mem_cons_of_mem _ (List.mem_cons_of_mem _ (List.mem_cons_of_mem _ List.mem_cons_self))),
        hm _ _ 512 _ (k0_off1_inb c 0) (out_off1a c) rfl (by omega) (by omega)⟩
    · exact ⟨_, List.mem_cons_of_mem _ (List.mem_cons_of_mem _ (List.mem_cons_of_mem _ List.mem_cons_self)),
        hm _ _ 512 _ (k0_off1_inb c 1) (out_off1b c) rfl (by omega) (by omega)⟩
  · exact ⟨_, List.mem_cons_of_mem _ (List.mem_cons_of_mem _ List.mem_cons_self), hm _ _ 1024 _ (k0_off2_inb c 0) (off2_rgt_eq c) rfl (by omega) (by omega)⟩
  · exact ⟨_, List.mem_cons_of_mem _ List.mem_cons_self, hm _ _ 1024 _ (k0_off3_inb c) (off3_lft_eq c) rfl (by omega) (by omega)⟩
  · exact ⟨_, List.mem_cons_self, hm _ _ 1024 _ (k0_off2_inb c 1) (off2_opp_eq c) rfl (by omega) (by omega)⟩

theorem out_named (c : Dev nD) (f2 : XQ F c) (g1 : Buf (Elt F) ((c : Thread nD τ).loc cc0_stg1_0)) : outFinal m c f2 g1 = outC m c := by
  funext i
  have hc := out_cover m c f2 i
  have hr := congrFun (View.read_whole (Val := Elt F) cc0_stg1_0 ((View.whole cc0_stg1_0).writes (Elt F) g1 (outL m c f2))) i
  show (View.whole cc0_stg1_0).writes (Elt F) g1 (outL m c f2) i = outC m c i
  rw [← hr, View.read_writes_apply_eq_canon (View.whole cc0_stg1_0) g1 i (outL m c f2) hc]
  exact View.canon_apply_of_pieces (outC m c) (outL m c f2) (out_pieces m c f2) i hc

theorem out_pts (c : Dev nD) (f2 : XQ F c) (g1 : Buf (Elt F) ((c : Thread nD τ).loc cc0_stg1_0))
    (T : Buf (Elt F) (oStg.view.loc (c : Thread nD τ))) (hT : T = outFinal m c f2 g1) :
    ((oStg.view.loc (c : Thread nD τ) ↦{fullShare} T) : sProp 𝕄) = (oStg.view.loc (c : Thread nD τ) ↦{fullShare} outC m c) := by
  subst hT
  rw [out_named]

end Cert.KernelIdeal.P

end
-- ==== Proof.KI.Body.lean ====
/- One device's body, from what the launch hands it to what it must leave: the entry exchange, nine transfers, the products, and the waits, each wait below everything still owed. -/
import proofs.«900495_g7700000000000496_dist_ag_gemm_m4096_k4096_n2048_f32_gelu_v7x_i4_1_alg».proof.Proof.KI.Tables
import proofs.«900495_g7700000000000496_dist_ag_gemm_m4096_k4096_n2048_f32_gelu_v7x_i4_1_alg».proof.Proof.KI.Landings
import proofs.«900495_g7700000000000496_dist_ag_gemm_m4096_k4096_n2048_f32_gelu_v7x_i4_1_alg».proof.Proof.KI.Carve
import proofs.«900495_g7700000000000496_dist_ag_gemm_m4096_k4096_n2048_f32_gelu_v7x_i4_1_alg».proof.Proof.KI.Forms
import proofs.«900495_g7700000000000496_dist_ag_gemm_m4096_k4096_n2048_f32_gelu_v7x_i4_1_alg».proof.Proof.KI.Slot0
import proofs.«900495_g7700000000000496_dist_ag_gemm_m4096_k4096_n2048_f32_gelu_v7x_i4_1_alg».proof.Proof.KI.Out
import proofs.«900495_g7700000000000496_dist_ag_gemm_m4096_k4096_n2048_f32_gelu_v7x_i4_1_alg».proof.Proof.Gen.KernelIdeal.Skeleton

noncomputable section

namespace Cert.KernelIdeal.P
open Idealize.ShloMosaic.Tactic

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem whole_eq (c : Dev nD) (b : Ref sig .tc) (q : PosShare TreeShare) (f : Buf (Elt F) ((c : Thread nD τ).loc b)) :
    ((((c : Thread nD τ).loc b) ↦{q} f) : sProp 𝕄) = (((Memref.whole b).view.loc (c : Thread nD τ)) ↦{q} f) := rfl
theorem barPay_to_lft (c : Dev nD) : barPay (F := F) (lft c) 0
    = iprop(someAt (F := F) c relayL0 ∗ someAt (F := F) c relayL1 ∗ someAt (F := F) c farH0 ∗ someAt (F := F) c got1) := by
  have h : ∀ p : Dev nD, rgt p = c → barPay (F := F) p 0
      = iprop(someAt (F := F) c relayL0 ∗ someAt (F := F) c relayL1 ∗ someAt (F := F) c farH0 ∗ someAt (F := F) c got1) := by
    intro p hp; subst hp; rfl
  exact h _ (rgt_lft c)
theorem barPay_to_rgt (c : Dev nD) : barPay (F := F) (rgt c) 1
    = iprop(someAt (F := F) c relayR0 ∗ someAt (F := F) c relayR1 ∗ someAt (F := F) c farH1 ∗ someAt (F := F) c got0) := by
  have h : ∀ p : Dev nD, lft p = c → barPay (F := F) p 1
      = iprop(someAt (F := F) c relayR0 ∗ someAt (F := F) c relayR1 ∗ someAt (F := F) c farH1 ∗ someAt (F := F) c got0) := by
    intro p hp; subst hp; rfl
  exact h _ (lft_rgt c)
theorem barPay_to_opp (c : Dev nD) : barPay (F := F) (opp c) 2 = someAt (F := F) c got2 := by
  have h : ∀ p : Dev nD, opp p = c → barPay (F := F) p 2 = someAt (F := F) c got2 := by
    intro p hp; subst hp; rfl
  exact h _ (opp_opp c)
def barFrom (p : Dev nD) (d : Fin 3) : sProp 𝕄 := match d with
  | 0 => iprop((∃ f : Buf (Elt F) (relayL0.view.loc (p : Thread nD τ)), (relayL0.view.loc (p : Thread nD τ) ↦[relayL0.view.set]{fullShare} f)) ∗ (∃ f : Buf (Elt F) (relayL1.view.loc (p : Thread nD τ)), (relayL1.view.loc (p : Thread nD τ) ↦[relayL1.view.set]{fullShare} f)) ∗ (∃ f : Buf (Elt F) (farH0.view.loc (p : Thread nD τ)), (farH0.view.loc (p : Thread nD τ) ↦[farH0.view.set]{fullShare} f)) ∗ (∃ f : Buf (Elt F) (got1.view.loc (p : Thread nD τ)), (got1.view.loc (p : Thread nD τ) ↦[got1.view.set]{fullShare} f)))
  | 1 => iprop((∃ f : Buf (Elt F) (relayR0.view.loc (p : Thread nD τ)), (relayR0.view.loc (p : Thread nD τ) ↦[relayR0.view.set]{fullShare} f)) ∗ (∃ f : Buf (Elt F) (relayR1.view.loc (p : Thread nD τ)), (relayR1.view.loc (p : Thread nD τ) ↦[relayR1.view.set]{fullShare} f)) ∗ (∃ f : Buf (Elt F) (farH1.view.loc (p : Thread nD τ)), (farH1.view.loc (p : Thread nD τ) ↦[farH1.view.set]{fullShare} f)) ∗ (∃ f : Buf (Elt F) (got0.view.loc (p : Thread nD τ)), (got0.view.loc (p : Thread nD τ) ↦[got0.view.set]{fullShare} f)))
  | 2 => iprop((∃ f : Buf (Elt F) (got2.view.loc (p : Thread nD τ)), (got2.view.loc (p : Thread nD τ) ↦[got2.view.set]{fullShare} f)))
theorem barPay_from0 (c : Dev nD) : barPay (F := F) c 0 = barFrom (F := F) (rgt c) 0 := rfl
theorem barPay_from1 (c : Dev nD) : barPay (F := F) c 1 = barFrom (F := F) (lft c) 1 := rfl
theorem barPay_from2 (c : Dev nD) : barPay (F := F) c 2 = barFrom (F := F) (opp c) 2 := rfl
theorem barFrom_0 (p : Dev nD) : barFrom (F := F) p 0
    = iprop((∃ f : Buf (Elt F) (relayL0.view.loc (p : Thread nD τ)), (relayL0.view.loc (p : Thread nD τ) ↦[relayL0.view.set]{fullShare} f)) ∗ (∃ f : Buf (Elt F) (relayL1.view.loc (p : Thread nD τ)), (relayL1.view.loc (p : Thread nD τ) ↦[relayL1.view.set]{fullShare} f)) ∗ (∃ f : Buf (Elt F) (farH0.view.loc (p : Thread nD τ)), (farH0.view.loc (p : Thread nD τ) ↦[farH0.view.set]{fullShare} f)) ∗ (∃ f : Buf (Elt F) (got1.view.loc (p : Thread nD τ)), (got1.view.loc (p : Thread nD τ) ↦[got1.view.set]{fullShare} f))) := rfl
theorem barFrom_1 (p : Dev nD) : barFrom (F := F) p 1
    = iprop((∃ f : Buf (Elt F) (relayR0.view.loc (p : Thread nD τ)), (relayR0.view.loc (p : Thread nD τ) ↦[relayR0.view.set]{fullShare} f)) ∗ (∃ f : Buf (Elt F) (relayR1.view.loc (p : Thread nD τ)), (relayR1.view.loc (p : Thread nD τ) ↦[relayR1.view.set]{fullShare} f)) ∗ (∃ f : Buf (Elt F) (farH1.view.loc (p : Thread nD τ)), (farH1.view.loc (p : Thread nD τ) ↦[farH1.view.set]{fullShare} f)) ∗ (∃ f : Buf (Elt F) (got0.view.loc (p : Thread nD τ)), (got0.view.loc (p : Thread nD τ) ↦[got0.view.set]{fullShare} f))) := rfl
theorem barFrom_2 (p : Dev nD) : barFrom (F := F) p 2 = iprop((∃ f : Buf (Elt F) (got2.view.loc (p : Thread nD τ)), (got2.view.loc (p : Thread nD τ) ↦[got2.view.set]{fullShare} f))) := rfl
theorem duties_bar_lit (c : Dev nD) : (sched (F := F) m).duties (barCell c) 0 = {0, 1, 2} := by
  rw [duties_bar]; decide
theorem recvPay_0 (c : Dev nD) : recvPay m c 0 = iprop((relayL0.view.loc (c : Thread nD τ) ↦[relayL0.view.set]{fullShare} relayC m c)) := rfl
theorem recvPay_1 (c : Dev nD) : recvPay m c 1 = iprop((relayL1.view.loc (c : Thread nD τ) ↦[relayL1.view.set]{fullShare} relayC m c)) := rfl
theorem recvPay_2 (c : Dev nD) : recvPay m c 2 = iprop((relayR0.view.loc (c : Thread nD τ) ↦[relayR0.view.set]{fullShare} relayC m c)) := rfl
theorem recvPay_3 (c : Dev nD) : recvPay m c 3 = iprop((relayR1.view.loc (c : Thread nD τ) ↦[relayR1.view.set]{fullShare} relayC m c)) := rfl
theorem recvPay_4 (c : Dev nD) : recvPay m c 4 = iprop((farH0.view.loc (c : Thread nD τ) ↦[farH0.view.set]{fullShare} farC m c)) := rfl
theorem recvPay_5 (c : Dev nD) : recvPay m c 5 = iprop((farH1.view.loc (c : Thread nD τ) ↦[farH1.view.set]{fullShare} farC m c)) := rfl
theorem recvPay_6 (c : Dev nD) : recvPay m c 6 = iprop((got0.view.loc (c : Thread nD τ) ↦[got0.view.set]{fullShare} gotC m c)) := rfl
theorem recvPay_7 (c : Dev nD) : recvPay m c 7 = iprop((got1.view.loc (c : Thread nD τ) ↦[got1.view.set]{fullShare} gotC m c)) := rfl
theorem recvPay_8 (c : Dev nD) : recvPay m c 8 = iprop((got2.view.loc (c : Thread nD τ) ↦[got2.view.set]{fullShare} gotC m c)) := rfl
theorem sendPay_0 (c : Dev nD) : sendPay m c 0 = iprop((w16H0.view.loc (c : Thread nD τ) ↦[w16H0.view.set]{fullShare.right.left} w16 m c)) := rfl
theorem sendPay_1 (c : Dev nD) : sendPay m c 1 = iprop((w16H1.view.loc (c : Thread nD τ) ↦[w16H1.view.set]{fullShare.right.left} w16 m c)) := rfl
theorem sendPay_2 (c : Dev nD) : sendPay m c 2 = iprop((w16H0.view.loc (c : Thread nD τ) ↦[w16H0.view.set]{fullShare.right.right} w16 m c)) := rfl
theorem sendPay_3 (c : Dev nD) : sendPay m c 3 = iprop((w16H1.view.loc (c : Thread nD τ) ↦[w16H1.view.set]{fullShare.right.right} w16 m c)) := rfl
theorem sendPay_4 (c : Dev nD) : sendPay m c 4 = iprop((relayL0.view.loc (c : Thread nD τ) ↦[relayL0.view.set]{fullShare.left} relayC m c)) := rfl
theorem sendPay_5 (c : Dev nD) : sendPay m c 5 = iprop((relayR1.view.loc (c : Thread nD τ) ↦[relayR1.view.set]{fullShare.left} relayC m c)) := rfl
theorem sendPay_6 (c : Dev nD) : sendPay m c 6 = iprop((made0.view.loc (c : Thread nD τ) ↦[made0.view.set]{fullShare} madeC m c)) := rfl
theorem sendPay_7 (c : Dev nD) : sendPay m c 7 = iprop((made1.view.loc (c : Thread nD τ) ↦[made1.view.set]{fullShare} madeC m c)) := rfl
theorem sendPay_8 (c : Dev nD) : sendPay m c 8 = iprop((made2.view.loc (c : Thread nD τ) ↦[made2.view.set]{fullShare} madeC m c)) := rfl

attribute [local sl_rounds] duties_bar_lit duties_send duties_recv amount_bar amount_send amount_recv
  payload_bar payload_send payload_recv barPay_from0 barPay_from1 barPay_from2 barFrom_0 barFrom_1 barFrom_2
  rgt_lft lft_rgt opp_opp recvPay_0 recvPay_1 recvPay_2 recvPay_3 recvPay_4 recvPay_5 recvPay_6 recvPay_7 recvPay_8 sendPay_0 sendPay_1 sendPay_2 sendPay_3 sendPay_4 sendPay_5 sendPay_6 sendPay_7 sendPay_8
attribute [local sl_canon] dev1_eq dev2_eq dev3_eq dev4_eq dev5_eq dev6_eq dev7_eq dev8_eq dev9_eq dev10_eq dev11_eq dev12_eq

abbrev ow8 (c : Dev nD) : CellTallies nD τ sig Unit := tallyAt (recvCell (opp c) 8) () (amt 8)
abbrev ow7 (c : Dev nD) : CellTallies nD τ sig Unit := ow8 c + tallyAt (recvCell (rgt c) 7) () (amt 7)
abbrev ow6 (c : Dev nD) : CellTallies nD τ sig Unit := ow7 c + tallyAt (recvCell (lft c) 6) () (amt 6)
abbrev ow5 (c : Dev nD) : CellTallies nD τ sig Unit := ow6 c + tallyAt (recvCell (lft c) 5) () (amt 5)
abbrev ow4 (c : Dev nD) : CellTallies nD τ sig Unit := ow5 c + tallyAt (recvCell (rgt c) 4) () (amt 4)
abbrev ow3 (c : Dev nD) : CellTallies nD τ sig Unit := ow4 c + tallyAt (recvCell (lft c) 3) () (amt 3)
abbrev ow1 (c : Dev nD) : CellTallies nD τ sig Unit := ow3 c + tallyAt (recvCell (rgt c) 1) () (amt 1)
abbrev ow2 (c : Dev nD) : CellTallies nD τ sig Unit := ow1 c + tallyAt (recvCell (lft c) 2) () (amt 2)
def Hid (P : sProp 𝕄) : sProp 𝕄 := P
theorem hid_in (P : sProp 𝕄) : P ⊢ Hid (F := F) P := BI.Entails.refl _
theorem hid_out (P : sProp 𝕄) : Hid (F := F) P ⊢ P := BI.Entails.refl _

theorem wp_xfer {sp sp' : Space} {s : Shape} {e : EltTy} (c n T : Dev nD) (hn : n = T) (k : Fin 9)
    (src : Memref sig .tc sp s e) (dst : Memref sig .tc sp' s e) (q : PosShare TreeShare) {κ₁ κ₂ : ℕ}
    {hsc : (dst : Memref sig (Dev.tc n : Thread nD τ).2.kind sp' s e).view.ref.isScScratch = false}
    {hsrc : src.view.WordExact} {hdst : dst.view.WordExact}
    {hsem : DmaTarget.Typed sp (.dma (recvSem k)) (.remote (Dev.tc n : Thread nD τ) dst (.dma (sendSem k)) hsc)}
    {α : Type} {Q : α → sProp 𝕄} {kk : PUnit → Prog (TpuEff nD τ sig (Elt F) Λ₀ .tc) α}
    (fs : Buf (Elt F) (src.view.loc (c : Thread nD τ))) (fd : Buf (Elt F) (dst.view.loc (T : Thread nD τ)))
    (hN : dst.view.amount (.dma (recvSem k)) = amt k)
    (O O' : CellTallies nD τ sig Unit) (hO : O = O' + tallyAt (recvCell T k) () (amt k)) (W : Waits sig Unit)
    (hpay₁ : ((src.view.loc (c : Thread nD τ) ↦[src.view.set]{q} fs) : sProp 𝕄) ⊢ sendPay m c k)
    (hpay₂ : ((dst.view.loc (T : Thread nD τ) ↦[dst.view.set]{fullShare} (dst.view.write (Elt F) fd (src.view.read (Elt F) fs) Finset.univ)) : sProp 𝕄)
      ⊢ recvPay m T k) :
    iprop(cellInv ER (sched m) κ₁ (sendCell c k) ∗ cellInv ER (sched m) κ₂ (recvCell T k)
        ∗ (src.view.loc (c : Thread nD τ) ↦[src.view.set]{q} fs) ∗ (dst.view.loc (T : Thread nD τ) ↦[dst.view.set]{fullShare} fd)
        ∗ owes (c : Thread nD τ) O W
        ∗ dutyTok ER (sendCell c k) 0 (0 : Fin 3) ∗ reached ER (sendCell c k) 0
        ∗ dutyTok ER (recvCell T k) 0 (0 : Fin 3) ∗ reached ER (recvCell T k) 0)
      ⊢ iprop(((cred (tallyAt (sendCell c k) () (amt k)) ∗ owes (c : Thread nD τ) O' W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma (sendSem k)) hsc) (.dma (recvSem k)) hsrc hdst hsem) kk) Q) := by
  subst hn
  exact Rounds.wp_send_pointsTo 𝒱₀ ER (sched m) (c : Thread nD τ) none (κ₁ := κ₁) (κ₂ := κ₂)
    (r₁ := 0) (r₂ := 0) (d₁ := (0 : Fin 3)) (d₂ := (0 : Fin 3)) (fd := fd)
    (by rw [duties_send]; exact Finset.mem_singleton_self _) (by rw [duties_recv]; exact Finset.mem_singleton_self _)
    () () (amt k) hN (amount_send m c k 0) (amount_recv m n k 0) O' hO (W := W)
    (by rw [payload_send]; exact hpay₁) (by rw [payload_recv]; exact hpay₂)

theorem restR (c : Dev nD) (k : Fin 9) :
    bigSep ((sched (F := F) m).duties (recvCell c k) 0) (fun d => (sched (F := F) m).payload (recvCell c k) 0 d) = recvPay m c k := by
  rw [duties_recv, bigSep_singleton, payload_recv]

set_option maxHeartbeats 4000000 in
theorem sound_body (c : Dev nD) (Kt : PUnit → sProp 𝕄) :
    iprop(bodyPre m c ∗ (bodyPost m c -∗ Kt ⟨⟩))
      ⊢ wp frame (wpE (defs₀ (F := F)) 𝒱₀ c none) Set.univ (cc0_body xA (Memref.isWhole_whole _) wStg (Memref.isWhole_whole _) oStg (Memref.isWhole_whole _) relayA (Memref.isWhole_whole _) w16A (Memref.isWhole_whole _) x16A (Memref.isWhole_whole _) xq (Memref.isWhole_whole _) farA (Memref.isWhole_whole _) landA (Memref.isWhole_whole _) madeA (Memref.isWhole_whole _) gotA (Memref.isWhole_whole _) cc0_scratch7 cc0_scratch8 cc0_scratch9) Kt := by
  unfold bodyPre Φ₀ start ghost invs poss reacheds payToks creds copy0 scratch xPts relayPts
  iintro ⟨⟨⟨⟨⟨%K, ⟨#IB, #IS0, #IS1, #IS2, #IS3, #IS4, #IS5, #IS6, #IS7, #IS8, #IR0, #IR1, #IR2, #IR3, #IR4, #IR5, #IR6, #IR7, #IR8, #IbL, #IbR, #IbO, #IT0, #IT1, #IT2, #IT3, #IT4, #IT5, #IT6, #IT7, #IT8⟩, ⟨AtB, AtS0, AtS1, AtS2, AtS3, AtS4, AtS5, AtS6, AtS7, AtS8, AtR0, AtR1, AtR2, AtR3, AtR4, AtR5, AtR6, AtR7, AtR8⟩, ⟨#RB, #RbL, #RbR, #RbO, #RS0, #RS1, #RS2, #RS3, #RS4, #RS5, #RS6, #RS7, #RS8, #RR0, #RR1, #RR2, #RR3, #RR4, #RR5, #RR6, #RR7, #RR8, #RT0, #RT1, #RT2, #RT3, #RT4, #RT5, #RT6, #RT7, #RT8⟩, ⟨TbL, TbR, TbO, TT0, TT1, TT2, TT3, TT4, TT5, TT6, TT7, TT8, TS0, TS1, TS2, TS3, TS4, TS5, TS6, TS7, TS8⟩⟩, ⟨CB, CR0, CR1, CR2, CR3, CR4, CR5, CR6, CR7, CR8⟩, ⟨Z0, Z1, Z2⟩, #Hlev⟩, Hx, ⟨%fr, Hrelay⟩, ⟨⟨%f0, H0⟩, ⟨%f1, H1⟩, ⟨%f2, H2⟩, ⟨%f3, H3⟩, ⟨%f4, H4⟩, ⟨%f5, H5⟩, ⟨%f6, H6⟩⟩⟩, Ho, ⟨%d0, %g0, %hg0, Hw⟩, ⟨%d1, %g1, %hg1, Hout⟩⟩, Hk⟩
  unfold Dat.owesAt Pipeline.owesWithin
  icases Ho with ⟨%W, %hW, HO⟩
  have hw0 : g0 = wStgC m c := by rw [hg0]; unfold Dat.before; rw [if_pos (fetch0_0 t₀)]; rfl
  subst hw0
  rw [show (dats m 0 c).owed t₀.castSucc = O₀ c from rfl]
  unfold O₀
  ihave Hq := (relay_carve (F := F) c fr) $$ Hrelay
  icases Hq with ⟨QL0, QL1, QR0, QR1⟩
  ihave Hf := (far_split (F := F) c f3).1 $$ H3
  icases Hf with ⟨FH0, FH1⟩
  ihave Hg := (got_split (F := F) c f6).1 $$ H6
  icases Hg with ⟨G0, G1, G2⟩
  ihave Vx := (Entails.of_eq (whole_eq (F := F) c main_arg0 fullShare _)) $$ Hx
  ihave V0 := (Entails.of_eq (whole_eq (F := F) c cc0_scratch0 fullShare _)) $$ H0
  ihave V1 := (Entails.of_eq (whole_eq (F := F) c cc0_scratch1 fullShare _)) $$ H1
  ihave V2 := (Entails.of_eq (whole_eq (F := F) c cc0_scratch2 fullShare _)) $$ H2
  ihave Vw := (Entails.of_eq (whole_eq (F := F) c cc0_stg0_0 fullShare _)) $$ Hw
  ihave Vout := (Entails.of_eq (whole_eq (F := F) c cc0_stg1_0 fullShare _)) $$ Hout
  sl_exec_parts
  conv => rhs; simp only [semSignalWord, semWaitWord, Prog.lift, Prog.bind_op, Prog.bind_ret, Prog.pure_eq_ret]
  iapply (Rounds.wp_signal 𝒱₀ ER (sched m) (c : Thread nD τ) none (dst := (lft c : Thread nD τ)) (κ := K (lft c, 0))
      (d := (0 : Fin 3)) (by rw [duties_bar]; exact Finset.mem_univ _) ((amount_bar m (lft c) 0).trans (by decide)) ()
      (owedX c + tallyAt (barCell (opp c)) () 1 + tallyAt (barCell (rgt c)) () 1) rfl) $$ [HO TbL QL0 QL1 FH0 G1]
  · isplitr; · iexact IbL
    isplitl [HO]; · iexact HO
    isplitl [TbL]; · iexact TbL
    isplitl [QL0 QL1 FH0 G1]
    · rw [payload_bar, barPay_to_lft]; unfold someAt
      isplitl [QL0]; · iexists fr; iexact QL0
      isplitl [QL1]; · iexists fr; iexact QL1
      isplitl [FH0]; · iexists f3; iexact FH0
      iexists f6; iexact G1
    · iexact RbL
  iintro HO
  rw [wp_ret]; imodintro
  iapply (Rounds.wp_signal 𝒱₀ ER (sched m) (c : Thread nD τ) none (dst := (rgt c : Thread nD τ)) (κ := K (rgt c, 0))
      (d := (1 : Fin 3)) (by rw [duties_bar]; exact Finset.mem_univ _) ((amount_bar m (rgt c) 1).trans (by decide)) ()
      (owedX c + tallyAt (barCell (opp c)) () 1) rfl) $$ [HO TbR QR0 QR1 FH1 G0]
  · isplitr; · iexact IbR
    isplitl [HO]; · iexact HO
    isplitl [TbR]; · iexact TbR
    isplitl [QR0 QR1 FH1 G0]
    · rw [payload_bar, barPay_to_rgt]; unfold someAt
      isplitl [QR0]; · iexists fr; iexact QR0
      isplitl [QR1]; · iexists fr; iexact QR1
      isplitl [FH1]; · iexists f3; iexact FH1
      iexists f6; iexact G0
    · iexact RbR
  iintro HO
  iapply (Rounds.wp_signal 𝒱₀ ER (sched m) (c : Thread nD τ) none (dst := (opp c : Thread nD τ)) (κ := K (opp c, 0))
      (d := (2 : Fin 3)) (by rw [duties_bar]; exact Finset.mem_univ _) ((amount_bar m (opp c) 2).trans (by decide)) ()
      (owedX c) rfl) $$ [HO TbO G2]
  · isplitr; · iexact IbO
    isplitl [HO]; · iexact HO
    isplitl [TbO]; · iexact TbO
    isplitl [G2]
    · rw [payload_bar, barPay_to_opp]; unfold someAt

      iexists f6; iexact G2
    · iexact RbO
  iintro HO
  iapply (Rounds.wp_wait_rest_token 𝒱₀ ER (sched m) (c : Thread nD τ) none (κ := K (c, 0))
      (wpE_semWait_eq 𝒱₀ (c : Thread nD τ) none Set.univ) (Set.mem_univ _) () (O := owedX c) (W := W) (R := 0) (m := 0) (T := ∅)
      (by rw [expect_bar]; decide)) $$ [CB HO AtB]
  · isplitr; · iexact IB
    isplitl [CB]; · iexact CB
    isplitl [HO]; · iexact HO
    isplitr; · iapply (mayWait_of_above (F := F) c (.reg barS) 1 (lv_bar c) (owedX c) (above_owedX c)); iexact Hlev
    iexact AtB
  iintro ⟨HO, AtB, -, Hpay⟩
  ihave Hp := (Entails.of_eq (rest_bar m c)) $$ Hpay
  unfold barPay someAt
  icases Hp with ⟨⟨⟨%a0, PL0⟩, ⟨%a1, PL1⟩, ⟨%a2, PF0⟩, ⟨%a3, PG1⟩⟩, ⟨⟨%b0, PR0⟩, ⟨%b1, PR1⟩, ⟨%b2, PF1⟩, ⟨%b3, PG0⟩⟩, ⟨%e0, PG2⟩⟩
  ihave Hm := (made_split (F := F) c f5).1 $$ H5
  icases Hm with ⟨M0, M1, M2⟩
  unfold holdsAt
  ihave Hl := (land_split (F := F) c f4).1 $$ H4
  icases Hl with ⟨LD0, LD1⟩
  unfold holdsAt
  ihave V0 := (Entails.of_eq (whole_eq (F := F) c cc0_scratch0 fullShare _).symm) $$ V0
  rw [form_w16 m c f0]
  ihave Hs := (w16_split (F := F) c (w16 m c)).1 $$ V0
  icases Hs with ⟨Wl, Wa0, Wb0, Wa1, Wb1⟩
  unfold holdsAt
  ihave Wl := (Entails.of_eq (whole_eq (F := F) c cc0_scratch0 fullShare.left _)) $$ Wl
  iapply (wp_xfer (F := F) m c _ (rgt c) (dev4_eq c) 0 w16H0 relayL0 fullShare.right.left (κ₁ := K (c, jS 0)) (κ₂ := K (rgt c, jR 0))
      (w16 m c) a0 rfl (owedX c) (ow2 c) (by unfold owedX ow2 ow1 ow3 ow4 ow5 ow6 ow7 ow8; ac_rfl) _
      (by rw [sendPay_0]) (land0 m c a0)) $$ [Wa0 PL0 HO TS0 TT0]
  · iframe # ∗
  iintro ⟨CS0, HO⟩
  rw [wp_ret]; imodintro
  sl_unfold [k0_part3]
  conv => rhs; simp only [Prog.lift, Prog.bind_op, Prog.bind_ret, Prog.pure_eq_ret]
  iapply (wp_xfer (F := F) m c _ (lft c) (dev5_eq c) 2 w16H0 relayR0 fullShare.right.right (κ₁ := K (c, jS 2)) (κ₂ := K (lft c, jR 2))
      (w16 m c) b0 rfl (ow2 c) (ow1 c) (rfl) _
      (by rw [sendPay_2]) (land2 m c b0)) $$ [Wb0 PR0 HO TS2 TT2]
  · iframe # ∗
  iintro ⟨CS2, HO⟩
  iapply (wp_xfer (F := F) m c _ (rgt c) (dev6_eq c) 1 w16H1 relayL1 fullShare.right.left (κ₁ := K (c, jS 1)) (κ₂ := K (rgt c, jR 1))
      (w16 m c) a1 rfl (ow1 c) (ow3 c) (rfl) _
      (by rw [sendPay_1]) (land1 m c a1)) $$ [Wa1 PL1 HO TS1 TT1]
  · iframe # ∗
  iintro ⟨CS1, HO⟩
  iapply (wp_xfer (F := F) m c _ (lft c) (dev7_eq c) 3 w16H1 relayR1 fullShare.right.right (κ₁ := K (c, jS 3)) (κ₂ := K (lft c, jR 3))
      (w16 m c) b1 rfl (ow3 c) (ow4 c) (rfl) _
      (by rw [sendPay_3]) (land3 m c b1)) $$ [Wb1 PR1 HO TS3 TT3]
  · iframe # ∗
  iintro ⟨CS3, HO⟩
  have hLed : ∀ (q : DmaSem sig) (O : CellTallies nD τ sig Unit), xferIdx (.dma q : SemLoc sig) = none → AboveLv 0 O →
      ((levAts L lv : sProp 𝕄) ⊢ MayWait (c : Thread nD τ) (.dma q) () O) :=
    fun q O hq hO => mayWait_of_above (F := F) c (.dma q) 0 (lv_other c q hq) O hO
  have hA4 : AboveLv 0 (ow4 c) := above_add (above_add (above_add (above_add (above_recv (opp c) 8 0 (by decide) _) (above_recv (rgt c) 7 0 (by decide) _)) (above_recv (lft c) 6 0 (by decide) _)) (above_recv (lft c) 5 0 (by decide) _)) (above_recv (rgt c) 4 0 (by decide) _)
  have hA5 : AboveLv 0 (ow5 c) := above_add (above_add (above_add (above_recv (opp c) 8 0 (by decide) _) (above_recv (rgt c) 7 0 (by decide) _)) (above_recv (lft c) 6 0 (by decide) _)) (above_recv (lft c) 5 0 (by decide) _)
  have hA6 : AboveLv 0 (ow6 c) := above_add (above_add (above_recv (opp c) 8 0 (by decide) _) (above_recv (rgt c) 7 0 (by decide) _)) (above_recv (lft c) 6 0 (by decide) _)
  have hA7 : AboveLv 0 (ow7 c) := above_add (above_recv (opp c) 8 0 (by decide) _) (above_recv (rgt c) 7 0 (by decide) _)
  have hA8 : AboveLv 0 (ow8 c) := above_recv (opp c) 8 0 (by decide) _
  have hMW0 : ((levAts L lv : sProp 𝕄) ⊢ MayWait (c : Thread nD τ) (recvCell c 0).2 () (ow4 c)) :=
    mayWait_of_above (F := F) c (recvCell c 0).2 2 ((lv_recv c 0).trans rfl) _ (above_add (above_add (above_add (above_add (above_recv (opp c) 8 2 (by decide) _) (above_recv (rgt c) 7 2 (by decide) _)) (above_recv (lft c) 6 2 (by decide) _)) (above_recv (lft c) 5 2 (by decide) _)) (above_recv (rgt c) 4 2 (by decide) _))
  have hMW2 : ((levAts L lv : sProp 𝕄) ⊢ MayWait (c : Thread nD τ) (recvCell c 2).2 () (ow5 c)) :=
    mayWait_of_above (F := F) c (recvCell c 2).2 2 ((lv_recv c 2).trans rfl) _ (above_add (above_add (above_add (above_recv (opp c) 8 2 (by decide) _) (above_recv (rgt c) 7 2 (by decide) _)) (above_recv (lft c) 6 2 (by decide) _)) (above_recv (lft c) 5 2 (by decide) _))
  have hMW1 : ((levAts L lv : sProp 𝕄) ⊢ MayWait (c : Thread nD τ) (recvCell c 1).2 () (ow5 c)) :=
    mayWait_of_above (F := F) c (recvCell c 1).2 2 ((lv_recv c 1).trans rfl) _ (above_add (above_add (above_add (above_recv (opp c) 8 2 (by decide) _) (above_recv (rgt c) 7 2 (by decide) _)) (above_recv (lft c) 6 2 (by decide) _)) (above_recv (lft c) 5 2 (by decide) _))
  have hMW3 : ((levAts L lv : sProp 𝕄) ⊢ MayWait (c : Thread nD τ) (recvCell c 3).2 () (ow5 c)) :=
    mayWait_of_above (F := F) c (recvCell c 3).2 2 ((lv_recv c 3).trans rfl) _ (above_add (above_add (above_add (above_recv (opp c) 8 2 (by decide) _) (above_recv (rgt c) 7 2 (by decide) _)) (above_recv (lft c) 6 2 (by decide) _)) (above_recv (lft c) 5 2 (by decide) _))
  have hMW4 : ((levAts L lv : sProp 𝕄) ⊢ MayWait (c : Thread nD τ) (recvCell c 4).2 () (ow8 c)) :=
    mayWait_of_above (F := F) c (recvCell c 4).2 3 ((lv_recv c 4).trans rfl) _ (above_recv (opp c) 8 3 (by decide) _)
  have hMW5 : ((levAts L lv : sProp 𝕄) ⊢ MayWait (c : Thread nD τ) (recvCell c 5).2 () (ow8 c)) :=
    mayWait_of_above (F := F) c (recvCell c 5).2 3 ((lv_recv c 5).trans rfl) _ (above_recv (opp c) 8 3 (by decide) _)
  ihave Y0 := (show ((semVal (copyCell c 0) 0) : sProp 𝕄) ⊢ semVal (((c : Thread nD τ)), SemLoc.dma (cS0 : DmaSems sig S_).sem) 0 from BI.Entails.refl _) $$ Z0
  ihave Y1 := (show ((semVal (copyCell c 1) 0) : sProp 𝕄) ⊢ semVal (((c : Thread nD τ)), SemLoc.dma (cS1 : DmaSems sig S_).sem) 0 from BI.Entails.refl _) $$ Z1
  ihave Y2 := (show ((semVal (copyCell c 2) 0) : sProp 𝕄) ⊢ semVal (((c : Thread nD τ)), SemLoc.dma (cS2 : DmaSems sig S_).sem) 0 from BI.Entails.refl _) $$ Z2
  ihave CR4h := (hid_in (F := F) (cred (tallyAt (recvCell c 4) () (amt 4)))) $$ CR4
  ihave CR5h := (hid_in (F := F) (cred (tallyAt (recvCell c 5) () (amt 5)))) $$ CR5
  ihave CR6h := (hid_in (F := F) (cred (tallyAt (recvCell c 6) () (amt 6)))) $$ CR6
  ihave CR7h := (hid_in (F := F) (cred (tallyAt (recvCell c 7) () (amt 7)))) $$ CR7
  ihave CR8h := (hid_in (F := F) (cred (tallyAt (recvCell c 8) () (amt 8)))) $$ CR8
  ihave CS0h := (hid_in (F := F) (cred (tallyAt (sendCell c 0) () (amt 0)))) $$ CS0
  ihave CS2h := (hid_in (F := F) (cred (tallyAt (sendCell c 2) () (amt 2)))) $$ CS2
  ihave CS1h := (hid_in (F := F) (cred (tallyAt (sendCell c 1) () (amt 1)))) $$ CS1
  ihave CS3h := (hid_in (F := F) (cred (tallyAt (sendCell c 3) () (amt 3)))) $$ CS3
  sl_exec_parts
  ihave L0 := (Entails.of_eq ((restR m c 0).trans (recvPay_0 m c))) $$ AtR0_pay1
  ihave Hh := (holds_halve (F := F) c relayL0 fullShare (relayC m c)).1 $$ L0
  icases Hh with ⟨L0a, L0b⟩
  unfold holdsAt
  iapply (wp_xfer (F := F) m c _ (rgt c) (dev8_eq c) 4 relayL0 farH0 fullShare.left (κ₁ := K (c, jS 4)) (κ₂ := K (rgt c, jR 4))
      (relayC m c) a2 rfl (ow4 c) (ow5 c) (rfl) _
      (by rw [sendPay_4]) (land4 m c a2)) $$ [L0a PF0 HO TS4 TT4]
  · iframe # ∗
  iintro ⟨CS4, HO⟩
  ihave CS4h := (hid_in (F := F) (cred (tallyAt (sendCell c 4) () (amt 4)))) $$ CS4
  sl_exec_parts
  ihave R0 := (Entails.of_eq ((restR m c 2).trans (recvPay_2 m c))) $$ AtR2_pay1
  sl_exec_parts
  ihave L1 := (Entails.of_eq ((restR m c 1).trans (recvPay_1 m c))) $$ AtR1_pay1
  sl_exec_parts
  ihave R1 := (Entails.of_eq ((restR m c 3).trans (recvPay_3 m c))) $$ AtR3_pay1
  ihave Hh := (holds_halve (F := F) c relayR1 fullShare (relayC m c)).1 $$ R1
  icases Hh with ⟨R1a, R1b⟩
  unfold holdsAt
  iapply (wp_xfer (F := F) m c _ (lft c) (dev9_eq c) 5 relayR1 farH1 fullShare.left (κ₁ := K (c, jS 5)) (κ₂ := K (lft c, jR 5))
      (relayC m c) b2 rfl (ow5 c) (ow6 c) (rfl) _
      (by rw [sendPay_5]) (land5 m c b2)) $$ [R1a PF1 HO TS5 TT5]
  · iframe # ∗
  iintro ⟨CS5, HO⟩
  ihave CS5h := (hid_in (F := F) (cred (tallyAt (sendCell c 5) () (amt 5)))) $$ CS5
  sl_exec_parts
  ihave M0 := (Entails.of_eq (slot0_pts m c f2 f5 (sound_body.sl.M0_w2_1 m c f2 f5) rfl)) $$ M0
  iapply (wp_xfer (F := F) m c _ (lft c) (dev10_eq c) 6 made0 got0 fullShare (κ₁ := K (c, jS 6)) (κ₂ := K (lft c, jR 6))
      (madeC m c) b3 rfl (ow6 c) (ow7 c) (rfl) _
      (by rw [sendPay_6]) (land6 m c b3)) $$ [M0 PG0 HO TS6 TT6]
  · iframe # ∗
  iintro ⟨CS6, HO⟩
  ihave CS6h := (hid_in (F := F) (cred (tallyAt (sendCell c 6) () (amt 6)))) $$ CS6
  sl_exec_parts
  ihave M1 := (Entails.of_eq (slot1_pts m c f2 f5 (sound_body.sl.M1_w2_1 m c f2 f5) rfl)) $$ M1
  iapply (wp_xfer (F := F) m c _ (rgt c) (dev11_eq c) 7 made1 got1 fullShare (κ₁ := K (c, jS 7)) (κ₂ := K (rgt c, jR 7))
      (madeC m c) a3 rfl (ow7 c) (ow8 c) (rfl) _
      (by rw [sendPay_7]) (land7 m c a3)) $$ [M1 PG1 HO TS7 TT7]
  · iframe # ∗
  iintro ⟨CS7, HO⟩
  ihave CS7h := (hid_in (F := F) (cred (tallyAt (sendCell c 7) () (amt 7)))) $$ CS7
  (try conv => rhs; simp only [Prog.lift, Prog.bind_op, Prog.bind_ret, Prog.pure_eq_ret])
  ihave CR4 := (hid_out (F := F) (cred (tallyAt (recvCell c 4) () (amt 4)))) $$ CR4h
  iapply (Rounds.wp_wait_rest_token 𝒱₀ ER (sched m) (c : Thread nD τ) none (κ := K (c, jR 4))
      (wpE_waitDma2_eq 𝒱₀ (c : Thread nD τ) none Set.univ) (Set.mem_univ _) () (O := ow8 c) (R := 0) (m := 0) (T := ∅)
      (by rw [Nat.zero_add]; exact (expect_recv m c 4).symm)) $$ [CR4 HO AtR4]
  · isplitr; · iexact IR4
    isplitl [CR4]; · iexact CR4
    isplitl [HO]; · iexact HO
    isplitr; · iapply hMW4; iexact Hlev
    iexact AtR4
  iintro ⟨HO, AtR4, -, Hpay⟩
  ihave F0 := (Entails.of_eq ((rest_recv m c 4).trans (recvPay_4 m c))) $$ Hpay
  sl_exec_parts
  ihave CR5 := (hid_out (F := F) (cred (tallyAt (recvCell c 5) () (amt 5)))) $$ CR5h
  iapply (Rounds.wp_wait_rest_token 𝒱₀ ER (sched m) (c : Thread nD τ) none (κ := K (c, jR 5))
      (wpE_waitDma2_eq 𝒱₀ (c : Thread nD τ) none Set.univ) (Set.mem_univ _) () (O := ow8 c) (R := 0) (m := 0) (T := ∅)
      (by rw [Nat.zero_add]; exact (expect_recv m c 5).symm)) $$ [CR5 HO AtR5]
  · isplitr; · iexact IR5
    isplitl [CR5]; · iexact CR5
    isplitl [HO]; · iexact HO
    isplitr; · iapply hMW5; iexact Hlev
    iexact AtR5
  iintro ⟨HO, AtR5, -, Hpay⟩
  ihave F1 := (Entails.of_eq ((rest_recv m c 5).trans (recvPay_5 m c))) $$ Hpay
  sl_exec_parts
  ihave M2 := (Entails.of_eq (slot2_pts m c f2 f5 (sound_body.sl.M2_w2_1 m c f2 f5) rfl)) $$ M2
  iapply (wp_xfer (F := F) m c _ (opp c) (dev12_eq c) 8 made2 got2 fullShare (κ₁ := K (c, jS 8)) (κ₂ := K (opp c, jR 8))
      (madeC m c) e0 rfl (ow8 c) (0) ((zero_add _).symm) _
      (by rw [sendPay_8]) (land8 m c e0)) $$ [M2 PG2 HO TS8 TT8]
  · iframe # ∗
  iintro ⟨CS8, HO⟩
  ihave CS8h := (hid_in (F := F) (cred (tallyAt (sendCell c 8) () (amt 8)))) $$ CS8
  (try conv => rhs; simp only [Prog.lift, Prog.bind_op, Prog.bind_ret, Prog.pure_eq_ret])
  ihave CR6 := (hid_out (F := F) (cred (tallyAt (recvCell c 6) () (amt 6)))) $$ CR6h
  iapply (Rounds.wp_wait_rest_token 𝒱₀ ER (sched m) (c : Thread nD τ) none (κ := K (c, jR 6))
      (wpE_waitDma2_eq 𝒱₀ (c : Thread nD τ) none Set.univ) (Set.mem_univ _) () (O := 0) (R := 0) (m := 0) (T := ∅)
      (by rw [Nat.zero_add]; exact (expect_recv m c 6).symm)) $$ [CR6 HO AtR6]
  · isplitr; · iexact IR6
    isplitl [CR6]; · iexact CR6
    isplitl [HO]; · iexact HO
    isplitr; · rw [MayWait_zero]; iempintro
    iexact AtR6
  iintro ⟨HO, AtR6, -, Hpay⟩
  ihave G0' := (Entails.of_eq ((rest_recv m c 6).trans (recvPay_6 m c))) $$ Hpay
  sl_exec_parts
  ihave CR7 := (hid_out (F := F) (cred (tallyAt (recvCell c 7) () (amt 7)))) $$ CR7h
  iapply (Rounds.wp_wait_rest_token 𝒱₀ ER (sched m) (c : Thread nD τ) none (κ := K (c, jR 7))
      (wpE_waitDma2_eq 𝒱₀ (c : Thread nD τ) none Set.univ) (Set.mem_univ _) () (O := 0) (R := 0) (m := 0) (T := ∅)
      (by rw [Nat.zero_add]; exact (expect_recv m c 7).symm)) $$ [CR7 HO AtR7]
  · isplitr; · iexact IR7
    isplitl [CR7]; · iexact CR7
    isplitl [HO]; · iexact HO
    isplitr; · rw [MayWait_zero]; iempintro
    iexact AtR7
  iintro ⟨HO, AtR7, -, Hpay⟩
  ihave G1' := (Entails.of_eq ((rest_recv m c 7).trans (recvPay_7 m c))) $$ Hpay
  sl_exec_parts
  ihave CR8 := (hid_out (F := F) (cred (tallyAt (recvCell c 8) () (amt 8)))) $$ CR8h
  iapply (Rounds.wp_wait_rest_token 𝒱₀ ER (sched m) (c : Thread nD τ) none (κ := K (c, jR 8))
      (wpE_waitDma2_eq 𝒱₀ (c : Thread nD τ) none Set.univ) (Set.mem_univ _) () (O := 0) (R := 0) (m := 0) (T := ∅)
      (by rw [Nat.zero_add]; exact (expect_recv m c 8).symm)) $$ [CR8 HO AtR8]
  · isplitr; · iexact IR8
    isplitl [CR8]; · iexact CR8
    isplitl [HO]; · iexact HO
    isplitr; · rw [MayWait_zero]; iempintro
    iexact AtR8
  iintro ⟨HO, AtR8, -, Hpay⟩
  ihave G2' := (Entails.of_eq ((rest_recv m c 8).trans (recvPay_8 m c))) $$ Hpay
  sl_exec_parts
  ihave CS0 := (hid_out (F := F) (cred (tallyAt (sendCell c 0) () (amt 0)))) $$ CS0h
  iapply (Rounds.wp_wait_rest_token 𝒱₀ ER (sched m) (c : Thread nD τ) none (κ := K (c, jS 0))
      (wpE_waitDma2_eq 𝒱₀ (c : Thread nD τ) none Set.univ) (Set.mem_univ _) () (O := 0) (R := 0) (m := 0) (T := ∅)
      (by rw [Nat.zero_add]; exact (expect_send m c 0).symm)) $$ [CS0 HO AtS0]
  · isplitr; · iexact IS0
    isplitl [CS0]; · iexact CS0
    isplitl [HO]; · iexact HO
    isplitr; · rw [MayWait_zero]; iempintro
    iexact AtS0
  iintro ⟨HO, AtS0, -, Hpay⟩
  ihave S0' := (Entails.of_eq ((rest_send m c 0).trans (sendPay_0 m c))) $$ Hpay
  sl_exec_parts
  ihave CS1 := (hid_out (F := F) (cred (tallyAt (sendCell c 1) () (amt 1)))) $$ CS1h
  iapply (Rounds.wp_wait_rest_token 𝒱₀ ER (sched m) (c : Thread nD τ) none (κ := K (c, jS 1))
      (wpE_waitDma2_eq 𝒱₀ (c : Thread nD τ) none Set.univ) (Set.mem_univ _) () (O := 0) (R := 0) (m := 0) (T := ∅)
      (by rw [Nat.zero_add]; exact (expect_send m c 1).symm)) $$ [CS1 HO AtS1]
  · isplitr; · iexact IS1
    isplitl [CS1]; · iexact CS1
    isplitl [HO]; · iexact HO
    isplitr; · rw [MayWait_zero]; iempintro
    iexact AtS1
  iintro ⟨HO, AtS1, -, Hpay⟩
  ihave S1' := (Entails.of_eq ((rest_send m c 1).trans (sendPay_1 m c))) $$ Hpay
  (try conv => rhs; simp only [Prog.lift, Prog.bind_op, Prog.bind_ret, Prog.pure_eq_ret])
  ihave CS2 := (hid_out (F := F) (cred (tallyAt (sendCell c 2) () (amt 2)))) $$ CS2h
  iapply (Rounds.wp_wait_rest_token 𝒱₀ ER (sched m) (c : Thread nD τ) none (κ := K (c, jS 2))
      (wpE_waitDma2_eq 𝒱₀ (c : Thread nD τ) none Set.univ) (Set.mem_univ _) () (O := 0) (R := 0) (m := 0) (T := ∅)
      (by rw [Nat.zero_add]; exact (expect_send m c 2).symm)) $$ [CS2 HO AtS2]
  · isplitr; · iexact IS2
    isplitl [CS2]; · iexact CS2
    isplitl [HO]; · iexact HO
    isplitr; · rw [MayWait_zero]; iempintro
    iexact AtS2
  iintro ⟨HO, AtS2, -, Hpay⟩
  ihave S2' := (Entails.of_eq ((rest_send m c 2).trans (sendPay_2 m c))) $$ Hpay
  (try conv => rhs; simp only [Prog.lift, Prog.bind_op, Prog.bind_ret, Prog.pure_eq_ret])
  ihave CS3 := (hid_out (F := F) (cred (tallyAt (sendCell c 3) () (amt 3)))) $$ CS3h
  iapply (Rounds.wp_wait_rest_token 𝒱₀ ER (sched m) (c : Thread nD τ) none (κ := K (c, jS 3))
      (wpE_waitDma2_eq 𝒱₀ (c : Thread nD τ) none Set.univ) (Set.mem_univ _) () (O := 0) (R := 0) (m := 0) (T := ∅)
      (by rw [Nat.zero_add]; exact (expect_send m c 3).symm)) $$ [CS3 HO AtS3]
  · isplitr; · iexact IS3
    isplitl [CS3]; · iexact CS3
    isplitl [HO]; · iexact HO
    isplitr; · rw [MayWait_zero]; iempintro
    iexact AtS3
  iintro ⟨HO, AtS3, -, Hpay⟩
  ihave S3' := (Entails.of_eq ((rest_send m c 3).trans (sendPay_3 m c))) $$ Hpay
  (try conv => rhs; simp only [Prog.lift, Prog.bind_op, Prog.bind_ret, Prog.pure_eq_ret])
  ihave CS4 := (hid_out (F := F) (cred (tallyAt (sendCell c 4) () (amt 4)))) $$ CS4h
  iapply (Rounds.wp_wait_rest_token 𝒱₀ ER (sched m) (c : Thread nD τ) none (κ := K (c, jS 4))
      (wpE_waitDma2_eq 𝒱₀ (c : Thread nD τ) none Set.univ) (Set.mem_univ _) () (O := 0) (R := 0) (m := 0) (T := ∅)
      (by rw [Nat.zero_add]; exact (expect_send m c 4).symm)) $$ [CS4 HO AtS4]
  · isplitr; · iexact IS4
    isplitl [CS4]; · iexact CS4
    isplitl [HO]; · iexact HO
    isplitr; · rw [MayWait_zero]; iempintro
    iexact AtS4
  iintro ⟨HO, AtS4, -, Hpay⟩
  ihave S4' := (Entails.of_eq ((rest_send m c 4).trans (sendPay_4 m c))) $$ Hpay
  sl_exec_parts
  ihave CS5 := (hid_out (F := F) (cred (tallyAt (sendCell c 5) () (amt 5)))) $$ CS5h
  iapply (Rounds.wp_wait_rest_token 𝒱₀ ER (sched m) (c : Thread nD τ) none (κ := K (c, jS 5))
      (wpE_waitDma2_eq 𝒱₀ (c : Thread nD τ) none Set.univ) (Set.mem_univ _) () (O := 0) (R := 0) (m := 0) (T := ∅)
      (by rw [Nat.zero_add]; exact (expect_send m c 5).symm)) $$ [CS5 HO AtS5]
  · isplitr; · iexact IS5
    isplitl [CS5]; · iexact CS5
    isplitl [HO]; · iexact HO
    isplitr; · rw [MayWait_zero]; iempintro
    iexact AtS5
  iintro ⟨HO, AtS5, -, Hpay⟩
  ihave S5' := (Entails.of_eq ((rest_send m c 5).trans (sendPay_5 m c))) $$ Hpay
  (try conv => rhs; simp only [Prog.lift, Prog.bind_op, Prog.bind_ret, Prog.pure_eq_ret])
  ihave CS6 := (hid_out (F := F) (cred (tallyAt (sendCell c 6) () (amt 6)))) $$ CS6h
  iapply (Rounds.wp_wait_rest_token 𝒱₀ ER (sched m) (c : Thread nD τ) none (κ := K (c, jS 6))
      (wpE_waitDma2_eq 𝒱₀ (c : Thread nD τ) none Set.univ) (Set.mem_univ _) () (O := 0) (R := 0) (m := 0) (T := ∅)
      (by rw [Nat.zero_add]; exact (expect_send m c 6).symm)) $$ [CS6 HO AtS6]
  · isplitr; · iexact IS6
    isplitl [CS6]; · iexact CS6
    isplitl [HO]; · iexact HO
    isplitr; · rw [MayWait_zero]; iempintro
    iexact AtS6
  iintro ⟨HO, AtS6, -, Hpay⟩
  ihave S6' := (Entails.of_eq ((rest_send m c 6).trans (sendPay_6 m c))) $$ Hpay
  sl_exec_parts
  ihave CS7 := (hid_out (F := F) (cred (tallyAt (sendCell c 7) () (amt 7)))) $$ CS7h
  iapply (Rounds.wp_wait_rest_token 𝒱₀ ER (sched m) (c : Thread nD τ) none (κ := K (c, jS 7))
      (wpE_waitDma2_eq 𝒱₀ (c : Thread nD τ) none Set.univ) (Set.mem_univ _) () (O := 0) (R := 0) (m := 0) (T := ∅)
      (by rw [Nat.zero_add]; exact (expect_send m c 7).symm)) $$ [CS7 HO AtS7]
  · isplitr; · iexact IS7
    isplitl [CS7]; · iexact CS7
    isplitl [HO]; · iexact HO
    isplitr; · rw [MayWait_zero]; iempintro
    iexact AtS7
  iintro ⟨HO, AtS7, -, Hpay⟩
  ihave S7' := (Entails.of_eq ((rest_send m c 7).trans (sendPay_7 m c))) $$ Hpay
  (try conv => rhs; simp only [Prog.lift, Prog.bind_op, Prog.bind_ret, Prog.pure_eq_ret])
  ihave CS8 := (hid_out (F := F) (cred (tallyAt (sendCell c 8) () (amt 8)))) $$ CS8h
  iapply (Rounds.wp_wait_rest_token 𝒱₀ ER (sched m) (c : Thread nD τ) none (κ := K (c, jS 8))
      (wpE_waitDma2_eq 𝒱₀ (c : Thread nD τ) none Set.univ) (Set.mem_univ _) () (O := 0) (R := 0) (m := 0) (T := ∅)
      (by rw [Nat.zero_add]; exact (expect_send m c 8).symm)) $$ [CS8 HO AtS8]
  · isplitr; · iexact IS8
    isplitl [CS8]; · iexact CS8
    isplitl [HO]; · iexact HO
    isplitr; · rw [MayWait_zero]; iempintro
    iexact AtS8
  iintro ⟨HO, AtS8, -, Hpay⟩
  ihave S8' := (Entails.of_eq ((rest_send m c 8).trans (sendPay_8 m c))) $$ Hpay
  imod (Rounds.cell_close ER (sched m) (Set.mem_univ (K (c, jS 0))) (fun h => h) (R := 0 + 1) (duties_later m (sendCell c 0))) $$ [AtS0] with ZS0
  · iframe # ∗
  imod (Rounds.cell_close ER (sched m) (Set.mem_univ (K (c, jS 1))) (fun h => h) (R := 0 + 1) (duties_later m (sendCell c 1))) $$ [AtS1] with ZS1
  · iframe # ∗
  imod (Rounds.cell_close ER (sched m) (Set.mem_univ (K (c, jS 2))) (fun h => h) (R := 0 + 1) (duties_later m (sendCell c 2))) $$ [AtS2] with ZS2
  · iframe # ∗
  imod (Rounds.cell_close ER (sched m) (Set.mem_univ (K (c, jS 3))) (fun h => h) (R := 0 + 1) (duties_later m (sendCell c 3))) $$ [AtS3] with ZS3
  · iframe # ∗
  imod (Rounds.cell_close ER (sched m) (Set.mem_univ (K (c, jS 4))) (fun h => h) (R := 0 + 1) (duties_later m (sendCell c 4))) $$ [AtS4] with ZS4
  · iframe # ∗
  imod (Rounds.cell_close ER (sched m) (Set.mem_univ (K (c, jS 5))) (fun h => h) (R := 0 + 1) (duties_later m (sendCell c 5))) $$ [AtS5] with ZS5
  · iframe # ∗
  imod (Rounds.cell_close ER (sched m) (Set.mem_univ (K (c, jS 6))) (fun h => h) (R := 0 + 1) (duties_later m (sendCell c 6))) $$ [AtS6] with ZS6
  · iframe # ∗
  imod (Rounds.cell_close ER (sched m) (Set.mem_univ (K (c, jS 7))) (fun h => h) (R := 0 + 1) (duties_later m (sendCell c 7))) $$ [AtS7] with ZS7
  · iframe # ∗
  imod (Rounds.cell_close ER (sched m) (Set.mem_univ (K (c, jS 8))) (fun h => h) (R := 0 + 1) (duties_later m (sendCell c 8))) $$ [AtS8] with ZS8
  · iframe # ∗
  imod (Rounds.cell_close ER (sched m) (Set.mem_univ (K (c, jR 0))) (fun h => h) (R := 0 + 1) (duties_later m (recvCell c 0))) $$ [AtR0] with ZR0
  · iframe # ∗
  imod (Rounds.cell_close ER (sched m) (Set.mem_univ (K (c, jR 1))) (fun h => h) (R := 0 + 1) (duties_later m (recvCell c 1))) $$ [AtR1] with ZR1
  · iframe # ∗
  imod (Rounds.cell_close ER (sched m) (Set.mem_univ (K (c, jR 2))) (fun h => h) (R := 0 + 1) (duties_later m (recvCell c 2))) $$ [AtR2] with ZR2
  · iframe # ∗
  imod (Rounds.cell_close ER (sched m) (Set.mem_univ (K (c, jR 3))) (fun h => h) (R := 0 + 1) (duties_later m (recvCell c 3))) $$ [AtR3] with ZR3
  · iframe # ∗
  imod (Rounds.cell_close ER (sched m) (Set.mem_univ (K (c, jR 4))) (fun h => h) (R := 0 + 1) (duties_later m (recvCell c 4))) $$ [AtR4] with ZR4
  · iframe # ∗
  imod (Rounds.cell_close ER (sched m) (Set.mem_univ (K (c, jR 5))) (fun h => h) (R := 0 + 1) (duties_later m (recvCell c 5))) $$ [AtR5] with ZR5
  · iframe # ∗
  imod (Rounds.cell_close ER (sched m) (Set.mem_univ (K (c, jR 6))) (fun h => h) (R := 0 + 1) (duties_later m (recvCell c 6))) $$ [AtR6] with ZR6
  · iframe # ∗
  imod (Rounds.cell_close ER (sched m) (Set.mem_univ (K (c, jR 7))) (fun h => h) (R := 0 + 1) (duties_later m (recvCell c 7))) $$ [AtR7] with ZR7
  · iframe # ∗
  imod (Rounds.cell_close ER (sched m) (Set.mem_univ (K (c, jR 8))) (fun h => h) (R := 0 + 1) (duties_later m (recvCell c 8))) $$ [AtR8] with ZR8
  · iframe # ∗
  ihave Vout := (Entails.of_eq (out_pts m c f2 g1 ((Memref.whole cc0_stg1_0).view.writes (Elt F) g1
      (⟨Rect.unit (s := S4096x512) (k0_off2 c 2#32) S1024x512.size (k0_off2_inb c 1),
          k0_pay38 (View.readAt (Elt F) gotA.view (Rect.unit (s := S3x1024x512) ![2, 0, 0] S1x1024x512.size inb_S3x1024x512_S1x1024x512_2_0_0).toLoadRect (gotC m c))⟩ ::
        ⟨Rect.unit (s := S4096x512) (k0_off3 c) S1024x512.size (k0_off3_inb c),
          k0_pay37 (View.readAt (Elt F) gotA.view (Rect.unit (s := S3x1024x512) ![1, 0, 0] S1x1024x512.size inb_S3x1024x512_S1x1024x512_1_0_0).toLoadRect (gotC m c))⟩ ::
        sound_body.sl.Vout_3 m c f2)) rfl)) $$ Vout
  rw [wp_ret]; imodintro
  iapply Hk
  unfold bodyPost Φ₁ xPts sems0 copy0 scratch stg Dat.owesAt Pipeline.owesWithin
  rw [show (dats m 0 c).owed t₀.succ = 0 from rfl]
  isplitl [Vx ZS0 ZS1 ZS2 ZS3 ZS4 ZS5 ZS6 ZS7 ZS8 ZR0 ZR1 ZR2 ZR3 ZR4 ZR5 ZR6 ZR7 ZR8 Y0 Y1 Y2 Wl S0' S2' S1' S3' V1 V2 F0 F1 LD0 LD1 S6' S7' S8' G0' G1' G2']
  · isplitl [Vx]; · iapply (Entails.of_eq (whole_eq (F := F) c main_arg0 fullShare _).symm); iexact Vx
    isplitl [ZS0 ZS1 ZS2 ZS3 ZS4 ZS5 ZS6 ZS7 ZS8 ZR0 ZR1 ZR2 ZR3 ZR4 ZR5 ZR6 ZR7 ZR8 Y0 Y1 Y2]
    · isplitl [ZS0]; · iexact ZS0
      isplitl [ZS1]; · iexact ZS1
      isplitl [ZS2]; · iexact ZS2
      isplitl [ZS3]; · iexact ZS3
      isplitl [ZS4]; · iexact ZS4
      isplitl [ZS5]; · iexact ZS5
      isplitl [ZS6]; · iexact ZS6
      isplitl [ZS7]; · iexact ZS7
      isplitl [ZS8]; · iexact ZS8
      isplitl [ZR0]; · iexact ZR0
      isplitl [ZR1]; · iexact ZR1
      isplitl [ZR2]; · iexact ZR2
      isplitl [ZR3]; · iexact ZR3
      isplitl [ZR4]; · iexact ZR4
      isplitl [ZR5]; · iexact ZR5
      isplitl [ZR6]; · iexact ZR6
      isplitl [ZR7]; · iexact ZR7
      isplitl [ZR8]; · iexact ZR8
      isplitl [Y0]; · iexact Y0
      isplitl [Y1]; · iexact Y1
      iexact Y2
    · isplitl [Wl S0' S2' S1' S3']
      · iexists (w16 m c); iapply (w16_split (F := F) c (w16 m c)).2
        isplitl [Wl]; · iapply (Entails.of_eq (whole_eq (F := F) c cc0_scratch0 fullShare.left _).symm); iexact Wl
        isplitl [S0']; · iexact S0'
        isplitl [S2']; · iexact S2'
        isplitl [S1']; · iexact S1'
        iexact S3'
      isplitl [V1]; · iexists _; iapply (Entails.of_eq (whole_eq (F := F) c cc0_scratch1 fullShare _).symm); iexact V1
      isplitl [V2]; · iexists _; iapply (Entails.of_eq (whole_eq (F := F) c cc0_scratch2 fullShare _).symm); iexact V2
      isplitl [F0 F1]
      · iexists (farC m c); iapply (far_split (F := F) c (farC m c)).2
        isplitl [F0]; · iexact F0
        iexact F1
      isplitl [LD0 LD1]
      · iapply (land_join (F := F) c _ _)
        isplitl [LD0]; · iexact LD0
        iexact LD1
      isplitl [S6' S7' S8']
      · iexists (madeC m c); iapply (made_split (F := F) c (madeC m c)).2
        isplitl [S6']; · iexact S6'
        isplitl [S7']; · iexact S7'
        iexact S8'
      iexists (gotC m c); iapply (got_split (F := F) c (gotC m c)).2
      isplitl [G0']; · iexact G0'
      isplitl [G1']; · iexact G1'
      iexact G2'
  isplitl [HO]
  · iexists _; isplitr
    rotate_left
    · iexact HO
    · ipureintro; exact fun _ _ => Or.inl trivial
  isplitl [Vw]
  · iexists _; isplitr; · ipureintro; rfl
    iapply (Entails.of_eq (whole_eq (F := F) c cc0_stg0_0 fullShare _).symm); iexact Vw
  iexists _; isplitr; · ipureintro; rfl
  iapply (Entails.of_eq (whole_eq (F := F) c cc0_stg1_0 fullShare _).symm); iexact Vout

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

set_option maxRecDepth 100000 in
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre m c ⊢ wp frame (wpE (defs₀ (F := F)) 𝒱₀ c none) Set.univ (cc0_body xA (Memref.isWhole_whole _) wStg (Memref.isWhole_whole _) oStg (Memref.isWhole_whole _) relayA (Memref.isWhole_whole _) w16A (Memref.isWhole_whole _) x16A (Memref.isWhole_whole _) xq (Memref.isWhole_whole _) farA (Memref.isWhole_whole _) landA (Memref.isWhole_whole _) madeA (Memref.isWhole_whole _) gotA (Memref.isWhole_whole _) cc0_scratch7 cc0_scratch8 cc0_scratch9) (fun _ => bodyPost m c)
  iintro H
  iapply (sound_body m c fun _ => bodyPost m c)
  isplitl [H]; · iexact H
  iintro H; iexact H

end Cert.KernelIdeal.P

end
-- ==== Proof.KI.Launch.lean ====
/- The launch: the ghost state is allocated once, dealt device by device, and the bodies' proofs give the run of the whole mesh with every result named. -/
import proofs.«900495_g7700000000000496_dist_ag_gemm_m4096_k4096_n2048_f32_gelu_v7x_i4_1_alg».proof.Proof.KI.Tables

noncomputable section

namespace Cert.KernelIdeal.P

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev osem : Fin 21 → SemLoc sig := fun j =>
  if h : j.val < 9 then .dma (sendSem ⟨j.val, h⟩)
  else if h' : j.val < 18 then .dma (recvSem ⟨j.val - 9, by omega⟩)
  else if j.val = 18 then .dma cS0.sem else if j.val = 19 then .dma cS1.sem else .dma cS2.sem

theorem ownSemFacts : Pipeline.OwnSemFacts cfg0.spec osem := by decide

theorem share_eq (c : Dev nD) (w : Fin cfg0.W) : (dats m 0 c).share w = fullShare := by unfold Dat.share; split <;> rfl

theorem csem_injective : Function.Injective (csem : Fin 19 → SemLoc sig) := by decide

theorem kcell_injective : Function.Injective (kcell : Dev nD × Fin 19 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def protoCells : Finset (GSem nD τ sig) := Finset.univ.map ⟨kcell, kcell_injective⟩

abbrev tokKey : Fin 21 → SemLoc sig × Fin 3 := fun j =>
  if h : j.val < 3 then (.reg barS, ⟨j.val, h⟩)
  else if h' : j.val < 12 then (.dma (sendSem ⟨j.val - 3, by omega⟩), 0)
  else (.dma (recvSem ⟨j.val - 12, by omega⟩), 0)

theorem tokKey_injective : Function.Injective tokKey := by decide

abbrev tokOf (cj : Dev nD × Fin 21) : GSem nD τ sig × ℕ × Fin 3 := (((cj.1 : Thread nD τ), (tokKey cj.2).1), 0, (tokKey cj.2).2)

theorem tokOf_injective : Function.Injective (tokOf : Dev nD × Fin 21 → GSem nD τ sig × ℕ × Fin 3) := by
  rintro ⟨c, j⟩ ⟨c', j'⟩ h
  have h1 : c = c' := by have := congrArg (fun x : GSem nD τ sig × ℕ × Fin 3 => x.1.1.1) h; exact this
  subst h1
  have h2 : tokKey j = tokKey j' :=
    Prod.ext (congrArg (fun x : GSem nD τ sig × ℕ × Fin 3 => x.1.2) h) (congrArg (fun x : GSem nD τ sig × ℕ × Fin 3 => x.2.2) h)
  rw [tokKey_injective h2]

def protoToks : Finset (GSem nD τ sig × ℕ × Fin 3) := Finset.univ.map ⟨tokOf, tokOf_injective⟩

def u₀ : UU :=
  (initOf (Pipeline.cells cfgs cellOf_inj) (Pipeline.launchToks cfgs cellOf_inj), (initOf protoCells protoToks, 1))

def toks (c : Dev nD) : sProp 𝕄 :=
  iprop(dutyTok ER (barCell c) 0 (0 : Fin 3) ∗ dutyTok ER (barCell c) 0 (1 : Fin 3) ∗ dutyTok ER (barCell c) 0 (2 : Fin 3)
    ∗ dutyTok ER (sendCell c 0) 0 (0 : Fin 3)
    ∗ dutyTok ER (sendCell c 1) 0 (0 : Fin 3)
    ∗ dutyTok ER (sendCell c 2) 0 (0 : Fin 3)
    ∗ dutyTok ER (sendCell c 3) 0 (0 : Fin 3)
    ∗ dutyTok ER (sendCell c 4) 0 (0 : Fin 3)
    ∗ dutyTok ER (sendCell c 5) 0 (0 : Fin 3)
    ∗ dutyTok ER (sendCell c 6) 0 (0 : Fin 3)
    ∗ dutyTok ER (sendCell c 7) 0 (0 : Fin 3)
    ∗ dutyTok ER (sendCell c 8) 0 (0 : Fin 3)
    ∗ dutyTok ER (recvCell c 0) 0 (0 : Fin 3)
    ∗ dutyTok ER (recvCell c 1) 0 (0 : Fin 3)
    ∗ dutyTok ER (recvCell c 2) 0 (0 : Fin 3)
    ∗ dutyTok ER (recvCell c 3) 0 (0 : Fin 3)
    ∗ dutyTok ER (recvCell c 4) 0 (0 : Fin 3)
    ∗ dutyTok ER (recvCell c 5) 0 (0 : Fin 3)
    ∗ dutyTok ER (recvCell c 6) 0 (0 : Fin 3)
    ∗ dutyTok ER (recvCell c 7) 0 (0 : Fin 3)
    ∗ dutyTok ER (recvCell c 8) 0 (0 : Fin 3))

def G (c : Dev nD) : sProp 𝕄 :=
  iprop((bigSep Finset.univ fun j : Fin 19 => roundState ER (sched m) (kcell (c, j)) 0)
    ∗ (bigSep Finset.univ fun j : Fin 19 => iprop(atPos ER (kcell (c, j)) 0 ∅ 0 ∗ reached ER (kcell (c, j)) 0)) ∗ toks c)

def G' (c : Dev nD) : sProp 𝕄 := iprop((∃ K, ghost m K c) ∗ copy0 c)

theorem bigSep_fin19 (Φ : Fin 19 → sProp 𝕄) : bigSep Finset.univ Φ = bigSepL [0, 1, 2, 3, 4, 5, 6, 7, 8, 9, 10, 11, 12, 13, 14, 15, 16, 17, 18] Φ :=
  bigSep_univ_eq_bigSepL _ (by decide) (by decide) Φ
theorem bigSep_fin21 (Φ : Fin 21 → sProp 𝕄) : bigSep Finset.univ Φ = bigSepL [0, 1, 2, 3, 4, 5, 6, 7, 8, 9, 10, 11, 12, 13, 14, 15, 16, 17, 18, 19, 20] Φ :=
  bigSep_univ_eq_bigSepL _ (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun j : Fin 19 => Φ (kcell (c, j)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin21]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄) = sems0 c := by
  rw [Pipeline.ownSems0_eq_of_list c osem [0, 1, 2, 3, 4, 5, 6, 7, 8, 9, 10, 11, 12, 13, 14, 15, 16, 17, 18, 19, 20] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl
theorem cells0_eq (c : Dev nD) : (bigSep Finset.univ fun j : Fin 19 => (semVal (kcell (c, j)) 0 : sProp 𝕄))
    = iprop(semVal (barCell c) 0
      ∗ semVal (sendCell c 0) 0
      ∗ semVal (sendCell c 1) 0
      ∗ semVal (sendCell c 2) 0
      ∗ semVal (sendCell c 3) 0
      ∗ semVal (sendCell c 4) 0
      ∗ semVal (sendCell c 5) 0
      ∗ semVal (sendCell c 6) 0
      ∗ semVal (sendCell c 7) 0
      ∗ semVal (sendCell c 8) 0
      ∗ semVal (recvCell c 0) 0
      ∗ semVal (recvCell c 1) 0
      ∗ semVal (recvCell c 2) 0
      ∗ semVal (recvCell c 3) 0
      ∗ semVal (recvCell c 4) 0
      ∗ semVal (recvCell c 5) 0
      ∗ semVal (recvCell c 6) 0
      ∗ semVal (recvCell c 7) 0
      ∗ semVal (recvCell c 8) 0) := by
  rw [bigSep_fin19]; rfl

theorem sems0_split (c : Dev nD) :
    iprop(Pipeline.ownSems0 (Ix := Unit) (Name := ℕ) (U := UU) (Lvl := ℕ) (Val := Elt F) (τ := τ) osem c ∗ unscopedSems0 c)
      ⊢ iprop((bigSep Finset.univ fun j : Fin 19 => (semVal (kcell (c, j)) 0 : sProp 𝕄)) ∗ copy0 c) := by
  rw [ownSems0_eq, unscopedSems0_eq, cells0_eq]
  unfold sems0
  iintro ⟨⟨S0, S1, S2, S3, S4, S5, S6, S7, S8, R0, R1, R2, R3, R4, R5, R6, R7, R8, HC⟩, HB⟩
  isplitr [HC]
  · iframe
  · iexact HC

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 19 => iprop(∃ κ : ℕ, cellInv ER (sched m) κ (kcell (c, j))))
          ∗ (bigSep Finset.univ fun j : Fin 19 => iprop(atPos ER (kcell (c, j)) 0 ∅ 0 ∗ reached ER (kcell (c, j)) 0)) ∗ toks c ∗ copy0 c) := by
  unfold G
  iintro ⟨Hos, Hus, Hst, Hat, Htok⟩
  ihave Hv := (sems0_split (F := F) c) $$ [Hos Hus]
  · isplitl [Hos] <;> iassumption
  icases Hv with ⟨Hv, HC⟩
  imod (show iprop((bigSep Finset.univ fun j : Fin 19 => semVal (kcell (c, j)) 0) ∗ bigSep Finset.univ fun j : Fin 19 => roundState ER (sched m) (kcell (c, j)) 0)
      ⊢ (|={Set.univ}=> bigSep Finset.univ fun j : Fin 19 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  iframe

def records (K : Dev nD × Fin 19 → ℕ) : sProp 𝕄 :=
  iprop((bigSep Finset.univ fun ck : Dev nD × Fin 19 => cellInv ER (sched m) (K ck) (kcell ck))
    ∗ bigSep Finset.univ fun ck : Dev nD × Fin 19 => reached ER (kcell ck) 0)

instance records_persistent (K : Dev nD × Fin 19 → ℕ) : BI.Persistent (records m K) := by unfold records; infer_instance

theorem kcell_send (c : Dev nD) (k : Fin 9) : kcell (c, jS k) = sendCell c k := by fin_cases k <;> rfl
theorem kcell_recv (c : Dev nD) (k : Fin 9) : kcell (c, jR k) = recvCell c k := by fin_cases k <;> rfl

theorem inv_at (K : Dev nD × Fin 19 → ℕ) (ck : Dev nD × Fin 19) :
    (bigSep Finset.univ fun ck : Dev nD × Fin 19 => (cellInv ER (sched m) (K ck) (kcell ck) : sProp 𝕄)) ⊢ cellInv ER (sched m) (K ck) (kcell ck) :=
  bigSep_elim (Finset.mem_univ ck)
theorem reached_at (ck : Dev nD × Fin 19) :
    (bigSep Finset.univ fun ck : Dev nD × Fin 19 => (reached ER (kcell ck) 0 : sProp 𝕄)) ⊢ reached ER (kcell ck) 0 :=
  bigSep_elim (Finset.mem_univ ck)

theorem inv_bar (K : Dev nD × Fin 19 → ℕ) (c : Dev nD) :
    (bigSep Finset.univ fun ck : Dev nD × Fin 19 => (cellInv ER (sched m) (K ck) (kcell ck) : sProp 𝕄)) ⊢ cellInv ER (sched m) (K (c, 0)) (barCell c) := inv_at m K (c, 0)
theorem inv_send (K : Dev nD × Fin 19 → ℕ) (c : Dev nD) (k : Fin 9) :
    (bigSep Finset.univ fun ck : Dev nD × Fin 19 => (cellInv ER (sched m) (K ck) (kcell ck) : sProp 𝕄)) ⊢ cellInv ER (sched m) (K (c, jS k)) (sendCell c k) := by
  rw [← kcell_send c k]; exact inv_at m K (c, jS k)
theorem inv_recv (K : Dev nD × Fin 19 → ℕ) (c : Dev nD) (k : Fin 9) :
    (bigSep Finset.univ fun ck : Dev nD × Fin 19 => (cellInv ER (sched m) (K ck) (kcell ck) : sProp 𝕄)) ⊢ cellInv ER (sched m) (K (c, jR k)) (recvCell c k) := by
  rw [← kcell_recv c k]; exact inv_at m K (c, jR k)
theorem reached_bar (c : Dev nD) :
    (bigSep Finset.univ fun ck : Dev nD × Fin 19 => (reached ER (kcell ck) 0 : sProp 𝕄)) ⊢ reached ER (barCell c) 0 := reached_at (c, 0)
theorem reached_send (c : Dev nD) (k : Fin 9) :
    (bigSep Finset.univ fun ck : Dev nD × Fin 19 => (reached ER (kcell ck) 0 : sProp 𝕄)) ⊢ reached ER (sendCell c k) 0 := by
  rw [← kcell_send c k]; exact reached_at (c, jS k)
theorem reached_recv (c : Dev nD) (k : Fin 9) :
    (bigSep Finset.univ fun ck : Dev nD × Fin 19 => (reached ER (kcell ck) 0 : sProp 𝕄)) ⊢ reached ER (recvCell c k) 0 := by
  rw [← kcell_recv c k]; exact reached_at (c, jR k)

theorem invs_intro (K : Dev nD × Fin 19 → ℕ) (c : Dev nD) :
    (bigSep Finset.univ fun ck : Dev nD × Fin 19 => (cellInv ER (sched m) (K ck) (kcell ck) : sProp 𝕄)) ⊢ invs m K c := by
  unfold invs
  iintro #HI
  isplitr; · iapply (inv_bar m K c); iexact HI
  isplitr; · iapply (inv_send m K c 0); iexact HI
  isplitr; · iapply (inv_send m K c 1); iexact HI
  isplitr; · iapply (inv_send m K c 2); iexact HI
  isplitr; · iapply (inv_send m K c 3); iexact HI
  isplitr; · iapply (inv_send m K c 4); iexact HI
  isplitr; · iapply (inv_send m K c 5); iexact HI
  isplitr; · iapply (inv_send m K c 6); iexact HI
  isplitr; · iapply (inv_send m K c 7); iexact HI
  isplitr; · iapply (inv_send m K c 8); iexact HI
  isplitr; · iapply (inv_recv m K c 0); iexact HI
  isplitr; · iapply (inv_recv m K c 1); iexact HI
  isplitr; · iapply (inv_recv m K c 2); iexact HI
  isplitr; · iapply (inv_recv m K c 3); iexact HI
  isplitr; · iapply (inv_recv m K c 4); iexact HI
  isplitr; · iapply (inv_recv m K c 5); iexact HI
  isplitr; · iapply (inv_recv m K c 6); iexact HI
  isplitr; · iapply (inv_recv m K c 7); iexact HI
  isplitr; · iapply (inv_recv m K c 8); iexact HI
  isplitr; · iapply (inv_bar m K (lft c)); iexact HI
  isplitr; · iapply (inv_bar m K (rgt c)); iexact HI
  isplitr; · iapply (inv_bar m K (opp c)); iexact HI
  isplitr; · iapply (inv_recv m K (rgt c) 0); iexact HI
  isplitr; · iapply (inv_recv m K (rgt c) 1); iexact HI
  isplitr; · iapply (inv_recv m K (lft c) 2); iexact HI
  isplitr; · iapply (inv_recv m K (lft c) 3); iexact HI
  isplitr; · iapply (inv_recv m K (rgt c) 4); iexact HI
  isplitr; · iapply (inv_recv m K (lft c) 5); iexact HI
  isplitr; · iapply (inv_recv m K (lft c) 6); iexact HI
  isplitr; · iapply (inv_recv m K (rgt c) 7); iexact HI
  iapply (inv_recv m K (opp c) 8); iexact HI

theorem reacheds_intro (c : Dev nD) :
    (bigSep Finset.univ fun ck : Dev nD × Fin 19 => (reached ER (kcell ck) 0 : sProp 𝕄)) ⊢ reacheds c := by
  unfold reacheds
  iintro #HR
  isplitr; · iapply (reached_bar (F := F) c); iexact HR
  isplitr; · iapply (reached_bar (F := F) (lft c)); iexact HR
  isplitr; · iapply (reached_bar (F := F) (rgt c)); iexact HR
  isplitr; · iapply (reached_bar (F := F) (opp c)); iexact HR
  isplitr; · iapply (reached_send (F := F) c 0); iexact HR
  isplitr; · iapply (reached_send (F := F) c 1); iexact HR
  isplitr; · iapply (reached_send (F := F) c 2); iexact HR
  isplitr; · iapply (reached_send (F := F) c 3); iexact HR
  isplitr; · iapply (reached_send (F := F) c 4); iexact HR
  isplitr; · iapply (reached_send (F := F) c 5); iexact HR
  isplitr; · iapply (reached_send (F := F) c 6); iexact HR
  isplitr; · iapply (reached_send (F := F) c 7); iexact HR
  isplitr; · iapply (reached_send (F := F) c 8); iexact HR
  isplitr; · iapply (reached_recv (F := F) c 0); iexact HR
  isplitr; · iapply (reached_recv (F := F) c 1); iexact HR
  isplitr; · iapply (reached_recv (F := F) c 2); iexact HR
  isplitr; · iapply (reached_recv (F := F) c 3); iexact HR
  isplitr; · iapply (reached_recv (F := F) c 4); iexact HR
  isplitr; · iapply (reached_recv (F := F) c 5); iexact HR
  isplitr; · iapply (reached_recv (F := F) c 6); iexact HR
  isplitr; · iapply (reached_recv (F := F) c 7); iexact HR
  isplitr; · iapply (reached_recv (F := F) c 8); iexact HR
  isplitr; · iapply (reached_recv (F := F) (rgt c) 0); iexact HR
  isplitr; · iapply (reached_recv (F := F) (rgt c) 1); iexact HR
  isplitr; · iapply (reached_recv (F := F) (lft c) 2); iexact HR
  isplitr; · iapply (reached_recv (F := F) (lft c) 3); iexact HR
  isplitr; · iapply (reached_recv (F := F) (rgt c) 4); iexact HR
  isplitr; · iapply (reached_recv (F := F) (lft c) 5); iexact HR
  isplitr; · iapply (reached_recv (F := F) (lft c) 6); iexact HR
  isplitr; · iapply (reached_recv (F := F) (rgt c) 7); iexact HR
  iapply (reached_recv (F := F) (opp c) 8); iexact HR

theorem poss_eq (c : Dev nD) : (bigSep Finset.univ fun j : Fin 19 => (atPos ER (kcell (c, j)) 0 ∅ 0 : sProp 𝕄)) = poss c := by
  rw [bigSep_fin19]; rfl

def linear (c : Dev nD) : sProp 𝕄 :=
  iprop((bigSep Finset.univ fun j : Fin 19 => atPos ER (kcell (c, j)) 0 ∅ 0) ∗ payToks c ∗ copy0 c)

theorem ghost_intro (K : Dev nD × Fin 19 → ℕ) (c : Dev nD) : iprop(records m K ∗ linear c) ⊢ G' m c := by
  unfold records linear G' ghost
  rw [poss_eq]
  iintro ⟨⟨#HI, #HR⟩, Hat, Htk, HC⟩
  isplitr [HC]
  · iexists K
    isplitr; · iapply (invs_intro m K c); iexact HI
    isplitl [Hat]; · iexact Hat
    isplitr; · iapply (reacheds_intro (F := F) c); iexact HR
    iexact Htk
  · iexact HC

theorem toks_around : (bigSep Finset.univ fun c : Dev nD => (toks c : sProp 𝕄)) ⊢ bigSep Finset.univ fun c : Dev nD => payToks c := by
  unfold toks payToks
  simp only [bigSep_sep']
  rw [bigSep_univ_equiv ringR.symm (fun c : Dev nD => (dutyTok ER (barCell c) 0 (0 : Fin 3) : sProp 𝕄)),
    bigSep_univ_equiv ringR (fun c : Dev nD => (dutyTok ER (barCell c) 0 (1 : Fin 3) : sProp 𝕄)),
    bigSep_univ_equiv ringO (fun c : Dev nD => (dutyTok ER (barCell c) 0 (2 : Fin 3) : sProp 𝕄)),
    bigSep_univ_equiv ringR (fun c : Dev nD => (dutyTok ER (recvCell c 0) 0 (0 : Fin 3) : sProp 𝕄)),
    bigSep_univ_equiv ringR (fun c : Dev nD => (dutyTok ER (recvCell c 1) 0 (0 : Fin 3) : sProp 𝕄)),
    bigSep_univ_equiv ringR.symm (fun c : Dev nD => (dutyTok ER (recvCell c 2) 0 (0 : Fin 3) : sProp 𝕄)),
    bigSep_univ_equiv ringR.symm (fun c : Dev nD => (dutyTok ER (recvCell c 3) 0 (0 : Fin 3) : sProp 𝕄)),
    bigSep_univ_equiv ringR (fun c : Dev nD => (dutyTok ER (recvCell c 4) 0 (0 : Fin 3) : sProp 𝕄)),
    bigSep_univ_equiv ringR.symm (fun c : Dev nD => (dutyTok ER (recvCell c 5) 0 (0 : Fin 3) : sProp 𝕄)),
    bigSep_univ_equiv ringR.symm (fun c : Dev nD => (dutyTok ER (recvCell c 6) 0 (0 : Fin 3) : sProp 𝕄)),
    bigSep_univ_equiv ringR (fun c : Dev nD => (dutyTok ER (recvCell c 7) 0 (0 : Fin 3) : sProp 𝕄)),
    bigSep_univ_equiv ringO (fun c : Dev nD => (dutyTok ER (recvCell c 8) 0 (0 : Fin 3) : sProp 𝕄))]
  iintro ⟨B0, B1, B2, S0, S1, S2, S3, S4, S5, S6, S7, S8, R0, R1, R2, R3, R4, R5, R6, R7, R8⟩
  isplitl [B0]; · iexact B0
  isplitl [B1]; · iexact B1
  isplitl [B2]; · iexact B2
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iexact S8

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_all :
    iprop((bigSep Finset.univ fun c : Dev nD => bigSep Finset.univ fun j : Fin 19 => (atPos ER (kcell (c, j)) 0 ∅ 0 : sProp 𝕄))
        ∗ (bigSep Finset.univ fun c : Dev nD => (payToks c : sProp 𝕄)) ∗ (bigSep Finset.univ fun c : Dev nD => (copy0 c : sProp 𝕄)))
      ⊢ bigSep Finset.univ fun c : Dev nD => (linear c : sProp 𝕄) := by
  unfold linear; rw [bigSep_sep', bigSep_sep']

theorem regroup :
    (bigSep Finset.univ fun c : Dev nD => iprop((bigSep Finset.univ fun j : Fin 19 => iprop(∃ κ : ℕ, cellInv ER (sched m) κ (kcell (c, j))))
          ∗ (bigSep Finset.univ fun j : Fin 19 => iprop(atPos ER (kcell (c, j)) 0 ∅ 0 ∗ reached ER (kcell (c, j)) 0)) ∗ toks c ∗ copy0 c) : sProp 𝕄)
      ⊢ bigSep Finset.univ (G' m) := by
  rw [bigSep_sep', bigSep_sep', bigSep_sep', ← bigSep_univ_prod (fun ck : Dev nD × Fin 19 => iprop(∃ κ : ℕ, cellInv ER (sched m) κ (kcell ck))),
    bigSep_congr (s := Finset.univ) (fun (c : Dev nD) _ => bigSep_sep' Finset.univ (fun j : Fin 19 => (atPos ER (kcell (c, j)) 0 ∅ 0 : sProp 𝕄)) (fun j => reached ER (kcell (c, j)) 0)),
    bigSep_sep', ← bigSep_univ_prod (fun ck : Dev nD × Fin 19 => (reached ER (kcell ck) 0 : sProp 𝕄))]
  iintro ⟨HI, ⟨Hat, #HR⟩, Htok, HC⟩
  ihave HK := (BI.bigSep_exists_pi Finset.univ (fun (ck : Dev nD × Fin 19) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (linear_all (F := F))
    iframe

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by
    rw [tallyAt_add, tallyAt_add]]
  exact (sep_mono_right (cred_add _ _).2).trans (cred_add _ _).2

theorem creds_intro (c : Dev nD) : (Pipeline.launchCred O₀ c : sProp 𝕄) ⊢ creds c := by
  show (Pipeline.launchCred (fun d => owedX d + tallyAt (barCell (opp d)) () 1 + tallyAt (barCell (rgt d)) () 1 + tallyAt (barCell (lft d)) () 1) c : sProp 𝕄) ⊢ _
  unfold owedX creds
  rw [Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add]
  iintro ⟨⟨⟨⟨⟨⟨⟨⟨⟨⟨⟨H0, H1⟩, H2⟩, H3⟩, H4⟩, H5⟩, H6⟩, H7⟩, H8⟩, HbO⟩, HbR⟩, HbL⟩
  ihave C0 := (Pipeline.launchCred_tallyAt (.dma (recvSem 0)) rgt lft rgt_lft lft_rgt () (amt 0) c) $$ H0
  ihave C1 := (Pipeline.launchCred_tallyAt (.dma (recvSem 1)) rgt lft rgt_lft lft_rgt () (amt 1) c) $$ H1
  ihave C2 := (Pipeline.launchCred_tallyAt (.dma (recvSem 2)) lft rgt lft_rgt rgt_lft () (amt 2) c) $$ H2
  ihave C3 := (Pipeline.launchCred_tallyAt (.dma (recvSem 3)) lft rgt lft_rgt rgt_lft () (amt 3) c) $$ H3
  ihave C4 := (Pipeline.launchCred_tallyAt (.dma (recvSem 4)) rgt lft rgt_lft lft_rgt () (amt 4) c) $$ H4
  ihave C5 := (Pipeline.launchCred_tallyAt (.dma (recvSem 5)) lft rgt lft_rgt rgt_lft () (amt 5) c) $$ H5
  ihave C6 := (Pipeline.launchCred_tallyAt (.dma (recvSem 6)) lft rgt lft_rgt rgt_lft () (amt 6) c) $$ H6
  ihave C7 := (Pipeline.launchCred_tallyAt (.dma (recvSem 7)) rgt lft rgt_lft lft_rgt () (amt 7) c) $$ H7
  ihave C8 := (Pipeline.launchCred_tallyAt (.dma (recvSem 8)) opp opp opp_opp opp_opp () (amt 8) c) $$ H8
  ihave CO := (Pipeline.launchCred_tallyAt (.reg barS) opp opp opp_opp opp_opp () 1 c) $$ HbO
  ihave CR := (Pipeline.launchCred_tallyAt (.reg barS) rgt lft rgt_lft lft_rgt () 1 c) $$ HbR
  ihave CL := (Pipeline.launchCred_tallyAt (.reg barS) lft rgt lft_rgt rgt_lft () 1 c) $$ HbL
  isplitl [CO CR CL]
  · iapply (cred_three (F := F) (barCell c))
    iframe
  iframe

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ xPts m c ∗ relayPts c) ∗ emp) := by
  rw [Pipeline.unscopedRestP_none, unscopedRest0_eq]
  unfold G'
  iintro ⟨⟨Hx, Hr⟩, Hlev, Hcr, -, HG, HC⟩
  ihave Hc := (creds_intro (F := F) c) $$ Hcr
  imodintro
  unfold start xPts relayPts Xb
  isplitl
  · isplitl [HG Hc HC Hlev]
    · iframe
    isplitl [Hx]; · iexact Hx
    iexists (m ((c : Thread nD τ).loc main_v1_1)); iexact Hr
  · iempintro

theorem phi0_intro (c : Dev nD) :
    iprop((start m c ∗ xPts m c ∗ relayPts c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨⟨Hs, Hx, Hr⟩, -, Hscr⟩
  iframe

theorem phi1_exit (c : Dev nD) :
    (dats m 0 c).Φ (Fin.last cfg0.N) ⊢ iprop(xPts m c ∗ Pipeline.ownSems0 osem c ∗ Pipeline.scopedRest cfg0.spec c) := by
  rw [show (dats m 0 c).Φ (Fin.last cfg0.N) = Φ₁ m c from rfl, scopedRest0_eq, ownSems0_eq]
  unfold Φ₁ scratch
  exact .rfl

theorem waits (c : Dev nD) : (levAts L lv : sProp 𝕄) ⊢ Pipeline.cellsWaits cfgs (dats m) () 0 c :=
  Pipeline.cellsWaits_intro cfgs (dats m) () 0 c fun w s t =>
    mayWait_of_above c _ 0 (lv_other c _ (by fin_cases w <;> fin_cases s <;> decide)) _ (by
      rcases t with ⟨_ | _, ht⟩
      · exact above_O₀ c
      · exact above_zero 0)

theorem final_out (c : Dev nD) : (dats m 0 c).arrAt (1 : Fin 2) cfg0.N = outC m c := by
  have ho : ((cfg0.win (1 : Fin 2)).blk t₀).view.read (Elt F) ((dats m 0 c).arrAt (1 : Fin 2) cfg0.N)
      = (dats m 0 c).flushed (1 : Fin 2) t₀ := by
    rw [show cfg0.N = (t₀ : Fin cfg0.N).val + 1 from rfl, (dats m 0 c).arrAt_succ (1 : Fin 2) t₀, if_pos (flush0_1 t₀)]
    exact View.read_write_univ _ _
  have hz : (fun a => (win0_1.index t₀) a * main_v1_0.ty.shape.size a) = fun _ => 0 := funext fun a => by fin_cases a <;> decide
  rw [Memref.read_access_unit_zero (Elt F) main_v1_0 hz (fun a => by fin_cases a <;> decide)] at ho
  rw [ho]
  rfl

set_option maxRecDepth 8000 in
theorem run_main_of (hbody : ∀ c : Dev nD, BodyObligation (dats (F := F) m 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1_0) = outC m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb (M' := 𝕄) (A := UB) (B := Counters) embR _ _) $$ HX
      icases H2 with ⟨HR, -⟩
      imod (fund_proto m) $$ HR with HG
      imodintro
      isplitl [HP] <;> iassumption)
    (hglob := glob m)
    (hA := fun _ _ => rfl) (hpf := fun _ k => k.elim0)
    (X := fun c => iprop(start m c ∗ xPts m c ∗ relayPts c)) (Y := xPts m) (Z := fun _ => iprop(emp))
    (hX := start_intro m ρ) (hin := phi0_intro m) (hout := phi1_exit m)
    (QY := fun c s => s.mem ((c : Thread nD τ).loc main_arg0) = m ((c : Thread nD τ).loc main_arg0))
    (hY := fun c s' => by
      unfold xPts Xb
      iintro ⟨Hx, -, HSI⟩
      icombine HSI Hx gives %hx
      imodintro
      isplitr; · ipureintro; exact Buf.eq_of_forall_mem_univ hx
      iexact HSI)
    (hQ := fun s h c => ⟨((h c).1 (1 : Fin 2)).trans (final_out m c), (h c).2.2,
      ((h c).1 (0 : Fin 2)).trans ((dats m 0 c).arrAt_in (0 : Fin 2) rfl _)⟩)

end Cert.KernelIdeal.P
end
-- ==== Proof.KI.Value.lean ====
/- Over the extended reals every entry of device c's block is gelu of a row of x dotted with a column of w, which is the specification's entry at c's columns. -/
import proofs.«900495_g7700000000000496_dist_ag_gemm_m4096_k4096_n2048_f32_gelu_v7x_i4_1_alg».proof.Proof.KI.Contents
import proofs.«900495_g7700000000000496_dist_ag_gemm_m4096_k4096_n2048_f32_gelu_v7x_i4_1_alg».proof.Proof.Spec
import Idealize.ShloMosaic.Lib.Layout
import Idealize.ShloMosaic.Lib.ValueIdx
import Idealize.ShloMosaic.Lib.Pipeline.Value
import Idealize.ShloMosaic.PureOps.Ideal.Laws

noncomputable section

open scoped BigOperators

namespace Cert.KernelIdeal.P

open Idealize.ShloMosaic Idealize.ShloMosaic.TcCoe Idealize.ShloMosaic.ValueIdx Cert.KernelIdeal Cert.KernelIdeal.Gen Cert.KernelIdeal.Mesh

theorem geluV_apply {s : Shape} (y : FVec Ideal s .f32) (i : s.Idx) : geluV y i = Cert.Spec.gelu (y i) := by
  rw [← Cert.Spec.gelu_left]; rfl

theorem lhs256_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide),
    dif_pos (show (0 : Fin S512x4096.rank) ∈ dot_S512x4096_S4096x256_S512x256_1_0_0_1_n_n.lhsNonContracting by decide)]
  rfl
theorem lhs256_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
theorem rhs256_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
theorem rhs256_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide),
    dif_pos (show (1 : Fin S4096x256.rank) ∈ dot_S512x4096_S4096x256_S512x256_1_0_0_1_n_n.rhsNonContracting by decide)]
  rfl

theorem lhs512_0 (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide),
    dif_pos (show (0 : Fin S512x4096.rank) ∈ dot_S512x4096_S4096x512_S512x512_1_0_0_1_n_n.lhsNonContracting by decide)]
  rfl
theorem lhs512_1 (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
theorem rhs512_0 (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
theorem rhs512_1 (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide),
    dif_pos (show (1 : Fin S4096x512.rank) ∈ dot_S512x4096_S4096x512_S512x512_1_0_0_1_n_n.rhsNonContracting by decide)]
  rfl

theorem mm256_apply (xh : FVec Ideal S512x4096 .bf16) (wq : FVec Ideal S4096x256 .bf16) (p : Fin 512) (q : Fin 256) :
    matmul dot_S512x4096_S4096x256_S512x256_1_0_0_1_n_n none xh wq (constant (F := Ideal) S512x256 .f32 0x00000000#32) (ix2 p q)
      = ∑ k : Fin 4096, xh (ix2 p k) * wq (ix2 k q) := by
  refine (Ideal.matmul_constant_zero_apply dot_S512x4096_S4096x256_S512x256_1_0_0_1_n_n none xh wq (ix2 p q)).trans ?_
  rw [← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 p q)
      ((contrEquiv1 dot_S512x4096_S4096x256_S512x256_1_0_0_1_n_n 4096 rfl rfl).symm k) = ix2 p k := funext fun a => Fin.ext (by
    match a with
    | ⟨0, _⟩ => exact lhs256_0 _ _
    | ⟨1, _⟩ => exact (lhs256_1 _ _).trans hk)
  have er : dot_S512x4096_S4096x256_S512x256_1_0_0_1_n_n.rhsIdx (ix2 p q)
      ((contrEquiv1 dot_S512x4096_S4096x256_S512x256_1_0_0_1_n_n 4096 rfl rfl).symm k) = ix2 k q := funext fun a => Fin.ext (by
    match a with
    | ⟨0, _⟩ => exact (rhs256_0 _ _).trans hk
    | ⟨1, _⟩ => exact rhs256_1 _ _)
  rw [el, er]

theorem mm512_apply (xh : FVec Ideal S512x4096 .bf16) (wq : FVec Ideal S4096x512 .bf16) (p : Fin 512) (q : Fin 512) :
    matmul dot_S512x4096_S4096x512_S512x512_1_0_0_1_n_n none xh wq (constant (F := Ideal) S512x512 .f32 0x00000000#32) (ix2 p q)
      = ∑ k : Fin 4096, xh (ix2 p k) * wq (ix2 k q) := by
  refine (Ideal.matmul_constant_zero_apply dot_S512x4096_S4096x512_S512x512_1_0_0_1_n_n none xh wq (ix2 p q)).trans ?_
  rw [← Equiv.sum_comp (contrEquiv1 dot_S512x4096_S4096x512_S512x512_1_0_0_1_n_n 4096 rfl rfl).symm]
  refine Finset.sum_congr rfl fun k _ => ?_
  have hk := contrEquiv1_symm_val dot_S512x4096_S4096x512_S512x512_1_0_0_1_n_n 4096 rfl rfl k
  have el : dot_S512x4096_S4096x512_S512x512_1_0_0_1_n_n.lhsIdx (ix2 p q)
      ((contrEquiv1 dot_S512x4096_S4096x512_S512x512_1_0_0_1_n_n 4096 rfl rfl).symm k) = ix2 p k := funext fun a => Fin.ext (by
    match a with
    | ⟨0, _⟩ => exact lhs512_0 _ _
    | ⟨1, _⟩ => exact (lhs512_1 _ _).trans hk)
  have er : dot_S512x4096_S4096x512_S512x512_1_0_0_1_n_n.rhsIdx (ix2 p q)
      ((contrEquiv1 dot_S512x4096_S4096x512_S512x512_1_0_0_1_n_n 4096 rfl rfl).symm k) = ix2 k q := funext fun a => Fin.ext (by
    match a with
    | ⟨0, _⟩ => exact (rhs512_0 _ _).trans hk
    | ⟨1, _⟩ => exact rhs512_1 _ _)
  rw [el, er]

theorem tile256_apply (xh : FVec Ideal S512x4096 .bf16) (wq : FVec Ideal S4096x256 .bf16) (p : Fin 512) (q : Fin 256) :
    tile256 (F := Ideal) xh wq (ix2 p q) = Cert.Spec.gelu (∑ k : Fin 4096, xh (ix2 p k) * wq (ix2 k q)) := by
  unfold tile256
  rw [geluV_apply, mm256_apply]

theorem tile512_apply (xh : FVec Ideal S512x4096 .bf16) (w : FVec Ideal S4096x512 .bf16) (p : Fin 512) (q : Fin 512) :
    tile512 (F := Ideal) xh w (ix2 p q) = Cert.Spec.gelu (∑ k : Fin 4096, xh (ix2 p k) * w (ix2 k q)) := by
  unfold tile512
  rw [geluV_apply, mm512_apply]

theorem rowHalf_apply (x : FVec Ideal S1024x4096 .bf16) (t : Fin 2) (p' : Fin 512) (k : Fin 4096) (p : Fin 1024)
    (hp : p.val = 512 * t.val + p'.val) : rowHalf (F := Ideal) x t (ix2 p' k) = x (ix2 p k) := by
  unfold rowHalf
  refine congrArg x (funext fun a => Fin.ext ?_)
  match a with
  | ⟨0, _⟩ => exact hp.symm
  | ⟨1, _⟩ => rfl

theorem colHalf_apply (w : FVec Ideal S4096x512 .bf16) (h : Fin 2) (k : Fin 4096) (q' : Fin 256) (j : Fin 512)
    (hj : j.val = 256 * h.val + q'.val) : colHalf (F := Ideal) w h (ix2 k q') = w (ix2 k j) := by
  unfold colHalf
  refine congrArg w (funext fun a => Fin.ext ?_)
  match a with
  | ⟨0, _⟩ => rfl
  | ⟨1, _⟩ => exact hj.symm

def cellOf (x : S1024x4096.Idx → EReal) (w : S4096x512.Idx → EReal) (p : Fin 1024) (j : Fin 512) : EReal :=
  Cert.Spec.gelu (∑ k : Fin 4096, x (ix2 p k) * w (ix2 k j))

theorem tile256_cell (x : FVec Ideal S1024x4096 .bf16) (w : FVec Ideal S4096x512 .bf16) (t h : Fin 2) (p' : Fin 512)
    (q' : Fin 256) (p : Fin 1024) (j : Fin 512) (hp : p.val = 512 * t.val + p'.val) (hj : j.val = 256 * h.val + q'.val) :
    tile256 (F := Ideal) (rowHalf x t) (colHalf w h) (ix2 p' q') = cellOf x w p j := by
  rw [tile256_apply]
  unfold cellOf
  refine congrArg Cert.Spec.gelu (Finset.sum_congr rfl fun k _ => ?_)
  rw [rowHalf_apply x t p' k p hp, colHalf_apply w h k q' j hj]

theorem tile512_cell (x : FVec Ideal S1024x4096 .bf16) (w : FVec Ideal S4096x512 .bf16) (t : Fin 2) (p' : Fin 512)
    (p : Fin 1024) (j : Fin 512) (hp : p.val = 512 * t.val + p'.val) :
    tile512 (F := Ideal) (rowHalf x t) w (ix2 p' j) = cellOf x w p j := by
  rw [tile512_apply]
  unfold cellOf
  refine congrArg Cert.Spec.gelu (Finset.sum_congr rfl fun k _ => ?_)
  rw [rowHalf_apply x t p' k p hp]

theorem cellOf_block (X : (⟨2, ![4096, 4096]⟩ : Shape).Idx → EReal) (W : (⟨2, ![4096, 2048]⟩ : Shape).Idx → EReal)
    (b c : Dev nD) (p : Fin 1024) (j : Fin 512) (R : Fin 4096) (J : Fin 2048)
    (hR : R.val = b.val * 1024 + p.val) (hJ : J.val = c.val * 512 + j.val) :
    cellOf (Layout.block ⟨2, ![1024, 4096]⟩ ⟨2, ![4096, 4096]⟩ 0 4 b X)
      (Layout.block ⟨2, ![4096, 512]⟩ ⟨2, ![4096, 2048]⟩ 1 4 c W) p j = Cert.Spec.gelu (Cert.Spec.dot X W R J) := by
  unfold cellOf Cert.Spec.dot
  refine congrArg Cert.Spec.gelu (Finset.sum_congr rfl fun k _ => ?_)
  rw [Layout.block_apply, Layout.block_apply]
  congr 1
  · refine congrArg X (funext fun a => Fin.ext ?_)
    match a with
    | ⟨0, _⟩ => exact hR.symm
    | ⟨1, _⟩ => rfl
  · refine congrArg W (funext fun a => Fin.ext ?_)
    match a with
    | ⟨0, _⟩ => rfl
    | ⟨1, _⟩ => exact hJ.symm

theorem opp_of_ne (c b : Dev nD) (h0 : b ≠ c) (h1 : b ≠ rgt c) (h2 : b ≠ lft c) : b = opp c := by
  revert c b; decide

section Buffers

variable (m : (ℓ : Loc nD τ sig) → Buf (Elt Ideal) ℓ)

theorem x16_eq (c : Dev nD) : (x16 (F := Ideal) m c : S1024x4096.Idx → EReal) = Xb (F := Ideal) m c := rfl

theorem w16_eq (c : Dev nD) : (w16 (F := Ideal) m c : S4096x512.Idx → EReal) = Wb (F := Ideal) m c := by
  unfold w16 k0_pay1
  simp only [shapeCast_self]
  rfl

theorem madeC_apply (d : Dev nD) (s : Fin 3) (p : Fin 1024) (j : Fin 512) :
    madeC (F := Ideal) m d (ix3 s p j) = cellOf (Xb (F := Ideal) m d) (Wb (F := Ideal) m (peer d s.val)) p j := by
  have hp : p.val / 512 < 2 := by have := p.isLt; omega
  have hj : j.val / 256 < 2 := by have := j.isLt; omega
  show (truncf .bf16 (tile256 (F := Ideal) (rowHalf (x16 m d) ⟨p.val / 512, hp⟩) (colHalf (w16 m (peer d s.val)) ⟨j.val / 256, hj⟩)) bitsLt_bf16_f32)
      (ix2 (⟨p.val % 512, Nat.mod_lt _ (by decide)⟩ : Fin 512) (⟨j.val % 256, Nat.mod_lt _ (by decide)⟩ : Fin 256)) = _
  rw [truncf_apply, ← x16_eq m d, ← w16_eq m (peer d s.val)]
  exact tile256_cell _ _ _ _ _ _ p j (by show p.val = 512 * (p.val / 512) + p.val % 512; omega)
    (by show j.val = 256 * (j.val / 256) + j.val % 256; omega)

theorem gotC_zero (c : Dev nD) (p : Fin 1024) (j : Fin 512) :
    gotC (F := Ideal) m c (ix3 (0 : Fin 3) p j) = cellOf (Xb (F := Ideal) m (rgt c)) (Wb (F := Ideal) m c) p j := by
  show madeC (F := Ideal) m (rgt c) (ix3 (0 : Fin 3) p j) = _
  rw [madeC_apply]
  show cellOf (Xb (F := Ideal) m (rgt c)) (Wb (F := Ideal) m (lft (rgt c))) p j = _
  rw [lft_rgt]

theorem gotC_one (c : Dev nD) (p : Fin 1024) (j : Fin 512) :
    gotC (F := Ideal) m c (ix3 (1 : Fin 3) p j) = cellOf (Xb (F := Ideal) m (lft c)) (Wb (F := Ideal) m c) p j := by
  show madeC (F := Ideal) m (lft c) (ix3 (1 : Fin 3) p j) = _
  rw [madeC_apply]
  show cellOf (Xb (F := Ideal) m (lft c)) (Wb (F := Ideal) m (rgt (lft c))) p j = _
  rw [rgt_lft]

theorem gotC_two (c : Dev nD) (p : Fin 1024) (j : Fin 512) :
    gotC (F := Ideal) m c (ix3 (2 : Fin 3) p j) = cellOf (Xb (F := Ideal) m (opp c)) (Wb (F := Ideal) m c) p j := by
  show madeC (F := Ideal) m (opp c) (ix3 (2 : Fin 3) p j) = _
  rw [madeC_apply]
  show cellOf (Xb (F := Ideal) m (opp c)) (Wb (F := Ideal) m (opp (opp c))) p j = _
  rw [opp_opp]

theorem outC_apply (c : Dev nD) (r : Fin 4096) (j : Fin 512) (b : Dev nD) (p : Fin 1024)
    (hb : b.val = r.val / 1024) (hp : p.val = r.val % 1024) :
    outC (F := Ideal) m c (ix2 r j) = cellOf (Xb (F := Ideal) m b) (Wb (F := Ideal) m c) p j := by
  have h512 : r.val % 1024 / 512 < 2 := by omega
  have ep : (⟨r.val % 1024, Nat.mod_lt _ (by decide)⟩ : Fin 1024) = p := Fin.ext hp.symm
  show (if r.val / 1024 = c.val then
      tile512 (F := Ideal) (rowHalf (x16 m c) ⟨r.val % 1024 / 512, h512⟩) (w16 m c)
        (ix2 (⟨r.val % 1024 % 512, Nat.mod_lt _ (by decide)⟩ : Fin 512) j)
    else
      (extf .f32 (gotC (F := Ideal) m c) bitsLt_bf16_f32)
        (ix3 (if r.val / 1024 = (rgt c).val then (0 : Fin 3) else if r.val / 1024 = (lft c).val then 1 else 2)
          (⟨r.val % 1024, Nat.mod_lt _ (by decide)⟩ : Fin 1024) j)) = _
  by_cases h0 : b = c
  · subst h0
    rw [if_pos hb.symm, ← x16_eq m b, ← w16_eq m b]
    exact tile512_cell _ _ _ _ p j (by show p.val = 512 * (r.val % 1024 / 512) + r.val % 1024 % 512; omega)
  · rw [if_neg (fun e => h0 (Fin.ext (hb.trans e))), extf_apply, ep]
    by_cases h1 : b = rgt c
    · subst h1
      rw [if_pos hb.symm]
      exact gotC_zero m c p j
    · rw [if_neg (fun e => h1 (Fin.ext (hb.trans e)))]
      by_cases h2 : b = lft c
      · subst h2
        rw [if_pos hb.symm]
        exact gotC_one m c p j
      · rw [if_neg (fun e => h2 (Fin.ext (hb.trans e)))]
        obtain rfl := opp_of_ne c b h0 h1 h2
        exact gotC_two m c p j

end Buffers

theorem outC_eq_block (m : (ℓ : Loc nD τ sig) → Buf (Elt Ideal) ℓ)
    (X : (⟨2, ![4096, 4096]⟩ : Shape).Idx → EReal) (W : (⟨2, ![4096, 2048]⟩ : Shape).Idx → EReal)
    (hx : ∀ c : Dev nD, m ((c.tc : Thread nD τ).loc main_arg0) = Layout.block ⟨2, ![1024, 4096]⟩ ⟨2, ![4096, 4096]⟩ 0 4 c X)
    (hw : ∀ c : Dev nD, m ((c.tc : Thread nD τ).loc main_arg1) = Layout.block ⟨2, ![4096, 512]⟩ ⟨2, ![4096, 2048]⟩ 1 4 c W)
    (c : Dev nD) :
    outC (F := Ideal) m c = Layout.block ⟨2, ![4096, 512]⟩ ⟨2, ![4096, 2048]⟩ 1 4 c (Cert.Spec.G X W) := by
  funext i
  obtain ⟨r, j, rfl⟩ : ∃ (r : Fin 4096) (j : Fin 512), i = ix2 r j := ⟨i 0, i 1, eq_ix2 i⟩
  have hb : r.val / 1024 < 4 := by have := r.isLt; omega
  have hX : Xb (F := Ideal) m ⟨r.val / 1024, hb⟩
      = Layout.block ⟨2, ![1024, 4096]⟩ ⟨2, ![4096, 4096]⟩ 0 4 ⟨r.val / 1024, hb⟩ X := hx _
  have hW : Wb (F := Ideal) m c = Layout.block ⟨2, ![4096, 512]⟩ ⟨2, ![4096, 2048]⟩ 1 4 c W := hw c
  rw [outC_apply m c r j ⟨r.val / 1024, hb⟩ ⟨r.val % 1024, Nat.mod_lt _ (by decide)⟩ rfl rfl, hX, hW, Layout.block_apply]
  exact cellOf_block X W _ c _ j _ _ (by show r.val = r.val / 1024 * 1024 + r.val % 1024; omega) rfl

end Cert.KernelIdeal.P

end
-- ==== Proof.K.Mesh.lean ====
/- The four devices as a ring: one step on, one step back, two steps on; which device each addressed operation names, and the row offset of each store of a received piece, in closed form. -/
import proofs.«900495_g7700000000000496_dist_ag_gemm_m4096_k4096_n2048_f32_gelu_v7x_i4_1_alg».proof.Proof.Gen.Kernel

noncomputable section

namespace Cert.Kernel.Mesh

open Idealize.ShloMosaic Cert.Kernel Cert.Kernel.Gen

def rgt (c : Dev nD) : Dev nD := ⟨(c.val + 1) % 4, Nat.mod_lt _ (by decide)⟩
def lft (c : Dev nD) : Dev nD := ⟨(c.val + 3) % 4, Nat.mod_lt _ (by decide)⟩
def opp (c : Dev nD) : Dev nD := ⟨(c.val + 2) % 4, Nat.mod_lt _ (by decide)⟩

theorem lft_rgt (c : Dev nD) : lft (rgt c) = c := by revert c; decide
theorem rgt_lft (c : Dev nD) : rgt (lft c) = c := by revert c; decide
theorem opp_opp (c : Dev nD) : opp (opp c) = c := by revert c; decide
theorem rgt_ne (c : Dev nD) : rgt c ≠ c := by revert c; decide
theorem lft_ne (c : Dev nD) : lft c ≠ c := by revert c; decide
theorem opp_ne (c : Dev nD) : opp c ≠ c := by revert c; decide
def ringR : Dev nD ≃ Dev nD := ⟨rgt, lft, lft_rgt, rgt_lft⟩
def ringO : Dev nD ≃ Dev nD := ⟨opp, opp, opp_opp, opp_opp⟩

theorem dev1_eq (c : Dev nD) : (⟨k0_dev1 c, k0_dev1_lt c⟩ : Dev nD) = lft c := by revert c; decide +kernel
theorem dev2_eq (c : Dev nD) : (⟨k0_dev2 c, k0_dev2_lt c⟩ : Dev nD) = rgt c := by revert c; decide +kernel
theorem dev3_eq (c : Dev nD) : (⟨k0_dev3 c, k0_dev3_lt c⟩ : Dev nD) = opp c := by revert c; decide +kernel
theorem dev4_eq (c : Dev nD) : (⟨k0_dev4 c, k0_dev4_lt c⟩ : Dev nD) = rgt c := by revert c; decide +kernel
theorem dev5_eq (c : Dev nD) : (⟨k0_dev5 c, k0_dev5_lt c⟩ : Dev nD) = lft c := by revert c; decide +kernel
theorem dev6_eq (c : Dev nD) : (⟨k0_dev6 c, k0_dev6_lt c⟩ : Dev nD) = rgt c := by revert c; decide +kernel
theorem dev7_eq (c : Dev nD) : (⟨k0_dev7 c, k0_dev7_lt c⟩ : Dev nD) = lft c := by revert c; decide +kernel
theorem dev8_eq (c : Dev nD) : (⟨k0_dev8 c, k0_dev8_lt c⟩ : Dev nD) = rgt c := by revert c; decide +kernel
theorem dev9_eq (c : Dev nD) : (⟨k0_dev9 c, k0_dev9_lt c⟩ : Dev nD) = lft c := by revert c; decide +kernel
theorem dev10_eq (c : Dev nD) : (⟨k0_dev10 c, k0_dev10_lt c⟩ : Dev nD) = lft c := by revert c; decide +kernel
theorem dev11_eq (c : Dev nD) : (⟨k0_dev11 c, k0_dev11_lt c⟩ : Dev nD) = rgt c := by revert c; decide +kernel
theorem dev12_eq (c : Dev nD) : (⟨k0_dev12 c, k0_dev12_lt c⟩ : Dev nD) = opp c := by revert c; decide +kernel

theorem off2_rgt_eq (c : Dev nD) : k0_off2 c (BitVec.ofNat 32 1) = ![1024 * (rgt c).val, 0] := by revert c; decide +kernel
theorem off2_opp_eq (c : Dev nD) : k0_off2 c (BitVec.ofNat 32 2) = ![1024 * (opp c).val, 0] := by revert c; decide +kernel
theorem off3_lft_eq (c : Dev nD) : k0_off3 c = ![1024 * (lft c).val, 0] := by revert c; decide +kernel

end Cert.Kernel.Mesh

end
-- ==== Proof.K.Views.lean ====
/- The buffers, the slices of them and the cells that the transfers name, each written once. -/
import proofs.«900495_g7700000000000496_dist_ag_gemm_m4096_k4096_n2048_f32_gelu_v7x_i4_1_alg».proof.Proof.Gen.Kernel

noncomputable section

namespace Cert.Kernel.P

open Idealize.ShloMosaic Idealize.ShloMosaic.TcCoe Cert.Kernel Cert.Kernel.Gen

abbrev xA : Memref sig .tc .hbm S1024x4096 .f32 := Memref.whole main_arg0
abbrev wStg : Memref sig .tc .vmem S4096x512 .f32 := Memref.whole cc0_stg0_0
abbrev oStg : Memref sig .tc .vmem S4096x512 .f32 := Memref.whole cc0_stg1_0
abbrev relayA : Memref sig .tc .hbm S2x4096x512 .bf16 := Memref.whole main_v1_1
abbrev w16A : Memref sig .tc .vmem S4096x512 .bf16 := Memref.whole cc0_scratch0
abbrev x16A : Memref sig .tc .vmem S1024x4096 .bf16 := Memref.whole cc0_scratch1
abbrev xq : Memref sig .tc .vmem S256x4096 .f32 := Memref.whole cc0_scratch2
abbrev farA : Memref sig .tc .vmem S4096x512 .bf16 := Memref.whole cc0_scratch3
abbrev landA : Memref sig .tc .vmem S2x4096x256 .bf16 := Memref.whole cc0_scratch4
abbrev madeA : Memref sig .tc .vmem S3x1024x512 .bf16 := Memref.whole cc0_scratch5
abbrev gotA : Memref sig .tc .vmem S3x1024x512 .bf16 := Memref.whole cc0_scratch6

abbrev w16H0 : Memref sig .tc .vmem S4096x256 .bf16 := w16A.slice (Rect.unit (s := S4096x512) ![0, 0] S4096x256.size inb_S4096x512_S4096x256_0_0) (fun _ => rfl)
abbrev w16H1 : Memref sig .tc .vmem S4096x256 .bf16 := w16A.slice (Rect.unit (s := S4096x512) ![0, 256] S4096x256.size inb_S4096x512_S4096x256_0_256) (fun _ => rfl)
abbrev farH0 : Memref sig .tc .vmem S4096x256 .bf16 := farA.slice (Rect.unit (s := S4096x512) ![0, 0] S4096x256.size inb_S4096x512_S4096x256_0_0) (fun _ => rfl)
abbrev farH1 : Memref sig .tc .vmem S4096x256 .bf16 := farA.slice (Rect.unit (s := S4096x512) ![0, 256] S4096x256.size inb_S4096x512_S4096x256_0_256) (fun _ => rfl)

abbrev relayL0 : Memref sig .tc .hbm S4096x256 .bf16 := (relayA.slice (Rect.unit (s := S2x4096x512) ![0, 0, 0] S1x4096x256.size inb_S2x4096x512_S1x4096x256_0_0_0) (fun _ => rfl)).squeeze S4096x256 squeezes_S1x4096x256_S4096x256
abbrev relayR0 : Memref sig .tc .hbm S4096x256 .bf16 := (relayA.slice (Rect.unit (s := S2x4096x512) ![1, 0, 0] S1x4096x256.size inb_S2x4096x512_S1x4096x256_1_0_0) (fun _ => rfl)).squeeze S4096x256 squeezes_S1x4096x256_S4096x256
abbrev relayL1 : Memref sig .tc .hbm S4096x256 .bf16 := (relayA.slice (Rect.unit (s := S2x4096x512) ![0, 0, 256] S1x4096x256.size inb_S2x4096x512_S1x4096x256_0_0_256) (fun _ => rfl)).squeeze S4096x256 squeezes_S1x4096x256_S4096x256
abbrev relayR1 : Memref sig .tc .hbm S4096x256 .bf16 := (relayA.slice (Rect.unit (s := S2x4096x512) ![1, 0, 256] S1x4096x256.size inb_S2x4096x512_S1x4096x256_1_0_256) (fun _ => rfl)).squeeze S4096x256 squeezes_S1x4096x256_S4096x256

abbrev made0 : Memref sig .tc .vmem S1024x512 .bf16 := (madeA.slice (Rect.unit (s := S3x1024x512) ![0, 0, 0] S1x1024x512.size inb_S3x1024x512_S1x1024x512_0_0_0) (fun _ => rfl)).squeeze S1024x512 squeezes_S1x1024x512_S1024x512
abbrev made1 : Memref sig .tc .vmem S1024x512 .bf16 := (madeA.slice (Rect.unit (s := S3x1024x512) ![1, 0, 0] S1x1024x512.size inb_S3x1024x512_S1x1024x512_1_0_0) (fun _ => rfl)).squeeze S1024x512 squeezes_S1x1024x512_S1024x512
abbrev made2 : Memref sig .tc .vmem S1024x512 .bf16 := (madeA.slice (Rect.unit (s := S3x1024x512) ![2, 0, 0] S1x1024x512.size inb_S3x1024x512_S1x1024x512_2_0_0) (fun _ => rfl)).squeeze S1024x512 squeezes_S1x1024x512_S1024x512
abbrev got0 : Memref sig .tc .vmem S1024x512 .bf16 := (gotA.slice (Rect.unit (s := S3x1024x512) ![0, 0, 0] S1x1024x512.size inb_S3x1024x512_S1x1024x512_0_0_0) (fun _ => rfl)).squeeze S1024x512 squeezes_S1x1024x512_S1024x512
abbrev got1 : Memref sig .tc .vmem S1024x512 .bf16 := (gotA.slice (Rect.unit (s := S3x1024x512) ![1, 0, 0] S1x1024x512.size inb_S3x1024x512_S1x1024x512_1_0_0) (fun _ => rfl)).squeeze S1024x512 squeezes_S1x1024x512_S1024x512
abbrev got2 : Memref sig .tc .vmem S1024x512 .bf16 := (gotA.slice (Rect.unit (s := S3x1024x512) ![2, 0, 0] S1x1024x512.size inb_S3x1024x512_S1x1024x512_2_0_0) (fun _ => rfl)).squeeze S1024x512 squeezes_S1x1024x512_S1024x512

abbrev barS : Sem sig := (SemArray.scalar (sig.barrier 0 rfl) : Sems sig S_).sem
abbrev sS0 : DmaSems sig S_ := ((cc0_scratch7 : DmaSems sig S9).slice (Rect.unit (s := S9) ![0] S1.size inb_S9_S1_0)).squeeze S_ squeezes_S1_S_
abbrev sS1 : DmaSems sig S_ := ((cc0_scratch7 : DmaSems sig S9).slice (Rect.unit (s := S9) ![1] S1.size inb_S9_S1_1)).squeeze S_ squeezes_S1_S_
abbrev sS2 : DmaSems sig S_ := ((cc0_scratch7 : DmaSems sig S9).slice (Rect.unit (s := S9) ![2] S1.size inb_S9_S1_2)).squeeze S_ squeezes_S1_S_
abbrev sS3 : DmaSems sig S_ := ((cc0_scratch7 : DmaSems sig S9).slice (Rect.unit (s := S9) ![3] S1.size inb_S9_S1_3)).squeeze S_ squeezes_S1_S_
abbrev sS4 : DmaSems sig S_ := ((cc0_scratch7 : DmaSems sig S9).slice (Rect.unit (s := S9) ![4] S1.size inb_S9_S1_4)).squeeze S_ squeezes_S1_S_
abbrev sS5 : DmaSems sig S_ := ((cc0_scratch7 : DmaSems sig S9).slice (Rect.unit (s := S9) ![5] S1.size inb_S9_S1_5)).squeeze S_ squeezes_S1_S_
abbrev sS6 : DmaSems sig S_ := ((cc0_scratch7 : DmaSems sig S9).slice (Rect.unit (s := S9) ![6] S1.size inb_S9_S1_6)).squeeze S_ squeezes_S1_S_
abbrev sS7 : DmaSems sig S_ := ((cc0_scratch7 : DmaSems sig S9).slice (Rect.unit (s := S9) ![7] S1.size inb_S9_S1_7)).squeeze S_ squeezes_S1_S_
abbrev sS8 : DmaSems sig S_ := ((cc0_scratch7 : DmaSems sig S9).slice (Rect.unit (s := S9) ![8] S1.size inb_S9_S1_8)).squeeze S_ squeezes_S1_S_
abbrev rS0 : DmaSems sig S_ := ((cc0_scratch8 : DmaSems sig S9).slice (Rect.unit (s := S9) ![0] S1.size inb_S9_S1_0)).squeeze S_ squeezes_S1_S_
abbrev rS1 : DmaSems sig S_ := ((cc0_scratch8 : DmaSems sig S9).slice (Rect.unit (s := S9) ![1] S1.size inb_S9_S1_1)).squeeze S_ squeezes_S1_S_
abbrev rS2 : DmaSems sig S_ := ((cc0_scratch8 : DmaSems sig S9).slice (Rect.unit (s := S9) ![2] S1.size inb_S9_S1_2)).squeeze S_ squeezes_S1_S_
abbrev rS3 : DmaSems sig S_ := ((cc0_scratch8 : DmaSems sig S9).slice (Rect.unit (s := S9) ![3] S1.size inb_S9_S1_3)).squeeze S_ squeezes_S1_S_
abbrev rS4 : DmaSems sig S_ := ((cc0_scratch8 : DmaSems sig S9).slice (Rect.unit (s := S9) ![4] S1.size inb_S9_S1_4)).squeeze S_ squeezes_S1_S_
abbrev rS5 : DmaSems sig S_ := ((cc0_scratch8 : DmaSems sig S9).slice (Rect.unit (s := S9) ![5] S1.size inb_S9_S1_5)).squeeze S_ squeezes_S1_S_
abbrev rS6 : DmaSems sig S_ := ((cc0_scratch8 : DmaSems sig S9).slice (Rect.unit (s := S9) ![6] S1.size inb_S9_S1_6)).squeeze S_ squeezes_S1_S_
abbrev rS7 : DmaSems sig S_ := ((cc0_scratch8 : DmaSems sig S9).slice (Rect.unit (s := S9) ![7] S1.size inb_S9_S1_7)).squeeze S_ squeezes_S1_S_
abbrev rS8 : DmaSems sig S_ := ((cc0_scratch8 : DmaSems sig S9).slice (Rect.unit (s := S9) ![8] S1.size inb_S9_S1_8)).squeeze S_ squeezes_S1_S_

abbrev sendSem : Fin 9 → DmaSem sig := fun
  | 0 => sS0.sem | 1 => sS1.sem | 2 => sS2.sem | 3 => sS3.sem | 4 => sS4.sem | 5 => sS5.sem | 6 => sS6.sem | 7 => sS7.sem | 8 => sS8.sem
abbrev recvSem : Fin 9 → DmaSem sig := fun
  | 0 => rS0.sem | 1 => rS1.sem | 2 => rS2.sem | 3 => rS3.sem | 4 => rS4.sem | 5 => rS5.sem | 6 => rS6.sem | 7 => rS7.sem | 8 => rS8.sem

abbrev barCell (c : Dev nD) : GSem nD τ sig := ((c : Thread nD τ), .reg barS)
abbrev sendCell (c : Dev nD) (k : Fin 9) : GSem nD τ sig := ((c : Thread nD τ), .dma (sendSem k))
abbrev recvCell (c : Dev nD) (k : Fin 9) : GSem nD τ sig := ((c : Thread nD τ), .dma (recvSem k))

end Cert.Kernel.P

end
-- ==== Proof.K.Contents.lean ====
/- What each buffer holds. Device c has rows block c of x and columns block c of w; its result is gelu (x w) at its columns, whose rows block b is gelu (x_b w_c): device b computes it once w_c has reached it and sends it to c. -/
import proofs.«900495_g7700000000000496_dist_ag_gemm_m4096_k4096_n2048_f32_gelu_v7x_i4_1_alg».proof.Proof.K.Mesh
import proofs.«900495_g7700000000000496_dist_ag_gemm_m4096_k4096_n2048_f32_gelu_v7x_i4_1_alg».proof.Proof.K.Views
import proofs.«900495_g7700000000000496_dist_ag_gemm_m4096_k4096_n2048_f32_gelu_v7x_i4_1_alg».proof.Proof.Gen.Kernel.Skeleton
import Idealize.ShloMosaic.Lib.ValueIdx

noncomputable section

namespace Cert.Kernel.P

open Idealize.ShloMosaic Idealize.ShloMosaic.TcCoe Idealize.ShloMosaic.ValueIdx Cert.Kernel Cert.Kernel.Gen Cert.Kernel.Mesh

variable {F : FTy → Type} [FloatOps F]
variable (m : (ℓ : Loc nD τ sig) → Buf (Elt F) ℓ)

def Xb (c : Dev nD) : Vec F S1024x4096 .f32 := m ((c : Thread nD τ).loc main_arg0)
def Wb (c : Dev nD) : Vec F S4096x512 .f32 := m ((c : Thread nD τ).loc main_arg1)

def w16 (c : Dev nD) : Vec F S4096x512 .bf16 := k0_pay1 (Wb m c)
def x16 (c : Dev nD) : Vec F S1024x4096 .bf16 := truncf .bf16 (Xb m c) bitsLt_bf16_f32

def rowHalf (x : Vec F S1024x4096 .bf16) (t : Fin 2) : Vec F S512x4096 .bf16 :=
  fun i => x (ix2 (⟨512 * t.val + (i 0).val, by have := idx2_lt0 i; have := t.isLt; omega⟩ : Fin 1024) (i 1))
def colHalf (w : Vec F S4096x512 .bf16) (h : Fin 2) : Vec F S4096x256 .bf16 :=
  fun i => w (ix2 (i 0) (⟨256 * h.val + (i 1).val, by have := idx2_lt1 i; have := h.isLt; omega⟩ : Fin 512))

def geluV {s : Shape} (y : FVec F s .f32) : FVec F s .f32 :=
  mulf (mulf (broadcast s (Scalar.ofBits .f32 0x3F000000#32)) y)
    (addf (broadcast s (Scalar.ofBits .f32 0x3F800000#32))
      (tanh (mulf (broadcast s (Scalar.ofBits .f32 0x3F4C422A#32))
        (addf y (mulf (mulf (mulf (broadcast s (Scalar.ofBits .f32 0x3D372713#32)) y) y) y)))))

def tile512 (xh : Vec F S512x4096 .bf16) (w : Vec F S4096x512 .bf16) : FVec F S512x512 .f32 :=
  geluV (matmul dot_S512x4096_S4096x512_S512x512_1_0_0_1_n_n none xh w (constant S512x512 .f32 0x00000000#32))
def tile256 (xh : Vec F S512x4096 .bf16) (wq : Vec F S4096x256 .bf16) : FVec F S512x256 .f32 :=
  geluV (matmul dot_S512x4096_S4096x256_S512x256_1_0_0_1_n_n none xh wq (constant S512x256 .f32 0x00000000#32))

def relayC (c : Dev nD) : Vec F S2x4096x512 .bf16 :=
  fun i => if (i 0).val = 0 then w16 m (lft c) (ix2 (i 1) (i 2)) else w16 m (rgt c) (ix2 (i 1) (i 2))
def farC (c : Dev nD) : Vec F S4096x512 .bf16 := w16 m (opp c)

def peer (c : Dev nD) (s : ℕ) : Dev nD := if s = 0 then lft c else if s = 1 then rgt c else opp c

def madeC (c : Dev nD) : Vec F S3x1024x512 .bf16 :=
  fun i =>
    (truncf .bf16 (tile256 (rowHalf (x16 m c) (⟨(i 1).val / 512, by have h1 : (i 1).val < 1024 := (i 1).isLt; omega⟩ : Fin 2))
        (colHalf (w16 m (peer c (i 0).val)) (⟨(i 2).val / 256, by have h2 : (i 2).val < 512 := (i 2).isLt; omega⟩ : Fin 2))) bitsLt_bf16_f32)
      (ix2 (⟨(i 1).val % 512, Nat.mod_lt _ (by decide)⟩ : Fin 512) (⟨(i 2).val % 256, Nat.mod_lt _ (by decide)⟩ : Fin 256))

def gotC (c : Dev nD) : Vec F S3x1024x512 .bf16 :=
  fun i =>
    if (i 0).val = 0 then madeC m (rgt c) (ix3 (0 : Fin 3) (i 1) (i 2))
    else if (i 0).val = 1 then madeC m (lft c) (ix3 (1 : Fin 3) (i 1) (i 2))
    else madeC m (opp c) (ix3 (2 : Fin 3) (i 1) (i 2))

def outC (c : Dev nD) : Vec F S4096x512 .f32 :=
  fun i =>
    let b : ℕ := (i 0).val / 1024
    let p : ℕ := (i 0).val % 1024
    if b = c.val then
      tile512 (rowHalf (x16 m c) ⟨p / 512, by have : p < 1024 := Nat.mod_lt _ (by decide); omega⟩) (w16 m c)
        (ix2 (⟨p % 512, Nat.mod_lt _ (by decide)⟩ : Fin 512) (i 1))
    else
      let s : Fin 3 := if b = (rgt c).val then 0 else if b = (lft c).val then 1 else 2
      (extf .f32 (gotC m c) bitsLt_bf16_f32) (ix3 s (⟨p, Nat.mod_lt _ (by decide)⟩ : Fin 1024) (i 1))

end Cert.Kernel.P

end
-- ==== Proof.K.Sched.lean ====
/- The protocol as a schedule of duties, one round per cell: an entry cell has one unit duty per peer, a send cell and a receive cell one duty each, paid by the transfer between them. -/
import proofs.«900495_g7700000000000496_dist_ag_gemm_m4096_k4096_n2048_f32_gelu_v7x_i4_1_alg».proof.Proof.K.Contents
import proofs.«900495_g7700000000000496_dist_ag_gemm_m4096_k4096_n2048_f32_gelu_v7x_i4_1_alg».proof.Proof.Gen.Kernel.Launch
import proofs.«900495_g7700000000000496_dist_ag_gemm_m4096_k4096_n2048_f32_gelu_v7x_i4_1_alg».proof.Proof.Gen.Kernel.Points
import Idealize.ShloMosaic.Lib.Pipeline.Launch
import Idealize.ShloMosaic.Lib.Pipeline.Kit
import Idealize.ShloMosaic.Lib.Tactic

noncomputable section

namespace Cert.Kernel.P

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by
  unfold ER embR; infer_instance

variable (m : (ℓ : Loc nD τ sig) → Buf (Elt F) ℓ) (ρ : Dev nD → PrngReg)

def amt (k : Fin 9) : ℕ := match k with
  | 0 => relayL0.view.dmaCredit
  | 1 => relayL1.view.dmaCredit
  | 2 => relayR0.view.dmaCredit
  | 3 => relayR1.view.dmaCredit
  | 4 => farH0.view.dmaCredit
  | 5 => farH1.view.dmaCredit
  | 6 => got0.view.dmaCredit
  | 7 => got1.view.dmaCredit
  | 8 => got2.view.dmaCredit

theorem amt_pos (k : Fin 9) : 0 < amt k := by
  revert k; intro k; fin_cases k <;> exact View.dmaCredit_pos _ (by decide)

abbrev someAt {sp : Space} {s : Shape} {e : EltTy} (c : Dev nD) (v : Memref sig .tc sp s e) : sProp 𝕄 :=
  iprop(∃ f : Buf (Elt F) (v.view.loc (c : Thread nD τ)), v.view.loc (c : Thread nD τ) ↦[v.view.set]{fullShare} f)
abbrev holdsAt {sp : Space} {s : Shape} {e : EltTy} (c : Dev nD) (v : Memref sig .tc sp s e) (q : PosShare TreeShare)
    (f : Buf (Elt F) (v.view.loc (c : Thread nD τ))) : sProp 𝕄 :=
  iprop(v.view.loc (c : Thread nD τ) ↦[v.view.set]{q} f)

def barPay (c : Dev nD) (d : Fin 3) : sProp 𝕄 := match d with
  | 0 => iprop(someAt (F := F) (rgt c) relayL0 ∗ someAt (F := F) (rgt c) relayL1 ∗ someAt (F := F) (rgt c) farH0 ∗ someAt (F := F) (rgt c) got1)
  | 1 => iprop(someAt (F := F) (lft c) relayR0 ∗ someAt (F := F) (lft c) relayR1 ∗ someAt (F := F) (lft c) farH1 ∗ someAt (F := F) (lft c) got0)
  | 2 => someAt (F := F) (opp c) got2

def recvPay (c : Dev nD) (k : Fin 9) : sProp 𝕄 := match k with
  | 0 => holdsAt c relayL0 fullShare (relayC m c)
  | 1 => holdsAt c relayL1 fullShare (relayC m c)
  | 2 => holdsAt c relayR0 fullShare (relayC m c)
  | 3 => holdsAt c relayR1 fullShare (relayC m c)
  | 4 => holdsAt c farH0 fullShare (farC m c)
  | 5 => holdsAt c farH1 fullShare (farC m c)
  | 6 => holdsAt c got0 fullShare (gotC m c)
  | 7 => holdsAt c got1 fullShare (gotC m c)
  | 8 => holdsAt c got2 fullShare (gotC m c)

def sendPay (c : Dev nD) (k : Fin 9) : sProp 𝕄 := match k with
  | 0 => holdsAt c w16H0 fullShare.right.left (w16 m c)
  | 1 => holdsAt c w16H1 fullShare.right.left (w16 m c)
  | 2 => holdsAt c w16H0 fullShare.right.right (w16 m c)
  | 3 => holdsAt c w16H1 fullShare.right.right (w16 m c)
  | 4 => holdsAt c relayL0 fullShare.left (relayC m c)
  | 5 => holdsAt c relayR1 fullShare.left (relayC m c)
  | 6 => holdsAt c made0 fullShare (madeC m c)
  | 7 => holdsAt c made1 fullShare (madeC m c)
  | 8 => holdsAt c made2 fullShare (madeC m c)

def xferIdx : SemLoc sig → Option (Bool × Fin 9)
  | .dma q =>
      if h : 2 ≤ q.val ∧ q.val < 11 then some (true, ⟨q.val - 2, by omega⟩)
      else if h' : 11 ≤ q.val ∧ q.val < 20 then some (false, ⟨q.val - 11, by omega⟩) else none
  | _ => none

theorem xferIdx_send (k : Fin 9) : xferIdx (.dma (sendSem k) : SemLoc sig) = some (true, k) := by revert k; decide
theorem xferIdx_recv (k : Fin 9) : xferIdx (.dma (recvSem k) : SemLoc sig) = some (false, k) := by revert k; decide
theorem xferIdx_bar : xferIdx (.reg barS : SemLoc sig) = none := rfl

def sched : Rounds.Schedule (GSem nD τ sig) (Fin 3) 𝕄 where
  duties g r :=
    if r = 0 ∧ g.1.2 = .tc then
      (if g.2 = .reg barS then Finset.univ else if (xferIdx g.2).isSome then {0} else ∅)
    else ∅
  unitless _ := False
  amount g _ _ := match xferIdx g.2 with
    | some (_, k) => amt k
    | none => 1
  payload g _ d :=
    if g.2 = .reg barS then barPay g.1.1 d
    else match xferIdx g.2 with
      | some (true, k) => sendPay m g.1.1 k
      | some (false, k) => recvPay m g.1.1 k
      | none => iprop(emp)
  amount_pos g _ _ _ := by
    cases h : xferIdx g.2 with
    | none => simp only [h]; exact Nat.one_pos
    | some bk => obtain ⟨b, k⟩ := bk; simp only [h]; exact amt_pos k

end Cert.Kernel.P

end
-- ==== Proof.K.Data.lean ====
/- What a device owes when it starts, the levels that order its waits, its share of the ghost state, and the data of the single grid point. -/
import proofs.«900495_g7700000000000496_dist_ag_gemm_m4096_k4096_n2048_f32_gelu_v7x_i4_1_alg».proof.Proof.K.Sched

noncomputable section

namespace Cert.Kernel.P

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def owedX (c : Dev nD) : CellTallies nD τ sig Unit :=
  tallyAt (recvCell (rgt c) 0) () (amt 0)
    + tallyAt (recvCell (rgt c) 1) () (amt 1)
    + tallyAt (recvCell (lft c) 2) () (amt 2)
    + tallyAt (recvCell (lft c) 3) () (amt 3)
    + tallyAt (recvCell (rgt c) 4) () (amt 4)
    + tallyAt (recvCell (lft c) 5) () (amt 5)
    + tallyAt (recvCell (lft c) 6) () (amt 6)
    + tallyAt (recvCell (rgt c) 7) () (amt 7)
    + tallyAt (recvCell (opp c) 8) () (amt 8)
def O₀ (c : Dev nD) : CellTallies nD τ sig Unit :=
  owedX c + tallyAt (barCell (opp c)) () 1 + tallyAt (barCell (rgt c)) () 1 + tallyAt (barCell (lft c)) () 1

def L (g : GSem nD τ sig) : Finset Unit := if g.1.2 = .tc then {()} else ∅
def lv (g : GSem nD τ sig) (_ : Unit) : ℕ :=
  if g.2 = .reg barS then 1 else match xferIdx g.2 with
    | some (false, k) => if k.val < 4 then 2 else if k.val < 6 then 3 else 4
    | _ => 0

theorem L_of_ne (g : GSem nD τ sig) (h : g.1.2 ≠ .tc) : L g = ∅ := if_neg h
theorem L_tc (c : Dev nD) (sm : SemLoc sig) : L ((c : Thread nD τ), sm) = {()} := if_pos rfl

abbrev cS0 : DmaSems sig S_ := ((cc0_scratch9 : DmaSems sig S3).slice (Rect.unit (s := S3) ![0] S1.size inb_S3_S1_0)).squeeze S_ squeezes_S1_S_
abbrev cS1 : DmaSems sig S_ := ((cc0_scratch9 : DmaSems sig S3).slice (Rect.unit (s := S3) ![1] S1.size inb_S3_S1_1)).squeeze S_ squeezes_S1_S_
abbrev cS2 : DmaSems sig S_ := ((cc0_scratch9 : DmaSems sig S3).slice (Rect.unit (s := S3) ![2] S1.size inb_S3_S1_2)).squeeze S_ squeezes_S1_S_
abbrev copyCell (c : Dev nD) (j : Fin 3) : GSem nD τ sig :=
  ((c : Thread nD τ), .dma (match j with | 0 => cS0.sem | 1 => cS1.sem | 2 => cS2.sem))

abbrev csem : Fin 19 → SemLoc sig := fun j =>
  if h : j.val = 0 then .reg barS
  else if h' : j.val < 10 then .dma (sendSem ⟨j.val - 1, by omega⟩)
  else .dma (recvSem ⟨j.val - 10, by omega⟩)
abbrev kcell (ck : Dev nD × Fin 19) : GSem nD τ sig := ((ck.1 : Thread nD τ), csem ck.2)
abbrev jS (k : Fin 9) : Fin 19 := ⟨1 + k.val, by omega⟩
abbrev jR (k : Fin 9) : Fin 19 := ⟨10 + k.val, by omega⟩

def invs (K : Dev nD × Fin 19 → ℕ) (c : Dev nD) : sProp 𝕄 :=
  iprop(cellInv ER (sched m) (K (c, 0)) (barCell c)
    ∗ cellInv ER (sched m) (K (c, jS 0)) (sendCell c 0)
    ∗ cellInv ER (sched m) (K (c, jS 1)) (sendCell c 1)
    ∗ cellInv ER (sched m) (K (c, jS 2)) (sendCell c 2)
    ∗ cellInv ER (sched m) (K (c, jS 3)) (sendCell c 3)
    ∗ cellInv ER (sched m) (K (c, jS 4)) (sendCell c 4)
    ∗ cellInv ER (sched m) (K (c, jS 5)) (sendCell c 5)
    ∗ cellInv ER (sched m) (K (c, jS 6)) (sendCell c 6)
    ∗ cellInv ER (sched m) (K (c, jS 7)) (sendCell c 7)
    ∗ cellInv ER (sched m) (K (c, jS 8)) (sendCell c 8)
    ∗ cellInv ER (sched m) (K (c, jR 0)) (recvCell c 0)
    ∗ cellInv ER (sched m) (K (c, jR 1)) (recvCell c 1)
    ∗ cellInv ER (sched m) (K (c, jR 2)) (recvCell c 2)
    ∗ cellInv ER (sched m) (K (c, jR 3)) (recvCell c 3)
    ∗ cellInv ER (sched m) (K (c, jR 4)) (recvCell c 4)
    ∗ cellInv ER (sched m) (K (c, jR 5)) (recvCell c 5)
    ∗ cellInv ER (sched m) (K (c, jR 6)) (recvCell c 6)
    ∗ cellInv ER (sched m) (K (c, jR 7)) (recvCell c 7)
    ∗ cellInv ER (sched m) (K (c, jR 8)) (recvCell c 8)
    ∗ cellInv ER (sched m) (K (lft c, 0)) (barCell (lft c)) ∗ cellInv ER (sched m) (K (rgt c, 0)) (barCell (rgt c)) ∗ cellInv ER (sched m) (K (opp c, 0)) (barCell (opp c))
    ∗ cellInv ER (sched m) (K (rgt c, jR 0)) (recvCell (rgt c) 0)
    ∗ cellInv ER (sched m) (K (rgt c, jR 1)) (recvCell (rgt c) 1)
    ∗ cellInv ER (sched m) (K (lft c, jR 2)) (recvCell (lft c) 2)
    ∗ cellInv ER (sched m) (K (lft c, jR 3)) (recvCell (lft c) 3)
    ∗ cellInv ER (sched m) (K (rgt c, jR 4)) (recvCell (rgt c) 4)
    ∗ cellInv ER (sched m) (K (lft c, jR 5)) (recvCell (lft c) 5)
    ∗ cellInv ER (sched m) (K (lft c, jR 6)) (recvCell (lft c) 6)
    ∗ cellInv ER (sched m) (K (rgt c, jR 7)) (recvCell (rgt c) 7)
    ∗ cellInv ER (sched m) (K (opp c, jR 8)) (recvCell (opp c) 8))

instance invs_persistent (K : Dev nD × Fin 19 → ℕ) (c : Dev nD) : BI.Persistent (invs m K c) := by unfold invs; infer_instance

def poss (c : Dev nD) : sProp 𝕄 :=
  iprop(atPos ER (barCell c) 0 ∅ 0
    ∗ atPos ER (sendCell c 0) 0 ∅ 0
    ∗ atPos ER (sendCell c 1) 0 ∅ 0
    ∗ atPos ER (sendCell c 2) 0 ∅ 0
    ∗ atPos ER (sendCell c 3) 0 ∅ 0
    ∗ atPos ER (sendCell c 4) 0 ∅ 0
    ∗ atPos ER (sendCell c 5) 0 ∅ 0
    ∗ atPos ER (sendCell c 6) 0 ∅ 0
    ∗ atPos ER (sendCell c 7) 0 ∅ 0
    ∗ atPos ER (sendCell c 8) 0 ∅ 0
    ∗ atPos ER (recvCell c 0) 0 ∅ 0
    ∗ atPos ER (recvCell c 1) 0 ∅ 0
    ∗ atPos ER (recvCell c 2) 0 ∅ 0
    ∗ atPos ER (recvCell c 3) 0 ∅ 0
    ∗ atPos ER (recvCell c 4) 0 ∅ 0
    ∗ atPos ER (recvCell c 5) 0 ∅ 0
    ∗ atPos ER (recvCell c 6) 0 ∅ 0
    ∗ atPos ER (recvCell c 7) 0 ∅ 0
    ∗ atPos ER (recvCell c 8) 0 ∅ 0)

def reacheds (c : Dev nD) : sProp 𝕄 :=
  iprop(reached ER (barCell c) 0 ∗ reached ER (barCell (lft c)) 0 ∗ reached ER (barCell (rgt c)) 0 ∗ reached ER (barCell (opp c)) 0
    ∗ reached ER (sendCell c 0) 0
    ∗ reached ER (sendCell c 1) 0
    ∗ reached ER (sendCell c 2) 0
    ∗ reached ER (sendCell c 3) 0
    ∗ reached ER (sendCell c 4) 0
    ∗ reached ER (sendCell c 5) 0
    ∗ reached ER (sendCell c 6) 0
    ∗ reached ER (sendCell c 7) 0
    ∗ reached ER (sendCell c 8) 0
    ∗ reached ER (recvCell c 0) 0
    ∗ reached ER (recvCell c 1) 0
    ∗ reached ER (recvCell c 2) 0
    ∗ reached ER (recvCell c 3) 0
    ∗ reached ER (recvCell c 4) 0
    ∗ reached ER (recvCell c 5) 0
    ∗ reached ER (recvCell c 6) 0
    ∗ reached ER (recvCell c 7) 0
    ∗ reached ER (recvCell c 8) 0
    ∗ reached ER (recvCell (rgt c) 0) 0
    ∗ reached ER (recvCell (rgt c) 1) 0
    ∗ reached ER (recvCell (lft c) 2) 0
    ∗ reached ER (recvCell (lft c) 3) 0
    ∗ reached ER (recvCell (rgt c) 4) 0
    ∗ reached ER (recvCell (lft c) 5) 0
    ∗ reached ER (recvCell (lft c) 6) 0
    ∗ reached ER (recvCell (rgt c) 7) 0
    ∗ reached ER (recvCell (opp c) 8) 0)

instance reacheds_persistent (c : Dev nD) : BI.Persistent (reacheds (F := F) c) := by unfold reacheds; infer_instance

def payToks (c : Dev nD) : sProp 𝕄 :=
  iprop(dutyTok ER (barCell (lft c)) 0 (0 : Fin 3) ∗ dutyTok ER (barCell (rgt c)) 0 (1 : Fin 3) ∗ dutyTok ER (barCell (opp c)) 0 (2 : Fin 3)
    ∗ dutyTok ER (recvCell (rgt c) 0) 0 (0 : Fin 3)
    ∗ dutyTok ER (recvCell (rgt c) 1) 0 (0 : Fin 3)
    ∗ dutyTok ER (recvCell (lft c) 2) 0 (0 : Fin 3)
    ∗ dutyTok ER (recvCell (lft c) 3) 0 (0 : Fin 3)
    ∗ dutyTok ER (recvCell (rgt c) 4) 0 (0 : Fin 3)
    ∗ dutyTok ER (recvCell (lft c) 5) 0 (0 : Fin 3)
    ∗ dutyTok ER (recvCell (lft c) 6) 0 (0 : Fin 3)
    ∗ dutyTok ER (recvCell (rgt c) 7) 0 (0 : Fin 3)
    ∗ dutyTok ER (recvCell (opp c) 8) 0 (0 : Fin 3)
    ∗ dutyTok ER (sendCell c 0) 0 (0 : Fin 3)
    ∗ dutyTok ER (sendCell c 1) 0 (0 : Fin 3)
    ∗ dutyTok ER (sendCell c 2) 0 (0 : Fin 3)
    ∗ dutyTok ER (sendCell c 3) 0 (0 : Fin 3)
    ∗ dutyTok ER (sendCell c 4) 0 (0 : Fin 3)
    ∗ dutyTok ER (sendCell c 5) 0 (0 : Fin 3)
    ∗ dutyTok ER (sendCell c 6) 0 (0 : Fin 3)
    ∗ dutyTok ER (sendCell c 7) 0 (0 : Fin 3)
    ∗ dutyTok ER (sendCell c 8) 0 (0 : Fin 3))

def ghost (K : Dev nD × Fin 19 → ℕ) (c : Dev nD) : sProp 𝕄 :=
  iprop(invs m K c ∗ poss c ∗ reacheds c ∗ payToks c)

def creds (c : Dev nD) : sProp 𝕄 :=
  iprop(cred (tallyAt (barCell c) () 3)
    ∗ cred (tallyAt (recvCell c 0) () (amt 0))
    ∗ cred (tallyAt (recvCell c 1) () (amt 1))
    ∗ cred (tallyAt (recvCell c 2) () (amt 2))
    ∗ cred (tallyAt (recvCell c 3) () (amt 3))
    ∗ cred (tallyAt (recvCell c 4) () (amt 4))
    ∗ cred (tallyAt (recvCell c 5) () (amt 5))
    ∗ cred (tallyAt (recvCell c 6) () (amt 6))
    ∗ cred (tallyAt (recvCell c 7) () (amt 7))
    ∗ cred (tallyAt (recvCell c 8) () (amt 8)))

def copy0 (c : Dev nD) : sProp 𝕄 :=
  iprop(semVal (copyCell c 0) 0 ∗ semVal (copyCell c 1) 0 ∗ semVal (copyCell c 2) 0)

def start (c : Dev nD) : sProp 𝕄 :=
  iprop((∃ K, ghost m K c) ∗ creds c ∗ copy0 c ∗ levAts L lv)

def xPts (c : Dev nD) : sProp 𝕄 := iprop(((c : Thread nD τ).loc main_arg0) ↦{fullShare} Xb m c)
def relayPts (c : Dev nD) : sProp 𝕄 := iprop(∃ f : Buf (Elt F) ((c : Thread nD τ).loc main_v1_1), ((c : Thread nD τ).loc main_v1_1) ↦{fullShare} f)
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f))

def sems0 (c : Dev nD) : sProp 𝕄 :=
  iprop(semVal (sendCell c 0) 0
    ∗ semVal (sendCell c 1) 0
    ∗ semVal (sendCell c 2) 0
    ∗ semVal (sendCell c 3) 0
    ∗ semVal (sendCell c 4) 0
    ∗ semVal (sendCell c 5) 0
    ∗ semVal (sendCell c 6) 0
    ∗ semVal (sendCell c 7) 0
    ∗ semVal (sendCell c 8) 0
    ∗ semVal (recvCell c 0) 0
    ∗ semVal (recvCell c 1) 0
    ∗ semVal (recvCell c 2) 0
    ∗ semVal (recvCell c 3) 0
    ∗ semVal (recvCell c 4) 0
    ∗ semVal (recvCell c 5) 0
    ∗ semVal (recvCell c 6) 0
    ∗ semVal (recvCell c 7) 0
    ∗ semVal (recvCell c 8) 0
    ∗ copy0 c)

def Φ₀ (c : Dev nD) : sProp 𝕄 := iprop(start m c ∗ xPts m c ∗ relayPts c ∗ scratch c)
def Φ₁ (c : Dev nD) : sProp 𝕄 := iprop(xPts m c ∗ sems0 c ∗ scratch c)

def wStgC (c : Dev nD) : (cc0_stg0_0 : Ref sig .tc).ty.Contents (Elt F) :=
  (win0_0.blk (0 : Fin 1)).view.read (Elt F) (m ((c : Thread nD τ).loc main_arg1))

def dats (_ : Fin 1) (c : Dev nD) : Dat τ (Elt F) Unit ℕ UU ℕ cfg0 c where
  A w := m ((cfg0.win w).arr.view.loc (c : Thread nD τ))
  after w _ := match w with
    | ⟨0, _⟩ => wStgC m c
    | ⟨1, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (wStgC m c) ∗ stg c cc0_stg1_0 (outC m c))

end Cert.Kernel.P

end
-- ==== Proof.K.Tables.lean ====
/- The schedule read at each cell (duties, amounts, payloads), and the level facts that allow every wait. -/
import proofs.«900495_g7700000000000496_dist_ag_gemm_m4096_k4096_n2048_f32_gelu_v7x_i4_1_alg».proof.Proof.K.Data

noncomputable section

namespace Cert.Kernel.P

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Tables
variable (c : Dev nD) (k : Fin 9)

theorem send_ne_bar : (SemLoc.dma (sendSem k) : SemLoc sig) ≠ .reg barS := fun h => by cases h
theorem recv_ne_bar : (SemLoc.dma (recvSem k) : SemLoc sig) ≠ .reg barS := fun h => by cases h
theorem isSome_send : (xferIdx (SemLoc.dma (sendSem k) : SemLoc sig)).isSome = true :=
  Eq.trans (congrArg Option.isSome (xferIdx_send k)) rfl
theorem isSome_recv : (xferIdx (SemLoc.dma (recvSem k) : SemLoc sig)).isSome = true :=
  Eq.trans (congrArg Option.isSome (xferIdx_recv k)) rfl

theorem duties_bar : (sched (F := F) m).duties (barCell c) 0 = Finset.univ := by
  dsimp only [sched]
  exact Eq.trans (if_pos ⟨rfl, rfl⟩) (if_pos rfl)
theorem duties_send : (sched (F := F) m).duties (sendCell c k) 0 = {0} := by
  dsimp only [sched]
  exact Eq.trans (if_pos ⟨rfl, rfl⟩) (Eq.trans (if_neg (send_ne_bar k)) (if_pos (isSome_send k)))
theorem duties_recv : (sched (F := F) m).duties (recvCell c k) 0 = {0} := by
  dsimp only [sched]
  exact Eq.trans (if_pos ⟨rfl, rfl⟩) (Eq.trans (if_neg (recv_ne_bar k)) (if_pos (isSome_recv k)))
theorem duties_later (g : GSem nD τ sig) : ∀ r, 1 ≤ r → (sched (F := F) m).duties g r = ∅ := fun r hr => by
  dsimp only [sched]
  exact if_neg fun h => absurd h.1 (by omega)

theorem amount_bar (d : Fin 3) : (sched (F := F) m).amount (barCell c) 0 d = 1 := by
  dsimp only [sched]
  rw [xferIdx_bar]
theorem amount_send (d : Fin 3) : (sched (F := F) m).amount (sendCell c k) 0 d = amt k := by
  dsimp only [sched]
  rw [xferIdx_send]
theorem amount_recv (d : Fin 3) : (sched (F := F) m).amount (recvCell c k) 0 d = amt k := by
  dsimp only [sched]
  rw [xferIdx_recv]
theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c k) 0 = amt k := by
  unfold Schedule.expect Schedule.amountOf
  rw [duties_send, Finset.sum_singleton, amount_send]
theorem expect_recv : (sched (F := F) m).expect (recvCell c k) 0 = amt k := by
  unfold Schedule.expect Schedule.amountOf
  rw [duties_recv, Finset.sum_singleton, amount_recv]

theorem payload_bar (d : Fin 3) : (sched (F := F) m).payload (barCell c) 0 d = barPay c d := by
  dsimp only [sched]
  exact if_pos rfl
theorem payload_send (d : Fin 3) : (sched (F := F) m).payload (sendCell c k) 0 d = sendPay m c k := by
  dsimp only [sched]
  rw [if_neg (send_ne_bar k), xferIdx_send]
theorem payload_recv (d : Fin 3) : (sched (F := F) m).payload (recvCell c k) 0 d = recvPay m c k := by
  dsimp only [sched]
  rw [if_neg (recv_ne_bar k), xferIdx_recv]

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem rest_bar : bigSep ((sched (F := F) m).duties (barCell c) 0 \ ∅) (fun d => (sched (F := F) m).payload (barCell c) 0 d)
    = iprop(barPay (F := F) c 0 ∗ barPay (F := F) c 1 ∗ barPay (F := F) c 2) := by
  rw [Finset.sdiff_empty, duties_bar, bigSep_fin3, payload_bar, payload_bar, payload_bar]
theorem rest_send : bigSep ((sched (F := F) m).duties (sendCell c k) 0 \ ∅) (fun d => (sched (F := F) m).payload (sendCell c k) 0 d) = sendPay m c k := by
  rw [Finset.sdiff_empty, duties_send, bigSep_singleton, payload_send]
theorem rest_recv : bigSep ((sched (F := F) m).duties (recvCell c k) 0 \ ∅) (fun d => (sched (F := F) m).payload (recvCell c k) 0 d) = recvPay m c k := by
  rw [Finset.sdiff_empty, duties_recv, bigSep_singleton, payload_recv]

end Tables

set_option synthInstance.maxHeartbeats 400000 in
instance sched_payload_storable (g : GSem nD τ sig) (r : ℕ) (d : Fin 3) :
    BI.Storable (upEmb : UEmb _ 𝕄) ((sched (F := F) m).payload g r d) := by
  dsimp only [sched]
  unfold barPay sendPay recvPay
  (repeat' split) <;> infer_instance

def AboveLv (n : ℕ) (O : CellTallies nD τ sig Unit) : Prop :=
  ∀ (g : GSem nD τ sig) (u : Unit), 0 < O g u → g.1.2 = .tc ∧ n < lv g u

theorem mayWait_of_above (c : Dev nD) (sm : SemLoc sig) (n : ℕ) (hn : lv ((c : Thread nD τ), sm) () = n)
    (O : CellTallies nD τ sig Unit) (hO : AboveLv n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by rw [L, if_pos (hO g u hg).1]; exact Finset.mem_singleton.mpr rfl)
    (fun p hp => by rw [Finset.mem_singleton.mp hp]; exact le_of_eq hn)
    (fun g u hg => (hO g u hg).2)

theorem lv_bar (c : Dev nD) : lv (barCell c) () = 1 := by
  unfold lv
  exact if_pos rfl
theorem lv_recv (c : Dev nD) (k : Fin 9) : lv (recvCell c k) () = if k.val < 4 then 2 else if k.val < 6 then 3 else 4 := by
  unfold lv
  rw [if_neg (recv_ne_bar k), xferIdx_recv]
theorem lv_other (c : Dev nD) (q : DmaSem sig) (hq : xferIdx (.dma q : SemLoc sig) = none) : lv ((c : Thread nD τ), .dma q) () = 0 := by
  unfold lv
  rw [if_neg (fun h => by cases h), hq]

theorem above_mono {n n' : ℕ} {O : CellTallies nD τ sig Unit} (h : AboveLv n O) (hn : n' ≤ n) : AboveLv n' O :=
  fun g u hg => ⟨(h g u hg).1, lt_of_le_of_lt hn (h g u hg).2⟩

theorem above_tallyAt {n : ℕ} {g : GSem nD τ sig} (a : ℕ) (h1 : g.1.2 = .tc) (h2 : n < lv g ()) : AboveLv n (tallyAt g () a) := by
  intro g' u hg
  rw [tallyAt_apply] at hg
  by_cases h : g' = g ∧ u = ()
  · obtain ⟨rfl, rfl⟩ := h
    exact ⟨h1, h2⟩
  · rw [if_neg h] at hg
    exact absurd hg (Nat.lt_irrefl 0)

theorem above_bar (c : Dev nD) (a : ℕ) : AboveLv 0 (tallyAt (barCell c) () a) :=
  above_tallyAt a rfl (by rw [lv_bar]; exact Nat.one_pos)

theorem above_add {n : ℕ} {O O' : CellTallies nD τ sig Unit} (h : AboveLv n O) (h' : AboveLv n O') : AboveLv n (O + O') := by
  intro g u hg
  rw [Pi.add_apply, Finsupp.add_apply] at hg
  by_cases h0 : 0 < O g u
  · exact h g u h0
  · exact h' g u (by omega)
theorem above_zero (n : ℕ) : AboveLv n (0 : CellTallies nD τ sig Unit) := by
  intro g u hg
  rw [Pi.zero_apply, Finsupp.coe_zero, Pi.zero_apply] at hg
  exact absurd hg (Nat.lt_irrefl 0)

theorem above_recv (c : Dev nD) (k : Fin 9) (n : ℕ) (hn : n < (if k.val < 4 then 2 else if k.val < 6 then 3 else 4)) (a : ℕ) :
    AboveLv n (tallyAt (recvCell c k) () a) :=
  above_tallyAt a rfl (by rw [lv_recv]; exact hn)

theorem above_owedX (c : Dev nD) : AboveLv 1 (owedX c) := by
  unfold owedX
  exact above_add (above_add (above_add (above_add (above_add (above_add (above_add (above_add
    (above_recv _ 0 1 (by decide) _) (above_recv _ 1 1 (by decide) _)) (above_recv _ 2 1 (by decide) _))
    (above_recv _ 3 1 (by decide) _)) (above_recv _ 4 1 (by decide) _)) (above_recv _ 5 1 (by decide) _))
    (above_recv _ 6 1 (by decide) _)) (above_recv _ 7 1 (by decide) _)) (above_recv _ 8 1 (by decide) _)

theorem above_O₀ (c : Dev nD) : AboveLv 0 (O₀ c) := by
  unfold O₀
  exact above_add (above_add (above_add (above_mono (above_owedX c) (Nat.zero_le 1)) (above_bar _ _)) (above_bar _ _)) (above_bar _ _)

end Cert.Kernel.P

end
-- ==== Proof.K.Landings.lean ====
/- A slice overwritten whole with what a source slice reads holds any contents that read the same there; so each transfer lands its target's named contents. -/
import proofs.«900495_g7700000000000496_dist_ag_gemm_m4096_k4096_n2048_f32_gelu_v7x_i4_1_alg».proof.Proof.K.Sched
import Idealize.ShloMosaic.Lib.Pipeline.Value
import Idealize.ShloMosaic.Lib.ValueLayout
import Idealize.ShloMosaic.Rules.PointsTo

noncomputable section

namespace Cert.Kernel.P

open Cert.Kernel Cert.Kernel.Gen Cert.Kernel.Mesh

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section General

variable {nD' : Nat} {τ' : Topo} {sig' : RefSig} {Ix : Type} [DecidableEq Ix]
variable {Val : EltTy → Type} {Name : Type} [DecidableEq Name]
variable {U : Type} [URA U] {Lvl : Type}

theorem land_eq {c' : Thread nD' τ'} {κ : Kind} {sp sp' : Space} {s : Shape} {e : EltTy}
    (dst : View sig' c'.2.kind sp' s e) (src : View sig' κ sp s e) (q : PosShare TreeShare)
    (fd g : Buf Val (dst.loc c')) (fs : src.ty.Contents Val)
    (h : ∀ y : s.Idx, dst.read Val g y = src.read Val fs y) :
    (dst.loc c' ↦[dst.set]{q} (dst.write Val fd (src.read Val fs) Finset.univ) : sProp (MT nD' τ' sig' Ix Val Name U Lvl))
      = (dst.loc c' ↦[dst.set]{q} g) :=
  pointsTo_congr fun i hi => by
    obtain ⟨y, rfl⟩ := View.exists_emb_of_mem_set dst hi
    rw [View.write_emb_of_mem _ _ (Finset.mem_univ y), ← h y, View.read_apply, cast_cast, cast_eq]

theorem land_idx_ext₃ {n : Fin 3 → ℕ} {x y : (a : Fin 3) → Fin (n a)} (h0 : (x 0 : ℕ) = y 0) (h1 : (x 1 : ℕ) = y 1)
    (h2 : (x 2 : ℕ) = y 2) : x = y :=
  funext fun a => Fin.ext <| match a with | ⟨0, _⟩ => h0 | ⟨1, _⟩ => h1 | ⟨2, _⟩ => h2

variable {κ : Kind} {sp : Space} {e : EltTy}

theorem land_read_slice₂ {N0 N1 : ℕ} (V : View sig' κ sp ⟨2, ![N0, N1]⟩ e) (off size : Fin 2 → ℕ)
    (inb : ∀ k, off k + size k ≤ (⟨2, ![N0, N1]⟩ : Shape).size k) (f : V.ty.Contents Val)
    (y : (Rect.unit (s := ⟨2, ![N0, N1]⟩) off size inb).shape.Idx) (i : (⟨2, ![N0, N1]⟩ : Shape).Idx)
    (h0 : (i 0).val = off 0 + (y 0).val) (h1 : (i 1).val = off 1 + (y 1).val) :
    (V.slice (Rect.unit off size inb)).read Val f y = V.read Val f i := by
  have hi : (Rect.unit (s := ⟨2, ![N0, N1]⟩) off size inb).emb y = i :=
    Shape.idx_ext₂ (by rw [Rect.emb_apply, Rect.off_unit, Rect.stride_unit, Nat.one_mul, h0])
      (by rw [Rect.emb_apply, Rect.off_unit, Rect.stride_unit, Nat.one_mul, h1])
  show _root_.cast _ (f (V.emb ((Rect.unit off size inb).emb y))) = _root_.cast _ (f (V.emb i))
  rw [hi]

theorem land_read_squeezed₃ {N0 N1 N2 a b : ℕ} (V : View sig' κ sp ⟨3, ![N0, N1, N2]⟩ e) (off : Fin 3 → ℕ)
    (inb : ∀ k, off k + (![1, a, b] : Fin 3 → ℕ) k ≤ (⟨3, ![N0, N1, N2]⟩ : Shape).size k)
    (hn : (⟨2, ![a, b]⟩ : Shape).numel = (⟨3, ![1, a, b]⟩ : Shape).numel)
    (f : V.ty.Contents Val) (y : (⟨2, ![a, b]⟩ : Shape).Idx) (i : (⟨3, ![N0, N1, N2]⟩ : Shape).Idx)
    (h0 : (i 0).val = off 0) (h1 : (i 1).val = off 1 + (y 0).val) (h2 : (i 2).val = off 2 + (y 1).val) :
    ((V.slice (Rect.unit off ![1, a, b] inb)).reshape ⟨2, ![a, b]⟩ hn).read Val f y = V.read Val f i := by
  have hy : Shape.reshapeEquiv hn y = ix3 (⟨0, Nat.one_pos⟩ : Fin 1) (y 0) (y 1) :=
    (congrArg _ (eq_ix2 y)).trans (reshapeEquiv_ix2_1ab hn (y 0) (y 1))
  have c0 : ((Shape.reshapeEquiv hn y) 0 : ℕ) = 0 :=
    congrArg (fun j : (⟨3, ![1, a, b]⟩ : Shape).Idx => ((j 0 : Fin _) : ℕ)) hy
  have c1 : ((Shape.reshapeEquiv hn y) 1 : ℕ) = (y 0 : ℕ) :=
    congrArg (fun j : (⟨3, ![1, a, b]⟩ : Shape).Idx => ((j 1 : Fin _) : ℕ)) hy
  have c2 : ((Shape.reshapeEquiv hn y) 2 : ℕ) = (y 1 : ℕ) :=
    congrArg (fun j : (⟨3, ![1, a, b]⟩ : Shape).Idx => ((j 2 : Fin _) : ℕ)) hy
  have hi : (Rect.unit (s := ⟨3, ![N0, N1, N2]⟩) off ![1, a, b] inb).emb (Shape.reshapeEquiv hn y) = i :=
    land_idx_ext₃
      (show off 0 + 1 * ((Shape.reshapeEquiv hn y) 0 : ℕ) = (i 0 : ℕ) by rw [c0, h0, Nat.mul_zero, Nat.add_zero])
      (show off 1 + 1 * ((Shape.reshapeEquiv hn y) 1 : ℕ) = (i 1 : ℕ) by rw [c1, h1, Nat.one_mul])
      (show off 2 + 1 * ((Shape.reshapeEquiv hn y) 2 : ℕ) = (i 2 : ℕ) by rw [c2, h2, Nat.one_mul])
  show _root_.cast _ (f (V.emb ((Rect.unit off ![1, a, b] inb).emb (Shape.reshapeEquiv hn y))))
    = _root_.cast _ (f (V.emb i))
  rw [hi]

end General

variable {F : FTy → Type} [FloatOps F]

local notation "𝕄" => MT nD τ sig Unit (Elt F) ℕ UU ℕ

variable (m : (ℓ : Loc nD τ sig) → Buf (Elt F) ℓ) (ρ : Dev nD → PrngReg)

theorem land_read_w16H0 (f : Vec F S4096x512 .bf16) (y : S4096x256.Idx) (z : Fin 512) (hz : z.val = 0 + (y 1).val) :
    w16H0.view.read (Elt F) f y = f (ix2 (y 0) z) :=
  land_read_slice₂ (Val := Elt F) (N0 := 4096) (N1 := 512) (View.whole cc0_scratch0) ![0, 0] S4096x256.size
    inb_S4096x512_S4096x256_0_0 f y (ix2 (y 0) z) (Nat.zero_add _).symm hz
theorem land_read_w16H1 (f : Vec F S4096x512 .bf16) (y : S4096x256.Idx) (z : Fin 512) (hz : z.val = 256 + (y 1).val) :
    w16H1.view.read (Elt F) f y = f (ix2 (y 0) z) :=
  land_read_slice₂ (Val := Elt F) (N0 := 4096) (N1 := 512) (View.whole cc0_scratch0) ![0, 256] S4096x256.size
    inb_S4096x512_S4096x256_0_256 f y (ix2 (y 0) z) (Nat.zero_add _).symm hz
theorem land_read_farH0 (f : Vec F S4096x512 .bf16) (y : S4096x256.Idx) (z : Fin 512) (hz : z.val = 0 + (y 1).val) :
    farH0.view.read (Elt F) f y = f (ix2 (y 0) z) :=
  land_read_slice₂ (Val := Elt F) (N0 := 4096) (N1 := 512) (View.whole cc0_scratch3) ![0, 0] S4096x256.size
    inb_S4096x512_S4096x256_0_0 f y (ix2 (y 0) z) (Nat.zero_add _).symm hz
theorem land_read_farH1 (f : Vec F S4096x512 .bf16) (y : S4096x256.Idx) (z : Fin 512) (hz : z.val = 256 + (y 1).val) :
    farH1.view.read (Elt F) f y = f (ix2 (y 0) z) :=
  land_read_slice₂ (Val := Elt F) (N0 := 4096) (N1 := 512) (View.whole cc0_scratch3) ![0, 256] S4096x256.size
    inb_S4096x512_S4096x256_0_256 f y (ix2 (y 0) z) (Nat.zero_add _).symm hz

theorem land_read_relayL0 (f : Vec F S2x4096x512 .bf16) (y : S4096x256.Idx) (z : Fin 512) (hz : z.val = 0 + (y 1).val) :
    relayL0.view.read (Elt F) f y = f (ix3 (0 : Fin 2) (y 0) z) :=
  land_read_squeezed₃ (Val := Elt F) (N0 := 2) (N1 := 4096) (N2 := 512) (a := 4096) (b := 256) (View.whole main_v1_1)
    ![0, 0, 0] inb_S2x4096x512_S1x4096x256_0_0_0 _ f y (ix3 (0 : Fin 2) (y 0) z) rfl (Nat.zero_add _).symm hz
theorem land_read_relayL1 (f : Vec F S2x4096x512 .bf16) (y : S4096x256.Idx) (z : Fin 512) (hz : z.val = 256 + (y 1).val) :
    relayL1.view.read (Elt F) f y = f (ix3 (0 : Fin 2) (y 0) z) :=
  land_read_squeezed₃ (Val := Elt F) (N0 := 2) (N1 := 4096) (N2 := 512) (a := 4096) (b := 256) (View.whole main_v1_1)
    ![0, 0, 256] inb_S2x4096x512_S1x4096x256_0_0_256 _ f y (ix3 (0 : Fin 2) (y 0) z) rfl (Nat.zero_add _).symm hz
theorem land_read_relayR0 (f : Vec F S2x4096x512 .bf16) (y : S4096x256.Idx) (z : Fin 512) (hz : z.val = 0 + (y 1).val) :
    relayR0.view.read (Elt F) f y = f (ix3 (1 : Fin 2) (y 0) z) :=
  land_read_squeezed₃ (Val := Elt F) (N0 := 2) (N1 := 4096) (N2 := 512) (a := 4096) (b := 256) (View.whole main_v1_1)
    ![1, 0, 0] inb_S2x4096x512_S1x4096x256_1_0_0 _ f y (ix3 (1 : Fin 2) (y 0) z) rfl (Nat.zero_add _).symm hz
theorem land_read_relayR1 (f : Vec F S2x4096x512 .bf16) (y : S4096x256.Idx) (z : Fin 512) (hz : z.val = 256 + (y 1).val) :
    relayR1.view.read (Elt F) f y = f (ix3 (1 : Fin 2) (y 0) z) :=
  land_read_squeezed₃ (Val := Elt F) (N0 := 2) (N1 := 4096) (N2 := 512) (a := 4096) (b := 256) (View.whole main_v1_1)
    ![1, 0, 256] inb_S2x4096x512_S1x4096x256_1_0_256 _ f y (ix3 (1 : Fin 2) (y 0) z) rfl (Nat.zero_add _).symm hz

theorem land_read_made0 (f : Vec F S3x1024x512 .bf16) (y : S1024x512.Idx) :
    made0.view.read (Elt F) f y = f (ix3 (0 : Fin 3) (y 0) (y 1)) :=
  land_read_squeezed₃ (Val := Elt F) (N0 := 3) (N1 := 1024) (N2 := 512) (a := 1024) (b := 512) (View.whole cc0_scratch5)
    ![0, 0, 0] inb_S3x1024x512_S1x1024x512_0_0_0 _ f y (ix3 (0 : Fin 3) (y 0) (y 1)) rfl (Nat.zero_add _).symm
    (Nat.zero_add _).symm
theorem land_read_made1 (f : Vec F S3x1024x512 .bf16) (y : S1024x512.Idx) :
    made1.view.read (Elt F) f y = f (ix3 (1 : Fin 3) (y 0) (y 1)) :=
  land_read_squeezed₃ (Val := Elt F) (N0 := 3) (N1 := 1024) (N2 := 512) (a := 1024) (b := 512) (View.whole cc0_scratch5)
    ![1, 0, 0] inb_S3x1024x512_S1x1024x512_1_0_0 _ f y (ix3 (1 : Fin 3) (y 0) (y 1)) rfl (Nat.zero_add _).symm
    (Nat.zero_add _).symm
theorem land_read_made2 (f : Vec F S3x1024x512 .bf16) (y : S1024x512.Idx) :
    made2.view.read (Elt F) f y = f (ix3 (2 : Fin 3) (y 0) (y 1)) :=
  land_read_squeezed₃ (Val := Elt F) (N0 := 3) (N1 := 1024) (N2 := 512) (a := 1024) (b := 512) (View.whole cc0_scratch5)
    ![2, 0, 0] inb_S3x1024x512_S1x1024x512_2_0_0 _ f y (ix3 (2 : Fin 3) (y 0) (y 1)) rfl (Nat.zero_add _).symm
    (Nat.zero_add _).symm
theorem land_read_got0 (f : Vec F S3x1024x512 .bf16) (y : S1024x512.Idx) :
    got0.view.read (Elt F) f y = f (ix3 (0 : Fin 3) (y 0) (y 1)) :=
  land_read_squeezed₃ (Val := Elt F) (N0 := 3) (N1 := 1024) (N2 := 512) (a := 1024) (b := 512) (View.whole cc0_scratch6)
    ![0, 0, 0] inb_S3x1024x512_S1x1024x512_0_0_0 _ f y (ix3 (0 : Fin 3) (y 0) (y 1)) rfl (Nat.zero_add _).symm
    (Nat.zero_add _).symm
theorem land_read_got1 (f : Vec F S3x1024x512 .bf16) (y : S1024x512.Idx) :
    got1.view.read (Elt F) f y = f (ix3 (1 : Fin 3) (y 0) (y 1)) :=
  land_read_squeezed₃ (Val := Elt F) (N0 := 3) (N1 := 1024) (N2 := 512) (a := 1024) (b := 512) (View.whole cc0_scratch6)
    ![1, 0, 0] inb_S3x1024x512_S1x1024x512_1_0_0 _ f y (ix3 (1 : Fin 3) (y 0) (y 1)) rfl (Nat.zero_add _).symm
    (Nat.zero_add _).symm
theorem land_read_got2 (f : Vec F S3x1024x512 .bf16) (y : S1024x512.Idx) :
    got2.view.read (Elt F) f y = f (ix3 (2 : Fin 3) (y 0) (y 1)) :=
  land_read_squeezed₃ (Val := Elt F) (N0 := 3) (N1 := 1024) (N2 := 512) (a := 1024) (b := 512) (View.whole cc0_scratch6)
    ![2, 0, 0] inb_S3x1024x512_S1x1024x512_2_0_0 _ f y (ix3 (2 : Fin 3) (y 0) (y 1)) rfl (Nat.zero_add _).symm
    (Nat.zero_add _).symm

theorem land_relayC_slot0 (c : Dev nD) (a : Fin 4096) (b : Fin 512) :
    relayC m c (ix3 (0 : Fin 2) a b) = w16 m (lft c) (ix2 a b) := if_pos rfl
theorem land_relayC_slot1 (c : Dev nD) (a : Fin 4096) (b : Fin 512) :
    relayC m c (ix3 (1 : Fin 2) a b) = w16 m (rgt c) (ix2 a b) :=
  if_neg (show ¬ ((1 : Fin 2) : ℕ) = 0 by decide)

theorem land_gotC_slot0 (c : Dev nD) (a : Fin 1024) (b : Fin 512) :
    gotC m c (ix3 (0 : Fin 3) a b) = madeC m (rgt c) (ix3 (0 : Fin 3) a b) := if_pos rfl
theorem land_gotC_slot1 (c : Dev nD) (a : Fin 1024) (b : Fin 512) :
    gotC m c (ix3 (1 : Fin 3) a b) = madeC m (lft c) (ix3 (1 : Fin 3) a b) :=
  (if_neg (show ¬ ((1 : Fin 3) : ℕ) = 0 by decide)).trans (if_pos rfl)
theorem land_gotC_slot2 (c : Dev nD) (a : Fin 1024) (b : Fin 512) :
    gotC m c (ix3 (2 : Fin 3) a b) = madeC m (opp c) (ix3 (2 : Fin 3) a b) :=
  (if_neg (show ¬ ((2 : Fin 3) : ℕ) = 0 by decide)).trans (if_neg (show ¬ ((2 : Fin 3) : ℕ) = 1 by decide))

theorem land_opp_rgt (c : Dev nD) : opp (rgt c) = lft c := by revert c; decide
theorem land_opp_lft (c : Dev nD) : opp (lft c) = rgt c := by revert c; decide

theorem land_to {sp sp' : Space} {s : Shape} {e : EltTy} (T : Dev nD) (dst : Memref sig .tc sp' s e) (src : Memref sig .tc sp s e)
    (fd g : Buf (Elt F) (dst.view.loc (T : Thread nD τ))) (fs : src.view.ty.Contents (Elt F))
    (h : ∀ y : s.Idx, dst.view.read (Elt F) g y = src.view.read (Elt F) fs y) :
    holdsAt T dst fullShare (dst.view.write (Elt F) fd (src.view.read (Elt F) fs) Finset.univ) ⊢ holdsAt T dst fullShare g :=
  Entails.of_eq (land_eq (c' := (T : Thread nD τ)) dst.view src.view fullShare fd g fs h)

theorem land0 (c : Dev nD) (fd : Buf (Elt F) (relayL0.view.loc (rgt c : Thread nD τ))) :
    holdsAt (rgt c) relayL0 fullShare (relayL0.view.write (Elt F) fd (w16H0.view.read (Elt F) (w16 m c)) Finset.univ)
      ⊢ recvPay m (rgt c) 0 := by
  refine land_to (rgt c) relayL0 w16H0 fd (relayC m (rgt c)) (w16 m c) fun y => ?_
  have hz : 0 + (y 1).val < 512 := by have := idx2_lt1 y; omega
  refine (land_read_relayL0 (relayC m (rgt c)) y ⟨_, hz⟩ rfl).trans (Eq.trans ?_ (land_read_w16H0 (w16 m c) y ⟨_, hz⟩ rfl).symm)
  exact (land_relayC_slot0 m (rgt c) (y 0) _).trans (congrArg (fun d => w16 m d (ix2 (y 0) (⟨0 + (y 1).val, hz⟩ : Fin 512))) (lft_rgt c))
theorem land1 (c : Dev nD) (fd : Buf (Elt F) (relayL1.view.loc (rgt c : Thread nD τ))) :
    holdsAt (rgt c) relayL1 fullShare (relayL1.view.write (Elt F) fd (w16H1.view.read (Elt F) (w16 m c)) Finset.univ)
      ⊢ recvPay m (rgt c) 1 := by
  refine land_to (rgt c) relayL1 w16H1 fd (relayC m (rgt c)) (w16 m c) fun y => ?_
  have hz : 256 + (y 1).val < 512 := by have := idx2_lt1 y; omega
  refine (land_read_relayL1 (relayC m (rgt c)) y ⟨_, hz⟩ rfl).trans (Eq.trans ?_ (land_read_w16H1 (w16 m c) y ⟨_, hz⟩ rfl).symm)
  exact (land_relayC_slot0 m (rgt c) (y 0) _).trans (congrArg (fun d => w16 m d (ix2 (y 0) (⟨256 + (y 1).val, hz⟩ : Fin 512))) (lft_rgt c))
theorem land2 (c : Dev nD) (fd : Buf (Elt F) (relayR0.view.loc (lft c : Thread nD τ))) :
    holdsAt (lft c) relayR0 fullShare (relayR0.view.write (Elt F) fd (w16H0.view.read (Elt F) (w16 m c)) Finset.univ)
      ⊢ recvPay m (lft c) 2 := by
  refine land_to (lft c) relayR0 w16H0 fd (relayC m (lft c)) (w16 m c) fun y => ?_
  have hz : 0 + (y 1).val < 512 := by have := idx2_lt1 y; omega
  refine (land_read_relayR0 (relayC m (lft c)) y ⟨_, hz⟩ rfl).trans (Eq.trans ?_ (land_read_w16H0 (w16 m c) y ⟨_, hz⟩ rfl).symm)
  exact (land_relayC_slot1 m (lft c) (y 0) _).trans (congrArg (fun d => w16 m d (ix2 (y 0) (⟨0 + (y 1).val, hz⟩ : Fin 512))) (rgt_lft c))
theorem land3 (c : Dev nD) (fd : Buf (Elt F) (relayR1.view.loc (lft c : Thread nD τ))) :
    holdsAt (lft c) relayR1 fullShare (relayR1.view.write (Elt F) fd (w16H1.view.read (Elt F) (w16 m c)) Finset.univ)
      ⊢ recvPay m (lft c) 3 := by
  refine land_to (lft c) relayR1 w16H1 fd (relayC m (lft c)) (w16 m c) fun y => ?_
  have hz : 256 + (y 1).val < 512 := by have := idx2_lt1 y; omega
  refine (land_read_relayR1 (relayC m (lft c)) y ⟨_, hz⟩ rfl).trans (Eq.trans ?_ (land_read_w16H1 (w16 m c) y ⟨_, hz⟩ rfl).symm)
  exact (land_relayC_slot1 m (lft c) (y 0) _).trans (congrArg (fun d => w16 m d (ix2 (y 0) (⟨256 + (y 1).val, hz⟩ : Fin 512))) (rgt_lft c))
theorem land4 (c : Dev nD) (fd : Buf (Elt F) (farH0.view.loc (rgt c : Thread nD τ))) :
    holdsAt (rgt c) farH0 fullShare (farH0.view.write (Elt F) fd (relayL0.view.read (Elt F) (relayC m c)) Finset.univ)
      ⊢ recvPay m (rgt c) 4 := by
  refine land_to (rgt c) farH0 relayL0 fd (farC m (rgt c)) (relayC m c) fun y => ?_
  have hz : 0 + (y 1).val < 512 := by have := idx2_lt1 y; omega
  refine (land_read_farH0 (farC m (rgt c)) y ⟨_, hz⟩ rfl).trans (Eq.trans ?_ (land_read_relayL0 (relayC m c) y ⟨_, hz⟩ rfl).symm)
  exact (congrArg (fun d => w16 m d (ix2 (y 0) (⟨0 + (y 1).val, hz⟩ : Fin 512))) (land_opp_rgt c)).trans (land_relayC_slot0 m c (y 0) _).symm
theorem land5 (c : Dev nD) (fd : Buf (Elt F) (farH1.view.loc (lft c : Thread nD τ))) :
    holdsAt (lft c) farH1 fullShare (farH1.view.write (Elt F) fd (relayR1.view.read (Elt F) (relayC m c)) Finset.univ)
      ⊢ recvPay m (lft c) 5 := by
  refine land_to (lft c) farH1 relayR1 fd (farC m (lft c)) (relayC m c) fun y => ?_
  have hz : 256 + (y 1).val < 512 := by have := idx2_lt1 y; omega
  refine (land_read_farH1 (farC m (lft c)) y ⟨_, hz⟩ rfl).trans (Eq.trans ?_ (land_read_relayR1 (relayC m c) y ⟨_, hz⟩ rfl).symm)
  exact (congrArg (fun d => w16 m d (ix2 (y 0) (⟨256 + (y 1).val, hz⟩ : Fin 512))) (land_opp_lft c)).trans (land_relayC_slot1 m c (y 0) _).symm
theorem land6 (c : Dev nD) (fd : Buf (Elt F) (got0.view.loc (lft c : Thread nD τ))) :
    holdsAt (lft c) got0 fullShare (got0.view.write (Elt F) fd (made0.view.read (Elt F) (madeC m c)) Finset.univ)
      ⊢ recvPay m (lft c) 6 := by
  refine land_to (lft c) got0 made0 fd (gotC m (lft c)) (madeC m c) fun y => ?_
  refine (land_read_got0 (gotC m (lft c)) y).trans (Eq.trans ?_ (land_read_made0 (madeC m c) y).symm)
  exact (land_gotC_slot0 m (lft c) (y 0) (y 1)).trans (congrArg (fun d => madeC m d (ix3 (0 : Fin 3) (y 0) (y 1))) (rgt_lft c))
theorem land7 (c : Dev nD) (fd : Buf (Elt F) (got1.view.loc (rgt c : Thread nD τ))) :
    holdsAt (rgt c) got1 fullShare (got1.view.write (Elt F) fd (made1.view.read (Elt F) (madeC m c)) Finset.univ)
      ⊢ recvPay m (rgt c) 7 := by
  refine land_to (rgt c) got1 made1 fd (gotC m (rgt c)) (madeC m c) fun y => ?_
  refine (land_read_got1 (gotC m (rgt c)) y).trans (Eq.trans ?_ (land_read_made1 (madeC m c) y).symm)
  exact (land_gotC_slot1 m (rgt c) (y 0) (y 1)).trans (congrArg (fun d => madeC m d (ix3 (1 : Fin 3) (y 0) (y 1))) (lft_rgt c))
theorem land8 (c : Dev nD) (fd : Buf (Elt F) (got2.view.loc (opp c : Thread nD τ))) :
    holdsAt (opp c) got2 fullShare (got2.view.write (Elt F) fd (made2.view.read (Elt F) (madeC m c)) Finset.univ)
      ⊢ recvPay m (opp c) 8 := by
  refine land_to (opp c) got2 made2 fd (gotC m (opp c)) (madeC m c) fun y => ?_
  refine (land_read_got2 (gotC m (opp c)) y).trans (Eq.trans ?_ (land_read_made2 (madeC m c) y).symm)
  exact (land_gotC_slot2 m (opp c) (y 0) (y 1)).trans (congrArg (fun d => madeC m d (ix3 (2 : Fin 3) (y 0) (y 1))) (opp_opp c))

end Cert.Kernel.P

end
-- ==== Proof.K.Carve.lean ====
/- Buffers cut along the rectangles that the transfers and stores name, and joined again: the rectangles are disjoint and cover. -/
import proofs.«900495_g7700000000000496_dist_ag_gemm_m4096_k4096_n2048_f32_gelu_v7x_i4_1_alg».proof.Proof.K.Sched
import Idealize.ShloMosaic.Lib.Pipeline.Value

noncomputable section

namespace Cert.Kernel.P

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Carve
variable (c : Dev nD)

namespace Carve

theorem eq_of_bi {P Q : sProp 𝕄} (h : P ⊣⊢ Q) : P = Q := BI.equiv_iff.mp ⟨h.1, h.2⟩

theorem pt_union {ℓ : Loc nD τ sig} {q : PosShare TreeShare} {f : Buf (Elt F) ℓ} {A B : Finset (Idx ℓ)}
    (h : Disjoint A B) :
    ((ℓ ↦[A ∪ B]{q} f) : sProp 𝕄) = iprop((ℓ ↦[A]{q} f) ∗ ℓ ↦[B]{q} f) :=
  eq_of_bi (pointsTo_union h)

theorem pt_halve {ℓ : Loc nD τ sig} (q : PosShare TreeShare) {f : Buf (Elt F) ℓ} {A : Finset (Idx ℓ)} :
    ((ℓ ↦[A]{q} f) : sProp 𝕄) = iprop((ℓ ↦[A]{q.left} f) ∗ ℓ ↦[A]{q.right} f) :=
  eq_of_bi (pointsTo_share (PosShare.mem_left_op_right q))

theorem forall_fin3 {p : Fin 3 → Prop} : (∀ a, p a) ↔ p 0 ∧ p 1 ∧ p 2 :=
  ⟨fun h => ⟨h 0, h 1, h 2⟩, fun ⟨h0, h1, h2⟩ a => match a with | ⟨0, _⟩ => h0 | ⟨1, _⟩ => h1 | ⟨2, _⟩ => h2⟩

theorem quarter_shares {ℓ : Loc nD τ sig} {A B : Finset (Idx ℓ)} (hd : Disjoint A B) (hu : A ∪ B = Finset.univ)
    (f : Buf (Elt F) ℓ) :
    ((ℓ ↦{fullShare} f) : sProp 𝕄)
      ⊣⊢ iprop((ℓ ↦{fullShare.left} f) ∗ (ℓ ↦[A]{fullShare.right.left} f) ∗ (ℓ ↦[A]{fullShare.right.right} f)
          ∗ (ℓ ↦[B]{fullShare.right.left} f) ∗ (ℓ ↦[B]{fullShare.right.right} f)) := by
  refine .of_eq ?_
  have e2 : ((ℓ ↦{fullShare.right} f) : sProp 𝕄) = iprop((ℓ ↦[A]{fullShare.right} f) ∗ ℓ ↦[B]{fullShare.right} f) := by
    rw [← pt_union hd, hu]
  rw [pt_halve fullShare (A := Finset.univ), e2, pt_halve fullShare.right (A := A), pt_halve fullShare.right (A := B),
    eq_of_bi Laws.sep_assoc]

abbrev colLo : Rect S4096x512 := Rect.unit (s := S4096x512) ![0, 0] S4096x256.size inb_S4096x512_S4096x256_0_0
abbrev colHi : Rect S4096x512 := Rect.unit (s := S4096x512) ![0, 256] S4096x256.size inb_S4096x512_S4096x256_0_256

theorem w16H0_set : w16H0.view.set = colLo.set := View.set_slice_whole _ _
theorem w16H1_set : w16H1.view.set = colHi.set := View.set_slice_whole _ _
theorem farH0_set : farH0.view.set = colLo.set := View.set_slice_whole _ _
theorem farH1_set : farH1.view.set = colHi.set := View.set_slice_whole _ _

theorem col_union : colLo.set ∪ colHi.set = Finset.univ := by
  ext i
  simp only [Finset.mem_union, Rect.mem_set_unit, Finset.mem_univ, iff_true, Fin.forall_fin_two]
  have h0 : (i 0).val < 4096 := (i 0).isLt
  have h1 : (i 1).val < 512 := (i 1).isLt
  show ((0 ≤ (i 0).val ∧ (i 0).val < 0 + 4096) ∧ (0 ≤ (i 1).val ∧ (i 1).val < 0 + 256))
    ∨ ((0 ≤ (i 0).val ∧ (i 0).val < 0 + 4096) ∧ (256 ≤ (i 1).val ∧ (i 1).val < 256 + 256))
  omega

theorem col_disjoint : Disjoint colLo.set colHi.set := Rect.unit_disjoint 1 (Or.inl (by decide))

abbrev qLL : Rect S2x4096x512 := Rect.unit (s := S2x4096x512) ![0, 0, 0] S1x4096x256.size inb_S2x4096x512_S1x4096x256_0_0_0
abbrev qLH : Rect S2x4096x512 := Rect.unit (s := S2x4096x512) ![0, 0, 256] S1x4096x256.size inb_S2x4096x512_S1x4096x256_0_0_256
abbrev qRL : Rect S2x4096x512 := Rect.unit (s := S2x4096x512) ![1, 0, 0] S1x4096x256.size inb_S2x4096x512_S1x4096x256_1_0_0
abbrev qRH : Rect S2x4096x512 := Rect.unit (s := S2x4096x512) ![1, 0, 256] S1x4096x256.size inb_S2x4096x512_S1x4096x256_1_0_256

theorem relayL0_set : relayL0.view.set = qLL.set :=
  (Memref.set_view_squeeze _ _).trans (View.set_slice_whole _ _)
theorem relayL1_set : relayL1.view.set = qLH.set :=
  (Memref.set_view_squeeze _ _).trans (View.set_slice_whole _ _)
theorem relayR0_set : relayR0.view.set = qRL.set :=
  (Memref.set_view_squeeze _ _).trans (View.set_slice_whole _ _)
theorem relayR1_set : relayR1.view.set = qRH.set :=
  (Memref.set_view_squeeze _ _).trans (View.set_slice_whole _ _)

theorem quarters_union : qLL.set ∪ (qLH.set ∪ (qRL.set ∪ qRH.set)) = Finset.univ := by
  ext i
  simp only [Finset.mem_union, Rect.mem_set_unit, Finset.mem_univ, iff_true, forall_fin3]
  have h0 : (i 0).val < 2 := (i 0).isLt
  have h1 : (i 1).val < 4096 := (i 1).isLt
  have h2 : (i 2).val < 512 := (i 2).isLt
  show ((0 ≤ (i 0).val ∧ (i 0).val < 0 + 1) ∧ (0 ≤ (i 1).val ∧ (i 1).val < 0 + 4096) ∧ (0 ≤ (i 2).val ∧ (i 2).val < 0 + 256))
    ∨ ((0 ≤ (i 0).val ∧ (i 0).val < 0 + 1) ∧ (0 ≤ (i 1).val ∧ (i 1).val < 0 + 4096) ∧ (256 ≤ (i 2).val ∧ (i 2).val < 256 + 256))
    ∨ ((1 ≤ (i 0).val ∧ (i 0).val < 1 + 1) ∧ (0 ≤ (i 1).val ∧ (i 1).val < 0 + 4096) ∧ (0 ≤ (i 2).val ∧ (i 2).val < 0 + 256))
    ∨ ((1 ≤ (i 0).val ∧ (i 0).val < 1 + 1) ∧ (0 ≤ (i 1).val ∧ (i 1).val < 0 + 4096) ∧ (256 ≤ (i 2).val ∧ (i 2).val < 256 + 256))
  omega

theorem quarters_disjoint : Disjoint qLL.set (qLH.set ∪ (qRL.set ∪ qRH.set)) ∧ Disjoint qLH.set (qRL.set ∪ qRH.set)
    ∧ Disjoint qRL.set qRH.set :=
  ⟨Finset.disjoint_union_right.mpr ⟨Rect.unit_disjoint 2 (Or.inl (by decide)),
      Finset.disjoint_union_right.mpr ⟨Rect.unit_disjoint 0 (Or.inl (by decide)), Rect.unit_disjoint 0 (Or.inl (by decide))⟩⟩,
    Finset.disjoint_union_right.mpr ⟨Rect.unit_disjoint 0 (Or.inl (by decide)), Rect.unit_disjoint 0 (Or.inl (by decide))⟩,
    Rect.unit_disjoint 2 (Or.inl (by decide))⟩

abbrev slot0 : Rect S3x1024x512 := Rect.unit (s := S3x1024x512) ![0, 0, 0] S1x1024x512.size inb_S3x1024x512_S1x1024x512_0_0_0
abbrev slot1 : Rect S3x1024x512 := Rect.unit (s := S3x1024x512) ![1, 0, 0] S1x1024x512.size inb_S3x1024x512_S1x1024x512_1_0_0
abbrev slot2 : Rect S3x1024x512 := Rect.unit (s := S3x1024x512) ![2, 0, 0] S1x1024x512.size inb_S3x1024x512_S1x1024x512_2_0_0

theorem made0_set : made0.view.set = slot0.set :=
  (Memref.set_view_squeeze _ _).trans (View.set_slice_whole _ _)
theorem made1_set : made1.view.set = slot1.set :=
  (Memref.set_view_squeeze _ _).trans (View.set_slice_whole _ _)
theorem made2_set : made2.view.set = slot2.set :=
  (Memref.set_view_squeeze _ _).trans (View.set_slice_whole _ _)
theorem got0_set : got0.view.set = slot0.set :=
  (Memref.set_view_squeeze _ _).trans (View.set_slice_whole _ _)
theorem got1_set : got1.view.set = slot1.set :=
  (Memref.set_view_squeeze _ _).trans (View.set_slice_whole _ _)
theorem got2_set : got2.view.set = slot2.set :=
  (Memref.set_view_squeeze _ _).trans (View.set_slice_whole _ _)

theorem slots_union : slot0.set ∪ (slot1.set ∪ slot2.set) = Finset.univ := by
  ext i
  simp only [Finset.mem_union, Rect.mem_set_unit, Finset.mem_univ, iff_true, forall_fin3]
  have h0 : (i 0).val < 3 := (i 0).isLt
  have h1 : (i 1).val < 1024 := (i 1).isLt
  have h2 : (i 2).val < 512 := (i 2).isLt
  show ((0 ≤ (i 0).val ∧ (i 0).val < 0 + 1) ∧ (0 ≤ (i 1).val ∧ (i 1).val < 0 + 1024) ∧ (0 ≤ (i 2).val ∧ (i 2).val < 0 + 512))
    ∨ ((1 ≤ (i 0).val ∧ (i 0).val < 1 + 1) ∧ (0 ≤ (i 1).val ∧ (i 1).val < 0 + 1024) ∧ (0 ≤ (i 2).val ∧ (i 2).val < 0 + 512))
    ∨ ((2 ≤ (i 0).val ∧ (i 0).val < 2 + 1) ∧ (0 ≤ (i 1).val ∧ (i 1).val < 0 + 1024) ∧ (0 ≤ (i 2).val ∧ (i 2).val < 0 + 512))
  omega

theorem slots_disjoint : Disjoint slot0.set (slot1.set ∪ slot2.set) ∧ Disjoint slot1.set slot2.set :=
  ⟨Finset.disjoint_union_right.mpr ⟨Rect.unit_disjoint 0 (Or.inl (by decide)), Rect.unit_disjoint 0 (Or.inl (by decide))⟩,
    Rect.unit_disjoint 0 (Or.inl (by decide))⟩

end Carve

open Carve

theorem relay_carve (f : Buf (Elt F) ((c : Thread nD τ).loc main_v1_1)) :
    ((((c : Thread nD τ).loc main_v1_1) ↦{fullShare} f) : sProp 𝕄)
      ⊢ iprop(holdsAt c relayL0 fullShare f ∗ holdsAt c relayL1 fullShare f ∗ holdsAt c relayR0 fullShare f ∗ holdsAt c relayR1 fullShare f) := by
  unfold holdsAt
  rw [relayL0_set, relayL1_set, relayR0_set, relayR1_set, ← pt_union quarters_disjoint.2.2,
    ← pt_union quarters_disjoint.2.1, ← pt_union quarters_disjoint.1, quarters_union]

theorem far_split (f : Buf (Elt F) ((c : Thread nD τ).loc cc0_scratch3)) :
    ((((c : Thread nD τ).loc cc0_scratch3) ↦{fullShare} f) : sProp 𝕄)
      ⊣⊢ iprop(holdsAt c farH0 fullShare f ∗ holdsAt c farH1 fullShare f) := by
  unfold holdsAt
  rw [farH0_set, farH1_set, ← pt_union col_disjoint, col_union]

theorem got_split (f : Buf (Elt F) ((c : Thread nD τ).loc cc0_scratch6)) :
    ((((c : Thread nD τ).loc cc0_scratch6) ↦{fullShare} f) : sProp 𝕄)
      ⊣⊢ iprop(holdsAt c got0 fullShare f ∗ holdsAt c got1 fullShare f ∗ holdsAt c got2 fullShare f) := by
  unfold holdsAt
  rw [got0_set, got1_set, got2_set, ← pt_union slots_disjoint.2, ← pt_union slots_disjoint.1, slots_union]

theorem made_split (f : Buf (Elt F) ((c : Thread nD τ).loc cc0_scratch5)) :
    ((((c : Thread nD τ).loc cc0_scratch5) ↦{fullShare} f) : sProp 𝕄)
      ⊣⊢ iprop(holdsAt c made0 fullShare f ∗ holdsAt c made1 fullShare f ∗ holdsAt c made2 fullShare f) := by
  unfold holdsAt
  rw [made0_set, made1_set, made2_set, ← pt_union slots_disjoint.2, ← pt_union slots_disjoint.1, slots_union]

theorem w16_split (f : Buf (Elt F) ((c : Thread nD τ).loc cc0_scratch0)) :
    ((((c : Thread nD τ).loc cc0_scratch0) ↦{fullShare} f) : sProp 𝕄)
      ⊣⊢ iprop((((c : Thread nD τ).loc cc0_scratch0) ↦{fullShare.left} f)
          ∗ holdsAt c w16H0 fullShare.right.left f ∗ holdsAt c w16H0 fullShare.right.right f
          ∗ holdsAt c w16H1 fullShare.right.left f ∗ holdsAt c w16H1 fullShare.right.right f) := by
  unfold holdsAt
  rw [w16H0_set, w16H1_set]
  exact quarter_shares col_disjoint col_union f

theorem holds_halve {sp : Space} {s : Shape} {e : EltTy} (v : Memref sig .tc sp s e) (q : PosShare TreeShare)
    (f : Buf (Elt F) (v.view.loc (c : Thread nD τ))) :
    (holdsAt c v q f : sProp 𝕄) ⊣⊢ iprop(holdsAt c v q.left f ∗ holdsAt c v q.right f) :=
  pointsTo_share (PosShare.mem_left_op_right q)

end Carve

abbrev landS0 : Memref sig .tc .vmem S4096x256 .bf16 := (landA.slice (Rect.unit (s := S2x4096x256) ![0, 0, 0] S1x4096x256.size inb_S2x4096x256_S1x4096x256_0_0_0) (fun _ => rfl)).squeeze S4096x256 squeezes_S1x4096x256_S4096x256
abbrev landS1 : Memref sig .tc .vmem S4096x256 .bf16 := (landA.slice (Rect.unit (s := S2x4096x256) ![1, 0, 0] S1x4096x256.size inb_S2x4096x256_S1x4096x256_1_0_0) (fun _ => rfl)).squeeze S4096x256 squeezes_S1x4096x256_S4096x256

abbrev Carve.lslot0 : Rect S2x4096x256 := Rect.unit (s := S2x4096x256) ![0, 0, 0] S1x4096x256.size inb_S2x4096x256_S1x4096x256_0_0_0
abbrev Carve.lslot1 : Rect S2x4096x256 := Rect.unit (s := S2x4096x256) ![1, 0, 0] S1x4096x256.size inb_S2x4096x256_S1x4096x256_1_0_0

theorem Carve.land0_set : landS0.view.set = Carve.lslot0.set :=
  (Memref.set_view_squeeze _ _).trans (View.set_slice_whole _ _)
theorem Carve.land1_set : landS1.view.set = Carve.lslot1.set :=
  (Memref.set_view_squeeze _ _).trans (View.set_slice_whole _ _)

theorem Carve.lslots_union : Carve.lslot0.set ∪ Carve.lslot1.set = Finset.univ := by
  ext i
  simp only [Finset.mem_union, Rect.mem_set_unit, Finset.mem_univ, iff_true, Carve.forall_fin3]
  have h0 : (i 0).val < 2 := (i 0).isLt
  have h1 : (i 1).val < 4096 := (i 1).isLt
  have h2 : (i 2).val < 256 := (i 2).isLt
  show ((0 ≤ (i 0).val ∧ (i 0).val < 0 + 1) ∧ (0 ≤ (i 1).val ∧ (i 1).val < 0 + 4096) ∧ (0 ≤ (i 2).val ∧ (i 2).val < 0 + 256))
    ∨ ((1 ≤ (i 0).val ∧ (i 0).val < 1 + 1) ∧ (0 ≤ (i 1).val ∧ (i 1).val < 0 + 4096) ∧ (0 ≤ (i 2).val ∧ (i 2).val < 0 + 256))
  omega

theorem Carve.lslots_disjoint : Disjoint Carve.lslot0.set Carve.lslot1.set := Rect.unit_disjoint 0 (Or.inl (by decide))

theorem land_split (c : Dev nD) (f : Buf (Elt F) ((c : Thread nD τ).loc cc0_scratch4)) :
    ((((c : Thread nD τ).loc cc0_scratch4) ↦{fullShare} f) : sProp 𝕄)
      ⊣⊢ iprop(holdsAt c landS0 fullShare f ∗ holdsAt c landS1 fullShare f) := by
  unfold holdsAt
  rw [Carve.land0_set, Carve.land1_set, ← Carve.pt_union Carve.lslots_disjoint, Carve.lslots_union]

theorem land_join (c : Dev nD) (fA fB : Buf (Elt F) ((c : Thread nD τ).loc cc0_scratch4)) :
    (iprop(holdsAt c landS0 fullShare fA ∗ holdsAt c landS1 fullShare fB) : sProp 𝕄)
      ⊢ iprop(∃ f : Buf (Elt F) ((c : Thread nD τ).loc cc0_scratch4), ((c : Thread nD τ).loc cc0_scratch4) ↦{fullShare} f) := by
  unfold holdsAt
  rw [Carve.land0_set, Carve.land1_set]
  refine (pointsTo_join Carve.lslots_disjoint).trans ?_
  rw [Carve.lslots_union]
  iintro H
  iexists _
  iexact H

end Cert.Kernel.P

end
-- ==== Proof.K.Forms.lean ====
/- The weight block the body is given is the argument's, and the first store leaves its 16-bit form. -/
import proofs.«900495_g7700000000000496_dist_ag_gemm_m4096_k4096_n2048_f32_gelu_v7x_i4_1_alg».proof.Proof.K.Data
import proofs.«900495_g7700000000000496_dist_ag_gemm_m4096_k4096_n2048_f32_gelu_v7x_i4_1_alg».proof.Proof.Gen.Kernel.Skeleton

noncomputable section

namespace Cert.Kernel.P

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem wStgC_eq (c : Dev nD) : wStgC m c = Wb m c := by
  have h0 : (fun a => (win0_0.index (0 : Fin 1)) a * main_arg1.ty.shape.size a) = fun _ => 0 :=
    funext fun a => by fin_cases a <;> decide
  exact Memref.read_access_unit_zero (Elt F) main_arg1 h0 (fun a => by fin_cases a <;> decide) (m ((c : Thread nD τ).loc main_arg1))

theorem off00 : (![0, 0] : Fin 2 → Nat) = fun _ => 0 := funext fun a => by fin_cases a <;> rfl

theorem form_w16 (c : Dev nD) (f0 : Buf (Elt F) ((c : Thread nD τ).loc cc0_scratch0)) :
    (View.whole cc0_scratch0).writes (Elt F) f0
      [⟨Rect.unit (s := S4096x512) ![0, 0] S4096x512.size inb_S4096x512_S4096x512_0_0,
        k0_pay1 (View.readAt (Elt F) (View.whole cc0_stg0_0)
          (Rect.unit (s := S4096x512) ![0, 0] S4096x512.size inb_S4096x512_S4096x512_0_0).toLoadRect (wStgC m c))⟩]
      = w16 m c := by
  have hr : View.readAt (Elt F) (View.whole cc0_stg0_0)
      (Rect.unit (s := S4096x512) ![0, 0] S4096x512.size inb_S4096x512_S4096x512_0_0).toLoadRect (wStgC m c) = Wb m c :=
    (Memref.readAt_unit_zero (Elt F) cc0_stg0_0 off00 _ (wStgC m c)).trans (wStgC_eq m c)
  rw [View.writes_singleton, hr]
  exact Memref.write_access_unit_zero_univ (Elt F) cc0_scratch0 off00 _ f0 _

end Cert.Kernel.P

end
-- ==== Proof.K.Reads.lean ====
/- Each quarter of the relay and each half of the far buffer reads a column half of a peer's 16-bit weight block. -/
import proofs.«900495_g7700000000000496_dist_ag_gemm_m4096_k4096_n2048_f32_gelu_v7x_i4_1_alg».proof.Proof.K.Landings

noncomputable section

namespace Cert.Kernel.P

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

theorem reads_col_lt (h : Fin 2) (y : S4096x256.Idx) : 256 * h.val + (y 1).val < 512 := by
  have := idx2_lt1 y; have := h.isLt; omega

theorem read_relayL0 (c : Dev nD) : relayL0.view.read (Elt F) (relayC m c) = colHalf (w16 m (lft c)) 0 :=
  funext fun y =>
    (land_read_relayL0 (relayC m c) y ⟨256 * ((0 : Fin 2) : ℕ) + (y 1).val, reads_col_lt 0 y⟩ rfl).trans
      (land_relayC_slot0 m c (y 0) _)
theorem read_relayL1 (c : Dev nD) : relayL1.view.read (Elt F) (relayC m c) = colHalf (w16 m (lft c)) 1 :=
  funext fun y =>
    (land_read_relayL1 (relayC m c) y ⟨256 * ((1 : Fin 2) : ℕ) + (y 1).val, reads_col_lt 1 y⟩ rfl).trans
      (land_relayC_slot0 m c (y 0) _)
theorem read_relayR0 (c : Dev nD) : relayR0.view.read (Elt F) (relayC m c) = colHalf (w16 m (rgt c)) 0 :=
  funext fun y =>
    (land_read_relayR0 (relayC m c) y ⟨256 * ((0 : Fin 2) : ℕ) + (y 1).val, reads_col_lt 0 y⟩ rfl).trans
      (land_relayC_slot1 m c (y 0) _)
theorem read_relayR1 (c : Dev nD) : relayR1.view.read (Elt F) (relayC m c) = colHalf (w16 m (rgt c)) 1 :=
  funext fun y =>
    (land_read_relayR1 (relayC m c) y ⟨256 * ((1 : Fin 2) : ℕ) + (y 1).val, reads_col_lt 1 y⟩ rfl).trans
      (land_relayC_slot1 m c (y 0) _)
theorem read_farH0 (c : Dev nD) : farH0.view.read (Elt F) (farC m c) = colHalf (w16 m (opp c)) 0 :=
  funext fun y => land_read_farH0 (farC m c) y ⟨256 * ((0 : Fin 2) : ℕ) + (y 1).val, reads_col_lt 0 y⟩ rfl
theorem read_farH1 (c : Dev nD) : farH1.view.read (Elt F) (farC m c) = colHalf (w16 m (opp c)) 1 :=
  funext fun y => land_read_farH1 (farC m c) y ⟨256 * ((1 : Fin 2) : ℕ) + (y 1).val, reads_col_lt 1 y⟩ rfl

end Cert.Kernel.P

end
-- ==== Proof.K.Slot0.lean ====
/- The three pieces a device makes. Each is four 512 x 256 tiles, gelu of a row half of the 16-bit x block times a column half of a peer's 16-bit weight block; on its slot the buffer the stores leave is the named piece. -/
import proofs.«900495_g7700000000000496_dist_ag_gemm_m4096_k4096_n2048_f32_gelu_v7x_i4_1_alg».proof.Proof.K.Reads
import proofs.«900495_g7700000000000496_dist_ag_gemm_m4096_k4096_n2048_f32_gelu_v7x_i4_1_alg».proof.Proof.K.Carve
import proofs.«900495_g7700000000000496_dist_ag_gemm_m4096_k4096_n2048_f32_gelu_v7x_i4_1_alg».proof.Proof.Gen.Kernel.Skeleton

noncomputable section

namespace Cert.Kernel.P

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Idealize.ShloMosaic.ValueIdx

abbrev XQ (F : FTy → Type) (c : Dev nD) : Type := Buf (Elt F) ((c : Thread nD τ).loc cc0_scratch2)
abbrev PB (F : FTy → Type) (c : Dev nD) : Type := Buf (Elt F) ((c : Thread nD τ).loc cc0_scratch5)

namespace Run0

def rowsOf (c : Dev nD) (o : ℕ) (inb : ∀ k, (![o, 0] : Fin 2 → ℕ) k + S256x4096.size k ≤ S1024x4096.size k) : S256x4096.Idx → Elt F .f32 :=
  ReadAs.same.apply (View.read (Elt F) (xA.slice (Rect.unit (s := S1024x4096) ![o, 0] S256x4096.size inb) (fun _ => rfl)).view (Xb m c))

def qload (g : xq.view.ty.Contents (Elt F)) :=
  View.readAt (Elt F) (Memref.whole cc0_scratch2).view (Rect.unit (s := S256x4096) ![0, 0] S256x4096.size inb_S256x4096_S256x4096_0_0).toLoadRect g

def q1 (c : Dev nD) (f2 : XQ F c) := View.write (Elt F) xq.view f2 (rowsOf m c 0 inb_S1024x4096_S256x4096_0_0) Finset.univ
def q2 (c : Dev nD) (f2 : XQ F c) := View.write (Elt F) xq.view (q1 m c f2) (rowsOf m c 256 inb_S1024x4096_S256x4096_256_0) Finset.univ
def q3 (c : Dev nD) (f2 : XQ F c) := View.write (Elt F) xq.view (q2 m c f2) (rowsOf m c 512 inb_S1024x4096_S256x4096_512_0) Finset.univ
def q4 (c : Dev nD) (f2 : XQ F c) := View.write (Elt F) xq.view (q3 m c f2) (rowsOf m c 768 inb_S1024x4096_S256x4096_768_0) Finset.univ

def V1_4 (c : Dev nD) (f2 : XQ F c) : List (View.Piece (Elt F) S1024x4096 .bf16) :=
  [⟨Rect.unit (s := S1024x4096) ![768, 0] S256x4096.size inb_S1024x4096_S256x4096_768_0, k0_pay5 (qload (q4 m c f2))⟩,
   ⟨Rect.unit (s := S1024x4096) ![512, 0] S256x4096.size inb_S1024x4096_S256x4096_512_0, k0_pay4 (qload (q3 m c f2))⟩,
   ⟨Rect.unit (s := S1024x4096) ![256, 0] S256x4096.size inb_S1024x4096_S256x4096_256_0, k0_pay3 (qload (q2 m c f2))⟩,
   ⟨Rect.unit (s := S1024x4096) ![0, 0] S256x4096.size inb_S1024x4096_S256x4096_0_0, k0_pay2 (qload (q1 m c f2))⟩]

def xrows (c : Dev nD) (f2 : XQ F c) (o : ℕ) (inb : ∀ k, (![o, 0] : Fin 2 → ℕ) k + S512x4096.size k ≤ S1024x4096.size k) :=
  (Memref.whole cc0_scratch1).view.readCov (V1_4 m c f2) (Rect.unit (s := S1024x4096) ![o, 0] S512x4096.size inb).toLoadRect
def xlo (c : Dev nD) (f2 : XQ F c) := xrows m c f2 0 inb_S1024x4096_S512x4096_0_0
def xhi (c : Dev nD) (f2 : XQ F c) := xrows m c f2 512 inb_S1024x4096_S512x4096_512_0

def cL0 (c : Dev nD) : S4096x256.Idx → Elt F .bf16 := ReadAs.same.apply (View.read (Elt F) relayL0.view (relayC m c))
def cL1 (c : Dev nD) : S4096x256.Idx → Elt F .bf16 := ReadAs.same.apply (View.read (Elt F) relayL1.view (relayC m c))
def cR0 (c : Dev nD) : S4096x256.Idx → Elt F .bf16 := ReadAs.same.apply (View.read (Elt F) relayR0.view (relayC m c))
def cR1 (c : Dev nD) : S4096x256.Idx → Elt F .bf16 := ReadAs.same.apply (View.read (Elt F) relayR1.view (relayC m c))

def ld0 (L : List (View.Piece (Elt F) S4096x256 .bf16)) :=
  View.readAt (Elt F) landA.view (Rect.unit (s := S2x4096x256) ![0, 0, 0] S1x4096x256.size inb_S2x4096x256_S1x4096x256_0_0_0).toLoadRect
    (landS0.view.writes (Elt F) landS0.view.junk L)
def ld1 (L : List (View.Piece (Elt F) S4096x256 .bf16)) :=
  View.readAt (Elt F) landA.view (Rect.unit (s := S2x4096x256) ![1, 0, 0] S1x4096x256.size inb_S2x4096x256_S1x4096x256_1_0_0).toLoadRect
    (landS1.view.writes (Elt F) landS1.view.junk L)

def wL0 (c : Dev nD) := ld0 [⟨Rect.whole S4096x256, cL0 m c⟩]
def wL1 (c : Dev nD) := ld0 [⟨Rect.whole S4096x256, cL1 m c⟩, ⟨Rect.whole S4096x256, cL0 m c⟩]
def wR0 (c : Dev nD) := ld1 [⟨Rect.whole S4096x256, cR0 m c⟩]
def wR1 (c : Dev nD) := ld1 [⟨Rect.whole S4096x256, cR1 m c⟩, ⟨Rect.whole S4096x256, cR0 m c⟩]

def wF0 (c : Dev nD) := View.readAt (Elt F) farA.view (Rect.unit (s := S4096x512) ![0, 0] S4096x256.size inb_S4096x512_S4096x256_0_0).toLoadRect (farC m c)
def wF1 (c : Dev nD) := View.readAt (Elt F) farA.view (Rect.unit (s := S4096x512) ![0, 256] S4096x256.size inb_S4096x512_S4096x256_0_256).toLoadRect (farC m c)

end Run0

open Run0

def made0L (c : Dev nD) (f2 : XQ F c) : List (View.Piece (Elt F) S3x1024x512 .bf16) :=
  [⟨Rect.unit (s := S3x1024x512) ![0, 512, 256] S1x512x256.size inb_S3x1024x512_S1x512x256_0_512_256, k0_pay23 (k0_pay20 (wL1 m c) (xhi m c f2)) (k0_pay21 (wL1 m c) (xhi m c f2)) k0_pay22⟩,
   ⟨Rect.unit (s := S3x1024x512) ![0, 0, 256] S1x512x256.size inb_S3x1024x512_S1x512x256_0_0_256, k0_pay18 (wL1 m c) (xlo m c f2)⟩,
   ⟨Rect.unit (s := S3x1024x512) ![0, 512, 0] S1x512x256.size inb_S3x1024x512_S1x512x256_0_512_0, k0_pay13 (k0_pay11 (wL0 m c) (xhi m c f2)) (k0_pay12 (wL0 m c) (xhi m c f2)) (FloatOps.ofBits FTy.f32 1065353216#32)⟩,
   ⟨Rect.unit (s := S3x1024x512) ![0, 0, 0] S1x512x256.size inb_S3x1024x512_S1x512x256_0_0_0, k0_pay9 (wL0 m c) (xlo m c f2)⟩]
def made1L (c : Dev nD) (f2 : XQ F c) : List (View.Piece (Elt F) S3x1024x512 .bf16) :=
  [⟨Rect.unit (s := S3x1024x512) ![1, 512, 256] S1x512x256.size inb_S3x1024x512_S1x512x256_1_512_256, k0_pay29 (k0_pay24 (wR1 m c)) (xhi m c f2)⟩,
   ⟨Rect.unit (s := S3x1024x512) ![1, 0, 256] S1x512x256.size inb_S3x1024x512_S1x512x256_1_0_256, k0_pay28 (k0_pay25 (wR1 m c) (xlo m c f2)) (k0_pay26 (wR1 m c) (xlo m c f2)) k0_pay27⟩,
   ⟨Rect.unit (s := S3x1024x512) ![1, 512, 0] S1x512x256.size inb_S3x1024x512_S1x512x256_1_512_0, k0_pay16 (wR0 m c) (xhi m c f2)⟩,
   ⟨Rect.unit (s := S3x1024x512) ![1, 0, 0] S1x512x256.size inb_S3x1024x512_S1x512x256_1_0_0, k0_pay15 (wR0 m c) (xlo m c f2)⟩]
def made2L (c : Dev nD) (f2 : XQ F c) : List (View.Piece (Elt F) S3x1024x512 .bf16) :=
  [⟨Rect.unit (s := S3x1024x512) ![2, 512, 256] S1x512x256.size inb_S3x1024x512_S1x512x256_2_512_256, k0_pay35 (wF1 m c) (xhi m c f2)⟩,
   ⟨Rect.unit (s := S3x1024x512) ![2, 0, 256] S1x512x256.size inb_S3x1024x512_S1x512x256_2_0_256, k0_pay34 (k0_pay32 (wF1 m c) (xlo m c f2)) (k0_pay33 (wF1 m c) (xlo m c f2)) (FloatOps.ofBits FTy.f32 1027024659#32)⟩,
   ⟨Rect.unit (s := S3x1024x512) ![2, 512, 0] S1x512x256.size inb_S3x1024x512_S1x512x256_2_512_0, k0_pay31 (wF0 m c) (xhi m c f2)⟩,
   ⟨Rect.unit (s := S3x1024x512) ![2, 0, 0] S1x512x256.size inb_S3x1024x512_S1x512x256_2_0_0, k0_pay30 (wF0 m c) (xlo m c f2)⟩]

def Run0.M0_w2_1 (c : Dev nD) (f2 : XQ F c) (f5 : PB F c) := (View.whole cc0_scratch5).writes (Elt F) f5 (made0L m c f2)
def Run1.M1_w2_1 (c : Dev nD) (f2 : XQ F c) (f5 : PB F c) := (View.whole cc0_scratch5).writes (Elt F) f5 (made1L m c f2)
def Run2.M2_w2_1 (c : Dev nD) (f2 : XQ F c) (f5 : PB F c) := (View.whole cc0_scratch5).writes (Elt F) f5 (made2L m c f2)

theorem xq_load (g : xq.view.ty.Contents (Elt F)) (w : S256x4096.Idx → Elt F .f32) :
    qload (View.write (Elt F) xq.view g w Finset.univ) = w := by
  unfold qload
  rw [View.readAt_eq_ld, show (Memref.whole cc0_scratch2 : Memref sig .tc .vmem S256x4096 .f32).view.read (Elt F) (View.write (Elt F) xq.view g w Finset.univ) = w from View.read_write_univ g w]
  exact View.ld_unit_zero (funext fun a => match a with | ⟨0, _⟩ => rfl | ⟨1, _⟩ => rfl) _ w

/-- Every one of the four quarter stores truncates the rows the copy brought, whichever payload spells it. -/
theorem xpiece (c : Dev nD) (pay : Vec F S256x4096 .f32 → FVec F S256x4096 .bf16)
    (hp : ∀ v, pay v = shapeCast S256x4096 (truncf .bf16 v bitsLt_bf16_f32) shapeCasts_S256x4096_S256x4096)
    (g : xq.view.ty.Contents (Elt F)) (o : ℕ) (inb) (x : S256x4096.Idx) :
    pay (qload (View.write (Elt F) xq.view g (rowsOf m c o inb) Finset.univ)) x
      = x16 m c ((Rect.unit (s := S1024x4096) ![o, 0] S256x4096.size inb).emb x) := by
  rw [xq_load, hp, shapeCast_self]
  rfl

theorem x_cover (c : Dev nD) (f2 : XQ F c) (y : S1024x4096.Idx) : ∃ p ∈ V1_4 m c f2, y ∈ p.1.set := by
  have h0 := idx2_lt0 y
  have h1 := idx2_lt1 y
  have hm : ∀ (o : ℕ) (inb : ∀ k, (![o, 0] : Fin 2 → ℕ) k + S256x4096.size k ≤ S1024x4096.size k), o ≤ (y 0).val → (y 0).val < o + 256 →
      y ∈ (Rect.unit (s := S1024x4096) ![o, 0] S256x4096.size inb).set := fun o inb l u =>
    Rect.mem_set_unit.mpr (Fin.forall_fin_two.mpr ⟨⟨l, u⟩, ⟨Nat.zero_le _, by show (y 1).val < 0 + 4096; omega⟩⟩)
  unfold V1_4
  by_cases a : (y 0).val < 256
  · exact ⟨_, List.mem_cons_of_mem _ (List.mem_cons_of_mem _ (List.mem_cons_of_mem _ List.mem_cons_self)), hm 0 inb_S1024x4096_S256x4096_0_0 (Nat.zero_le _) (by omega)⟩
  by_cases b : (y 0).val < 512
  · exact ⟨_, List.mem_cons_of_mem _ (List.mem_cons_of_mem _ List.mem_cons_self), hm 256 inb_S1024x4096_S256x4096_256_0 (by omega) (by omega)⟩
  by_cases d : (y 0).val < 768
  · exact ⟨_, List.mem_cons_of_mem _ List.mem_cons_self, hm 512 inb_S1024x4096_S256x4096_512_0 (by omega) (by omega)⟩
  · exact ⟨_, List.mem_cons_self, hm 768 inb_S1024x4096_S256x4096_768_0 (by omega) (by omega)⟩

theorem x_canon (c : Dev nD) (f2 : XQ F c) (y : S1024x4096.Idx) : View.canon (V1_4 m c f2) y = x16 m c y := by
  refine View.canon_apply_of_pieces (x16 m c) (V1_4 m c f2) ?_ y (x_cover m c f2 y)
  intro p hp
  unfold V1_4 at hp
  simp only [List.mem_cons, List.not_mem_nil, or_false] at hp
  rcases hp with rfl | rfl | rfl | rfl
  · exact xpiece m c k0_pay5 (fun _ => rfl) _ 768 inb_S1024x4096_S256x4096_768_0
  · exact xpiece m c k0_pay4 (fun _ => rfl) _ 512 inb_S1024x4096_S256x4096_512_0
  · exact xpiece m c k0_pay3 (fun _ => rfl) _ 256 inb_S1024x4096_S256x4096_256_0
  · exact xpiece m c k0_pay2 (fun _ => rfl) _ 0 inb_S1024x4096_S256x4096_0_0

theorem xhalf_load (c : Dev nD) (f2 : XQ F c) (t : Fin 2) (o : ℕ) (ho : o = 512 * t.val) (inb) :
    xrows m c f2 o inb = rowHalf (x16 m c) t := by
  subst ho
  unfold xrows
  rw [View.readCov_eq_canon _ _ _ (fun j => x_cover m c f2 _)]
  funext j
  rw [x_canon]
  refine congrArg (x16 m c) (funext fun a => Fin.ext ?_)
  match a with
  | ⟨0, _⟩ => show 512 * t.val + 1 * (j 0).val = 512 * t.val + (j 0).val; rw [Nat.one_mul]
  | ⟨1, _⟩ => show 0 + 1 * (j 1).val = (j 1).val; rw [Nat.one_mul, Nat.zero_add]

theorem xlo_eq (c : Dev nD) (f2 : XQ F c) : xlo m c f2 = rowHalf (x16 m c) 0 := xhalf_load m c f2 0 0 rfl inb_S1024x4096_S512x4096_0_0
theorem xhi_eq (c : Dev nD) (f2 : XQ F c) : xhi m c f2 = rowHalf (x16 m c) 1 := xhalf_load m c f2 1 512 rfl inb_S1024x4096_S512x4096_512_0

theorem read_writes_whole_cons {sp : Space} {s : Shape} {e : EltTy} (v : View sig .tc sp s e) (f : v.ty.Contents (Elt F))
    (w : s.Idx → Elt F e) (L : List (View.Piece (Elt F) s e)) :
    v.read (Elt F) (v.writes (Elt F) f (⟨Rect.whole s, w⟩ :: L)) = w := by
  funext y
  have h := View.read_writes_cons_emb v f (Rect.whole s) w L y
  rwa [Rect.emb_whole_apply] at h

theorem wL_eq (w : S4096x256.Idx → Elt F .bf16) (L : List (View.Piece (Elt F) S4096x256 .bf16)) :
    shapeCast S4096x256 (ld0 (⟨Rect.whole S4096x256, w⟩ :: L)) shapeCasts_S1x4096x256_S4096x256 = w :=
  Eq.trans (b := landS0.view.read (Elt F) (landS0.view.writes (Elt F) landS0.view.junk (⟨Rect.whole S4096x256, w⟩ :: L))) rfl (read_writes_whole_cons _ _ _ _)
theorem wR_eq (w : S4096x256.Idx → Elt F .bf16) (L : List (View.Piece (Elt F) S4096x256 .bf16)) :
    shapeCast S4096x256 (ld1 (⟨Rect.whole S4096x256, w⟩ :: L)) shapeCasts_S1x4096x256_S4096x256 = w :=
  Eq.trans (b := landS1.view.read (Elt F) (landS1.view.writes (Elt F) landS1.view.junk (⟨Rect.whole S4096x256, w⟩ :: L))) rfl (read_writes_whole_cons _ _ _ _)

def tl (X : Vec F S512x4096 .bf16) (W : Vec F S4096x256 .bf16) : S1x512x256.Idx → Elt F .bf16 :=
  shapeCast S1x512x256 (truncf .bf16 (tile256 X W) bitsLt_bf16_f32) shapeCasts_S512x256_S1x512x256

theorem madeC_at (c : Dev nD) (s : ℕ) (d : Dev nD) (hd : peer c s = d) (t h : Fin 2) (i : S3x1024x512.Idx)
    (x' : S512x256.Idx) (h0 : (i 0).val = s) (h1 : (i 1).val = 512 * t.val + (x' 0).val)
    (h2 : (i 2).val = 256 * h.val + (x' 1).val) :
    madeC m c i = (truncf .bf16 (tile256 (rowHalf (x16 m c) t) (colHalf (w16 m d) h)) bitsLt_bf16_f32) x' := by
  have b0 := idx2_lt0 x'
  have b1 := idx2_lt1 x'
  have bt := t.isLt
  have bh := h.isLt
  have pT : (i 1).val / 512 < 2 := by omega
  have pH : (i 2).val / 256 < 2 := by omega
  have eT : (⟨(i 1).val / 512, pT⟩ : Fin 2) = t := Fin.ext (by show (i 1).val / 512 = t.val; omega)
  have eH : (⟨(i 2).val / 256, pH⟩ : Fin 2) = h := Fin.ext (by show (i 2).val / 256 = h.val; omega)
  have eP : peer c (i 0).val = d := by rw [h0]; exact hd
  have eI : ix2 (⟨(i 1).val % 512, Nat.mod_lt _ (by decide)⟩ : Fin 512) (⟨(i 2).val % 256, Nat.mod_lt _ (by decide)⟩ : Fin 256) = x' :=
    funext fun a => Fin.ext (match a with
      | ⟨0, _⟩ => by show (i 1).val % 512 = (x' 0).val; omega
      | ⟨1, _⟩ => by show (i 2).val % 256 = (x' 1).val; omega)
  show (truncf .bf16 (tile256 (rowHalf (x16 m c) (⟨(i 1).val / 512, pT⟩ : Fin 2))
      (colHalf (w16 m (peer c (i 0).val)) (⟨(i 2).val / 256, pH⟩ : Fin 2))) bitsLt_bf16_f32)
    (ix2 (⟨(i 1).val % 512, Nat.mod_lt _ (by decide)⟩ : Fin 512) (⟨(i 2).val % 256, Nat.mod_lt _ (by decide)⟩ : Fin 256)) = _
  rw [eT, eH, eP, eI]

/-- One statement for all twelve stored tiles: the payload `pay` differs from tile to tile only in how it is spelt. -/
theorem tile_named {A : Type} (c : Dev nD) (s : ℕ) (d : Dev nD) (hd : peer c s = d) (t h : Fin 2) (o1 o2 : ℕ)
    (h1 : o1 = 512 * t.val) (h2 : o2 = 256 * h.val)
    (inb : ∀ k, (![s, o1, o2] : Fin 3 → ℕ) k + S1x512x256.size k ≤ S3x1024x512.size k)
    (pay : A → Vec F S512x4096 .bf16 → S1x512x256.Idx → Elt F .bf16) (cast : A → Vec F S4096x256 .bf16)
    (hp : ∀ L X, pay L X = tl X (cast L)) (L : A) (X : Vec F S512x4096 .bf16)
    (hX : X = rowHalf (x16 m c) t) (hW : cast L = colHalf (w16 m d) h)
    (x : (Rect.unit (s := S3x1024x512) ![s, o1, o2] S1x512x256.size inb).shape.Idx) :
    pay L X x = madeC m c ((Rect.unit (s := S3x1024x512) ![s, o1, o2] S1x512x256.size inb).emb x) := by
  rw [hp, hW]
  subst h1 h2 hX
  unfold tl
  refine (shapeCast_addUnit_apply ![512, 256] _ _ x).trans (madeC_at m c s d hd t h _ (fun a => x a.succ) ?_ ?_ ?_).symm
  · show s + 1 * (x 0).val = s
    have : (x 0).val < 1 := (x 0).isLt
    omega
  · show 512 * t.val + 1 * (x 1).val = 512 * t.val + (x 1).val
    rw [Nat.one_mul]
  · show 256 * h.val + 1 * (x 2).val = 256 * h.val + (x 2).val
    rw [Nat.one_mul]

/-- The four 512 x 256 rectangles of a slot cover it. -/
theorem tile_cover (s : ℕ) (b00 : ∀ k, (![s, 0, 0] : Fin 3 → ℕ) k + S1x512x256.size k ≤ S3x1024x512.size k)
    (b10 : ∀ k, (![s, 512, 0] : Fin 3 → ℕ) k + S1x512x256.size k ≤ S3x1024x512.size k)
    (b01 : ∀ k, (![s, 0, 256] : Fin 3 → ℕ) k + S1x512x256.size k ≤ S3x1024x512.size k)
    (b11 : ∀ k, (![s, 512, 256] : Fin 3 → ℕ) k + S1x512x256.size k ≤ S3x1024x512.size k)
    (v00 v10 v01 v11 : S1x512x256.Idx → Elt F .bf16) (i : S3x1024x512.Idx)
    (hi : ∀ a, (![s, 0, 0] : Fin 3 → ℕ) a ≤ (i a).val ∧ (i a).val < (![s, 0, 0] : Fin 3 → ℕ) a + S1x1024x512.size a) :
    ∃ p ∈ ([⟨Rect.unit (s := S3x1024x512) ![s, 512, 256] S1x512x256.size b11, v11⟩, ⟨Rect.unit (s := S3x1024x512) ![s, 0, 256] S1x512x256.size b01, v01⟩,
        ⟨Rect.unit (s := S3x1024x512) ![s, 512, 0] S1x512x256.size b10, v10⟩, ⟨Rect.unit (s := S3x1024x512) ![s, 0, 0] S1x512x256.size b00, v00⟩] : List (View.Piece (Elt F) S3x1024x512 .bf16)),
      i ∈ p.1.set := by
  obtain ⟨⟨l0, a0⟩, ⟨_, a1⟩, ⟨_, a2⟩⟩ := Carve.forall_fin3.mp hi
  have l0' : s ≤ (i 0).val := l0
  have a0' : (i 0).val < s + 1 := a0
  have a1' : (i 1).val < 0 + 1024 := a1
  have a2' : (i 2).val < 0 + 512 := a2
  have hm : ∀ (o1 o2 : ℕ) (inb : ∀ k, (![s, o1, o2] : Fin 3 → ℕ) k + S1x512x256.size k ≤ S3x1024x512.size k), o1 ≤ (i 1).val → (i 1).val < o1 + 512 →
      o2 ≤ (i 2).val → (i 2).val < o2 + 256 → i ∈ (Rect.unit (s := S3x1024x512) ![s, o1, o2] S1x512x256.size inb).set := fun o1 o2 inb l1 u1 l2 u2 =>
    Rect.mem_set_unit.mpr (Carve.forall_fin3.mpr ⟨⟨l0, a0⟩, ⟨l1, u1⟩, ⟨l2, u2⟩⟩)
  by_cases r : (i 1).val < 512 <;> by_cases q : (i 2).val < 256
  · exact ⟨_, List.mem_cons_of_mem _ (List.mem_cons_of_mem _ (List.mem_cons_of_mem _ List.mem_cons_self)), hm 0 0 b00 (Nat.zero_le _) (by omega) (Nat.zero_le _) (by omega)⟩
  · exact ⟨_, List.mem_cons_of_mem _ List.mem_cons_self, hm 0 256 b01 (Nat.zero_le _) (by omega) (by omega) (by omega)⟩
  · exact ⟨_, List.mem_cons_of_mem _ (List.mem_cons_of_mem _ List.mem_cons_self), hm 512 0 b10 (by omega) (by omega) (Nat.zero_le _) (by omega)⟩
  · exact ⟨_, List.mem_cons_self, hm 512 256 b11 (by omega) (by omega) (by omega) (by omega)⟩

/-- Pieces that agree with the named contents and cover an index decide the buffer there, whatever it held. -/
theorem named_of_tiles (c : Dev nD) (f5 : PB F c) (L : List (View.Piece (Elt F) S3x1024x512 .bf16))
    (hp : ∀ p ∈ L, ∀ x : p.1.shape.Idx, p.2 x = madeC m c (p.1.emb x)) (i : S3x1024x512.Idx) (hc : ∃ p ∈ L, i ∈ p.1.set) :
    (View.whole cc0_scratch5).writes (Elt F) f5 L i = madeC m c i := by
  have hr := congrFun (View.read_whole (Val := Elt F) cc0_scratch5 ((View.whole cc0_scratch5).writes (Elt F) f5 L)) i
  rw [← hr, View.read_writes_apply_eq_canon (View.whole cc0_scratch5) f5 i L hc]
  exact View.canon_apply_of_pieces (madeC m c) L hp i hc

theorem made0_pieces (c : Dev nD) (f2 : XQ F c) : ∀ p ∈ made0L m c f2, ∀ x : p.1.shape.Idx, p.2 x = madeC m c (p.1.emb x) := by
  have w0 : k0_pay8 (wL0 m c) = colHalf (w16 m (lft c)) 0 := (wL_eq (cL0 m c) []).trans (read_relayL0 m c)
  have w1 : k0_pay17 (wL1 m c) = colHalf (w16 m (lft c)) 1 := (wL_eq (cL1 m c) [⟨Rect.whole S4096x256, cL0 m c⟩]).trans (read_relayL1 m c)
  intro p hp
  unfold made0L at hp
  simp only [List.mem_cons, List.not_mem_nil, or_false] at hp
  rcases hp with rfl | rfl | rfl | rfl
  · exact tile_named m c 0 _ rfl 1 1 512 256 rfl rfl inb_S3x1024x512_S1x512x256_0_512_256 (fun L X => k0_pay23 (k0_pay20 L X) (k0_pay21 L X) k0_pay22) k0_pay17 (fun _ _ => rfl) (wL1 m c) _ (xhi_eq m c f2) w1
  · exact tile_named m c 0 _ rfl 0 1 0 256 rfl rfl inb_S3x1024x512_S1x512x256_0_0_256 k0_pay18 k0_pay17 (fun _ _ => rfl) (wL1 m c) _ (xlo_eq m c f2) w1
  · exact tile_named m c 0 _ rfl 1 0 512 0 rfl rfl inb_S3x1024x512_S1x512x256_0_512_0 (fun L X => k0_pay13 (k0_pay11 L X) (k0_pay12 L X) (FloatOps.ofBits FTy.f32 1065353216#32)) k0_pay8 (fun _ _ => rfl) (wL0 m c) _ (xhi_eq m c f2) w0
  · exact tile_named m c 0 _ rfl 0 0 0 0 rfl rfl inb_S3x1024x512_S1x512x256_0_0_0 k0_pay9 k0_pay8 (fun _ _ => rfl) (wL0 m c) _ (xlo_eq m c f2) w0

theorem made1_pieces (c : Dev nD) (f2 : XQ F c) : ∀ p ∈ made1L m c f2, ∀ x : p.1.shape.Idx, p.2 x = madeC m c (p.1.emb x) := by
  have w0 : k0_pay14 (wR0 m c) = colHalf (w16 m (rgt c)) 0 := (wR_eq (cR0 m c) []).trans (read_relayR0 m c)
  have w1 : k0_pay24 (wR1 m c) = colHalf (w16 m (rgt c)) 1 := (wR_eq (cR1 m c) [⟨Rect.whole S4096x256, cR0 m c⟩]).trans (read_relayR1 m c)
  intro p hp
  unfold made1L at hp
  simp only [List.mem_cons, List.not_mem_nil, or_false] at hp
  rcases hp with rfl | rfl | rfl | rfl
  · exact tile_named m c 1 _ rfl 1 1 512 256 rfl rfl inb_S3x1024x512_S1x512x256_1_512_256 (fun L X => k0_pay29 (k0_pay24 L) X) k0_pay24 (fun _ _ => rfl) (wR1 m c) _ (xhi_eq m c f2) w1
  · exact tile_named m c 1 _ rfl 0 1 0 256 rfl rfl inb_S3x1024x512_S1x512x256_1_0_256 (fun L X => k0_pay28 (k0_pay25 L X) (k0_pay26 L X) k0_pay27) k0_pay24 (fun _ _ => rfl) (wR1 m c) _ (xlo_eq m c f2) w1
  · exact tile_named m c 1 _ rfl 1 0 512 0 rfl rfl inb_S3x1024x512_S1x512x256_1_512_0 k0_pay16 k0_pay14 (fun _ _ => rfl) (wR0 m c) _ (xhi_eq m c f2) w0
  · exact tile_named m c 1 _ rfl 0 0 0 0 rfl rfl inb_S3x1024x512_S1x512x256_1_0_0 k0_pay15 k0_pay14 (fun _ _ => rfl) (wR0 m c) _ (xlo_eq m c f2) w0

theorem made2_pieces (c : Dev nD) (f2 : XQ F c) : ∀ p ∈ made2L m c f2, ∀ x : p.1.shape.Idx, p.2 x = madeC m c (p.1.emb x) := by
  intro p hp
  unfold made2L at hp
  simp only [List.mem_cons, List.not_mem_nil, or_false] at hp
  rcases hp with rfl | rfl | rfl | rfl
  · exact tile_named m c 2 _ rfl 1 1 512 256 rfl rfl inb_S3x1024x512_S1x512x256_2_512_256 k0_pay35 id (fun _ _ => rfl) (wF1 m c) _ (xhi_eq m c f2) (read_farH1 m c)
  · exact tile_named m c 2 _ rfl 0 1 0 256 rfl rfl inb_S3x1024x512_S1x512x256_2_0_256 (fun L X => k0_pay34 (k0_pay32 L X) (k0_pay33 L X) (FloatOps.ofBits FTy.f32 1027024659#32)) id (fun _ _ => rfl) (wF1 m c) _ (xlo_eq m c f2) (read_farH1 m c)
  · exact tile_named m c 2 _ rfl 1 0 512 0 rfl rfl inb_S3x1024x512_S1x512x256_2_512_0 k0_pay31 id (fun _ _ => rfl) (wF0 m c) _ (xhi_eq m c f2) (read_farH0 m c)
  · exact tile_named m c 2 _ rfl 0 0 0 0 rfl rfl inb_S3x1024x512_S1x512x256_2_0_0 k0_pay30 id (fun _ _ => rfl) (wF0 m c) _ (xlo_eq m c f2) (read_farH0 m c)

theorem slot0_pts (c : Dev nD) (f2 : XQ F c) (f5 : PB F c) (T : Buf (Elt F) (made0.view.loc (c : Thread nD τ))) (hT : T = Run0.M0_w2_1 m c f2 f5) :
    ((made0.view.loc (c : Thread nD τ) ↦[made0.view.set]{fullShare} T) : sProp 𝕄) = (made0.view.loc (c : Thread nD τ) ↦[made0.view.set]{fullShare} madeC m c) := by
  subst hT
  refine pointsTo_congr fun i hi => named_of_tiles m c f5 _ (made0_pieces m c f2) i ?_
  rw [Carve.made0_set] at hi
  exact tile_cover 0 inb_S3x1024x512_S1x512x256_0_0_0 inb_S3x1024x512_S1x512x256_0_512_0 inb_S3x1024x512_S1x512x256_0_0_256 inb_S3x1024x512_S1x512x256_0_512_256 _ _ _ _ i (Rect.mem_set_unit.mp hi)
theorem slot1_pts (c : Dev nD) (f2 : XQ F c) (f5 : PB F c) (T : Buf (Elt F) (made1.view.loc (c : Thread nD τ))) (hT : T = Run1.M1_w2_1 m c f2 f5) :
    ((made1.view.loc (c : Thread nD τ) ↦[made1.view.set]{fullShare} T) : sProp 𝕄) = (made1.view.loc (c : Thread nD τ) ↦[made1.view.set]{fullShare} madeC m c) := by
  subst hT
  refine pointsTo_congr fun i hi => named_of_tiles m c f5 _ (made1_pieces m c f2) i ?_
  rw [Carve.made1_set] at hi
  exact tile_cover 1 inb_S3x1024x512_S1x512x256_1_0_0 inb_S3x1024x512_S1x512x256_1_512_0 inb_S3x1024x512_S1x512x256_1_0_256 inb_S3x1024x512_S1x512x256_1_512_256 _ _ _ _ i (Rect.mem_set_unit.mp hi)
theorem slot2_pts (c : Dev nD) (f2 : XQ F c) (f5 : PB F c) (T : Buf (Elt F) (made2.view.loc (c : Thread nD τ))) (hT : T = Run2.M2_w2_1 m c f2 f5) :
    ((made2.view.loc (c : Thread nD τ) ↦[made2.view.set]{fullShare} T) : sProp 𝕄) = (made2.view.loc (c : Thread nD τ) ↦[made2.view.set]{fullShare} madeC m c) := by
  subst hT
  refine pointsTo_congr fun i hi => named_of_tiles m c f5 _ (made2_pieces m c f2) i ?_
  rw [Carve.made2_set] at hi
  exact tile_cover 2 inb_S3x1024x512_S1x512x256_2_0_0 inb_S3x1024x512_S1x512x256_2_512_0 inb_S3x1024x512_S1x512x256_2_0_256 inb_S3x1024x512_S1x512x256_2_512_256 _ _ _ _ i (Rect.mem_set_unit.mp hi)

end Cert.Kernel.P

end
-- ==== Proof.K.Out.lean ====
/- The result block: two tiles computed in place and the three received pieces widened; the five rectangles cover the 4096 x 512 block, so it is the named block whatever it held. -/
import proofs.«900495_g7700000000000496_dist_ag_gemm_m4096_k4096_n2048_f32_gelu_v7x_i4_1_alg».proof.Proof.K.Slot0

noncomputable section

namespace Cert.Kernel.P

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Idealize.ShloMosaic.ValueIdx Run0

namespace RunO

def wld (c : Dev nD) :=
  View.readAt (Elt F) (Memref.whole cc0_scratch0).view (Rect.unit (s := S4096x512) ![0, 0] S4096x512.size inb_S4096x512_S4096x512_0_0).toLoadRect (w16 m c)
def gld (c : Dev nD) (s : ℕ) (inb : ∀ k, (![s, 0, 0] : Fin 3 → ℕ) k + S1x1024x512.size k ≤ S3x1024x512.size k) :=
  View.readAt (Elt F) gotA.view (Rect.unit (s := S3x1024x512) ![s, 0, 0] S1x1024x512.size inb).toLoadRect (gotC m c)

def outL (c : Dev nD) (f2 : XQ F c) : List (View.Piece (Elt F) S4096x512 .f32) :=
  [⟨Rect.unit (s := S4096x512) (k0_off2 c 2#32) S1024x512.size (k0_off2_inb c 1), k0_pay38 (gld m c 2 inb_S3x1024x512_S1x1024x512_2_0_0)⟩,
   ⟨Rect.unit (s := S4096x512) (k0_off3 c) S1024x512.size (k0_off3_inb c), k0_pay37 (gld m c 1 inb_S3x1024x512_S1x1024x512_1_0_0)⟩,
   ⟨Rect.unit (s := S4096x512) (k0_off2 c 1#32) S1024x512.size (k0_off2_inb c 0), k0_pay36 (gld m c 0 inb_S3x1024x512_S1x1024x512_0_0_0)⟩,
   ⟨Rect.unit (s := S4096x512) (k0_off1 c 512#32) S512x512.size (k0_off1_inb c 1), k0_pay7 (xhi m c f2) (wld m c)⟩,
   ⟨Rect.unit (s := S4096x512) (k0_off1 c 0#32) S512x512.size (k0_off1_inb c 0), k0_pay6 (xlo m c f2) (wld m c)⟩]

def outFinal (c : Dev nD) (f2 : XQ F c) (g1 : Buf (Elt F) ((c : Thread nD τ).loc cc0_stg1_0)) : Buf (Elt F) ((c : Thread nD τ).loc cc0_stg1_0) :=
  (Memref.whole cc0_stg1_0).view.writes (Elt F) g1 (outL m c f2)

end RunO

open RunO

theorem out_off1a (c : Dev nD) : k0_off1 c 0#32 = ![1024 * c.val, 0] := k0_off1_eq c 0
theorem out_off1b (c : Dev nD) : k0_off1 c 512#32 = ![1024 * c.val + 512, 0] := k0_off1_eq c 1

theorem outC_own (c : Dev nD) (r : Fin 2) (i : S4096x512.Idx) (x : S512x512.Idx)
    (h0 : (i 0).val = 1024 * c.val + 512 * r.val + (x 0).val) (h1 : (i 1).val = (x 1).val) :
    outC m c i = tile512 (rowHalf (x16 m c) r) (w16 m c) x := by
  have b0 := idx2_lt0 x
  have br := r.isLt
  have hb : (i 0).val / 1024 = c.val := by omega
  have pT : (i 0).val % 1024 / 512 < 2 := by omega
  have eT : (⟨(i 0).val % 1024 / 512, pT⟩ : Fin 2) = r := Fin.ext (by show (i 0).val % 1024 / 512 = r.val; omega)
  have eI : ix2 (⟨(i 0).val % 1024 % 512, Nat.mod_lt _ (by decide)⟩ : Fin 512) (i 1) = x :=
    funext fun a => Fin.ext (match a with
      | ⟨0, _⟩ => by show (i 0).val % 1024 % 512 = (x 0).val; omega
      | ⟨1, _⟩ => h1)
  show (if (i 0).val / 1024 = c.val then
      tile512 (rowHalf (x16 m c) (⟨(i 0).val % 1024 / 512, pT⟩ : Fin 2)) (w16 m c)
        (ix2 (⟨(i 0).val % 1024 % 512, Nat.mod_lt _ (by decide)⟩ : Fin 512) (i 1))
    else _) = _
  rw [if_pos hb, eT]
  exact congrArg (tile512 (rowHalf (x16 m c) r) (w16 m c)) eI

theorem outC_other (c d : Dev nD) (s : Fin 3) (hd : d ≠ c)
    (hs : (if d.val = (rgt c).val then (0 : Fin 3) else if d.val = (lft c).val then 1 else 2) = s)
    (i : S4096x512.Idx) (x : S1024x512.Idx) (h0 : (i 0).val = 1024 * d.val + (x 0).val) (h1 : (i 1).val = (x 1).val) :
    outC m c i = (extf .f32 (gotC m c) bitsLt_bf16_f32) (ix3 s (x 0) (x 1)) := by
  have b0 := idx2_lt0 x
  have hb : (i 0).val / 1024 = d.val := by omega
  have hp : (i 0).val % 1024 = (x 0).val := by omega
  have eP : (⟨(i 0).val % 1024, Nat.mod_lt _ (by decide)⟩ : Fin 1024) = x 0 := Fin.ext hp
  have e1 : (i 1 : Fin 512) = (x 1 : Fin 512) := Fin.ext h1
  show (if (i 0).val / 1024 = c.val then _ else
      (extf .f32 (gotC m c) bitsLt_bf16_f32)
        (ix3 (if (i 0).val / 1024 = (rgt c).val then (0 : Fin 3) else if (i 0).val / 1024 = (lft c).val then 1 else 2)
          (⟨(i 0).val % 1024, Nat.mod_lt _ (by decide)⟩ : Fin 1024) (i 1))) = _
  rw [if_neg (by rw [hb]; exact fun h => hd (Fin.ext h)), hb, hs, eP, e1]

theorem w16_load (c : Dev nD) : wld m c = w16 m c := by
  unfold wld
  rw [View.readAt_eq_ld]
  exact View.ld_unit_zero (funext fun a => match a with | ⟨0, _⟩ => rfl | ⟨1, _⟩ => rfl) _ (w16 m c)

/-- A received piece widened, stored at the rows of the device it came from. -/
theorem got_piece (c d : Dev nD) (s : Fin 3) (hd : d ≠ c)
    (hs : (if d.val = (rgt c).val then (0 : Fin 3) else if d.val = (lft c).val then 1 else 2) = s)
    (off : Fin 2 → ℕ) (ho : off = ![1024 * d.val, 0]) (inb) (v : S1024x512.Idx → Elt F .f32)
    (hv : ∀ x, v x = (extf .f32 (gotC m c) bitsLt_bf16_f32) (ix3 s (x 0) (x 1)))
    (x : (Rect.unit (s := S4096x512) off S1024x512.size inb).shape.Idx) :
    v x = outC m c ((Rect.unit (s := S4096x512) off S1024x512.size inb).emb x) := by
  subst ho
  refine (hv x).trans (outC_other m c d s hd hs _ x ?_ ?_).symm
  · show 1024 * d.val + 1 * (x 0).val = _
    rw [Nat.one_mul]
  · show 0 + 1 * (x 1).val = _
    rw [Nat.one_mul, Nat.zero_add]

/-- A tile of this device's own rows. -/
theorem own_piece (c : Dev nD) (r : Fin 2) (off : Fin 2 → ℕ) (ho : off = ![1024 * c.val + 512 * r.val, 0]) (inb)
    (X : Vec F S512x4096 .bf16) (hX : X = rowHalf (x16 m c) r)
    (x : (Rect.unit (s := S4096x512) off S512x512.size inb).shape.Idx) :
    tile512 X (wld m c) x = outC m c ((Rect.unit (s := S4096x512) off S512x512.size inb).emb x) := by
  subst ho hX
  rw [w16_load]
  refine (outC_own m c r _ x ?_ ?_).symm
  · show 1024 * c.val + 512 * r.val + 1 * (x 0).val = _
    rw [Nat.one_mul]
  · show 0 + 1 * (x 1).val = _
    rw [Nat.one_mul, Nat.zero_add]

theorem out_slot (c : Dev nD) : (if (rgt c).val = (rgt c).val then (0 : Fin 3) else if (rgt c).val = (lft c).val then 1 else 2) = 0
    ∧ (if (lft c).val = (rgt c).val then (0 : Fin 3) else if (lft c).val = (lft c).val then 1 else 2) = 1
    ∧ (if (opp c).val = (rgt c).val then (0 : Fin 3) else if (opp c).val = (lft c).val then 1 else 2) = 2 := by
  revert c; decide

theorem out_dev_cases (c d : Dev nD) : d = c ∨ d = rgt c ∨ d = lft c ∨ d = opp c := by
  revert c d; decide

theorem out_pieces (c : Dev nD) (f2 : XQ F c) : ∀ p ∈ outL m c f2, ∀ x : p.1.shape.Idx, p.2 x = outC m c (p.1.emb x) := by
  intro p hp
  unfold outL at hp
  simp only [List.mem_cons, List.not_mem_nil, or_false] at hp
  rcases hp with rfl | rfl | rfl | rfl | rfl
  · exact got_piece m c (opp c) 2 (opp_ne c) (out_slot c).2.2 _ (off2_opp_eq c) (k0_off2_inb c 1) _
      fun x => congrArg (FloatOps.extf .f32 bitsLt_bf16_f32) (land_read_got2 (gotC m c) x)
  · exact got_piece m c (lft c) 1 (lft_ne c) (out_slot c).2.1 _ (off3_lft_eq c) (k0_off3_inb c) _
      fun x => congrArg (FloatOps.extf .f32 bitsLt_bf16_f32) (land_read_got1 (gotC m c) x)
  · exact got_piece m c (rgt c) 0 (rgt_ne c) (out_slot c).1 _ (off2_rgt_eq c) (k0_off2_inb c 0) _
      fun x => congrArg (FloatOps.extf .f32 bitsLt_bf16_f32) (land_read_got0 (gotC m c) x)
  · exact own_piece m c 1 _ (k0_off1_eq c 1) (k0_off1_inb c 1) _ (xhi_eq m c f2)
  · exact own_piece m c 0 _ (k0_off1_eq c 0) (k0_off1_inb c 0) _ (xlo_eq m c f2)

theorem out_cover (c : Dev nD) (f2 : XQ F c) (i : S4096x512.Idx) : ∃ p ∈ outL m c f2, i ∈ p.1.set := by
  have h0 := idx2_lt0 i
  have h1 := idx2_lt1 i
  have hm : ∀ (off : Fin 2 → ℕ) (o n : ℕ) (sz : Fin 2 → ℕ) (inb : ∀ k, off k + sz k ≤ S4096x512.size k), off = ![o, 0] → sz = ![n, 512] →
      o ≤ (i 0).val → (i 0).val < o + n → i ∈ (Rect.unit (s := S4096x512) off sz inb).set := fun off o n sz inb ho hn l u => by
    subst ho hn
    exact Rect.mem_set_unit.mpr (Fin.forall_fin_two.mpr ⟨⟨l, u⟩, ⟨Nat.zero_le _, by show (i 1).val < 0 + 512; omega⟩⟩)
  unfold outL
  have hbl : (i 0).val / 1024 < 4 := by omega
  obtain e | e | e | e := out_dev_cases c (⟨(i 0).val / 1024, hbl⟩ : Dev nD)
  all_goals have hb : (i 0).val / 1024 = _ := congrArg Fin.val e
  · by_cases r : (i 0).val % 1024 < 512
    · exact ⟨_, List.mem_cons_of_mem _ (List.mem_cons_of_mem _ (List.mem_cons_of_mem _ (List.mem_cons_of_mem _ List.mem_cons_self))),
        hm _ _ 512 _ (k0_off1_inb c 0) (out_off1a c) rfl (by omega) (by omega)⟩
    · exact ⟨_, List.mem_cons_of_mem _ (List.mem_cons_of_mem _ (List.mem_cons_of_mem _ List.mem_cons_self)),
        hm _ _ 512 _ (k0_off1_inb c 1) (out_off1b c) rfl (by omega) (by omega)⟩
  · exact ⟨_, List.mem_cons_of_mem _ (List.mem_cons_of_mem _ List.mem_cons_self), hm _ _ 1024 _ (k0_off2_inb c 0) (off2_rgt_eq c) rfl (by omega) (by omega)⟩
  · exact ⟨_, List.mem_cons_of_mem _ List.mem_cons_self, hm _ _ 1024 _ (k0_off3_inb c) (off3_lft_eq c) rfl (by omega) (by omega)⟩
  · exact ⟨_, List.mem_cons_self, hm _ _ 1024 _ (k0_off2_inb c 1) (off2_opp_eq c) rfl (by omega) (by omega)⟩

theorem out_named (c : Dev nD) (f2 : XQ F c) (g1 : Buf (Elt F) ((c : Thread nD τ).loc cc0_stg1_0)) : outFinal m c f2 g1 = outC m c := by
  funext i
  have hc := out_cover m c f2 i
  have hr := congrFun (View.read_whole (Val := Elt F) cc0_stg1_0 ((View.whole cc0_stg1_0).writes (Elt F) g1 (outL m c f2))) i
  show (View.whole cc0_stg1_0).writes (Elt F) g1 (outL m c f2) i = outC m c i
  rw [← hr, View.read_writes_apply_eq_canon (View.whole cc0_stg1_0) g1 i (outL m c f2) hc]
  exact View.canon_apply_of_pieces (outC m c) (outL m c f2) (out_pieces m c f2) i hc

theorem out_pts (c : Dev nD) (f2 : XQ F c) (g1 : Buf (Elt F) ((c : Thread nD τ).loc cc0_stg1_0))
    (T : Buf (Elt F) (oStg.view.loc (c : Thread nD τ))) (hT : T = outFinal m c f2 g1) :
    ((oStg.view.loc (c : Thread nD τ) ↦{fullShare} T) : sProp 𝕄) = (oStg.view.loc (c : Thread nD τ) ↦{fullShare} outC m c) := by
  subst hT
  rw [out_named]

end Cert.Kernel.P

end
-- ==== Proof.K.Body.lean ====
/- One device's body, from what the launch hands it to what it must leave: the entry exchange, nine transfers, the products, and the waits, each wait below everything still owed. -/
import proofs.«900495_g7700000000000496_dist_ag_gemm_m4096_k4096_n2048_f32_gelu_v7x_i4_1_alg».proof.Proof.K.Tables
import proofs.«900495_g7700000000000496_dist_ag_gemm_m4096_k4096_n2048_f32_gelu_v7x_i4_1_alg».proof.Proof.K.Landings
import proofs.«900495_g7700000000000496_dist_ag_gemm_m4096_k4096_n2048_f32_gelu_v7x_i4_1_alg».proof.Proof.K.Carve
import proofs.«900495_g7700000000000496_dist_ag_gemm_m4096_k4096_n2048_f32_gelu_v7x_i4_1_alg».proof.Proof.K.Forms
import proofs.«900495_g7700000000000496_dist_ag_gemm_m4096_k4096_n2048_f32_gelu_v7x_i4_1_alg».proof.Proof.K.Slot0
import proofs.«900495_g7700000000000496_dist_ag_gemm_m4096_k4096_n2048_f32_gelu_v7x_i4_1_alg».proof.Proof.K.Out
import proofs.«900495_g7700000000000496_dist_ag_gemm_m4096_k4096_n2048_f32_gelu_v7x_i4_1_alg».proof.Proof.Gen.Kernel.Skeleton

noncomputable section

namespace Cert.Kernel.P
open Idealize.ShloMosaic.Tactic

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem whole_eq (c : Dev nD) (b : Ref sig .tc) (q : PosShare TreeShare) (f : Buf (Elt F) ((c : Thread nD τ).loc b)) :
    ((((c : Thread nD τ).loc b) ↦{q} f) : sProp 𝕄) = (((Memref.whole b).view.loc (c : Thread nD τ)) ↦{q} f) := rfl
theorem barPay_to_lft (c : Dev nD) : barPay (F := F) (lft c) 0
    = iprop(someAt (F := F) c relayL0 ∗ someAt (F := F) c relayL1 ∗ someAt (F := F) c farH0 ∗ someAt (F := F) c got1) := by
  have h : ∀ p : Dev nD, rgt p = c → barPay (F := F) p 0
      = iprop(someAt (F := F) c relayL0 ∗ someAt (F := F) c relayL1 ∗ someAt (F := F) c farH0 ∗ someAt (F := F) c got1) := by
    intro p hp; subst hp; rfl
  exact h _ (rgt_lft c)
theorem barPay_to_rgt (c : Dev nD) : barPay (F := F) (rgt c) 1
    = iprop(someAt (F := F) c relayR0 ∗ someAt (F := F) c relayR1 ∗ someAt (F := F) c farH1 ∗ someAt (F := F) c got0) := by
  have h : ∀ p : Dev nD, lft p = c → barPay (F := F) p 1
      = iprop(someAt (F := F) c relayR0 ∗ someAt (F := F) c relayR1 ∗ someAt (F := F) c farH1 ∗ someAt (F := F) c got0) := by
    intro p hp; subst hp; rfl
  exact h _ (lft_rgt c)
theorem barPay_to_opp (c : Dev nD) : barPay (F := F) (opp c) 2 = someAt (F := F) c got2 := by
  have h : ∀ p : Dev nD, opp p = c → barPay (F := F) p 2 = someAt (F := F) c got2 := by
    intro p hp; subst hp; rfl
  exact h _ (opp_opp c)
def barFrom (p : Dev nD) (d : Fin 3) : sProp 𝕄 := match d with
  | 0 => iprop((∃ f : Buf (Elt F) (relayL0.view.loc (p : Thread nD τ)), (relayL0.view.loc (p : Thread nD τ) ↦[relayL0.view.set]{fullShare} f)) ∗ (∃ f : Buf (Elt F) (relayL1.view.loc (p : Thread nD τ)), (relayL1.view.loc (p : Thread nD τ) ↦[relayL1.view.set]{fullShare} f)) ∗ (∃ f : Buf (Elt F) (farH0.view.loc (p : Thread nD τ)), (farH0.view.loc (p : Thread nD τ) ↦[farH0.view.set]{fullShare} f)) ∗ (∃ f : Buf (Elt F) (got1.view.loc (p : Thread nD τ)), (got1.view.loc (p : Thread nD τ) ↦[got1.view.set]{fullShare} f)))
  | 1 => iprop((∃ f : Buf (Elt F) (relayR0.view.loc (p : Thread nD τ)), (relayR0.view.loc (p : Thread nD τ) ↦[relayR0.view.set]{fullShare} f)) ∗ (∃ f : Buf (Elt F) (relayR1.view.loc (p : Thread nD τ)), (relayR1.view.loc (p : Thread nD τ) ↦[relayR1.view.set]{fullShare} f)) ∗ (∃ f : Buf (Elt F) (farH1.view.loc (p : Thread nD τ)), (farH1.view.loc (p : Thread nD τ) ↦[farH1.view.set]{fullShare} f)) ∗ (∃ f : Buf (Elt F) (got0.view.loc (p : Thread nD τ)), (got0.view.loc (p : Thread nD τ) ↦[got0.view.set]{fullShare} f)))
  | 2 => iprop((∃ f : Buf (Elt F) (got2.view.loc (p : Thread nD τ)), (got2.view.loc (p : Thread nD τ) ↦[got2.view.set]{fullShare} f)))
theorem barPay_from0 (c : Dev nD) : barPay (F := F) c 0 = barFrom (F := F) (rgt c) 0 := rfl
theorem barPay_from1 (c : Dev nD) : barPay (F := F) c 1 = barFrom (F := F) (lft c) 1 := rfl
theorem barPay_from2 (c : Dev nD) : barPay (F := F) c 2 = barFrom (F := F) (opp c) 2 := rfl
theorem barFrom_0 (p : Dev nD) : barFrom (F := F) p 0
    = iprop((∃ f : Buf (Elt F) (relayL0.view.loc (p : Thread nD τ)), (relayL0.view.loc (p : Thread nD τ) ↦[relayL0.view.set]{fullShare} f)) ∗ (∃ f : Buf (Elt F) (relayL1.view.loc (p : Thread nD τ)), (relayL1.view.loc (p : Thread nD τ) ↦[relayL1.view.set]{fullShare} f)) ∗ (∃ f : Buf (Elt F) (farH0.view.loc (p : Thread nD τ)), (farH0.view.loc (p : Thread nD τ) ↦[farH0.view.set]{fullShare} f)) ∗ (∃ f : Buf (Elt F) (got1.view.loc (p : Thread nD τ)), (got1.view.loc (p : Thread nD τ) ↦[got1.view.set]{fullShare} f))) := rfl
theorem barFrom_1 (p : Dev nD) : barFrom (F := F) p 1
    = iprop((∃ f : Buf (Elt F) (relayR0.view.loc (p : Thread nD τ)), (relayR0.view.loc (p : Thread nD τ) ↦[relayR0.view.set]{fullShare} f)) ∗ (∃ f : Buf (Elt F) (relayR1.view.loc (p : Thread nD τ)), (relayR1.view.loc (p : Thread nD τ) ↦[relayR1.view.set]{fullShare} f)) ∗ (∃ f : Buf (Elt F) (farH1.view.loc (p : Thread nD τ)), (farH1.view.loc (p : Thread nD τ) ↦[farH1.view.set]{fullShare} f)) ∗ (∃ f : Buf (Elt F) (got0.view.loc (p : Thread nD τ)), (got0.view.loc (p : Thread nD τ) ↦[got0.view.set]{fullShare} f))) := rfl
theorem barFrom_2 (p : Dev nD) : barFrom (F := F) p 2 = iprop((∃ f : Buf (Elt F) (got2.view.loc (p : Thread nD τ)), (got2.view.loc (p : Thread nD τ) ↦[got2.view.set]{fullShare} f))) := rfl
theorem duties_bar_lit (c : Dev nD) : (sched (F := F) m).duties (barCell c) 0 = {0, 1, 2} := by
  rw [duties_bar]; decide
theorem recvPay_0 (c : Dev nD) : recvPay m c 0 = iprop((relayL0.view.loc (c : Thread nD τ) ↦[relayL0.view.set]{fullShare} relayC m c)) := rfl
theorem recvPay_1 (c : Dev nD) : recvPay m c 1 = iprop((relayL1.view.loc (c : Thread nD τ) ↦[relayL1.view.set]{fullShare} relayC m c)) := rfl
theorem recvPay_2 (c : Dev nD) : recvPay m c 2 = iprop((relayR0.view.loc (c : Thread nD τ) ↦[relayR0.view.set]{fullShare} relayC m c)) := rfl
theorem recvPay_3 (c : Dev nD) : recvPay m c 3 = iprop((relayR1.view.loc (c : Thread nD τ) ↦[relayR1.view.set]{fullShare} relayC m c)) := rfl
theorem recvPay_4 (c : Dev nD) : recvPay m c 4 = iprop((farH0.view.loc (c : Thread nD τ) ↦[farH0.view.set]{fullShare} farC m c)) := rfl
theorem recvPay_5 (c : Dev nD) : recvPay m c 5 = iprop((farH1.view.loc (c : Thread nD τ) ↦[farH1.view.set]{fullShare} farC m c)) := rfl
theorem recvPay_6 (c : Dev nD) : recvPay m c 6 = iprop((got0.view.loc (c : Thread nD τ) ↦[got0.view.set]{fullShare} gotC m c)) := rfl
theorem recvPay_7 (c : Dev nD) : recvPay m c 7 = iprop((got1.view.loc (c : Thread nD τ) ↦[got1.view.set]{fullShare} gotC m c)) := rfl
theorem recvPay_8 (c : Dev nD) : recvPay m c 8 = iprop((got2.view.loc (c : Thread nD τ) ↦[got2.view.set]{fullShare} gotC m c)) := rfl
theorem sendPay_0 (c : Dev nD) : sendPay m c 0 = iprop((w16H0.view.loc (c : Thread nD τ) ↦[w16H0.view.set]{fullShare.right.left} w16 m c)) := rfl
theorem sendPay_1 (c : Dev nD) : sendPay m c 1 = iprop((w16H1.view.loc (c : Thread nD τ) ↦[w16H1.view.set]{fullShare.right.left} w16 m c)) := rfl
theorem sendPay_2 (c : Dev nD) : sendPay m c 2 = iprop((w16H0.view.loc (c : Thread nD τ) ↦[w16H0.view.set]{fullShare.right.right} w16 m c)) := rfl
theorem sendPay_3 (c : Dev nD) : sendPay m c 3 = iprop((w16H1.view.loc (c : Thread nD τ) ↦[w16H1.view.set]{fullShare.right.right} w16 m c)) := rfl
theorem sendPay_4 (c : Dev nD) : sendPay m c 4 = iprop((relayL0.view.loc (c : Thread nD τ) ↦[relayL0.view.set]{fullShare.left} relayC m c)) := rfl
theorem sendPay_5 (c : Dev nD) : sendPay m c 5 = iprop((relayR1.view.loc (c : Thread nD τ) ↦[relayR1.view.set]{fullShare.left} relayC m c)) := rfl
theorem sendPay_6 (c : Dev nD) : sendPay m c 6 = iprop((made0.view.loc (c : Thread nD τ) ↦[made0.view.set]{fullShare} madeC m c)) := rfl
theorem sendPay_7 (c : Dev nD) : sendPay m c 7 = iprop((made1.view.loc (c : Thread nD τ) ↦[made1.view.set]{fullShare} madeC m c)) := rfl
theorem sendPay_8 (c : Dev nD) : sendPay m c 8 = iprop((made2.view.loc (c : Thread nD τ) ↦[made2.view.set]{fullShare} madeC m c)) := rfl

attribute [local sl_rounds] duties_bar_lit duties_send duties_recv amount_bar amount_send amount_recv
  payload_bar payload_send payload_recv barPay_from0 barPay_from1 barPay_from2 barFrom_0 barFrom_1 barFrom_2
  rgt_lft lft_rgt opp_opp recvPay_0 recvPay_1 recvPay_2 recvPay_3 recvPay_4 recvPay_5 recvPay_6 recvPay_7 recvPay_8 sendPay_0 sendPay_1 sendPay_2 sendPay_3 sendPay_4 sendPay_5 sendPay_6 sendPay_7 sendPay_8
attribute [local sl_canon] dev1_eq dev2_eq dev3_eq dev4_eq dev5_eq dev6_eq dev7_eq dev8_eq dev9_eq dev10_eq dev11_eq dev12_eq

abbrev ow8 (c : Dev nD) : CellTallies nD τ sig Unit := tallyAt (recvCell (opp c) 8) () (amt 8)
abbrev ow7 (c : Dev nD) : CellTallies nD τ sig Unit := ow8 c + tallyAt (recvCell (rgt c) 7) () (amt 7)
abbrev ow6 (c : Dev nD) : CellTallies nD τ sig Unit := ow7 c + tallyAt (recvCell (lft c) 6) () (amt 6)
abbrev ow5 (c : Dev nD) : CellTallies nD τ sig Unit := ow6 c + tallyAt (recvCell (lft c) 5) () (amt 5)
abbrev ow4 (c : Dev nD) : CellTallies nD τ sig Unit := ow5 c + tallyAt (recvCell (rgt c) 4) () (amt 4)
abbrev ow3 (c : Dev nD) : CellTallies nD τ sig Unit := ow4 c + tallyAt (recvCell (lft c) 3) () (amt 3)
abbrev ow1 (c : Dev nD) : CellTallies nD τ sig Unit := ow3 c + tallyAt (recvCell (rgt c) 1) () (amt 1)
abbrev ow2 (c : Dev nD) : CellTallies nD τ sig Unit := ow1 c + tallyAt (recvCell (lft c) 2) () (amt 2)
def Hid (P : sProp 𝕄) : sProp 𝕄 := P
theorem hid_in (P : sProp 𝕄) : P ⊢ Hid (F := F) P := BI.Entails.refl _
theorem hid_out (P : sProp 𝕄) : Hid (F := F) P ⊢ P := BI.Entails.refl _

theorem wp_xfer {sp sp' : Space} {s : Shape} {e : EltTy} (c n T : Dev nD) (hn : n = T) (k : Fin 9)
    (src : Memref sig .tc sp s e) (dst : Memref sig .tc sp' s e) (q : PosShare TreeShare) {κ₁ κ₂ : ℕ}
    {hsc : (dst : Memref sig (Dev.tc n : Thread nD τ).2.kind sp' s e).view.ref.isScScratch = false}
    {hsrc : src.view.WordExact} {hdst : dst.view.WordExact}
    {hsem : DmaTarget.Typed sp (.dma (recvSem k)) (.remote (Dev.tc n : Thread nD τ) dst (.dma (sendSem k)) hsc)}
    {α : Type} {Q : α → sProp 𝕄} {kk : PUnit → Prog (TpuEff nD τ sig (Elt F) Λ₀ .tc) α}
    (fs : Buf (Elt F) (src.view.loc (c : Thread nD τ))) (fd : Buf (Elt F) (dst.view.loc (T : Thread nD τ)))
    (hN : dst.view.amount (.dma (recvSem k)) = amt k)
    (O O' : CellTallies nD τ sig Unit) (hO : O = O' + tallyAt (recvCell T k) () (amt k)) (W : Waits sig Unit)
    (hpay₁ : ((src.view.loc (c : Thread nD τ) ↦[src.view.set]{q} fs) : sProp 𝕄) ⊢ sendPay m c k)
    (hpay₂ : ((dst.view.loc (T : Thread nD τ) ↦[dst.view.set]{fullShare} (dst.view.write (Elt F) fd (src.view.read (Elt F) fs) Finset.univ)) : sProp 𝕄)
      ⊢ recvPay m T k) :
    iprop(cellInv ER (sched m) κ₁ (sendCell c k) ∗ cellInv ER (sched m) κ₂ (recvCell T k)
        ∗ (src.view.loc (c : Thread nD τ) ↦[src.view.set]{q} fs) ∗ (dst.view.loc (T : Thread nD τ) ↦[dst.view.set]{fullShare} fd)
        ∗ owes (c : Thread nD τ) O W
        ∗ dutyTok ER (sendCell c k) 0 (0 : Fin 3) ∗ reached ER (sendCell c k) 0
        ∗ dutyTok ER (recvCell T k) 0 (0 : Fin 3) ∗ reached ER (recvCell T k) 0)
      ⊢ iprop(((cred (tallyAt (sendCell c k) () (amt k)) ∗ owes (c : Thread nD τ) O' W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma (sendSem k)) hsc) (.dma (recvSem k)) hsrc hdst hsem) kk) Q) := by
  subst hn
  exact Rounds.wp_send_pointsTo 𝒱₀ ER (sched m) (c : Thread nD τ) none (κ₁ := κ₁) (κ₂ := κ₂)
    (r₁ := 0) (r₂ := 0) (d₁ := (0 : Fin 3)) (d₂ := (0 : Fin 3)) (fd := fd)
    (by rw [duties_send]; exact Finset.mem_singleton_self _) (by rw [duties_recv]; exact Finset.mem_singleton_self _)
    () () (amt k) hN (amount_send m c k 0) (amount_recv m n k 0) O' hO (W := W)
    (by rw [payload_send]; exact hpay₁) (by rw [payload_recv]; exact hpay₂)

theorem restR (c : Dev nD) (k : Fin 9) :
    bigSep ((sched (F := F) m).duties (recvCell c k) 0) (fun d => (sched (F := F) m).payload (recvCell c k) 0 d) = recvPay m c k := by
  rw [duties_recv, bigSep_singleton, payload_recv]

set_option maxHeartbeats 4000000 in
theorem sound_body (c : Dev nD) (Kt : PUnit → sProp 𝕄) :
    iprop(bodyPre m c ∗ (bodyPost m c -∗ Kt ⟨⟩))
      ⊢ wp frame (wpE (defs₀ (F := F)) 𝒱₀ c none) Set.univ (cc0_body xA (Memref.isWhole_whole _) wStg (Memref.isWhole_whole _) oStg (Memref.isWhole_whole _) relayA (Memref.isWhole_whole _) w16A (Memref.isWhole_whole _) x16A (Memref.isWhole_whole _) xq (Memref.isWhole_whole _) farA (Memref.isWhole_whole _) landA (Memref.isWhole_whole _) madeA (Memref.isWhole_whole _) gotA (Memref.isWhole_whole _) cc0_scratch7 cc0_scratch8 cc0_scratch9) Kt := by
  unfold bodyPre Φ₀ start ghost invs poss reacheds payToks creds copy0 scratch xPts relayPts
  iintro ⟨⟨⟨⟨⟨%K, ⟨#IB, #IS0, #IS1, #IS2, #IS3, #IS4, #IS5, #IS6, #IS7, #IS8, #IR0, #IR1, #IR2, #IR3, #IR4, #IR5, #IR6, #IR7, #IR8, #IbL, #IbR, #IbO, #IT0, #IT1, #IT2, #IT3, #IT4, #IT5, #IT6, #IT7, #IT8⟩, ⟨AtB, AtS0, AtS1, AtS2, AtS3, AtS4, AtS5, AtS6, AtS7, AtS8, AtR0, AtR1, AtR2, AtR3, AtR4, AtR5, AtR6, AtR7, AtR8⟩, ⟨#RB, #RbL, #RbR, #RbO, #RS0, #RS1, #RS2, #RS3, #RS4, #RS5, #RS6, #RS7, #RS8, #RR0, #RR1, #RR2, #RR3, #RR4, #RR5, #RR6, #RR7, #RR8, #RT0, #RT1, #RT2, #RT3, #RT4, #RT5, #RT6, #RT7, #RT8⟩, ⟨TbL, TbR, TbO, TT0, TT1, TT2, TT3, TT4, TT5, TT6, TT7, TT8, TS0, TS1, TS2, TS3, TS4, TS5, TS6, TS7, TS8⟩⟩, ⟨CB, CR0, CR1, CR2, CR3, CR4, CR5, CR6, CR7, CR8⟩, ⟨Z0, Z1, Z2⟩, #Hlev⟩, Hx, ⟨%fr, Hrelay⟩, ⟨⟨%f0, H0⟩, ⟨%f1, H1⟩, ⟨%f2, H2⟩, ⟨%f3, H3⟩, ⟨%f4, H4⟩, ⟨%f5, H5⟩, ⟨%f6, H6⟩⟩⟩, Ho, ⟨%d0, %g0, %hg0, Hw⟩, ⟨%d1, %g1, %hg1, Hout⟩⟩, Hk⟩
  unfold Dat.owesAt Pipeline.owesWithin
  icases Ho with ⟨%W, %hW, HO⟩
  have hw0 : g0 = wStgC m c := by rw [hg0]; unfold Dat.before; rw [if_pos (fetch0_0 t₀)]; rfl
  subst hw0
  rw [show (dats m 0 c).owed t₀.castSucc = O₀ c from rfl]
  unfold O₀
  ihave Hq := (relay_carve (F := F) c fr) $$ Hrelay
  icases Hq with ⟨QL0, QL1, QR0, QR1⟩
  ihave Hf := (far_split (F := F) c f3).1 $$ H3
  icases Hf with ⟨FH0, FH1⟩
  ihave Hg := (got_split (F := F) c f6).1 $$ H6
  icases Hg with ⟨G0, G1, G2⟩
  ihave Vx := (Entails.of_eq (whole_eq (F := F) c main_arg0 fullShare _)) $$ Hx
  ihave V0 := (Entails.of_eq (whole_eq (F := F) c cc0_scratch0 fullShare _)) $$ H0
  ihave V1 := (Entails.of_eq (whole_eq (F := F) c cc0_scratch1 fullShare _)) $$ H1
  ihave V2 := (Entails.of_eq (whole_eq (F := F) c cc0_scratch2 fullShare _)) $$ H2
  ihave Vw := (Entails.of_eq (whole_eq (F := F) c cc0_stg0_0 fullShare _)) $$ Hw
  ihave Vout := (Entails.of_eq (whole_eq (F := F) c cc0_stg1_0 fullShare _)) $$ Hout
  sl_exec_parts
  conv => rhs; simp only [semSignalWord, semWaitWord, Prog.lift, Prog.bind_op, Prog.bind_ret, Prog.pure_eq_ret]
  iapply (Rounds.wp_signal 𝒱₀ ER (sched m) (c : Thread nD τ) none (dst := (lft c : Thread nD τ)) (κ := K (lft c, 0))
      (d := (0 : Fin 3)) (by rw [duties_bar]; exact Finset.mem_univ _) ((amount_bar m (lft c) 0).trans (by decide)) ()
      (owedX c + tallyAt (barCell (opp c)) () 1 + tallyAt (barCell (rgt c)) () 1) rfl) $$ [HO TbL QL0 QL1 FH0 G1]
  · isplitr; · iexact IbL
    isplitl [HO]; · iexact HO
    isplitl [TbL]; · iexact TbL
    isplitl [QL0 QL1 FH0 G1]
    · rw [payload_bar, barPay_to_lft]; unfold someAt
      isplitl [QL0]; · iexists fr; iexact QL0
      isplitl [QL1]; · iexists fr; iexact QL1
      isplitl [FH0]; · iexists f3; iexact FH0
      iexists f6; iexact G1
    · iexact RbL
  iintro HO
  rw [wp_ret]; imodintro
  iapply (Rounds.wp_signal 𝒱₀ ER (sched m) (c : Thread nD τ) none (dst := (rgt c : Thread nD τ)) (κ := K (rgt c, 0))
      (d := (1 : Fin 3)) (by rw [duties_bar]; exact Finset.mem_univ _) ((amount_bar m (rgt c) 1).trans (by decide)) ()
      (owedX c + tallyAt (barCell (opp c)) () 1) rfl) $$ [HO TbR QR0 QR1 FH1 G0]
  · isplitr; · iexact IbR
    isplitl [HO]; · iexact HO
    isplitl [TbR]; · iexact TbR
    isplitl [QR0 QR1 FH1 G0]
    · rw [payload_bar, barPay_to_rgt]; unfold someAt
      isplitl [QR0]; · iexists fr; iexact QR0
      isplitl [QR1]; · iexists fr; iexact QR1
      isplitl [FH1]; · iexists f3; iexact FH1
      iexists f6; iexact G0
    · iexact RbR
  iintro HO
  iapply (Rounds.wp_signal 𝒱₀ ER (sched m) (c : Thread nD τ) none (dst := (opp c : Thread nD τ)) (κ := K (opp c, 0))
      (d := (2 : Fin 3)) (by rw [duties_bar]; exact Finset.mem_univ _) ((amount_bar m (opp c) 2).trans (by decide)) ()
      (owedX c) rfl) $$ [HO TbO G2]
  · isplitr; · iexact IbO
    isplitl [HO]; · iexact HO
    isplitl [TbO]; · iexact TbO
    isplitl [G2]
    · rw [payload_bar, barPay_to_opp]; unfold someAt

      iexists f6; iexact G2
    · iexact RbO
  iintro HO
  iapply (Rounds.wp_wait_rest_token 𝒱₀ ER (sched m) (c : Thread nD τ) none (κ := K (c, 0))
      (wpE_semWait_eq 𝒱₀ (c : Thread nD τ) none Set.univ) (Set.mem_univ _) () (O := owedX c) (W := W) (R := 0) (m := 0) (T := ∅)
      (by rw [expect_bar]; decide)) $$ [CB HO AtB]
  · isplitr; · iexact IB
    isplitl [CB]; · iexact CB
    isplitl [HO]; · iexact HO
    isplitr; · iapply (mayWait_of_above (F := F) c (.reg barS) 1 (lv_bar c) (owedX c) (above_owedX c)); iexact Hlev
    iexact AtB
  iintro ⟨HO, AtB, -, Hpay⟩
  ihave Hp := (Entails.of_eq (rest_bar m c)) $$ Hpay
  unfold barPay someAt
  icases Hp with ⟨⟨⟨%a0, PL0⟩, ⟨%a1, PL1⟩, ⟨%a2, PF0⟩, ⟨%a3, PG1⟩⟩, ⟨⟨%b0, PR0⟩, ⟨%b1, PR1⟩, ⟨%b2, PF1⟩, ⟨%b3, PG0⟩⟩, ⟨%e0, PG2⟩⟩
  ihave Hm := (made_split (F := F) c f5).1 $$ H5
  icases Hm with ⟨M0, M1, M2⟩
  unfold holdsAt
  ihave Hl := (land_split (F := F) c f4).1 $$ H4
  icases Hl with ⟨LD0, LD1⟩
  unfold holdsAt
  ihave V0 := (Entails.of_eq (whole_eq (F := F) c cc0_scratch0 fullShare _).symm) $$ V0
  rw [form_w16 m c f0]
  ihave Hs := (w16_split (F := F) c (w16 m c)).1 $$ V0
  icases Hs with ⟨Wl, Wa0, Wb0, Wa1, Wb1⟩
  unfold holdsAt
  ihave Wl := (Entails.of_eq (whole_eq (F := F) c cc0_scratch0 fullShare.left _)) $$ Wl
  iapply (wp_xfer (F := F) m c _ (rgt c) (dev4_eq c) 0 w16H0 relayL0 fullShare.right.left (κ₁ := K (c, jS 0)) (κ₂ := K (rgt c, jR 0))
      (w16 m c) a0 rfl (owedX c) (ow2 c) (by unfold owedX ow2 ow1 ow3 ow4 ow5 ow6 ow7 ow8; ac_rfl) _
      (by rw [sendPay_0]) (land0 m c a0)) $$ [Wa0 PL0 HO TS0 TT0]
  · iframe # ∗
  iintro ⟨CS0, HO⟩
  rw [wp_ret]; imodintro
  sl_unfold [k0_part3]
  conv => rhs; simp only [Prog.lift, Prog.bind_op, Prog.bind_ret, Prog.pure_eq_ret]
  iapply (wp_xfer (F := F) m c _ (lft c) (dev5_eq c) 2 w16H0 relayR0 fullShare.right.right (κ₁ := K (c, jS 2)) (κ₂ := K (lft c, jR 2))
      (w16 m c) b0 rfl (ow2 c) (ow1 c) (rfl) _
      (by rw [sendPay_2]) (land2 m c b0)) $$ [Wb0 PR0 HO TS2 TT2]
  · iframe # ∗
  iintro ⟨CS2, HO⟩
  iapply (wp_xfer (F := F) m c _ (rgt c) (dev6_eq c) 1 w16H1 relayL1 fullShare.right.left (κ₁ := K (c, jS 1)) (κ₂ := K (rgt c, jR 1))
      (w16 m c) a1 rfl (ow1 c) (ow3 c) (rfl) _
      (by rw [sendPay_1]) (land1 m c a1)) $$ [Wa1 PL1 HO TS1 TT1]
  · iframe # ∗
  iintro ⟨CS1, HO⟩
  iapply (wp_xfer (F := F) m c _ (lft c) (dev7_eq c) 3 w16H1 relayR1 fullShare.right.right (κ₁ := K (c, jS 3)) (κ₂ := K (lft c, jR 3))
      (w16 m c) b1 rfl (ow3 c) (ow4 c) (rfl) _
      (by rw [sendPay_3]) (land3 m c b1)) $$ [Wb1 PR1 HO TS3 TT3]
  · iframe # ∗
  iintro ⟨CS3, HO⟩
  have hLed : ∀ (q : DmaSem sig) (O : CellTallies nD τ sig Unit), xferIdx (.dma q : SemLoc sig) = none → AboveLv 0 O →
      ((levAts L lv : sProp 𝕄) ⊢ MayWait (c : Thread nD τ) (.dma q) () O) :=
    fun q O hq hO => mayWait_of_above (F := F) c (.dma q) 0 (lv_other c q hq) O hO
  have hA4 : AboveLv 0 (ow4 c) := above_add (above_add (above_add (above_add (above_recv (opp c) 8 0 (by decide) _) (above_recv (rgt c) 7 0 (by decide) _)) (above_recv (lft c) 6 0 (by decide) _)) (above_recv (lft c) 5 0 (by decide) _)) (above_recv (rgt c) 4 0 (by decide) _)
  have hA5 : AboveLv 0 (ow5 c) := above_add (above_add (above_add (above_recv (opp c) 8 0 (by decide) _) (above_recv (rgt c) 7 0 (by decide) _)) (above_recv (lft c) 6 0 (by decide) _)) (above_recv (lft c) 5 0 (by decide) _)
  have hA6 : AboveLv 0 (ow6 c) := above_add (above_add (above_recv (opp c) 8 0 (by decide) _) (above_recv (rgt c) 7 0 (by decide) _)) (above_recv (lft c) 6 0 (by decide) _)
  have hA7 : AboveLv 0 (ow7 c) := above_add (above_recv (opp c) 8 0 (by decide) _) (above_recv (rgt c) 7 0 (by decide) _)
  have hA8 : AboveLv 0 (ow8 c) := above_recv (opp c) 8 0 (by decide) _
  have hMW0 : ((levAts L lv : sProp 𝕄) ⊢ MayWait (c : Thread nD τ) (recvCell c 0).2 () (ow4 c)) :=
    mayWait_of_above (F := F) c (recvCell c 0).2 2 ((lv_recv c 0).trans rfl) _ (above_add (above_add (above_add (above_add (above_recv (opp c) 8 2 (by decide) _) (above_recv (rgt c) 7 2 (by decide) _)) (above_recv (lft c) 6 2 (by decide) _)) (above_recv (lft c) 5 2 (by decide) _)) (above_recv (rgt c) 4 2 (by decide) _))
  have hMW2 : ((levAts L lv : sProp 𝕄) ⊢ MayWait (c : Thread nD τ) (recvCell c 2).2 () (ow5 c)) :=
    mayWait_of_above (F := F) c (recvCell c 2).2 2 ((lv_recv c 2).trans rfl) _ (above_add (above_add (above_add (above_recv (opp c) 8 2 (by decide) _) (above_recv (rgt c) 7 2 (by decide) _)) (above_recv (lft c) 6 2 (by decide) _)) (above_recv (lft c) 5 2 (by decide) _))
  have hMW1 : ((levAts L lv : sProp 𝕄) ⊢ MayWait (c : Thread nD τ) (recvCell c 1).2 () (ow5 c)) :=
    mayWait_of_above (F := F) c (recvCell c 1).2 2 ((lv_recv c 1).trans rfl) _ (above_add (above_add (above_add (above_recv (opp c) 8 2 (by decide) _) (above_recv (rgt c) 7 2 (by decide) _)) (above_recv (lft c) 6 2 (by decide) _)) (above_recv (lft c) 5 2 (by decide) _))
  have hMW3 : ((levAts L lv : sProp 𝕄) ⊢ MayWait (c : Thread nD τ) (recvCell c 3).2 () (ow5 c)) :=
    mayWait_of_above (F := F) c (recvCell c 3).2 2 ((lv_recv c 3).trans rfl) _ (above_add (above_add (above_add (above_recv (opp c) 8 2 (by decide) _) (above_recv (rgt c) 7 2 (by decide) _)) (above_recv (lft c) 6 2 (by decide) _)) (above_recv (lft c) 5 2 (by decide) _))
  have hMW4 : ((levAts L lv : sProp 𝕄) ⊢ MayWait (c : Thread nD τ) (recvCell c 4).2 () (ow8 c)) :=
    mayWait_of_above (F := F) c (recvCell c 4).2 3 ((lv_recv c 4).trans rfl) _ (above_recv (opp c) 8 3 (by decide) _)
  have hMW5 : ((levAts L lv : sProp 𝕄) ⊢ MayWait (c : Thread nD τ) (recvCell c 5).2 () (ow8 c)) :=
    mayWait_of_above (F := F) c (recvCell c 5).2 3 ((lv_recv c 5).trans rfl) _ (above_recv (opp c) 8 3 (by decide) _)
  ihave Y0 := (show ((semVal (copyCell c 0) 0) : sProp 𝕄) ⊢ semVal (((c : Thread nD τ)), SemLoc.dma (cS0 : DmaSems sig S_).sem) 0 from BI.Entails.refl _) $$ Z0
  ihave Y1 := (show ((semVal (copyCell c 1) 0) : sProp 𝕄) ⊢ semVal (((c : Thread nD τ)), SemLoc.dma (cS1 : DmaSems sig S_).sem) 0 from BI.Entails.refl _) $$ Z1
  ihave Y2 := (show ((semVal (copyCell c 2) 0) : sProp 𝕄) ⊢ semVal (((c : Thread nD τ)), SemLoc.dma (cS2 : DmaSems sig S_).sem) 0 from BI.Entails.refl _) $$ Z2
  ihave CR4h := (hid_in (F := F) (cred (tallyAt (recvCell c 4) () (amt 4)))) $$ CR4
  ihave CR5h := (hid_in (F := F) (cred (tallyAt (recvCell c 5) () (amt 5)))) $$ CR5
  ihave CR6h := (hid_in (F := F) (cred (tallyAt (recvCell c 6) () (amt 6)))) $$ CR6
  ihave CR7h := (hid_in (F := F) (cred (tallyAt (recvCell c 7) () (amt 7)))) $$ CR7
  ihave CR8h := (hid_in (F := F) (cred (tallyAt (recvCell c 8) () (amt 8)))) $$ CR8
  ihave CS0h := (hid_in (F := F) (cred (tallyAt (sendCell c 0) () (amt 0)))) $$ CS0
  ihave CS2h := (hid_in (F := F) (cred (tallyAt (sendCell c 2) () (amt 2)))) $$ CS2
  ihave CS1h := (hid_in (F := F) (cred (tallyAt (sendCell c 1) () (amt 1)))) $$ CS1
  ihave CS3h := (hid_in (F := F) (cred (tallyAt (sendCell c 3) () (amt 3)))) $$ CS3
  sl_exec_parts
  ihave L0 := (Entails.of_eq ((restR m c 0).trans (recvPay_0 m c))) $$ AtR0_pay1
  ihave Hh := (holds_halve (F := F) c relayL0 fullShare (relayC m c)).1 $$ L0
  icases Hh with ⟨L0a, L0b⟩
  unfold holdsAt
  iapply (wp_xfer (F := F) m c _ (rgt c) (dev8_eq c) 4 relayL0 farH0 fullShare.left (κ₁ := K (c, jS 4)) (κ₂ := K (rgt c, jR 4))
      (relayC m c) a2 rfl (ow4 c) (ow5 c) (rfl) _
      (by rw [sendPay_4]) (land4 m c a2)) $$ [L0a PF0 HO TS4 TT4]
  · iframe # ∗
  iintro ⟨CS4, HO⟩
  ihave CS4h := (hid_in (F := F) (cred (tallyAt (sendCell c 4) () (amt 4)))) $$ CS4
  sl_exec_parts
  ihave R0 := (Entails.of_eq ((restR m c 2).trans (recvPay_2 m c))) $$ AtR2_pay1
  sl_exec_parts
  ihave L1 := (Entails.of_eq ((restR m c 1).trans (recvPay_1 m c))) $$ AtR1_pay1
  sl_exec_parts
  ihave R1 := (Entails.of_eq ((restR m c 3).trans (recvPay_3 m c))) $$ AtR3_pay1
  ihave Hh := (holds_halve (F := F) c relayR1 fullShare (relayC m c)).1 $$ R1
  icases Hh with ⟨R1a, R1b⟩
  unfold holdsAt
  iapply (wp_xfer (F := F) m c _ (lft c) (dev9_eq c) 5 relayR1 farH1 fullShare.left (κ₁ := K (c, jS 5)) (κ₂ := K (lft c, jR 5))
      (relayC m c) b2 rfl (ow5 c) (ow6 c) (rfl) _
      (by rw [sendPay_5]) (land5 m c b2)) $$ [R1a PF1 HO TS5 TT5]
  · iframe # ∗
  iintro ⟨CS5, HO⟩
  ihave CS5h := (hid_in (F := F) (cred (tallyAt (sendCell c 5) () (amt 5)))) $$ CS5
  sl_exec_parts
  ihave M0 := (Entails.of_eq (slot0_pts m c f2 f5 (sound_body.sl.M0_w2_1 m c f2 f5) rfl)) $$ M0
  iapply (wp_xfer (F := F) m c _ (lft c) (dev10_eq c) 6 made0 got0 fullShare (κ₁ := K (c, jS 6)) (κ₂ := K (lft c, jR 6))
      (madeC m c) b3 rfl (ow6 c) (ow7 c) (rfl) _
      (by rw [sendPay_6]) (land6 m c b3)) $$ [M0 PG0 HO TS6 TT6]
  · iframe # ∗
  iintro ⟨CS6, HO⟩
  ihave CS6h := (hid_in (F := F) (cred (tallyAt (sendCell c 6) () (amt 6)))) $$ CS6
  sl_exec_parts
  ihave M1 := (Entails.of_eq (slot1_pts m c f2 f5 (sound_body.sl.M1_w2_1 m c f2 f5) rfl)) $$ M1
  iapply (wp_xfer (F := F) m c _ (rgt c) (dev11_eq c) 7 made1 got1 fullShare (κ₁ := K (c, jS 7)) (κ₂ := K (rgt c, jR 7))
      (madeC m c) a3 rfl (ow7 c) (ow8 c) (rfl) _
      (by rw [sendPay_7]) (land7 m c a3)) $$ [M1 PG1 HO TS7 TT7]
  · iframe # ∗
  iintro ⟨CS7, HO⟩
  ihave CS7h := (hid_in (F := F) (cred (tallyAt (sendCell c 7) () (amt 7)))) $$ CS7
  (try conv => rhs; simp only [Prog.lift, Prog.bind_op, Prog.bind_ret, Prog.pure_eq_ret])
  ihave CR4 := (hid_out (F := F) (cred (tallyAt (recvCell c 4) () (amt 4)))) $$ CR4h
  iapply (Rounds.wp_wait_rest_token 𝒱₀ ER (sched m) (c : Thread nD τ) none (κ := K (c, jR 4))
      (wpE_waitDma2_eq 𝒱₀ (c : Thread nD τ) none Set.univ) (Set.mem_univ _) () (O := ow8 c) (R := 0) (m := 0) (T := ∅)
      (by rw [Nat.zero_add]; exact (expect_recv m c 4).symm)) $$ [CR4 HO AtR4]
  · isplitr; · iexact IR4
    isplitl [CR4]; · iexact CR4
    isplitl [HO]; · iexact HO
    isplitr; · iapply hMW4; iexact Hlev
    iexact AtR4
  iintro ⟨HO, AtR4, -, Hpay⟩
  ihave F0 := (Entails.of_eq ((rest_recv m c 4).trans (recvPay_4 m c))) $$ Hpay
  sl_exec_parts
  ihave CR5 := (hid_out (F := F) (cred (tallyAt (recvCell c 5) () (amt 5)))) $$ CR5h
  iapply (Rounds.wp_wait_rest_token 𝒱₀ ER (sched m) (c : Thread nD τ) none (κ := K (c, jR 5))
      (wpE_waitDma2_eq 𝒱₀ (c : Thread nD τ) none Set.univ) (Set.mem_univ _) () (O := ow8 c) (R := 0) (m := 0) (T := ∅)
      (by rw [Nat.zero_add]; exact (expect_recv m c 5).symm)) $$ [CR5 HO AtR5]
  · isplitr; · iexact IR5
    isplitl [CR5]; · iexact CR5
    isplitl [HO]; · iexact HO
    isplitr; · iapply hMW5; iexact Hlev
    iexact AtR5
  iintro ⟨HO, AtR5, -, Hpay⟩
  ihave F1 := (Entails.of_eq ((rest_recv m c 5).trans (recvPay_5 m c))) $$ Hpay
  sl_exec_parts
  ihave M2 := (Entails.of_eq (slot2_pts m c f2 f5 (sound_body.sl.M2_w2_1 m c f2 f5) rfl)) $$ M2
  iapply (wp_xfer (F := F) m c _ (opp c) (dev12_eq c) 8 made2 got2 fullShare (κ₁ := K (c, jS 8)) (κ₂ := K (opp c, jR 8))
      (madeC m c) e0 rfl (ow8 c) (0) ((zero_add _).symm) _
      (by rw [sendPay_8]) (land8 m c e0)) $$ [M2 PG2 HO TS8 TT8]
  · iframe # ∗
  iintro ⟨CS8, HO⟩
  ihave CS8h := (hid_in (F := F) (cred (tallyAt (sendCell c 8) () (amt 8)))) $$ CS8
  (try conv => rhs; simp only [Prog.lift, Prog.bind_op, Prog.bind_ret, Prog.pure_eq_ret])
  ihave CR6 := (hid_out (F := F) (cred (tallyAt (recvCell c 6) () (amt 6)))) $$ CR6h
  iapply (Rounds.wp_wait_rest_token 𝒱₀ ER (sched m) (c : Thread nD τ) none (κ := K (c, jR 6))
      (wpE_waitDma2_eq 𝒱₀ (c : Thread nD τ) none Set.univ) (Set.mem_univ _) () (O := 0) (R := 0) (m := 0) (T := ∅)
      (by rw [Nat.zero_add]; exact (expect_recv m c 6).symm)) $$ [CR6 HO AtR6]
  · isplitr; · iexact IR6
    isplitl [CR6]; · iexact CR6
    isplitl [HO]; · iexact HO
    isplitr; · rw [MayWait_zero]; iempintro
    iexact AtR6
  iintro ⟨HO, AtR6, -, Hpay⟩
  ihave G0' := (Entails.of_eq ((rest_recv m c 6).trans (recvPay_6 m c))) $$ Hpay
  sl_exec_parts
  ihave CR7 := (hid_out (F := F) (cred (tallyAt (recvCell c 7) () (amt 7)))) $$ CR7h
  iapply (Rounds.wp_wait_rest_token 𝒱₀ ER (sched m) (c : Thread nD τ) none (κ := K (c, jR 7))
      (wpE_waitDma2_eq 𝒱₀ (c : Thread nD τ) none Set.univ) (Set.mem_univ _) () (O := 0) (R := 0) (m := 0) (T := ∅)
      (by rw [Nat.zero_add]; exact (expect_recv m c 7).symm)) $$ [CR7 HO AtR7]
  · isplitr; · iexact IR7
    isplitl [CR7]; · iexact CR7
    isplitl [HO]; · iexact HO
    isplitr; · rw [MayWait_zero]; iempintro
    iexact AtR7
  iintro ⟨HO, AtR7, -, Hpay⟩
  ihave G1' := (Entails.of_eq ((rest_recv m c 7).trans (recvPay_7 m c))) $$ Hpay
  sl_exec_parts
  ihave CR8 := (hid_out (F := F) (cred (tallyAt (recvCell c 8) () (amt 8)))) $$ CR8h
  iapply (Rounds.wp_wait_rest_token 𝒱₀ ER (sched m) (c : Thread nD τ) none (κ := K (c, jR 8))
      (wpE_waitDma2_eq 𝒱₀ (c : Thread nD τ) none Set.univ) (Set.mem_univ _) () (O := 0) (R := 0) (m := 0) (T := ∅)
      (by rw [Nat.zero_add]; exact (expect_recv m c 8).symm)) $$ [CR8 HO AtR8]
  · isplitr; · iexact IR8
    isplitl [CR8]; · iexact CR8
    isplitl [HO]; · iexact HO
    isplitr; · rw [MayWait_zero]; iempintro
    iexact AtR8
  iintro ⟨HO, AtR8, -, Hpay⟩
  ihave G2' := (Entails.of_eq ((rest_recv m c 8).trans (recvPay_8 m c))) $$ Hpay
  sl_exec_parts
  ihave CS0 := (hid_out (F := F) (cred (tallyAt (sendCell c 0) () (amt 0)))) $$ CS0h
  iapply (Rounds.wp_wait_rest_token 𝒱₀ ER (sched m) (c : Thread nD τ) none (κ := K (c, jS 0))
      (wpE_waitDma2_eq 𝒱₀ (c : Thread nD τ) none Set.univ) (Set.mem_univ _) () (O := 0) (R := 0) (m := 0) (T := ∅)
      (by rw [Nat.zero_add]; exact (expect_send m c 0).symm)) $$ [CS0 HO AtS0]
  · isplitr; · iexact IS0
    isplitl [CS0]; · iexact CS0
    isplitl [HO]; · iexact HO
    isplitr; · rw [MayWait_zero]; iempintro
    iexact AtS0
  iintro ⟨HO, AtS0, -, Hpay⟩
  ihave S0' := (Entails.of_eq ((rest_send m c 0).trans (sendPay_0 m c))) $$ Hpay
  sl_exec_parts
  ihave CS1 := (hid_out (F := F) (cred (tallyAt (sendCell c 1) () (amt 1)))) $$ CS1h
  iapply (Rounds.wp_wait_rest_token 𝒱₀ ER (sched m) (c : Thread nD τ) none (κ := K (c, jS 1))
      (wpE_waitDma2_eq 𝒱₀ (c : Thread nD τ) none Set.univ) (Set.mem_univ _) () (O := 0) (R := 0) (m := 0) (T := ∅)
      (by rw [Nat.zero_add]; exact (expect_send m c 1).symm)) $$ [CS1 HO AtS1]
  · isplitr; · iexact IS1
    isplitl [CS1]; · iexact CS1
    isplitl [HO]; · iexact HO
    isplitr; · rw [MayWait_zero]; iempintro
    iexact AtS1
  iintro ⟨HO, AtS1, -, Hpay⟩
  ihave S1' := (Entails.of_eq ((rest_send m c 1).trans (sendPay_1 m c))) $$ Hpay
  (try conv => rhs; simp only [Prog.lift, Prog.bind_op, Prog.bind_ret, Prog.pure_eq_ret])
  ihave CS2 := (hid_out (F := F) (cred (tallyAt (sendCell c 2) () (amt 2)))) $$ CS2h
  iapply (Rounds.wp_wait_rest_token 𝒱₀ ER (sched m) (c : Thread nD τ) none (κ := K (c, jS 2))
      (wpE_waitDma2_eq 𝒱₀ (c : Thread nD τ) none Set.univ) (Set.mem_univ _) () (O := 0) (R := 0) (m := 0) (T := ∅)
      (by rw [Nat.zero_add]; exact (expect_send m c 2).symm)) $$ [CS2 HO AtS2]
  · isplitr; · iexact IS2
    isplitl [CS2]; · iexact CS2
    isplitl [HO]; · iexact HO
    isplitr; · rw [MayWait_zero]; iempintro
    iexact AtS2
  iintro ⟨HO, AtS2, -, Hpay⟩
  ihave S2' := (Entails.of_eq ((rest_send m c 2).trans (sendPay_2 m c))) $$ Hpay
  (try conv => rhs; simp only [Prog.lift, Prog.bind_op, Prog.bind_ret, Prog.pure_eq_ret])
  ihave CS3 := (hid_out (F := F) (cred (tallyAt (sendCell c 3) () (amt 3)))) $$ CS3h
  iapply (Rounds.wp_wait_rest_token 𝒱₀ ER (sched m) (c : Thread nD τ) none (κ := K (c, jS 3))
      (wpE_waitDma2_eq 𝒱₀ (c : Thread nD τ) none Set.univ) (Set.mem_univ _) () (O := 0) (R := 0) (m := 0) (T := ∅)
      (by rw [Nat.zero_add]; exact (expect_send m c 3).symm)) $$ [CS3 HO AtS3]
  · isplitr; · iexact IS3
    isplitl [CS3]; · iexact CS3
    isplitl [HO]; · iexact HO
    isplitr; · rw [MayWait_zero]; iempintro
    iexact AtS3
  iintro ⟨HO, AtS3, -, Hpay⟩
  ihave S3' := (Entails.of_eq ((rest_send m c 3).trans (sendPay_3 m c))) $$ Hpay
  (try conv => rhs; simp only [Prog.lift, Prog.bind_op, Prog.bind_ret, Prog.pure_eq_ret])
  ihave CS4 := (hid_out (F := F) (cred (tallyAt (sendCell c 4) () (amt 4)))) $$ CS4h
  iapply (Rounds.wp_wait_rest_token 𝒱₀ ER (sched m) (c : Thread nD τ) none (κ := K (c, jS 4))
      (wpE_waitDma2_eq 𝒱₀ (c : Thread nD τ) none Set.univ) (Set.mem_univ _) () (O := 0) (R := 0) (m := 0) (T := ∅)
      (by rw [Nat.zero_add]; exact (expect_send m c 4).symm)) $$ [CS4 HO AtS4]
  · isplitr; · iexact IS4
    isplitl [CS4]; · iexact CS4
    isplitl [HO]; · iexact HO
    isplitr; · rw [MayWait_zero]; iempintro
    iexact AtS4
  iintro ⟨HO, AtS4, -, Hpay⟩
  ihave S4' := (Entails.of_eq ((rest_send m c 4).trans (sendPay_4 m c))) $$ Hpay
  sl_exec_parts
  ihave CS5 := (hid_out (F := F) (cred (tallyAt (sendCell c 5) () (amt 5)))) $$ CS5h
  iapply (Rounds.wp_wait_rest_token 𝒱₀ ER (sched m) (c : Thread nD τ) none (κ := K (c, jS 5))
      (wpE_waitDma2_eq 𝒱₀ (c : Thread nD τ) none Set.univ) (Set.mem_univ _) () (O := 0) (R := 0) (m := 0) (T := ∅)
      (by rw [Nat.zero_add]; exact (expect_send m c 5).symm)) $$ [CS5 HO AtS5]
  · isplitr; · iexact IS5
    isplitl [CS5]; · iexact CS5
    isplitl [HO]; · iexact HO
    isplitr; · rw [MayWait_zero]; iempintro
    iexact AtS5
  iintro ⟨HO, AtS5, -, Hpay⟩
  ihave S5' := (Entails.of_eq ((rest_send m c 5).trans (sendPay_5 m c))) $$ Hpay
  (try conv => rhs; simp only [Prog.lift, Prog.bind_op, Prog.bind_ret, Prog.pure_eq_ret])
  ihave CS6 := (hid_out (F := F) (cred (tallyAt (sendCell c 6) () (amt 6)))) $$ CS6h
  iapply (Rounds.wp_wait_rest_token 𝒱₀ ER (sched m) (c : Thread nD τ) none (κ := K (c, jS 6))
      (wpE_waitDma2_eq 𝒱₀ (c : Thread nD τ) none Set.univ) (Set.mem_univ _) () (O := 0) (R := 0) (m := 0) (T := ∅)
      (by rw [Nat.zero_add]; exact (expect_send m c 6).symm)) $$ [CS6 HO AtS6]
  · isplitr; · iexact IS6
    isplitl [CS6]; · iexact CS6
    isplitl [HO]; · iexact HO
    isplitr; · rw [MayWait_zero]; iempintro
    iexact AtS6
  iintro ⟨HO, AtS6, -, Hpay⟩
  ihave S6' := (Entails.of_eq ((rest_send m c 6).trans (sendPay_6 m c))) $$ Hpay
  sl_exec_parts
  ihave CS7 := (hid_out (F := F) (cred (tallyAt (sendCell c 7) () (amt 7)))) $$ CS7h
  iapply (Rounds.wp_wait_rest_token 𝒱₀ ER (sched m) (c : Thread nD τ) none (κ := K (c, jS 7))
      (wpE_waitDma2_eq 𝒱₀ (c : Thread nD τ) none Set.univ) (Set.mem_univ _) () (O := 0) (R := 0) (m := 0) (T := ∅)
      (by rw [Nat.zero_add]; exact (expect_send m c 7).symm)) $$ [CS7 HO AtS7]
  · isplitr; · iexact IS7
    isplitl [CS7]; · iexact CS7
    isplitl [HO]; · iexact HO
    isplitr; · rw [MayWait_zero]; iempintro
    iexact AtS7
  iintro ⟨HO, AtS7, -, Hpay⟩
  ihave S7' := (Entails.of_eq ((rest_send m c 7).trans (sendPay_7 m c))) $$ Hpay
  (try conv => rhs; simp only [Prog.lift, Prog.bind_op, Prog.bind_ret, Prog.pure_eq_ret])
  ihave CS8 := (hid_out (F := F) (cred (tallyAt (sendCell c 8) () (amt 8)))) $$ CS8h
  iapply (Rounds.wp_wait_rest_token 𝒱₀ ER (sched m) (c : Thread nD τ) none (κ := K (c, jS 8))
      (wpE_waitDma2_eq 𝒱₀ (c : Thread nD τ) none Set.univ) (Set.mem_univ _) () (O := 0) (R := 0) (m := 0) (T := ∅)
      (by rw [Nat.zero_add]; exact (expect_send m c 8).symm)) $$ [CS8 HO AtS8]
  · isplitr; · iexact IS8
    isplitl [CS8]; · iexact CS8
    isplitl [HO]; · iexact HO
    isplitr; · rw [MayWait_zero]; iempintro
    iexact AtS8
  iintro ⟨HO, AtS8, -, Hpay⟩
  ihave S8' := (Entails.of_eq ((rest_send m c 8).trans (sendPay_8 m c))) $$ Hpay
  imod (Rounds.cell_close ER (sched m) (Set.mem_univ (K (c, jS 0))) (fun h => h) (R := 0 + 1) (duties_later m (sendCell c 0))) $$ [AtS0] with ZS0
  · iframe # ∗
  imod (Rounds.cell_close ER (sched m) (Set.mem_univ (K (c, jS 1))) (fun h => h) (R := 0 + 1) (duties_later m (sendCell c 1))) $$ [AtS1] with ZS1
  · iframe # ∗
  imod (Rounds.cell_close ER (sched m) (Set.mem_univ (K (c, jS 2))) (fun h => h) (R := 0 + 1) (duties_later m (sendCell c 2))) $$ [AtS2] with ZS2
  · iframe # ∗
  imod (Rounds.cell_close ER (sched m) (Set.mem_univ (K (c, jS 3))) (fun h => h) (R := 0 + 1) (duties_later m (sendCell c 3))) $$ [AtS3] with ZS3
  · iframe # ∗
  imod (Rounds.cell_close ER (sched m) (Set.mem_univ (K (c, jS 4))) (fun h => h) (R := 0 + 1) (duties_later m (sendCell c 4))) $$ [AtS4] with ZS4
  · iframe # ∗
  imod (Rounds.cell_close ER (sched m) (Set.mem_univ (K (c, jS 5))) (fun h => h) (R := 0 + 1) (duties_later m (sendCell c 5))) $$ [AtS5] with ZS5
  · iframe # ∗
  imod (Rounds.cell_close ER (sched m) (Set.mem_univ (K (c, jS 6))) (fun h => h) (R := 0 + 1) (duties_later m (sendCell c 6))) $$ [AtS6] with ZS6
  · iframe # ∗
  imod (Rounds.cell_close ER (sched m) (Set.mem_univ (K (c, jS 7))) (fun h => h) (R := 0 + 1) (duties_later m (sendCell c 7))) $$ [AtS7] with ZS7
  · iframe # ∗
  imod (Rounds.cell_close ER (sched m) (Set.mem_univ (K (c, jS 8))) (fun h => h) (R := 0 + 1) (duties_later m (sendCell c 8))) $$ [AtS8] with ZS8
  · iframe # ∗
  imod (Rounds.cell_close ER (sched m) (Set.mem_univ (K (c, jR 0))) (fun h => h) (R := 0 + 1) (duties_later m (recvCell c 0))) $$ [AtR0] with ZR0
  · iframe # ∗
  imod (Rounds.cell_close ER (sched m) (Set.mem_univ (K (c, jR 1))) (fun h => h) (R := 0 + 1) (duties_later m (recvCell c 1))) $$ [AtR1] with ZR1
  · iframe # ∗
  imod (Rounds.cell_close ER (sched m) (Set.mem_univ (K (c, jR 2))) (fun h => h) (R := 0 + 1) (duties_later m (recvCell c 2))) $$ [AtR2] with ZR2
  · iframe # ∗
  imod (Rounds.cell_close ER (sched m) (Set.mem_univ (K (c, jR 3))) (fun h => h) (R := 0 + 1) (duties_later m (recvCell c 3))) $$ [AtR3] with ZR3
  · iframe # ∗
  imod (Rounds.cell_close ER (sched m) (Set.mem_univ (K (c, jR 4))) (fun h => h) (R := 0 + 1) (duties_later m (recvCell c 4))) $$ [AtR4] with ZR4
  · iframe # ∗
  imod (Rounds.cell_close ER (sched m) (Set.mem_univ (K (c, jR 5))) (fun h => h) (R := 0 + 1) (duties_later m (recvCell c 5))) $$ [AtR5] with ZR5
  · iframe # ∗
  imod (Rounds.cell_close ER (sched m) (Set.mem_univ (K (c, jR 6))) (fun h => h) (R := 0 + 1) (duties_later m (recvCell c 6))) $$ [AtR6] with ZR6
  · iframe # ∗
  imod (Rounds.cell_close ER (sched m) (Set.mem_univ (K (c, jR 7))) (fun h => h) (R := 0 + 1) (duties_later m (recvCell c 7))) $$ [AtR7] with ZR7
  · iframe # ∗
  imod (Rounds.cell_close ER (sched m) (Set.mem_univ (K (c, jR 8))) (fun h => h) (R := 0 + 1) (duties_later m (recvCell c 8))) $$ [AtR8] with ZR8
  · iframe # ∗
  ihave Vout := (Entails.of_eq (out_pts m c f2 g1 ((Memref.whole cc0_stg1_0).view.writes (Elt F) g1
      (⟨Rect.unit (s := S4096x512) (k0_off2 c 2#32) S1024x512.size (k0_off2_inb c 1),
          k0_pay38 (View.readAt (Elt F) gotA.view (Rect.unit (s := S3x1024x512) ![2, 0, 0] S1x1024x512.size inb_S3x1024x512_S1x1024x512_2_0_0).toLoadRect (gotC m c))⟩ ::
        ⟨Rect.unit (s := S4096x512) (k0_off3 c) S1024x512.size (k0_off3_inb c),
          k0_pay37 (View.readAt (Elt F) gotA.view (Rect.unit (s := S3x1024x512) ![1, 0, 0] S1x1024x512.size inb_S3x1024x512_S1x1024x512_1_0_0).toLoadRect (gotC m c))⟩ ::
        sound_body.sl.Vout_3 m c f2)) rfl)) $$ Vout
  rw [wp_ret]; imodintro
  iapply Hk
  unfold bodyPost Φ₁ xPts sems0 copy0 scratch stg Dat.owesAt Pipeline.owesWithin
  rw [show (dats m 0 c).owed t₀.succ = 0 from rfl]
  isplitl [Vx ZS0 ZS1 ZS2 ZS3 ZS4 ZS5 ZS6 ZS7 ZS8 ZR0 ZR1 ZR2 ZR3 ZR4 ZR5 ZR6 ZR7 ZR8 Y0 Y1 Y2 Wl S0' S2' S1' S3' V1 V2 F0 F1 LD0 LD1 S6' S7' S8' G0' G1' G2']
  · isplitl [Vx]; · iapply (Entails.of_eq (whole_eq (F := F) c main_arg0 fullShare _).symm); iexact Vx
    isplitl [ZS0 ZS1 ZS2 ZS3 ZS4 ZS5 ZS6 ZS7 ZS8 ZR0 ZR1 ZR2 ZR3 ZR4 ZR5 ZR6 ZR7 ZR8 Y0 Y1 Y2]
    · isplitl [ZS0]; · iexact ZS0
      isplitl [ZS1]; · iexact ZS1
      isplitl [ZS2]; · iexact ZS2
      isplitl [ZS3]; · iexact ZS3
      isplitl [ZS4]; · iexact ZS4
      isplitl [ZS5]; · iexact ZS5
      isplitl [ZS6]; · iexact ZS6
      isplitl [ZS7]; · iexact ZS7
      isplitl [ZS8]; · iexact ZS8
      isplitl [ZR0]; · iexact ZR0
      isplitl [ZR1]; · iexact ZR1
      isplitl [ZR2]; · iexact ZR2
      isplitl [ZR3]; · iexact ZR3
      isplitl [ZR4]; · iexact ZR4
      isplitl [ZR5]; · iexact ZR5
      isplitl [ZR6]; · iexact ZR6
      isplitl [ZR7]; · iexact ZR7
      isplitl [ZR8]; · iexact ZR8
      isplitl [Y0]; · iexact Y0
      isplitl [Y1]; · iexact Y1
      iexact Y2
    · isplitl [Wl S0' S2' S1' S3']
      · iexists (w16 m c); iapply (w16_split (F := F) c (w16 m c)).2
        isplitl [Wl]; · iapply (Entails.of_eq (whole_eq (F := F) c cc0_scratch0 fullShare.left _).symm); iexact Wl
        isplitl [S0']; · iexact S0'
        isplitl [S2']; · iexact S2'
        isplitl [S1']; · iexact S1'
        iexact S3'
      isplitl [V1]; · iexists _; iapply (Entails.of_eq (whole_eq (F := F) c cc0_scratch1 fullShare _).symm); iexact V1
      isplitl [V2]; · iexists _; iapply (Entails.of_eq (whole_eq (F := F) c cc0_scratch2 fullShare _).symm); iexact V2
      isplitl [F0 F1]
      · iexists (farC m c); iapply (far_split (F := F) c (farC m c)).2
        isplitl [F0]; · iexact F0
        iexact F1
      isplitl [LD0 LD1]
      · iapply (land_join (F := F) c _ _)
        isplitl [LD0]; · iexact LD0
        iexact LD1
      isplitl [S6' S7' S8']
      · iexists (madeC m c); iapply (made_split (F := F) c (madeC m c)).2
        isplitl [S6']; · iexact S6'
        isplitl [S7']; · iexact S7'
        iexact S8'
      iexists (gotC m c); iapply (got_split (F := F) c (gotC m c)).2
      isplitl [G0']; · iexact G0'
      isplitl [G1']; · iexact G1'
      iexact G2'
  isplitl [HO]
  · iexists _; isplitr
    rotate_left
    · iexact HO
    · ipureintro; exact fun _ _ => Or.inl trivial
  isplitl [Vw]
  · iexists _; isplitr; · ipureintro; rfl
    iapply (Entails.of_eq (whole_eq (F := F) c cc0_stg0_0 fullShare _).symm); iexact Vw
  iexists _; isplitr; · ipureintro; rfl
  iapply (Entails.of_eq (whole_eq (F := F) c cc0_stg1_0 fullShare _).symm); iexact Vout

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

set_option maxRecDepth 100000 in
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre m c ⊢ wp frame (wpE (defs₀ (F := F)) 𝒱₀ c none) Set.univ (cc0_body xA (Memref.isWhole_whole _) wStg (Memref.isWhole_whole _) oStg (Memref.isWhole_whole _) relayA (Memref.isWhole_whole _) w16A (Memref.isWhole_whole _) x16A (Memref.isWhole_whole _) xq (Memref.isWhole_whole _) farA (Memref.isWhole_whole _) landA (Memref.isWhole_whole _) madeA (Memref.isWhole_whole _) gotA (Memref.isWhole_whole _) cc0_scratch7 cc0_scratch8 cc0_scratch9) (fun _ => bodyPost m c)
  iintro H
  iapply (sound_body m c fun _ => bodyPost m c)
  isplitl [H]; · iexact H
  iintro H; iexact H

end Cert.Kernel.P

end
-- ==== Proof.K.Launch.lean ====
/- The launch: the ghost state is allocated once, dealt device by device, and the bodies' proofs give the run of the whole mesh with every result named. -/
import proofs.«900495_g7700000000000496_dist_ag_gemm_m4096_k4096_n2048_f32_gelu_v7x_i4_1_alg».proof.Proof.K.Tables

noncomputable section

namespace Cert.Kernel.P

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev osem : Fin 21 → SemLoc sig := fun j =>
  if h : j.val < 9 then .dma (sendSem ⟨j.val, h⟩)
  else if h' : j.val < 18 then .dma (recvSem ⟨j.val - 9, by omega⟩)
  else if j.val = 18 then .dma cS0.sem else if j.val = 19 then .dma cS1.sem else .dma cS2.sem

theorem ownSemFacts : Pipeline.OwnSemFacts cfg0.spec osem := by decide

theorem share_eq (c : Dev nD) (w : Fin cfg0.W) : (dats m 0 c).share w = fullShare := by unfold Dat.share; split <;> rfl

theorem csem_injective : Function.Injective (csem : Fin 19 → SemLoc sig) := by decide

theorem kcell_injective : Function.Injective (kcell : Dev nD × Fin 19 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def protoCells : Finset (GSem nD τ sig) := Finset.univ.map ⟨kcell, kcell_injective⟩

abbrev tokKey : Fin 21 → SemLoc sig × Fin 3 := fun j =>
  if h : j.val < 3 then (.reg barS, ⟨j.val, h⟩)
  else if h' : j.val < 12 then (.dma (sendSem ⟨j.val - 3, by omega⟩), 0)
  else (.dma (recvSem ⟨j.val - 12, by omega⟩), 0)

theorem tokKey_injective : Function.Injective tokKey := by decide

abbrev tokOf (cj : Dev nD × Fin 21) : GSem nD τ sig × ℕ × Fin 3 := (((cj.1 : Thread nD τ), (tokKey cj.2).1), 0, (tokKey cj.2).2)

theorem tokOf_injective : Function.Injective (tokOf : Dev nD × Fin 21 → GSem nD τ sig × ℕ × Fin 3) := by
  rintro ⟨c, j⟩ ⟨c', j'⟩ h
  have h1 : c = c' := by have := congrArg (fun x : GSem nD τ sig × ℕ × Fin 3 => x.1.1.1) h; exact this
  subst h1
  have h2 : tokKey j = tokKey j' :=
    Prod.ext (congrArg (fun x : GSem nD τ sig × ℕ × Fin 3 => x.1.2) h) (congrArg (fun x : GSem nD τ sig × ℕ × Fin 3 => x.2.2) h)
  rw [tokKey_injective h2]

def protoToks : Finset (GSem nD τ sig × ℕ × Fin 3) := Finset.univ.map ⟨tokOf, tokOf_injective⟩

def u₀ : UU :=
  (initOf (Pipeline.cells cfgs cellOf_inj) (Pipeline.launchToks cfgs cellOf_inj), (initOf protoCells protoToks, 1))

def toks (c : Dev nD) : sProp 𝕄 :=
  iprop(dutyTok ER (barCell c) 0 (0 : Fin 3) ∗ dutyTok ER (barCell c) 0 (1 : Fin 3) ∗ dutyTok ER (barCell c) 0 (2 : Fin 3)
    ∗ dutyTok ER (sendCell c 0) 0 (0 : Fin 3)
    ∗ dutyTok ER (sendCell c 1) 0 (0 : Fin 3)
    ∗ dutyTok ER (sendCell c 2) 0 (0 : Fin 3)
    ∗ dutyTok ER (sendCell c 3) 0 (0 : Fin 3)
    ∗ dutyTok ER (sendCell c 4) 0 (0 : Fin 3)
    ∗ dutyTok ER (sendCell c 5) 0 (0 : Fin 3)
    ∗ dutyTok ER (sendCell c 6) 0 (0 : Fin 3)
    ∗ dutyTok ER (sendCell c 7) 0 (0 : Fin 3)
    ∗ dutyTok ER (sendCell c 8) 0 (0 : Fin 3)
    ∗ dutyTok ER (recvCell c 0) 0 (0 : Fin 3)
    ∗ dutyTok ER (recvCell c 1) 0 (0 : Fin 3)
    ∗ dutyTok ER (recvCell c 2) 0 (0 : Fin 3)
    ∗ dutyTok ER (recvCell c 3) 0 (0 : Fin 3)
    ∗ dutyTok ER (recvCell c 4) 0 (0 : Fin 3)
    ∗ dutyTok ER (recvCell c 5) 0 (0 : Fin 3)
    ∗ dutyTok ER (recvCell c 6) 0 (0 : Fin 3)
    ∗ dutyTok ER (recvCell c 7) 0 (0 : Fin 3)
    ∗ dutyTok ER (recvCell c 8) 0 (0 : Fin 3))

def G (c : Dev nD) : sProp 𝕄 :=
  iprop((bigSep Finset.univ fun j : Fin 19 => roundState ER (sched m) (kcell (c, j)) 0)
    ∗ (bigSep Finset.univ fun j : Fin 19 => iprop(atPos ER (kcell (c, j)) 0 ∅ 0 ∗ reached ER (kcell (c, j)) 0)) ∗ toks c)

def G' (c : Dev nD) : sProp 𝕄 := iprop((∃ K, ghost m K c) ∗ copy0 c)

theorem bigSep_fin19 (Φ : Fin 19 → sProp 𝕄) : bigSep Finset.univ Φ = bigSepL [0, 1, 2, 3, 4, 5, 6, 7, 8, 9, 10, 11, 12, 13, 14, 15, 16, 17, 18] Φ :=
  bigSep_univ_eq_bigSepL _ (by decide) (by decide) Φ
theorem bigSep_fin21 (Φ : Fin 21 → sProp 𝕄) : bigSep Finset.univ Φ = bigSepL [0, 1, 2, 3, 4, 5, 6, 7, 8, 9, 10, 11, 12, 13, 14, 15, 16, 17, 18, 19, 20] Φ :=
  bigSep_univ_eq_bigSepL _ (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun j : Fin 19 => Φ (kcell (c, j)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin21]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄) = sems0 c := by
  rw [Pipeline.ownSems0_eq_of_list c osem [0, 1, 2, 3, 4, 5, 6, 7, 8, 9, 10, 11, 12, 13, 14, 15, 16, 17, 18, 19, 20] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl
theorem cells0_eq (c : Dev nD) : (bigSep Finset.univ fun j : Fin 19 => (semVal (kcell (c, j)) 0 : sProp 𝕄))
    = iprop(semVal (barCell c) 0
      ∗ semVal (sendCell c 0) 0
      ∗ semVal (sendCell c 1) 0
      ∗ semVal (sendCell c 2) 0
      ∗ semVal (sendCell c 3) 0
      ∗ semVal (sendCell c 4) 0
      ∗ semVal (sendCell c 5) 0
      ∗ semVal (sendCell c 6) 0
      ∗ semVal (sendCell c 7) 0
      ∗ semVal (sendCell c 8) 0
      ∗ semVal (recvCell c 0) 0
      ∗ semVal (recvCell c 1) 0
      ∗ semVal (recvCell c 2) 0
      ∗ semVal (recvCell c 3) 0
      ∗ semVal (recvCell c 4) 0
      ∗ semVal (recvCell c 5) 0
      ∗ semVal (recvCell c 6) 0
      ∗ semVal (recvCell c 7) 0
      ∗ semVal (recvCell c 8) 0) := by
  rw [bigSep_fin19]; rfl

theorem sems0_split (c : Dev nD) :
    iprop(Pipeline.ownSems0 (Ix := Unit) (Name := ℕ) (U := UU) (Lvl := ℕ) (Val := Elt F) (τ := τ) osem c ∗ unscopedSems0 c)
      ⊢ iprop((bigSep Finset.univ fun j : Fin 19 => (semVal (kcell (c, j)) 0 : sProp 𝕄)) ∗ copy0 c) := by
  rw [ownSems0_eq, unscopedSems0_eq, cells0_eq]
  unfold sems0
  iintro ⟨⟨S0, S1, S2, S3, S4, S5, S6, S7, S8, R0, R1, R2, R3, R4, R5, R6, R7, R8, HC⟩, HB⟩
  isplitr [HC]
  · iframe
  · iexact HC

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 19 => iprop(∃ κ : ℕ, cellInv ER (sched m) κ (kcell (c, j))))
          ∗ (bigSep Finset.univ fun j : Fin 19 => iprop(atPos ER (kcell (c, j)) 0 ∅ 0 ∗ reached ER (kcell (c, j)) 0)) ∗ toks c ∗ copy0 c) := by
  unfold G
  iintro ⟨Hos, Hus, Hst, Hat, Htok⟩
  ihave Hv := (sems0_split (F := F) c) $$ [Hos Hus]
  · isplitl [Hos] <;> iassumption
  icases Hv with ⟨Hv, HC⟩
  imod (show iprop((bigSep Finset.univ fun j : Fin 19 => semVal (kcell (c, j)) 0) ∗ bigSep Finset.univ fun j : Fin 19 => roundState ER (sched m) (kcell (c, j)) 0)
      ⊢ (|={Set.univ}=> bigSep Finset.univ fun j : Fin 19 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  iframe

def records (K : Dev nD × Fin 19 → ℕ) : sProp 𝕄 :=
  iprop((bigSep Finset.univ fun ck : Dev nD × Fin 19 => cellInv ER (sched m) (K ck) (kcell ck))
    ∗ bigSep Finset.univ fun ck : Dev nD × Fin 19 => reached ER (kcell ck) 0)

instance records_persistent (K : Dev nD × Fin 19 → ℕ) : BI.Persistent (records m K) := by unfold records; infer_instance

theorem kcell_send (c : Dev nD) (k : Fin 9) : kcell (c, jS k) = sendCell c k := by fin_cases k <;> rfl
theorem kcell_recv (c : Dev nD) (k : Fin 9) : kcell (c, jR k) = recvCell c k := by fin_cases k <;> rfl

theorem inv_at (K : Dev nD × Fin 19 → ℕ) (ck : Dev nD × Fin 19) :
    (bigSep Finset.univ fun ck : Dev nD × Fin 19 => (cellInv ER (sched m) (K ck) (kcell ck) : sProp 𝕄)) ⊢ cellInv ER (sched m) (K ck) (kcell ck) :=
  bigSep_elim (Finset.mem_univ ck)
theorem reached_at (ck : Dev nD × Fin 19) :
    (bigSep Finset.univ fun ck : Dev nD × Fin 19 => (reached ER (kcell ck) 0 : sProp 𝕄)) ⊢ reached ER (kcell ck) 0 :=
  bigSep_elim (Finset.mem_univ ck)

theorem inv_bar (K : Dev nD × Fin 19 → ℕ) (c : Dev nD) :
    (bigSep Finset.univ fun ck : Dev nD × Fin 19 => (cellInv ER (sched m) (K ck) (kcell ck) : sProp 𝕄)) ⊢ cellInv ER (sched m) (K (c, 0)) (barCell c) := inv_at m K (c, 0)
theorem inv_send (K : Dev nD × Fin 19 → ℕ) (c : Dev nD) (k : Fin 9) :
    (bigSep Finset.univ fun ck : Dev nD × Fin 19 => (cellInv ER (sched m) (K ck) (kcell ck) : sProp 𝕄)) ⊢ cellInv ER (sched m) (K (c, jS k)) (sendCell c k) := by
  rw [← kcell_send c k]; exact inv_at m K (c, jS k)
theorem inv_recv (K : Dev nD × Fin 19 → ℕ) (c : Dev nD) (k : Fin 9) :
    (bigSep Finset.univ fun ck : Dev nD × Fin 19 => (cellInv ER (sched m) (K ck) (kcell ck) : sProp 𝕄)) ⊢ cellInv ER (sched m) (K (c, jR k)) (recvCell c k) := by
  rw [← kcell_recv c k]; exact inv_at m K (c, jR k)
theorem reached_bar (c : Dev nD) :
    (bigSep Finset.univ fun ck : Dev nD × Fin 19 => (reached ER (kcell ck) 0 : sProp 𝕄)) ⊢ reached ER (barCell c) 0 := reached_at (c, 0)
theorem reached_send (c : Dev nD) (k : Fin 9) :
    (bigSep Finset.univ fun ck : Dev nD × Fin 19 => (reached ER (kcell ck) 0 : sProp 𝕄)) ⊢ reached ER (sendCell c k) 0 := by
  rw [← kcell_send c k]; exact reached_at (c, jS k)
theorem reached_recv (c : Dev nD) (k : Fin 9) :
    (bigSep Finset.univ fun ck : Dev nD × Fin 19 => (reached ER (kcell ck) 0 : sProp 𝕄)) ⊢ reached ER (recvCell c k) 0 := by
  rw [← kcell_recv c k]; exact reached_at (c, jR k)

theorem invs_intro (K : Dev nD × Fin 19 → ℕ) (c : Dev nD) :
    (bigSep Finset.univ fun ck : Dev nD × Fin 19 => (cellInv ER (sched m) (K ck) (kcell ck) : sProp 𝕄)) ⊢ invs m K c := by
  unfold invs
  iintro #HI
  isplitr; · iapply (inv_bar m K c); iexact HI
  isplitr; · iapply (inv_send m K c 0); iexact HI
  isplitr; · iapply (inv_send m K c 1); iexact HI
  isplitr; · iapply (inv_send m K c 2); iexact HI
  isplitr; · iapply (inv_send m K c 3); iexact HI
  isplitr; · iapply (inv_send m K c 4); iexact HI
  isplitr; · iapply (inv_send m K c 5); iexact HI
  isplitr; · iapply (inv_send m K c 6); iexact HI
  isplitr; · iapply (inv_send m K c 7); iexact HI
  isplitr; · iapply (inv_send m K c 8); iexact HI
  isplitr; · iapply (inv_recv m K c 0); iexact HI
  isplitr; · iapply (inv_recv m K c 1); iexact HI
  isplitr; · iapply (inv_recv m K c 2); iexact HI
  isplitr; · iapply (inv_recv m K c 3); iexact HI
  isplitr; · iapply (inv_recv m K c 4); iexact HI
  isplitr; · iapply (inv_recv m K c 5); iexact HI
  isplitr; · iapply (inv_recv m K c 6); iexact HI
  isplitr; · iapply (inv_recv m K c 7); iexact HI
  isplitr; · iapply (inv_recv m K c 8); iexact HI
  isplitr; · iapply (inv_bar m K (lft c)); iexact HI
  isplitr; · iapply (inv_bar m K (rgt c)); iexact HI
  isplitr; · iapply (inv_bar m K (opp c)); iexact HI
  isplitr; · iapply (inv_recv m K (rgt c) 0); iexact HI
  isplitr; · iapply (inv_recv m K (rgt c) 1); iexact HI
  isplitr; · iapply (inv_recv m K (lft c) 2); iexact HI
  isplitr; · iapply (inv_recv m K (lft c) 3); iexact HI
  isplitr; · iapply (inv_recv m K (rgt c) 4); iexact HI
  isplitr; · iapply (inv_recv m K (lft c) 5); iexact HI
  isplitr; · iapply (inv_recv m K (lft c) 6); iexact HI
  isplitr; · iapply (inv_recv m K (rgt c) 7); iexact HI
  iapply (inv_recv m K (opp c) 8); iexact HI

theorem reacheds_intro (c : Dev nD) :
    (bigSep Finset.univ fun ck : Dev nD × Fin 19 => (reached ER (kcell ck) 0 : sProp 𝕄)) ⊢ reacheds c := by
  unfold reacheds
  iintro #HR
  isplitr; · iapply (reached_bar (F := F) c); iexact HR
  isplitr; · iapply (reached_bar (F := F) (lft c)); iexact HR
  isplitr; · iapply (reached_bar (F := F) (rgt c)); iexact HR
  isplitr; · iapply (reached_bar (F := F) (opp c)); iexact HR
  isplitr; · iapply (reached_send (F := F) c 0); iexact HR
  isplitr; · iapply (reached_send (F := F) c 1); iexact HR
  isplitr; · iapply (reached_send (F := F) c 2); iexact HR
  isplitr; · iapply (reached_send (F := F) c 3); iexact HR
  isplitr; · iapply (reached_send (F := F) c 4); iexact HR
  isplitr; · iapply (reached_send (F := F) c 5); iexact HR
  isplitr; · iapply (reached_send (F := F) c 6); iexact HR
  isplitr; · iapply (reached_send (F := F) c 7); iexact HR
  isplitr; · iapply (reached_send (F := F) c 8); iexact HR
  isplitr; · iapply (reached_recv (F := F) c 0); iexact HR
  isplitr; · iapply (reached_recv (F := F) c 1); iexact HR
  isplitr; · iapply (reached_recv (F := F) c 2); iexact HR
  isplitr; · iapply (reached_recv (F := F) c 3); iexact HR
  isplitr; · iapply (reached_recv (F := F) c 4); iexact HR
  isplitr; · iapply (reached_recv (F := F) c 5); iexact HR
  isplitr; · iapply (reached_recv (F := F) c 6); iexact HR
  isplitr; · iapply (reached_recv (F := F) c 7); iexact HR
  isplitr; · iapply (reached_recv (F := F) c 8); iexact HR
  isplitr; · iapply (reached_recv (F := F) (rgt c) 0); iexact HR
  isplitr; · iapply (reached_recv (F := F) (rgt c) 1); iexact HR
  isplitr; · iapply (reached_recv (F := F) (lft c) 2); iexact HR
  isplitr; · iapply (reached_recv (F := F) (lft c) 3); iexact HR
  isplitr; · iapply (reached_recv (F := F) (rgt c) 4); iexact HR
  isplitr; · iapply (reached_recv (F := F) (lft c) 5); iexact HR
  isplitr; · iapply (reached_recv (F := F) (lft c) 6); iexact HR
  isplitr; · iapply (reached_recv (F := F) (rgt c) 7); iexact HR
  iapply (reached_recv (F := F) (opp c) 8); iexact HR

theorem poss_eq (c : Dev nD) : (bigSep Finset.univ fun j : Fin 19 => (atPos ER (kcell (c, j)) 0 ∅ 0 : sProp 𝕄)) = poss c := by
  rw [bigSep_fin19]; rfl

def linear (c : Dev nD) : sProp 𝕄 :=
  iprop((bigSep Finset.univ fun j : Fin 19 => atPos ER (kcell (c, j)) 0 ∅ 0) ∗ payToks c ∗ copy0 c)

theorem ghost_intro (K : Dev nD × Fin 19 → ℕ) (c : Dev nD) : iprop(records m K ∗ linear c) ⊢ G' m c := by
  unfold records linear G' ghost
  rw [poss_eq]
  iintro ⟨⟨#HI, #HR⟩, Hat, Htk, HC⟩
  isplitr [HC]
  · iexists K
    isplitr; · iapply (invs_intro m K c); iexact HI
    isplitl [Hat]; · iexact Hat
    isplitr; · iapply (reacheds_intro (F := F) c); iexact HR
    iexact Htk
  · iexact HC

theorem toks_around : (bigSep Finset.univ fun c : Dev nD => (toks c : sProp 𝕄)) ⊢ bigSep Finset.univ fun c : Dev nD => payToks c := by
  unfold toks payToks
  simp only [bigSep_sep']
  rw [bigSep_univ_equiv ringR.symm (fun c : Dev nD => (dutyTok ER (barCell c) 0 (0 : Fin 3) : sProp 𝕄)),
    bigSep_univ_equiv ringR (fun c : Dev nD => (dutyTok ER (barCell c) 0 (1 : Fin 3) : sProp 𝕄)),
    bigSep_univ_equiv ringO (fun c : Dev nD => (dutyTok ER (barCell c) 0 (2 : Fin 3) : sProp 𝕄)),
    bigSep_univ_equiv ringR (fun c : Dev nD => (dutyTok ER (recvCell c 0) 0 (0 : Fin 3) : sProp 𝕄)),
    bigSep_univ_equiv ringR (fun c : Dev nD => (dutyTok ER (recvCell c 1) 0 (0 : Fin 3) : sProp 𝕄)),
    bigSep_univ_equiv ringR.symm (fun c : Dev nD => (dutyTok ER (recvCell c 2) 0 (0 : Fin 3) : sProp 𝕄)),
    bigSep_univ_equiv ringR.symm (fun c : Dev nD => (dutyTok ER (recvCell c 3) 0 (0 : Fin 3) : sProp 𝕄)),
    bigSep_univ_equiv ringR (fun c : Dev nD => (dutyTok ER (recvCell c 4) 0 (0 : Fin 3) : sProp 𝕄)),
    bigSep_univ_equiv ringR.symm (fun c : Dev nD => (dutyTok ER (recvCell c 5) 0 (0 : Fin 3) : sProp 𝕄)),
    bigSep_univ_equiv ringR.symm (fun c : Dev nD => (dutyTok ER (recvCell c 6) 0 (0 : Fin 3) : sProp 𝕄)),
    bigSep_univ_equiv ringR (fun c : Dev nD => (dutyTok ER (recvCell c 7) 0 (0 : Fin 3) : sProp 𝕄)),
    bigSep_univ_equiv ringO (fun c : Dev nD => (dutyTok ER (recvCell c 8) 0 (0 : Fin 3) : sProp 𝕄))]
  iintro ⟨B0, B1, B2, S0, S1, S2, S3, S4, S5, S6, S7, S8, R0, R1, R2, R3, R4, R5, R6, R7, R8⟩
  isplitl [B0]; · iexact B0
  isplitl [B1]; · iexact B1
  isplitl [B2]; · iexact B2
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iexact S8

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_all :
    iprop((bigSep Finset.univ fun c : Dev nD => bigSep Finset.univ fun j : Fin 19 => (atPos ER (kcell (c, j)) 0 ∅ 0 : sProp 𝕄))
        ∗ (bigSep Finset.univ fun c : Dev nD => (payToks c : sProp 𝕄)) ∗ (bigSep Finset.univ fun c : Dev nD => (copy0 c : sProp 𝕄)))
      ⊢ bigSep Finset.univ fun c : Dev nD => (linear c : sProp 𝕄) := by
  unfold linear; rw [bigSep_sep', bigSep_sep']

theorem regroup :
    (bigSep Finset.univ fun c : Dev nD => iprop((bigSep Finset.univ fun j : Fin 19 => iprop(∃ κ : ℕ, cellInv ER (sched m) κ (kcell (c, j))))
          ∗ (bigSep Finset.univ fun j : Fin 19 => iprop(atPos ER (kcell (c, j)) 0 ∅ 0 ∗ reached ER (kcell (c, j)) 0)) ∗ toks c ∗ copy0 c) : sProp 𝕄)
      ⊢ bigSep Finset.univ (G' m) := by
  rw [bigSep_sep', bigSep_sep', bigSep_sep', ← bigSep_univ_prod (fun ck : Dev nD × Fin 19 => iprop(∃ κ : ℕ, cellInv ER (sched m) κ (kcell ck))),
    bigSep_congr (s := Finset.univ) (fun (c : Dev nD) _ => bigSep_sep' Finset.univ (fun j : Fin 19 => (atPos ER (kcell (c, j)) 0 ∅ 0 : sProp 𝕄)) (fun j => reached ER (kcell (c, j)) 0)),
    bigSep_sep', ← bigSep_univ_prod (fun ck : Dev nD × Fin 19 => (reached ER (kcell ck) 0 : sProp 𝕄))]
  iintro ⟨HI, ⟨Hat, #HR⟩, Htok, HC⟩
  ihave HK := (BI.bigSep_exists_pi Finset.univ (fun (ck : Dev nD × Fin 19) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (linear_all (F := F))
    iframe

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by
    rw [tallyAt_add, tallyAt_add]]
  exact (sep_mono_right (cred_add _ _).2).trans (cred_add _ _).2

theorem creds_intro (c : Dev nD) : (Pipeline.launchCred O₀ c : sProp 𝕄) ⊢ creds c := by
  show (Pipeline.launchCred (fun d => owedX d + tallyAt (barCell (opp d)) () 1 + tallyAt (barCell (rgt d)) () 1 + tallyAt (barCell (lft d)) () 1) c : sProp 𝕄) ⊢ _
  unfold owedX creds
  rw [Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add]
  iintro ⟨⟨⟨⟨⟨⟨⟨⟨⟨⟨⟨H0, H1⟩, H2⟩, H3⟩, H4⟩, H5⟩, H6⟩, H7⟩, H8⟩, HbO⟩, HbR⟩, HbL⟩
  ihave C0 := (Pipeline.launchCred_tallyAt (.dma (recvSem 0)) rgt lft rgt_lft lft_rgt () (amt 0) c) $$ H0
  ihave C1 := (Pipeline.launchCred_tallyAt (.dma (recvSem 1)) rgt lft rgt_lft lft_rgt () (amt 1) c) $$ H1
  ihave C2 := (Pipeline.launchCred_tallyAt (.dma (recvSem 2)) lft rgt lft_rgt rgt_lft () (amt 2) c) $$ H2
  ihave C3 := (Pipeline.launchCred_tallyAt (.dma (recvSem 3)) lft rgt lft_rgt rgt_lft () (amt 3) c) $$ H3
  ihave C4 := (Pipeline.launchCred_tallyAt (.dma (recvSem 4)) rgt lft rgt_lft lft_rgt () (amt 4) c) $$ H4
  ihave C5 := (Pipeline.launchCred_tallyAt (.dma (recvSem 5)) lft rgt lft_rgt rgt_lft () (amt 5) c) $$ H5
  ihave C6 := (Pipeline.launchCred_tallyAt (.dma (recvSem 6)) lft rgt lft_rgt rgt_lft () (amt 6) c) $$ H6
  ihave C7 := (Pipeline.launchCred_tallyAt (.dma (recvSem 7)) rgt lft rgt_lft lft_rgt () (amt 7) c) $$ H7
  ihave C8 := (Pipeline.launchCred_tallyAt (.dma (recvSem 8)) opp opp opp_opp opp_opp () (amt 8) c) $$ H8
  ihave CO := (Pipeline.launchCred_tallyAt (.reg barS) opp opp opp_opp opp_opp () 1 c) $$ HbO
  ihave CR := (Pipeline.launchCred_tallyAt (.reg barS) rgt lft rgt_lft lft_rgt () 1 c) $$ HbR
  ihave CL := (Pipeline.launchCred_tallyAt (.reg barS) lft rgt lft_rgt rgt_lft () 1 c) $$ HbL
  isplitl [CO CR CL]
  · iapply (cred_three (F := F) (barCell c))
    iframe
  iframe

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ xPts m c ∗ relayPts c) ∗ emp) := by
  rw [Pipeline.unscopedRestP_none, unscopedRest0_eq]
  unfold G'
  iintro ⟨⟨Hx, Hr⟩, Hlev, Hcr, -, HG, HC⟩
  ihave Hc := (creds_intro (F := F) c) $$ Hcr
  imodintro
  unfold start xPts relayPts Xb
  isplitl
  · isplitl [HG Hc HC Hlev]
    · iframe
    isplitl [Hx]; · iexact Hx
    iexists (m ((c : Thread nD τ).loc main_v1_1)); iexact Hr
  · iempintro

theorem phi0_intro (c : Dev nD) :
    iprop((start m c ∗ xPts m c ∗ relayPts c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨⟨Hs, Hx, Hr⟩, -, Hscr⟩
  iframe

theorem phi1_exit (c : Dev nD) :
    (dats m 0 c).Φ (Fin.last cfg0.N) ⊢ iprop(xPts m c ∗ Pipeline.ownSems0 osem c ∗ Pipeline.scopedRest cfg0.spec c) := by
  rw [show (dats m 0 c).Φ (Fin.last cfg0.N) = Φ₁ m c from rfl, scopedRest0_eq, ownSems0_eq]
  unfold Φ₁ scratch
  exact .rfl

theorem waits (c : Dev nD) : (levAts L lv : sProp 𝕄) ⊢ Pipeline.cellsWaits cfgs (dats m) () 0 c :=
  Pipeline.cellsWaits_intro cfgs (dats m) () 0 c fun w s t =>
    mayWait_of_above c _ 0 (lv_other c _ (by fin_cases w <;> fin_cases s <;> decide)) _ (by
      rcases t with ⟨_ | _, ht⟩
      · exact above_O₀ c
      · exact above_zero 0)

theorem final_out (c : Dev nD) : (dats m 0 c).arrAt (1 : Fin 2) cfg0.N = outC m c := by
  have ho : ((cfg0.win (1 : Fin 2)).blk t₀).view.read (Elt F) ((dats m 0 c).arrAt (1 : Fin 2) cfg0.N)
      = (dats m 0 c).flushed (1 : Fin 2) t₀ := by
    rw [show cfg0.N = (t₀ : Fin cfg0.N).val + 1 from rfl, (dats m 0 c).arrAt_succ (1 : Fin 2) t₀, if_pos (flush0_1 t₀)]
    exact View.read_write_univ _ _
  have hz : (fun a => (win0_1.index t₀) a * main_v1_0.ty.shape.size a) = fun _ => 0 := funext fun a => by fin_cases a <;> decide
  rw [Memref.read_access_unit_zero (Elt F) main_v1_0 hz (fun a => by fin_cases a <;> decide)] at ho
  rw [ho]
  rfl

set_option maxRecDepth 8000 in
theorem run_main_of (hbody : ∀ c : Dev nD, BodyObligation (dats (F := F) m 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1_0) = outC m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb (M' := 𝕄) (A := UB) (B := Counters) embR _ _) $$ HX
      icases H2 with ⟨HR, -⟩
      imod (fund_proto m) $$ HR with HG
      imodintro
      isplitl [HP] <;> iassumption)
    (hglob := glob m)
    (hA := fun _ _ => rfl) (hpf := fun _ k => k.elim0)
    (X := fun c => iprop(start m c ∗ xPts m c ∗ relayPts c)) (Y := xPts m) (Z := fun _ => iprop(emp))
    (hX := start_intro m ρ) (hin := phi0_intro m) (hout := phi1_exit m)
    (QY := fun c s => s.mem ((c : Thread nD τ).loc main_arg0) = m ((c : Thread nD τ).loc main_arg0))
    (hY := fun c s' => by
      unfold xPts Xb
      iintro ⟨Hx, -, HSI⟩
      icombine HSI Hx gives %hx
      imodintro
      isplitr; · ipureintro; exact Buf.eq_of_forall_mem_univ hx
      iexact HSI)
    (hQ := fun s h c => ⟨((h c).1 (1 : Fin 2)).trans (final_out m c), (h c).2.2,
      ((h c).1 (0 : Fin 2)).trans ((dats m 0 c).arrAt_in (0 : Fin 2) rfl _)⟩)

end Cert.Kernel.P
end
-- ==== Proof.lean ====
/- The claim assembled. Both kernels' frames are the mesh run with the values dropped; the idealization rewrote nothing; each device's result block is its column block of the reference's result. -/
import proofs.«900495_g7700000000000496_dist_ag_gemm_m4096_k4096_n2048_f32_gelu_v7x_i4_1_alg».proof.Defs
import proofs.«900495_g7700000000000496_dist_ag_gemm_m4096_k4096_n2048_f32_gelu_v7x_i4_1_alg».proof.Proof.Gen.Kernel
import proofs.«900495_g7700000000000496_dist_ag_gemm_m4096_k4096_n2048_f32_gelu_v7x_i4_1_alg».proof.Proof.Gen.Kernel.Skeleton
import proofs.«900495_g7700000000000496_dist_ag_gemm_m4096_k4096_n2048_f32_gelu_v7x_i4_1_alg».proof.Proof.Gen.Kernel.Launch
import proofs.«900495_g7700000000000496_dist_ag_gemm_m4096_k4096_n2048_f32_gelu_v7x_i4_1_alg».proof.Proof.Gen.Kernel.Points
import proofs.«900495_g7700000000000496_dist_ag_gemm_m4096_k4096_n2048_f32_gelu_v7x_i4_1_alg».proof.Proof.Gen.Kernel.Frame
import proofs.«900495_g7700000000000496_dist_ag_gemm_m4096_k4096_n2048_f32_gelu_v7x_i4_1_alg».proof.Proof.Gen.KernelIdeal
import proofs.«900495_g7700000000000496_dist_ag_gemm_m4096_k4096_n2048_f32_gelu_v7x_i4_1_alg».proof.Proof.Gen.KernelIdeal.Skeleton
import proofs.«900495_g7700000000000496_dist_ag_gemm_m4096_k4096_n2048_f32_gelu_v7x_i4_1_alg».proof.Proof.Gen.KernelIdeal.Launch
import proofs.«900495_g7700000000000496_dist_ag_gemm_m4096_k4096_n2048_f32_gelu_v7x_i4_1_alg».proof.Proof.Gen.KernelIdeal.Points
import proofs.«900495_g7700000000000496_dist_ag_gemm_m4096_k4096_n2048_f32_gelu_v7x_i4_1_alg».proof.Proof.Gen.KernelIdeal.Frame
import proofs.«900495_g7700000000000496_dist_ag_gemm_m4096_k4096_n2048_f32_gelu_v7x_i4_1_alg».proof.Proof.Gen.ReferenceIdeal
import proofs.«900495_g7700000000000496_dist_ag_gemm_m4096_k4096_n2048_f32_gelu_v7x_i4_1_alg».proof.Proof.Gen.Pre_finite_inputs_Kernel
import proofs.«900495_g7700000000000496_dist_ag_gemm_m4096_k4096_n2048_f32_gelu_v7x_i4_1_alg».proof.Proof.Gen.Pre_finite_inputs_ReferenceIdeal
import proofs.«900495_g7700000000000496_dist_ag_gemm_m4096_k4096_n2048_f32_gelu_v7x_i4_1_alg».proof.Proof.RefValue
import proofs.«900495_g7700000000000496_dist_ag_gemm_m4096_k4096_n2048_f32_gelu_v7x_i4_1_alg».proof.Proof.KI.Body
import proofs.«900495_g7700000000000496_dist_ag_gemm_m4096_k4096_n2048_f32_gelu_v7x_i4_1_alg».proof.Proof.KI.Launch
import proofs.«900495_g7700000000000496_dist_ag_gemm_m4096_k4096_n2048_f32_gelu_v7x_i4_1_alg».proof.Proof.KI.Value
import proofs.«900495_g7700000000000496_dist_ag_gemm_m4096_k4096_n2048_f32_gelu_v7x_i4_1_alg».proof.Proof.K.Body
import proofs.«900495_g7700000000000496_dist_ag_gemm_m4096_k4096_n2048_f32_gelu_v7x_i4_1_alg».proof.Proof.K.Launch
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs_Kernel.Gen.facts := fun m g _ =>
  (θ_run (Cert.Kernel.defs (F := Bits)) _ _).mono (fun _ h c => ⟨(h c).2.1, (h c).2.2⟩)
    (Cert.Kernel.P.run_main_of (F := Bits) m g (Cert.Kernel.P.body_obligation (F := Bits) m))

theorem frame_ki : @Cert.frame_KernelIdeal Cert.KernelIdeal.Gen.facts Cert.Pre_finite_inputs_Kernel.Gen.facts := fun m g _ =>
  (θ_run (Cert.KernelIdeal.defs (F := Ideal)) _ _).mono (fun _ h c => ⟨(h c).2.1, (h c).2.2⟩)
    (Cert.KernelIdeal.P.run_main_of (F := Ideal) m g (Cert.KernelIdeal.P.body_obligation (F := Ideal) m))

theorem algebraic : @Cert.algebraic_KernelIdeal_ReferenceIdeal Cert.KernelIdeal.Gen.facts Cert.ReferenceIdeal.Gen.facts Cert.Pre_finite_inputs_Kernel.Gen.facts := by
  intro m g m' g' _ hagree
  refine ⟨Cert.Spec.G (m' (Cert.ReferenceIdeal.RefValue.loc0 Cert.ReferenceIdeal.main_arg0)) (m' (Cert.ReferenceIdeal.RefValue.loc0 Cert.ReferenceIdeal.main_arg1)), ?_, Cert.ReferenceIdeal.RefValue.run m' g'⟩
  exact (θ_run (Cert.KernelIdeal.defs (F := Ideal)) _ _).mono
    (fun _ h c => ⟨(h c).1.trans (Cert.KernelIdeal.P.outC_eq_block m _ _ (fun c => (hagree c).1) (fun c => (hagree c).2) c), (h c).2.1, (h c).2.2⟩)
    (Cert.KernelIdeal.P.run_main_of (F := Ideal) m g (Cert.KernelIdeal.P.body_obligation (F := Ideal) m))

theorem claim : Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    frame_k, frame_ki, Cert.ReferenceIdeal.RefValue.frame_ri, trivial, algebraic⟩

end Cert.Proof

end
